-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x3 : Shape := ⟨2, ![250000, 3]⟩
abbrev S250000 : Shape := ⟨1, ![250000]⟩
abbrev S3x64 : Shape := ⟨2, ![3, 64]⟩
abbrev S64x128 : Shape := ⟨2, ![64, 128]⟩
abbrev S128x1024 : Shape := ⟨2, ![128, 1024]⟩
abbrev S1024x512 : Shape := ⟨2, ![1024, 512]⟩
abbrev S512x256 : Shape := ⟨2, ![512, 256]⟩
abbrev S256x9 : Shape := ⟨2, ![256, 9]⟩
abbrev S9 : Shape := ⟨1, ![9]⟩
abbrev S_ : Shape := ⟨0, ![]⟩

class Facts : Prop where
  bcast_S_S250000x3 : S_.BroadcastsInDim S250000x3 (![] : Fin 0 → Fin S250000x3.rank)
  reducesTo_S250000x3_S_d0_1 : S250000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512x256 : S_.BroadcastsInDim S512x256 (![] : Fin 0 → Fin S512x256.rank)
  reducesTo_S512x256_S_d0_1 : S512x256.ReducesTo [0, 1] S_
  bcast_S_S256x9 : S_.BroadcastsInDim S256x9 (![] : Fin 0 → Fin S256x9.rank)
  reducesTo_S256x9_S_d0_1 : S256x9.ReducesTo [0, 1] S_
  bcast_S_S9 : S_.BroadcastsInDim S9 (![] : Fin 0 → Fin S9.rank)
  reducesTo_S9_S_d0 : S9.ReducesTo [0] S_
  bcast_S_S250000 : S_.BroadcastsInDim S250000 (![] : Fin 0 → Fin S250000.rank)
  reducesTo_S250000_S_d0 : S250000.ReducesTo [0] S_

variable [Facts]

def fn_part2 {F : FTy → Type} [FloatOps F] (main_arg1 : IVec S250000 32) (main_arg8 : FVec F S9 .f32) (main_v33 : IVec S_ 1) : IVec S_ 1 :=
  let main_v34 : FVec F S9 .f32 := Host.absf main_arg8
  let main_cst_12 : FVec F S_ .f32 := constant S_ .f32 0x7F800000#32
  let main_v35 : FVec F S9 .f32 := broadcastInDim S9 ![] bcast_S_S9 main_cst_12
  let main_v36 : IVec S9 1 := cmpf .olt main_v34 main_v35
  let main_c_13 : IVec S_ 1 := constantI S_ 1 1#1
  let main_v37 : IVec S_ 1 := (fun x v => Host.reduce IntOp.andi x v reducesTo_S9_S_d0 h_S_) main_v36 main_c_13
  let main_v38 : IVec S_ 1 := andi main_v33 main_v37
  let main_c_14 : IVec S_ 32 := constantI S_ 32 0#32
  let main_v39 : IVec S250000 32 := broadcastInDim S250000 ![] bcast_S_S250000 main_c_14
  let main_v40 : IVec S250000 1 := cmpi .sge main_arg1 main_v39
  let main_c_15 : IVec S_ 32 := constantI S_ 32 16#32
  let main_v41 : IVec S250000 32 := broadcastInDim S250000 ![] bcast_S_S250000 main_c_15
  let main_v42 : IVec S250000 1 := cmpi .slt main_arg1 main_v41
  let main_v43 : IVec S250000 1 := andi main_v40 main_v42
  let main_c_16 : IVec S_ 1 := constantI S_ 1 1#1
  let main_v44 : IVec S_ 1 := (fun x v => Host.reduce IntOp.andi x v reducesTo_S250000_S_d0 h_S_) main_v43 main_c_16
  let main_v45 : IVec S_ 1 := andi main_v38 main_v44
  main_v45

def fn_part1 {F : FTy → Type} [FloatOps F] (main_arg1 : IVec S250000 32) (main_arg5 : FVec F S1024x512 .f32) (main_arg6 : FVec F S512x256 .f32) (main_arg7 : FVec F S256x9 .f32) (main_arg8 : FVec F S9 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x9 .f32 := Host.absf main_arg7
  let main_cst_10 : FVec F S_ .f32 := constant S_ .f32 0x7F800000#32
  let main_v30 : FVec F S256x9 .f32 := broadcastInDim S256x9 ![] bcast_S_S256x9 main_cst_10
  let main_v31 : IVec S256x9 1 := cmpf .olt main_v29 main_v30
  let main_c_11 : IVec S_ 1 := constantI S_ 1 1#1
  let main_v32 : IVec S_ 1 := (fun x v => Host.reduce IntOp.andi x v reducesTo_S256x9_S_d0_1 h_S_) main_v31 main_c_11
  let main_v33 : IVec S_ 1 := andi main_v28 main_v32
  fn_part2 (F := F) main_arg1 main_arg8 main_v33

def fn {F : FTy → Type} [FloatOps F] (main_arg0 : FVec F S250000x3 .f32) (main_arg1 : IVec S250000 32) (main_arg2 : FVec F S3x64 .f32) (main_arg3 : FVec F S64x128 .f32) (main_arg4 : FVec F S128x1024 .f32) (main_arg5 : FVec F S1024x512 .f32) (main_arg6 : FVec F S512x256 .f32) (main_arg7 : FVec F S256x9 .f32) (main_arg8 : FVec F S9 .f32) : IVec S_ 1 :=
  let main_v0 : FVec F S250000x3 .f32 := Host.absf main_arg0
  let main_cst : FVec F S_ .f32 := constant S_ .f32 0x7F800000#32
  let main_v1 : FVec F S250000x3 .f32 := broadcastInDim S250000x3 ![] bcast_S_S250000x3 main_cst
  let main_v2 : IVec S250000x3 1 := cmpf .olt main_v0 main_v1
  let main_c : IVec S_ 1 := constantI S_ 1 1#1
  let main_v3 : IVec S_ 1 := (fun x v => Host.reduce IntOp.andi x v reducesTo_S250000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x1024 .f32 := Host.absf main_arg4
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg1 main_arg5 main_arg6 main_arg7 main_arg8 main_v13 main_v16
-- ==== Kernel.lean ====
abbrev S250000x3 : Shape := ⟨2, ![250000, 3]⟩
abbrev S250000 : Shape := ⟨1, ![250000]⟩
abbrev S3x64 : Shape := ⟨2, ![3, 64]⟩
abbrev S64x128 : Shape := ⟨2, ![64, 128]⟩
abbrev S128x1024 : Shape := ⟨2, ![128, 1024]⟩
abbrev S1024x512 : Shape := ⟨2, ![1024, 512]⟩
abbrev S512x256 : Shape := ⟨2, ![512, 256]⟩
abbrev S256x9 : Shape := ⟨2, ![256, 9]⟩
abbrev S9 : Shape := ⟨1, ![9]⟩
abbrev S250000x1 : Shape := ⟨2, ![250000, 1]⟩
abbrev S250000x64 : Shape := ⟨2, ![250000, 64]⟩
abbrev S2x16x64 : Shape := ⟨3, ![2, 16, 64]⟩
abbrev S2x16x1 : Shape := ⟨3, ![2, 16, 1]⟩
abbrev S1000x3 : Shape := ⟨2, ![1000, 3]⟩
abbrev S1000x1 : Shape := ⟨2, ![1000, 1]⟩
abbrev S1000x64 : Shape := ⟨2, ![1000, 64]⟩
abbrev S1x16x64 : Shape := ⟨3, ![1, 16, 64]⟩
abbrev S1x16x1 : Shape := ⟨3, ![1, 16, 1]⟩
abbrev S16x64 : Shape := ⟨2, ![16, 64]⟩
abbrev S16x1 : Shape := ⟨2, ![16, 1]⟩
abbrev S1000x16 : Shape := ⟨2, ![1000, 16]⟩
abbrev S_ : Shape := ⟨0, ![]⟩
abbrev S250000x128 : Shape := ⟨2, ![250000, 128]⟩
abbrev S2x16x128 : Shape := ⟨3, ![2, 16, 128]⟩
abbrev S1000x128 : Shape := ⟨2, ![1000, 128]⟩
abbrev S1x16x128 : Shape := ⟨3, ![1, 16, 128]⟩
abbrev S16x128 : Shape := ⟨2, ![16, 128]⟩
abbrev S2x16x1024 : Shape := ⟨3, ![2, 16, 1024]⟩
abbrev S1x16x1024 : Shape := ⟨3, ![1, 16, 1024]⟩
abbrev S16x1024 : Shape := ⟨2, ![16, 1024]⟩
abbrev S1000x1024 : Shape := ⟨2, ![1000, 1024]⟩
abbrev S16x512 : Shape := ⟨2, ![16, 512]⟩
abbrev S16x256 : Shape := ⟨2, ![16, 256]⟩
abbrev S16x9 : Shape := ⟨2, ![16, 9]⟩
abbrev S1x9 : Shape := ⟨2, ![1, 9]⟩
abbrev S3x3 : Shape := ⟨2, ![3, 3]⟩
abbrev S250000x9 : Shape := ⟨2, ![250000, 9]⟩
abbrev S1000x9 : Shape := ⟨2, ![1000, 9]⟩

abbrev nBuf : Space → Nat
  | .hbm => 120
  | .vmem => 71
  | .smem => 0
  | _ => 0

abbrev bufTy : (tb : Table) → Fin (tcTables nBuf tb) → BufTy
  | .hbm, ⟨0, _⟩ => ⟨S250000x3, .f32⟩
  | .hbm, ⟨1, _⟩ => ⟨S250000, .i32⟩
  | .hbm, ⟨2, _⟩ => ⟨S3x64, .f32⟩
  | .hbm, ⟨3, _⟩ => ⟨S64x128, .f32⟩
  | .hbm, ⟨4, _⟩ => ⟨S128x1024, .f32⟩
  | .hbm, ⟨5, _⟩ => ⟨S1024x512, .f32⟩
  | .hbm, ⟨6, _⟩ => ⟨S512x256, .f32⟩
  | .hbm, ⟨7, _⟩ => ⟨S256x9, .f32⟩
  | .hbm, ⟨8, _⟩ => ⟨S9, .f32⟩
  | .hbm, ⟨9, _⟩ => ⟨S250000x1, .i32⟩
  | .hbm, ⟨10, _⟩ => ⟨S250000x64, .f32⟩
  | .hbm, ⟨11, _⟩ => ⟨S2x16x64, .f32⟩
  | .hbm, ⟨12, _⟩ => ⟨S2x16x64, .f32⟩
  | .hbm, ⟨13, _⟩ => ⟨S2x16x1, .f32⟩
  | .hbm, ⟨14, _⟩ => ⟨S_, .f32⟩
  | .hbm, ⟨15, _⟩ => ⟨S16x1, .f32⟩
  | .hbm, ⟨16, _⟩ => ⟨S_, .f32⟩
  | .hbm, ⟨17, _⟩ => ⟨S16x64, .f32⟩
  | .hbm, ⟨18, _⟩ => ⟨S_, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S_, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S250000x64, .f32⟩
  | .hbm, ⟨34, _⟩ => ⟨S250000x128, .f32⟩
  | .hbm, ⟨35, _⟩ => ⟨S2x16x128, .f32⟩
  | .hbm, ⟨36, _⟩ => ⟨S2x16x128, .f32⟩
  | .hbm, ⟨37, _⟩ => ⟨S_, .f32⟩
  | .hbm, ⟨38, _⟩ => ⟨S16x128, .f32⟩
  | .hbm, ⟨39, _⟩ => ⟨S_, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S16x128, .f32⟩
  | .hbm, ⟨44, _⟩ => ⟨S16x128, .f32⟩
  | .hbm, ⟨45, _⟩ => ⟨S16x128, .f32⟩
  | .hbm, ⟨46, _⟩ => ⟨S16x128, .f32⟩
  | .hbm, ⟨47, _⟩ => ⟨S_, .f32⟩
  | .hbm, ⟨48, _⟩ => ⟨S16x128, .f32⟩
  | .hbm, ⟨49, _⟩ => ⟨S16x128, .f32⟩
  | .hbm, ⟨50, _⟩ => ⟨S_, .f32⟩
  | .hbm, ⟨51, _⟩ => ⟨S16x128, .f32⟩
  | .hbm, ⟨52, _⟩ => ⟨S16x128, .f32⟩
  | .hbm, ⟨53, _⟩ => ⟨S16x128, .f32⟩
  | .hbm, ⟨54, _⟩ => ⟨S250000x128, .f32⟩
  | .hbm, ⟨55, _⟩ => ⟨S2x16x1024, .f32⟩
  | .hbm, ⟨56, _⟩ => ⟨S2x16x1024, .f32⟩
  | .hbm, ⟨57, _⟩ => ⟨S_, .f32⟩
  | .hbm, ⟨58, _⟩ => ⟨S16x1024, .f32⟩
  | .hbm, ⟨59, _⟩ => ⟨S_, .f32⟩
  | .hbm, ⟨60, _⟩ => ⟨S16x1024, .f32⟩
  | .hbm, ⟨61, _⟩ => ⟨S16x1024, .f32⟩
  | .hbm, ⟨62, _⟩ => ⟨S16x1024, .f32⟩
  | .hbm, ⟨63, _⟩ => ⟨S16x1024, .f32⟩
  | .hbm, ⟨64, _⟩ => ⟨S16x1024, .f32⟩
  | .hbm, ⟨65, _⟩ => ⟨S16x1024, .f32⟩
  | .hbm, ⟨66, _⟩ => ⟨S16x1024, .f32⟩
  | .hbm, ⟨67, _⟩ => ⟨S_, .f32⟩
  | .hbm, ⟨68, _⟩ => ⟨S16x1024, .f32⟩
  | .hbm, ⟨69, _⟩ => ⟨S16x1024, .f32⟩
  | .hbm, ⟨70, _⟩ => ⟨S_, .f32⟩
  | .hbm, ⟨71, _⟩ => ⟨S16x1024, .f32⟩
  | .hbm, ⟨72, _⟩ => ⟨S16x1024, .f32⟩
  | .hbm, ⟨73, _⟩ => ⟨S16x1024, .f32⟩
  | .hbm, ⟨74, _⟩ => ⟨S2x16x1024, .f32⟩
  | .hbm, ⟨75, _⟩ => ⟨S_, .f32⟩
  | .hbm, ⟨76, _⟩ => ⟨S16x1024, .f32⟩
  | .hbm, ⟨77, _⟩ => ⟨S16x1024, .f32⟩
  | .hbm, ⟨78, _⟩ => ⟨S16x1024, .f32⟩
  | .hbm, ⟨79, _⟩ => ⟨S16x512, .f32⟩
  | .hbm, ⟨80, _⟩ => ⟨S16x512, .f32⟩
  | .hbm, ⟨81, _⟩ => ⟨S16x512, .f32⟩
  | .hbm, ⟨82, _⟩ => ⟨S16x512, .f32⟩
  | .hbm, ⟨83, _⟩ => ⟨S16x512, .f32⟩
  | .hbm, ⟨84, _⟩ => ⟨S_, .f32⟩
  | .hbm, ⟨85, _⟩ => ⟨S16x512, .f32⟩
  | .hbm, ⟨86, _⟩ => ⟨S16x512, .f32⟩
  | .hbm, ⟨87, _⟩ => ⟨S16x512, .f32⟩
  | .hbm, ⟨88, _⟩ => ⟨S16x512, .f32⟩
  | .hbm, ⟨89, _⟩ => ⟨S_, .f32⟩
  | .hbm, ⟨90, _⟩ => ⟨S16x512, .f32⟩
  | .hbm, ⟨91, _⟩ => ⟨S16x512, .f32⟩
  | .hbm, ⟨92, _⟩ => ⟨S16x256, .f32⟩
  | .hbm, ⟨93, _⟩ => ⟨S16x256, .f32⟩
  | .hbm, ⟨94, _⟩ => ⟨S16x256, .f32⟩
  | .hbm, ⟨95, _⟩ => ⟨S16x256, .f32⟩
  | .hbm, ⟨96, _⟩ => ⟨S16x256, .f32⟩
  | .hbm, ⟨97, _⟩ => ⟨S_, .f32⟩
  | .hbm, ⟨98, _⟩ => ⟨S16x256, .f32⟩
  | .hbm, ⟨99, _⟩ => ⟨S16x256, .f32⟩
  | .hbm, ⟨100, _⟩ => ⟨S16x256, .f32⟩
  | .hbm, ⟨101, _⟩ => ⟨S16x256, .f32⟩
  | .hbm, ⟨102, _⟩ => ⟨S_, .f32⟩
  | .hbm, ⟨103, _⟩ => ⟨S16x256, .f32⟩
  | .hbm, ⟨104, _⟩ => ⟨S16x256, .f32⟩
  | .hbm, ⟨105, _⟩ => ⟨S16x9, .f32⟩
  | .hbm, ⟨106, _⟩ => ⟨S1x9, .f32⟩
  | .hbm, ⟨107, _⟩ => ⟨S16x9, .f32⟩
  | .hbm, ⟨108, _⟩ => ⟨S16x9, .f32⟩
  | .hbm, ⟨109, _⟩ => ⟨S3x3, .i32⟩
  | .hbm, ⟨110, _⟩ => ⟨S3x3, .i32⟩
  | .hbm, ⟨111, _⟩ => ⟨S_, .i32⟩
  | .hbm, ⟨112, _⟩ => ⟨S3x3, .i32⟩
  | .hbm, ⟨113, _⟩ => ⟨S3x3, .i32⟩
  | .hbm, ⟨114, _⟩ => ⟨S3x3, .i1⟩
  | .hbm, ⟨115, _⟩ => ⟨S3x3, .f32⟩
  | .hbm, ⟨116, _⟩ => ⟨S1x9, .f32⟩
  | .hbm, ⟨117, _⟩ => ⟨S16x9, .f32⟩
  | .hbm, ⟨118, _⟩ => ⟨S16x9, .f32⟩
  | .hbm, ⟨119, _⟩ => ⟨S250000x9, .f32⟩
  | .local _ .vmem, ⟨0, _⟩ => ⟨S1000x3, .f32⟩
  | .local _ .vmem, ⟨1, _⟩ => ⟨S1000x3, .f32⟩
  | .local _ .vmem, ⟨2, _⟩ => ⟨S3x64, .f32⟩
  | .local _ .vmem, ⟨3, _⟩ => ⟨S1000x1, .i32⟩
  | .local _ .vmem, ⟨4, _⟩ => ⟨S1000x1, .i32⟩
  | .local _ .vmem, ⟨5, _⟩ => ⟨S1000x64, .f32⟩
  | .local _ .vmem, ⟨6, _⟩ => ⟨S1000x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | .local _ .vmem, ⟨10, _⟩ => ⟨S1x16x64, .f32⟩
  | .local _ .vmem, ⟨11, _⟩ => ⟨S1x16x1, .f32⟩
  | .local _ .vmem, ⟨12, _⟩ => ⟨S1x16x1, .f32⟩
  | .local _ .vmem, ⟨13, _⟩ => ⟨S16x64, .f32⟩
  | .local _ .vmem, ⟨14, _⟩ => ⟨S16x64, .f32⟩
  | .local _ .vmem, ⟨15, _⟩ => ⟨S16x1, .f32⟩
  | .local _ .vmem, ⟨16, _⟩ => ⟨S1000x64, .f32⟩
  | .local _ .vmem, ⟨17, _⟩ => ⟨S1000x64, .f32⟩
  | .local _ .vmem, ⟨18, _⟩ => ⟨S1000x1, .i32⟩
  | .local _ .vmem, ⟨19, _⟩ => ⟨S1000x1, .i32⟩
  | .local _ .vmem, ⟨20, _⟩ => ⟨S16x64, .f32⟩
  | .local _ .vmem, ⟨21, _⟩ => ⟨S16x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S64x128, .f32⟩
  | .local _ .vmem, ⟨27, _⟩ => ⟨S1000x1, .i32⟩
  | .local _ .vmem, ⟨28, _⟩ => ⟨S1000x1, .i32⟩
  | .local _ .vmem, ⟨29, _⟩ => ⟨S1000x128, .f32⟩
  | .local _ .vmem, ⟨30, _⟩ => ⟨S1000x128, .f32⟩
  | .local _ .vmem, ⟨31, _⟩ => ⟨S1x16x128, .f32⟩
  | .local _ .vmem, ⟨32, _⟩ => ⟨S1x16x128, .f32⟩
  | .local _ .vmem, ⟨33, _⟩ => ⟨S1x16x128, .f32⟩
  | .local _ .vmem, ⟨34, _⟩ => ⟨S1x16x128, .f32⟩
  | .local _ .vmem, ⟨35, _⟩ => ⟨S16x128, .f32⟩
  | .local _ .vmem, ⟨36, _⟩ => ⟨S16x128, .f32⟩
  | .local _ .vmem, ⟨37, _⟩ => ⟨S1000x128, .f32⟩
  | .local _ .vmem, ⟨38, _⟩ => ⟨S1000x128, .f32⟩
  | .local _ .vmem, ⟨39, _⟩ => ⟨S1000x1, .i32⟩
  | .local _ .vmem, ⟨40, _⟩ => ⟨S1000x1, .i32⟩
  | .local _ .vmem, ⟨41, _⟩ => ⟨S16x128, .f32⟩
  | .local _ .vmem, ⟨42, _⟩ => ⟨S16x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S128x1024, .f32⟩
  | .local _ .vmem, ⟨48, _⟩ => ⟨S1000x1, .i32⟩
  | .local _ .vmem, ⟨49, _⟩ => ⟨S1000x1, .i32⟩
  | .local _ .vmem, ⟨50, _⟩ => ⟨S1x16x1024, .f32⟩
  | .local _ .vmem, ⟨51, _⟩ => ⟨S1x16x1024, .f32⟩
  | .local _ .vmem, ⟨52, _⟩ => ⟨S1x16x1024, .f32⟩
  | .local _ .vmem, ⟨53, _⟩ => ⟨S1x16x1024, .f32⟩
  | .local _ .vmem, ⟨54, _⟩ => ⟨S16x1024, .f32⟩
  | .local _ .vmem, ⟨55, _⟩ => ⟨S16x1024, .f32⟩
  | .local _ .vmem, ⟨56, _⟩ => ⟨S1000x128, .f32⟩
  | .local _ .vmem, ⟨57, _⟩ => ⟨S1000x128, .f32⟩
  | .local _ .vmem, ⟨58, _⟩ => ⟨S128x1024, .f32⟩
  | .local _ .vmem, ⟨59, _⟩ => ⟨S1000x1, .i32⟩
  | .local _ .vmem, ⟨60, _⟩ => ⟨S1000x1, .i32⟩
  | .local _ .vmem, ⟨61, _⟩ => ⟨S16x1024, .f32⟩
  | .local _ .vmem, ⟨62, _⟩ => ⟨S16x1024, .f32⟩
  | .local _ .vmem, ⟨63, _⟩ => ⟨S1x16x1024, .f32⟩
  | .local _ .vmem, ⟨64, _⟩ => ⟨S1x16x1024, .f32⟩
  | .local _ .vmem, ⟨65, _⟩ => ⟨S16x1024, .f32⟩
  | .local _ .vmem, ⟨66, _⟩ => ⟨S1000x1, .i32⟩
  | .local _ .vmem, ⟨67, _⟩ => ⟨S1000x1, .i32⟩
  | .local _ .vmem, ⟨68, _⟩ => ⟨S16x9, .f32⟩
  | .local _ .vmem, ⟨69, _⟩ => ⟨S1000x9, .f32⟩
  | .local _ .vmem, ⟨70, _⟩ => ⟨S1000x9, .f32⟩
  | _, _ => ⟨S250000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_cst_4 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_cst_8 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call0_cst : Ref sig .tc := ⟨.hbm, 89, rfl⟩
abbrev main_call0_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call1_cst : Ref sig .tc := ⟨.hbm, 102, rfl⟩
abbrev main_call1_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_scratch0 : Ref sig .tc := ⟨.vmem, 35, rfl⟩
abbrev cc2_scratch1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg4_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg5_1 : Ref sig .tc := ⟨.vmem, 64, rfl⟩
abbrev cc5_scratch0 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg2_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc4_sem4_0 : DmaSem sig := 47
abbrev cc4_sem4_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem2_1 : DmaSem sig := 53
abbrev cc5_sem3_0 : DmaSem sig := 54
abbrev cc5_sem4_0 : DmaSem sig := 55
abbrev cc5_sem5_0 : DmaSem sig := 56
abbrev cc5_sem5_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem2_1 : DmaSem sig := 62

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 125], ![false, false]⟩

def cc2_transform_0 (i : grid2.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x16x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x16x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 125], ![false, false]⟩

def cc4_transform_0 (i : grid4.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x16x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x16x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 125], ![false, false]⟩

def cc5_transform_0 (i : grid5.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S128x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S16x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S16x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1x16x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨1, ![250], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x9 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x9 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  shapeCasts_S250000_S250000x1 : S250000.ShapeCasts S250000x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1000x3_S1000x3_0_0 : ∀ a, (![0, 0] : Fin 2 → Nat) a + S1000x3.size a ≤ S1000x3.size a
  h_S1000x3 : 0 < S1000x3.numel
  inb_S3x64_S3x64_0_0 : ∀ a, (![0, 0] : Fin 2 → Nat) a + S3x64.size a ≤ S3x64.size a
  h_S3x64 : 0 < S3x64.numel
  inb_S1000x64_S1000x64_0_0 : ∀ a, (![0, 0] : Fin 2 → Nat) a + S1000x64.size a ≤ S1000x64.size a
  h_S1000x64 : 0 < S1000x64.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x16_d1_w32 : S1000x16.Iotas .tc 32 [1]
  broadcasts_S1000x1_S1000x16 : S1000x1.Broadcasts S1000x16
  natLt_1_32 : 1 < 32
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  shapeCasts_S16x64_S1x16x64 : S16x64.ShapeCasts S1x16x64
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  reducesTo_S2x16x1_S16x1_d0 : S2x16x1.ReducesTo [0] S16x1
  h_S_ : 0 < S_.numel
  reducesTo_S2x16x64_S16x64_d0 : S2x16x64.ReducesTo [0] S16x64
  bcast_S16x1_S16x64_0_1 : S16x1.BroadcastsInDim S16x64 (![0, 1] : Fin 2 → Fin S16x64.rank)
  bcast_S_S16x64 : S_.BroadcastsInDim S16x64 (![] : Fin 0 → Fin S16x64.rank)
  shapeCasts_S1000x64_S1000x64 : S1000x64.ShapeCasts S1000x64
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S64x128_S64x128_0_0 : ∀ a, (![0, 0] : Fin 2 → Nat) a + S64x128.size a ≤ S64x128.size a
  h_S64x128 : 0 < S64x128.numel
  inb_S1000x128_S1000x128_0_0 : ∀ a, (![0, 0] : Fin 2 → Nat) a + S1000x128.size a ≤ S1000x128.size a
  h_S1000x128 : 0 < S1000x128.numel
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16x128_d0 : S2x16x128.ReducesTo [0] S16x128
  bcast_S16x1_S16x128_0_1 : S16x1.BroadcastsInDim S16x128 (![0, 1] : Fin 2 → Fin S16x128.rank)
  bcast_S_S16x128 : S_.BroadcastsInDim S16x128 (![] : Fin 0 → Fin S16x128.rank)
  shapeCasts_S1000x128_S1000x128 : S1000x128.ShapeCasts S1000x128
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S128x1024_S128x1024_0_0 : ∀ a, (![0, 0] : Fin 2 → Nat) a + S128x1024.size a ≤ S128x1024.size a
  h_S128x1024 : 0 < S128x1024.numel
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  reducesTo_S2x16x1024_S16x1024_d0 : S2x16x1024.ReducesTo [0] S16x1024
  bcast_S16x1_S16x1024_0_1 : S16x1.BroadcastsInDim S16x1024 (![0, 1] : Fin 2 → Fin S16x1024.rank)
  bcast_S_S16x1024 : S_.BroadcastsInDim S16x1024 (![] : Fin 0 → Fin S16x1024.rank)
  bcast_S_S16x512 : S_.BroadcastsInDim S16x512 (![] : Fin 0 → Fin S16x512.rank)
  bcast_S_S16x256 : S_.BroadcastsInDim S16x256 (![] : Fin 0 → Fin S16x256.rank)
  bcast_S9_S1x9_1 : S9.BroadcastsInDim S1x9 (![1] : Fin 1 → Fin S1x9.rank)
  bcast_S1x9_S16x9_0_1 : S1x9.BroadcastsInDim S16x9 (![0, 1] : Fin 2 → Fin S16x9.rank)
  bcast_S_S3x3 : S_.BroadcastsInDim S3x3 (![] : Fin 0 → Fin S3x3.rank)
  shapeCasts_S3x3_S1x9 : S3x3.ShapeCasts S1x9
  inb_S16x9_S16x9_0_0 : ∀ a, (![0, 0] : Fin 2 → Nat) a + S16x9.size a ≤ S16x9.size a
  h_S16x9 : 0 < S16x9.numel
  shapeCasts_S16x9_S16x9 : S16x9.ShapeCasts S16x9
  inb_S1000x9_S1000x9_0_0 : ∀ a, (![0, 0] : Fin 2 → Nat) a + S1000x9.size a ≤ S1000x9.size a
  h_S1000x9 : 0 < S1000x9.numel
  dot_S1000x3_S3x64_S1000x64_1_0_0_1_n_n_wf : DotDims.WF S1000x3 S3x64 S1000x64 [1] [0] [0] [1] [] []
  dot_S1000x16_S1000x64_S16x64_0_0_1_1_n_n_wf : DotDims.WF S1000x16 S1000x64 S16x64 [0] [0] [1] [1] [] []
  dot_S1000x16_S1000x1_S16x1_0_0_1_1_n_n_wf : DotDims.WF S1000x16 S1000x1 S16x1 [0] [0] [1] [1] [] []
  dot_S1000x16_S16x64_S1000x64_1_0_0_1_n_n_wf : DotDims.WF S1000x16 S16x64 S1000x64 [1] [0] [0] [1] [] []
  dot_S1000x64_S64x128_S1000x128_1_0_0_1_n_n_wf : DotDims.WF S1000x64 S64x128 S1000x128 [1] [0] [0] [1] [] []
  dot_S1000x16_S1000x128_S16x128_0_0_1_1_n_n_wf : DotDims.WF S1000x16 S1000x128 S16x128 [0] [0] [1] [1] [] []
  dot_S1000x16_S16x128_S1000x128_1_0_0_1_n_n_wf : DotDims.WF S1000x16 S16x128 S1000x128 [1] [0] [0] [1] [] []
  dot_S1000x128_S128x1024_S1000x1024_1_0_0_1_n_n_wf : DotDims.WF S1000x128 S128x1024 S1000x1024 [1] [0] [0] [1] [] []
  dot_S1000x16_S1000x1024_S16x1024_0_0_1_1_n_n_wf : DotDims.WF S1000x16 S1000x1024 S16x1024 [0] [0] [1] [1] [] []
  dot_S1000x16_S16x1024_S1000x1024_1_0_0_1_n_n_wf : DotDims.WF S1000x16 S16x1024 S1000x1024 [1] [0] [0] [1] [] []
  dot_S16x1024_S1024x512_S16x512_1_0_0_1_n_n_wf : DotDims.WF S16x1024 S1024x512 S16x512 [1] [0] [0] [1] [] []
  dot_S16x512_S512x256_S16x256_1_0_0_1_n_n_wf : DotDims.WF S16x512 S512x256 S16x256 [1] [0] [0] [1] [] []
  dot_S16x256_S256x9_S16x9_1_0_0_1_n_n_wf : DotDims.WF S16x256 S256x9 S16x9 [1] [0] [0] [1] [] []
  dot_S1000x16_S16x9_S1000x9_1_0_0_1_n_n_wf : DotDims.WF S1000x16 S16x9 S1000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S250000x3.size a
  hwx0_0 : ∀ i : grid0.Coords, EltTy.bits .f32 = 32 ∨ (Rect.block (s := S250000x3) S1000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S250000x1.size a
  hwx0_2 : ∀ i : grid0.Coords, EltTy.bits .i32 = 32 ∨ (Rect.block (s := S250000x1) S1000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S250000x64.size a
  hwx0_3 : ∀ i : grid0.Coords, EltTy.bits .f32 = 32 ∨ (Rect.block (s := S250000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x64.size a ≤ S2x16x64.size a
  hwx0_4 : ∀ i : grid0.Coords, EltTy.bits .f32 = 32 ∨ (Rect.block (s := S2x16x64) S1x16x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64.size a ≤ S2x16x64.size a
  hwx0_5 : ∀ i : grid0.Coords, EltTy.bits .f32 = 32 ∨ (Rect.block (s := S2x16x64) S1x16x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1.size a ≤ S2x16x1.size a
  hwx0_6 : ∀ i : grid0.Coords, EltTy.bits .f32 = 32 ∨ (Rect.block (s := S2x16x1) S1x16x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S250000x64.size a
  hwx1_0 : ∀ i : grid1.Coords, EltTy.bits .f32 = 32 ∨ (Rect.block (s := S250000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S250000x1.size a
  hwx1_1 : ∀ i : grid1.Coords, EltTy.bits .i32 = 32 ∨ (Rect.block (s := S250000x1) S1000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x64.size a ≤ S250000x64.size a
  hwx1_4 : ∀ i : grid1.Coords, EltTy.bits .f32 = 32 ∨ (Rect.block (s := S250000x64) S1000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S250000x64.size a
  hwx2_0 : ∀ i : grid2.Coords, EltTy.bits .f32 = 32 ∨ (Rect.block (s := S250000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S250000x1.size a
  hwx2_2 : ∀ i : grid2.Coords, EltTy.bits .i32 = 32 ∨ (Rect.block (s := S250000x1) S1000x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S250000x128.size a
  hwx2_3 : ∀ i : grid2.Coords, EltTy.bits .f32 = 32 ∨ (Rect.block (s := S250000x128) S1000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x16x128.size a ≤ S2x16x128.size a
  hwx2_4 : ∀ i : grid2.Coords, EltTy.bits .f32 = 32 ∨ (Rect.block (s := S2x16x128) S1x16x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x16x128.size a ≤ S2x16x128.size a
  hwx2_5 : ∀ i : grid2.Coords, EltTy.bits .f32 = 32 ∨ (Rect.block (s := S2x16x128) S1x16x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S250000x128.size a
  hwx3_0 : ∀ i : grid3.Coords, EltTy.bits .f32 = 32 ∨ (Rect.block (s := S250000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S250000x1.size a
  hwx3_1 : ∀ i : grid3.Coords, EltTy.bits .i32 = 32 ∨ (Rect.block (s := S250000x1) S1000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x128.size a ≤ S16x128.size a
  hwx3_2 : ∀ i : grid3.Coords, EltTy.bits .f32 = 32 ∨ (Rect.block (s := S16x128) S16x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x128.size a ≤ S16x128.size a
  hwx3_3 : ∀ i : grid3.Coords, EltTy.bits .f32 = 32 ∨ (Rect.block (s := S16x128) S16x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S250000x128.size a
  hwx3_4 : ∀ i : grid3.Coords, EltTy.bits .f32 = 32 ∨ (Rect.block (s := S250000x128) S1000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S250000x128.size a
  hwx4_0 : ∀ i : grid4.Coords, EltTy.bits .f32 = 32 ∨ (Rect.block (s := S250000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1024.size a ≤ S128x1024.size a
  hwx4_1 : ∀ i : grid4.Coords, EltTy.bits .f32 = 32 ∨ (Rect.block (s := S128x1024) S128x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1.size a ≤ S250000x1.size a
  hwx4_2 : ∀ i : grid4.Coords, EltTy.bits .i32 = 32 ∨ (Rect.block (s := S250000x1) S1000x1.size (cc4_transform_2 i) (hinb4_2 i)).WholeWords (EltTy.packing .i32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x16x1024.size a ≤ S2x16x1024.size a
  hwx4_3 : ∀ i : grid4.Coords, EltTy.bits .f32 = 32 ∨ (Rect.block (s := S2x16x1024) S1x16x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x16x1024.size a ≤ S2x16x1024.size a
  hwx4_4 : ∀ i : grid4.Coords, EltTy.bits .f32 = 32 ∨ (Rect.block (s := S2x16x1024) S1x16x1024.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S250000x128.size a
  hwx5_0 : ∀ i : grid5.Coords, EltTy.bits .f32 = 32 ∨ (Rect.block (s := S250000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1024.size a ≤ S128x1024.size a
  hwx5_1 : ∀ i : grid5.Coords, EltTy.bits .f32 = 32 ∨ (Rect.block (s := S128x1024) S128x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S250000x1.size a
  hwx5_2 : ∀ i : grid5.Coords, EltTy.bits .i32 = 32 ∨ (Rect.block (s := S250000x1) S1000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x1024.size a ≤ S16x1024.size a
  hwx5_3 : ∀ i : grid5.Coords, EltTy.bits .f32 = 32 ∨ (Rect.block (s := S16x1024) S16x1024.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16x1024.size a ≤ S16x1024.size a
  hwx5_4 : ∀ i : grid5.Coords, EltTy.bits .f32 = 32 ∨ (Rect.block (s := S16x1024) S16x1024.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x16x1024.size a ≤ S2x16x1024.size a
  hwx5_5 : ∀ i : grid5.Coords, EltTy.bits .f32 = 32 ∨ (Rect.block (s := S2x16x1024) S1x16x1024.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x1.size a ≤ S250000x1.size a
  hwx6_0 : ∀ i : grid6.Coords, EltTy.bits .i32 = 32 ∨ (Rect.block (s := S250000x1) S1000x1.size (cc6_transform_0 i) (hinb6_0 i)).WholeWords (EltTy.packing .i32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x9.size a ≤ S16x9.size a
  hwx6_1 : ∀ i : grid6.Coords, EltTy.bits .f32 = 32 ∨ (Rect.block (s := S16x9) S16x9.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x9.size a ≤ S250000x9.size a
  hwx6_2 : ∀ i : grid6.Coords, EltTy.bits .f32 = 32 ∨ (Rect.block (s := S250000x9) S1000x9.size (cc6_transform_2 i) (hinb6_2 i)).WholeWords (EltTy.packing .f32)

variable [Facts₀]

def dot_S1000x3_S3x64_S1000x64_1_0_0_1_n_n : DotDims S1000x3 S3x64 S1000x64 where
  lhsContracting := [1]
  rhsContracting := [0]
  lhsNonContracting := [0]
  rhsNonContracting := [1]
  lhsBatch := []
  rhsBatch := []
  wf := dot_S1000x3_S3x64_S1000x64_1_0_0_1_n_n_wf
def dot_S1000x16_S1000x64_S16x64_0_0_1_1_n_n : DotDims S1000x16 S1000x64 S16x64 where
  lhsContracting := [0]
  rhsContracting := [0]
  lhsNonContracting := [1]
  rhsNonContracting := [1]
  lhsBatch := []
  rhsBatch := []
  wf := dot_S1000x16_S1000x64_S16x64_0_0_1_1_n_n_wf
def dot_S1000x16_S1000x1_S16x1_0_0_1_1_n_n : DotDims S1000x16 S1000x1 S16x1 where
  lhsContracting := [0]
  rhsContracting := [0]
  lhsNonContracting := [1]
  rhsNonContracting := [1]
  lhsBatch := []
  rhsBatch := []
  wf := dot_S1000x16_S1000x1_S16x1_0_0_1_1_n_n_wf
def dot_S1000x16_S16x64_S1000x64_1_0_0_1_n_n : DotDims S1000x16 S16x64 S1000x64 where
  lhsContracting := [1]
  rhsContracting := [0]
  lhsNonContracting := [0]
  rhsNonContracting := [1]
  lhsBatch := []
  rhsBatch := []
  wf := dot_S1000x16_S16x64_S1000x64_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x16_S1000x128_S16x128_0_0_1_1_n_n : DotDims S1000x16 S1000x128 S16x128 where
  lhsContracting := [0]
  rhsContracting := [0]
  lhsNonContracting := [1]
  rhsNonContracting := [1]
  lhsBatch := []
  rhsBatch := []
  wf := dot_S1000x16_S1000x128_S16x128_0_0_1_1_n_n_wf
def dot_S1000x16_S16x128_S1000x128_1_0_0_1_n_n : DotDims S1000x16 S16x128 S1000x128 where
  lhsContracting := [1]
  rhsContracting := [0]
  lhsNonContracting := [0]
  rhsNonContracting := [1]
  lhsBatch := []
  rhsBatch := []
  wf := dot_S1000x16_S16x128_S1000x128_1_0_0_1_n_n_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf
def dot_S1000x16_S1000x1024_S16x1024_0_0_1_1_n_n : DotDims S1000x16 S1000x1024 S16x1024 where
  lhsContracting := [0]
  rhsContracting := [0]
  lhsNonContracting := [1]
  rhsNonContracting := [1]
  lhsBatch := []
  rhsBatch := []
  wf := dot_S1000x16_S1000x1024_S16x1024_0_0_1_1_n_n_wf
def dot_S1000x16_S16x1024_S1000x1024_1_0_0_1_n_n : DotDims S1000x16 S16x1024 S1000x1024 where
  lhsContracting := [1]
  rhsContracting := [0]
  lhsNonContracting := [0]
  rhsNonContracting := [1]
  lhsBatch := []
  rhsBatch := []
  wf := dot_S1000x16_S16x1024_S1000x1024_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S16x256_S256x9_S16x9_1_0_0_1_n_n : DotDims S16x256 S256x9 S16x9 where
  lhsContracting := [1]
  rhsContracting := [0]
  lhsNonContracting := [0]
  rhsNonContracting := [1]
  lhsBatch := []
  rhsBatch := []
  wf := dot_S16x256_S256x9_S16x9_1_0_0_1_n_n_wf
def dot_S1000x16_S16x9_S1000x9_1_0_0_1_n_n : DotDims S1000x16 S16x9 S1000x9 where
  lhsContracting := [1]
  rhsContracting := [0]
  lhsNonContracting := [0]
  rhsNonContracting := [1]
  lhsBatch := []
  rhsBatch := []
  wf := dot_S1000x16_S16x9_S1000x9_1_0_0_1_n_n_wf

abbrev win0_0 : Pipeline.Window sig grid0 :=
  Pipeline.Window.ofSpec (Memref.whole main_arg0) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x16x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x16x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S1x16x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v16) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17_0) S1000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17_1) S1x16x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17_2) S1x16x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v17_0) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S16x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S16x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v31) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32_0) S1x16x1024.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v32_1) S1x16x1024.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v31) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S128x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v0) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v36) S16x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S16x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v46) S1x16x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v0) S1000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S16x9.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1000x9.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S250000x3 : Shape := ⟨2, ![250000, 3]⟩
abbrev S250000 : Shape := ⟨1, ![250000]⟩
abbrev S3x64 : Shape := ⟨2, ![3, 64]⟩
abbrev S64x128 : Shape := ⟨2, ![64, 128]⟩
abbrev S128x1024 : Shape := ⟨2, ![128, 1024]⟩
abbrev S1024x512 : Shape := ⟨2, ![1024, 512]⟩
abbrev S512x256 : Shape := ⟨2, ![512, 256]⟩
abbrev S256x9 : Shape := ⟨2, ![256, 9]⟩
abbrev S9 : Shape := ⟨1, ![9]⟩
abbrev S250000x64 : Shape := ⟨2, ![250000, 64]⟩
abbrev S_ : Shape := ⟨0, ![]⟩
abbrev S250000x1 : Shape := ⟨2, ![250000, 1]⟩
abbrev S16x1 : Shape := ⟨2, ![16, 1]⟩
abbrev S16x64 : Shape := ⟨2, ![16, 64]⟩
abbrev S250000x128 : Shape := ⟨2, ![250000, 128]⟩
abbrev S16x128 : Shape := ⟨2, ![16, 128]⟩
abbrev S250000x1024 : Shape := ⟨2, ![250000, 1024]⟩
abbrev S16x1024 : Shape := ⟨2, ![16, 1024]⟩
abbrev S16x512 : Shape := ⟨2, ![16, 512]⟩
abbrev S16x256 : Shape := ⟨2, ![16, 256]⟩
abbrev S16x9 : Shape := ⟨2, ![16, 9]⟩
abbrev S1x9 : Shape := ⟨2, ![1, 9]⟩
abbrev S3x3 : Shape := ⟨2, ![3, 3]⟩
abbrev S250000x9 : Shape := ⟨2, ![250000, 9]⟩

abbrev nBuf : Space → Nat
  | .hbm => 217
  | .vmem => 0
  | .smem => 0
  | _ => 0

abbrev hbmTy0_0 (i : Nat) : BufTy := match i % 128 with
  | 0 => ⟨S250000x3, .f32⟩
  | 1 => ⟨S250000, .i32⟩
  | 2 => ⟨S3x64, .f32⟩
  | 3 => ⟨S64x128, .f32⟩
  | 4 => ⟨S128x1024, .f32⟩
  | 5 => ⟨S1024x512, .f32⟩
  | 6 => ⟨S512x256, .f32⟩
  | 7 => ⟨S256x9, .f32⟩
  | 8 => ⟨S9, .f32⟩
  | 9 => ⟨S250000x64, .f32⟩
  | 10 => ⟨S_, .f32⟩
  | 11 => ⟨S250000x1, .f32⟩
  | 12 => ⟨S_, .f32⟩
  | 13 => ⟨S16x1, .f32⟩
  | 14 => ⟨S250000x1, .i32⟩
  | 15 => ⟨S16x1, .f32⟩
  | 16 => ⟨S_, .f32⟩
  | 17 => ⟨S16x64, .f32⟩
  | 18 => ⟨S250000x1, .i32⟩
  | 19 => ⟨S16x64, .f32⟩
  | 20 => ⟨S16x64, .f32⟩
  | 21 => ⟨S16x64, .f32⟩
  | 22 => ⟨S250000x64, .f32⟩
  | 23 => ⟨S_, .f32⟩
  | 24 => ⟨S16x64, .f32⟩
  | 25 => ⟨S250000x1, .i32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S_, .i32⟩
  | 32 => ⟨S250000, .i32⟩
  | 33 => ⟨S250000, .i1⟩
  | 34 => ⟨S_, .i32⟩
  | 35 => ⟨S250000, .i32⟩
  | 36 => ⟨S250000, .i32⟩
  | 37 => ⟨S250000, .i32⟩
  | 38 => ⟨S250000x1, .i32⟩
  | 39 => ⟨S250000x64, .f32⟩
  | 40 => ⟨S250000x64, .f32⟩
  | 41 => ⟨S_, .i32⟩
  | 42 => ⟨S250000, .i32⟩
  | 43 => ⟨S250000, .i1⟩
  | 44 => ⟨S_, .i32⟩
  | 45 => ⟨S250000, .i32⟩
  | 46 => ⟨S250000, .i32⟩
  | 47 => ⟨S250000, .i32⟩
  | 48 => ⟨S250000x1, .i32⟩
  | 49 => ⟨S250000x64, .f32⟩
  | 50 => ⟨S_, .f32⟩
  | 51 => ⟨S250000x64, .f32⟩
  | 52 => ⟨S250000x64, .f32⟩
  | 53 => ⟨S250000x64, .f32⟩
  | 54 => ⟨S250000x64, .f32⟩
  | 55 => ⟨S_, .f32⟩
  | 56 => ⟨S250000x64, .f32⟩
  | 57 => ⟨S250000x64, .f32⟩
  | 58 => ⟨S250000x128, .f32⟩
  | 59 => ⟨S_, .f32⟩
  | 60 => ⟨S250000x1, .f32⟩
  | 61 => ⟨S_, .f32⟩
  | 62 => ⟨S16x1, .f32⟩
  | 63 => ⟨S250000x1, .i32⟩
  | 64 => ⟨S16x1, .f32⟩
  | 65 => ⟨S_, .f32⟩
  | 66 => ⟨S16x128, .f32⟩
  | 67 => ⟨S250000x1, .i32⟩
  | 68 => ⟨S16x128, .f32⟩
  | 69 => ⟨S16x128, .f32⟩
  | 70 => ⟨S16x128, .f32⟩
  | 71 => ⟨S250000x128, .f32⟩
  | 72 => ⟨S_, .f32⟩
  | 73 => ⟨S16x128, .f32⟩
  | 74 => ⟨S250000x1, .i32⟩
  | 75 => ⟨S16x128, .f32⟩
  | 76 => ⟨S16x128, .f32⟩
  | 77 => ⟨S16x128, .f32⟩
  | 78 => ⟨S16x128, .f32⟩
  | 79 => ⟨S16x128, .f32⟩
  | 80 => ⟨S_, .i32⟩
  | 81 => ⟨S250000, .i32⟩
  | 82 => ⟨S250000, .i1⟩
  | 83 => ⟨S_, .i32⟩
  | 84 => ⟨S250000, .i32⟩
  | 85 => ⟨S250000, .i32⟩
  | 86 => ⟨S250000, .i32⟩
  | 87 => ⟨S250000x1, .i32⟩
  | 88 => ⟨S250000x128, .f32⟩
  | 89 => ⟨S250000x128, .f32⟩
  | 90 => ⟨S_, .i32⟩
  | 91 => ⟨S250000, .i32⟩
  | 92 => ⟨S250000, .i1⟩
  | 93 => ⟨S_, .i32⟩
  | 94 => ⟨S250000, .i32⟩
  | 95 => ⟨S250000, .i32⟩
  | 96 => ⟨S250000, .i32⟩
  | 97 => ⟨S250000x1, .i32⟩
  | 98 => ⟨S250000x128, .f32⟩
  | 99 => ⟨S_, .f32⟩
  | 100 => ⟨S250000x128, .f32⟩
  | 101 => ⟨S250000x128, .f32⟩
  | 102 => ⟨S250000x128, .f32⟩
  | 103 => ⟨S250000x128, .f32⟩
  | 104 => ⟨S_, .f32⟩
  | 105 => ⟨S250000x128, .f32⟩
  | 106 => ⟨S250000x128, .f32⟩
  | 107 => ⟨S250000x1024, .f32⟩
  | 108 => ⟨S_, .f32⟩
  | 109 => ⟨S250000x1, .f32⟩
  | 110 => ⟨S_, .f32⟩
  | 111 => ⟨S16x1, .f32⟩
  | 112 => ⟨S250000x1, .i32⟩
  | 113 => ⟨S16x1, .f32⟩
  | 114 => ⟨S_, .f32⟩
  | 115 => ⟨S16x1024, .f32⟩
  | 116 => ⟨S250000x1, .i32⟩
  | 117 => ⟨S16x1024, .f32⟩
  | 118 => ⟨S16x1024, .f32⟩
  | 119 => ⟨S16x1024, .f32⟩
  | 120 => ⟨S250000x1024, .f32⟩
  | 121 => ⟨S_, .f32⟩
  | 122 => ⟨S16x1024, .f32⟩
  | 123 => ⟨S250000x1, .i32⟩
  | 124 => ⟨S16x1024, .f32⟩
  | 125 => ⟨S16x1024, .f32⟩
  | 126 => ⟨S16x1024, .f32⟩
  | 127 => ⟨S16x1024, .f32⟩
  | _ => ⟨S250000x3, .f32⟩

abbrev hbmTy0_1 (i : Nat) : BufTy := match i % 128 with
  | 0 => ⟨S16x1024, .f32⟩
  | 1 => ⟨S_, .i32⟩
  | 2 => ⟨S250000, .i32⟩
  | 3 => ⟨S250000, .i1⟩
  | 4 => ⟨S_, .i32⟩
  | 5 => ⟨S250000, .i32⟩
  | 6 => ⟨S250000, .i32⟩
  | 7 => ⟨S250000, .i32⟩
  | 8 => ⟨S250000x1, .i32⟩
  | 9 => ⟨S250000x1024, .f32⟩
  | 10 => ⟨S250000x1024, .f32⟩
  | 11 => ⟨S_, .i32⟩
  | 12 => ⟨S250000, .i32⟩
  | 13 => ⟨S250000, .i1⟩
  | 14 => ⟨S_, .i32⟩
  | 15 => ⟨S250000, .i32⟩
  | 16 => ⟨S250000, .i32⟩
  | 17 => ⟨S250000, .i32⟩
  | 18 => ⟨S250000x1, .i32⟩
  | 19 => ⟨S250000x1024, .f32⟩
  | 20 => ⟨S_, .f32⟩
  | 21 => ⟨S250000x1024, .f32⟩
  | 22 => ⟨S250000x1024, .f32⟩
  | 23 => ⟨S250000x1024, .f32⟩
  | 24 => ⟨S250000x1024, .f32⟩
  | 25 => ⟨S_, .f32⟩
  | 26 => ⟨S250000x1024, .f32⟩
  | 27 => ⟨S250000x1024, .f32⟩
  | 28 => ⟨S_, .f32⟩
  | 29 => ⟨S250000x1, .f32⟩
  | 30 => ⟨S_, .f32⟩
  | 31 => ⟨S16x1, .f32⟩
  | 32 => ⟨S250000x1, .i32⟩
  | 33 => ⟨S16x1, .f32⟩
  | 34 => ⟨S_, .f32⟩
  | 35 => ⟨S16x1024, .f32⟩
  | 36 => ⟨S250000x1, .i32⟩
  | 37 => ⟨S16x1024, .f32⟩
  | 38 => ⟨S16x1024, .f32⟩
  | 39 => ⟨S16x1024, .f32⟩
  | 40 => ⟨S16x512, .f32⟩
  | 41 => ⟨S16x512, .f32⟩
  | 42 => ⟨S16x512, .f32⟩
  | 43 => ⟨S16x512, .f32⟩
  | 44 => ⟨S16x512, .f32⟩
  | 45 => ⟨S_, .f32⟩
  | 46 => ⟨S16x512, .f32⟩
  | 47 => ⟨S16x512, .f32⟩
  | 48 => ⟨S16x512, .f32⟩
  | 49 => ⟨S16x512, .f32⟩
  | 50 => ⟨S_, .f32⟩
  | 51 => ⟨S16x512, .f32⟩
  | 52 => ⟨S16x512, .f32⟩
  | 53 => ⟨S16x256, .f32⟩
  | 54 => ⟨S16x256, .f32⟩
  | 55 => ⟨S16x256, .f32⟩
  | 56 => ⟨S16x256, .f32⟩
  | 57 => ⟨S16x256, .f32⟩
  | 58 => ⟨S_, .f32⟩
  | 59 => ⟨S16x256, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S16x9, .f32⟩
  | 67 => ⟨S1x9, .f32⟩
  | 68 => ⟨S16x9, .f32⟩
  | 69 => ⟨S16x9, .f32⟩
  | 70 => ⟨S3x3, .i32⟩
  | 71 => ⟨S3x3, .i32⟩
  | 72 => ⟨S_, .i32⟩
  | 73 => ⟨S3x3, .i32⟩
  | 74 => ⟨S3x3, .i32⟩
  | 75 => ⟨S3x3, .i1⟩
  | 76 => ⟨S3x3, .f32⟩
  | 77 => ⟨S1x9, .f32⟩
  | 78 => ⟨S16x9, .f32⟩
  | 79 => ⟨S16x9, .f32⟩
  | 80 => ⟨S_, .i32⟩
  | 81 => ⟨S250000, .i32⟩
  | 82 => ⟨S250000, .i1⟩
  | 83 => ⟨S_, .i32⟩
  | 84 => ⟨S250000, .i32⟩
  | 85 => ⟨S250000, .i32⟩
  | 86 => ⟨S250000, .i32⟩
  | 87 => ⟨S250000x1, .i32⟩
  | 88 => ⟨S250000x9, .f32⟩
  | _ => ⟨S250000x3, .f32⟩

abbrev hbmTy (i : Nat) : BufTy := match i / 128 with
  | 0 => hbmTy0_0 i
  | 1 => hbmTy0_1 i
  | _ => ⟨S250000x3, .f32⟩

abbrev bufTy : (tb : Table) → Fin (tcTables nBuf tb) → BufTy
  | .hbm, ⟨i, _⟩ => hbmTy i
  | _, _ => ⟨S250000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call1_cst : Ref sig .tc := ⟨.hbm, 104, rfl⟩
abbrev main_call1_v0 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_20 : Ref sig .tc := ⟨.hbm, 129, rfl⟩
abbrev main_v94 : Ref sig .tc := ⟨.hbm, 130, rfl⟩
abbrev main_v95 : Ref sig .tc := ⟨.hbm, 131, rfl⟩
abbrev main_c_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call2_cst : Ref sig .tc := ⟨.hbm, 153, rfl⟩
abbrev main_call2_v0 : Ref sig .tc := ⟨.hbm, 154, rfl⟩
abbrev main_v113 : Ref sig .tc := ⟨.hbm, 155, rfl⟩
abbrev main_cst_25 : Ref sig .tc := ⟨.hbm, 156, rfl⟩
abbrev main_v114 : Ref sig .tc := ⟨.hbm, 157, rfl⟩
abbrev main_cst_26 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_27 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_28 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call3_cst : Ref sig .tc := ⟨.hbm, 178, rfl⟩
abbrev main_call3_v0 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_29 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_call4_cst : Ref sig .tc := ⟨.hbm, 191, rfl⟩
abbrev main_call4_v0 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_c_30 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_c_31 : Ref sig .tc := ⟨.hbm, 208, rfl⟩
abbrev main_v156 : Ref sig .tc := ⟨.hbm, 209, rfl⟩
abbrev main_v157 : Ref sig .tc := ⟨.hbm, 210, rfl⟩
abbrev main_c_32 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩

abbrev nD : Nat := 1
abbrev τ : Topo := Topo.v7x

variable {F : FTy → Type} [FloatOps F]

class Facts₀ : Prop where
  bcast_S_S250000x1 : S_.BroadcastsInDim S250000x1 (![] : Fin 0 → Fin S250000x1.rank)
  bcast_S_S16x1 : S_.BroadcastsInDim S16x1 (![] : Fin 0 → Fin S16x1.rank)
  bcast_S250000_S250000x1_0 : S250000.BroadcastsInDim S250000x1 (![0] : Fin 1 → Fin S250000x1.rank)
  bcast_S_S16x64 : S_.BroadcastsInDim S16x64 (![] : Fin 0 → Fin S16x64.rank)
  bcast_S16x1_S16x64_0_1 : S16x1.BroadcastsInDim S16x64 (![0, 1] : Fin 2 → Fin S16x64.rank)
  bcast_S_S250000 : S_.BroadcastsInDim S250000 (![] : Fin 0 → Fin S250000.rank)
  bcast_S_S250000x64 : S_.BroadcastsInDim S250000x64 (![] : Fin 0 → Fin S250000x64.rank)
  bcast_S_S16x128 : S_.BroadcastsInDim S16x128 (![] : Fin 0 → Fin S16x128.rank)
  bcast_S16x1_S16x128_0_1 : S16x1.BroadcastsInDim S16x128 (![0, 1] : Fin 2 → Fin S16x128.rank)
  bcast_S_S250000x128 : S_.BroadcastsInDim S250000x128 (![] : Fin 0 → Fin S250000x128.rank)
  bcast_S_S16x1024 : S_.BroadcastsInDim S16x1024 (![] : Fin 0 → Fin S16x1024.rank)
  bcast_S16x1_S16x1024_0_1 : S16x1.BroadcastsInDim S16x1024 (![0, 1] : Fin 2 → Fin S16x1024.rank)
  bcast_S_S250000x1024 : S_.BroadcastsInDim S250000x1024 (![] : Fin 0 → Fin S250000x1024.rank)
  bcast_S_S16x512 : S_.BroadcastsInDim S16x512 (![] : Fin 0 → Fin S16x512.rank)
  bcast_S_S16x256 : S_.BroadcastsInDim S16x256 (![] : Fin 0 → Fin S16x256.rank)
  bcast_S9_S1x9_1 : S9.BroadcastsInDim S1x9 (![1] : Fin 1 → Fin S1x9.rank)
  bcast_S1x9_S16x9_0_1 : S1x9.BroadcastsInDim S16x9 (![0, 1] : Fin 2 → Fin S16x9.rank)
  bcast_S_S3x3 : S_.BroadcastsInDim S3x3 (![] : Fin 0 → Fin S3x3.rank)
  shapeCasts_S3x3_S1x9 : S3x3.ShapeCasts S1x9
  dot_S250000x3_S3x64_S250000x64_1_0_0_1_n_n_wf : DotDims.WF S250000x3 S3x64 S250000x64 [1] [0] [0] [1] [] []
  scatter_S16x1_S250000x1_S250000x1_1_0_0_1_wf : ScatterDims.WF S16x1 S250000x1 S250000x1 [1] [0] [0] 1
  scatter_S16x64_S250000x1_S250000x64_1_0_0_1_wf : ScatterDims.WF S16x64 S250000x1 S250000x64 [1] [0] [0] 1
  gather_S16x64_S250000x1_S250000x64_1_0_n_n_0_1_164_wf : GatherDims.WF S16x64 S250000x1 S250000x64 [1] [0] [] [0] [] 1 ![1, 64]
  dot_S250000x64_S64x128_S250000x128_1_0_0_1_n_n_wf : DotDims.WF S250000x64 S64x128 S250000x128 [1] [0] [0] [1] [] []
  scatter_S16x128_S250000x1_S250000x128_1_0_0_1_wf : ScatterDims.WF S16x128 S250000x1 S250000x128 [1] [0] [0] 1
  gather_S16x128_S250000x1_S250000x128_1_0_n_n_0_1_1128_wf : GatherDims.WF S16x128 S250000x1 S250000x128 [1] [0] [] [0] [] 1 ![1, 128]
  dot_S250000x128_S128x1024_S250000x1024_1_0_0_1_n_n_wf : DotDims.WF S250000x128 S128x1024 S250000x1024 [1] [0] [0] [1] [] []
  scatter_S16x1024_S250000x1_S250000x1024_1_0_0_1_wf : ScatterDims.WF S16x1024 S250000x1 S250000x1024 [1] [0] [0] 1
  gather_S16x1024_S250000x1_S250000x1024_1_0_n_n_0_1_11024_wf : GatherDims.WF S16x1024 S250000x1 S250000x1024 [1] [0] [] [0] [] 1 ![1, 1024]
  dot_S16x1024_S1024x512_S16x512_1_0_0_1_n_n_wf : DotDims.WF S16x1024 S1024x512 S16x512 [1] [0] [0] [1] [] []
  dot_S16x512_S512x256_S16x256_1_0_0_1_n_n_wf : DotDims.WF S16x512 S512x256 S16x256 [1] [0] [0] [1] [] []
  dot_S16x256_S256x9_S16x9_1_0_0_1_n_n_wf : DotDims.WF S16x256 S256x9 S16x9 [1] [0] [0] [1] [] []
  gather_S16x9_S250000x1_S250000x9_1_0_n_n_0_1_19_wf : GatherDims.WF S16x9 S250000x1 S250000x9 [1] [0] [] [0] [] 1 ![1, 9]

variable [Facts₀]

def dot_S250000x3_S3x64_S250000x64_1_0_0_1_n_n : DotDims S250000x3 S3x64 S250000x64 where
  lhsContracting := [1]
  rhsContracting := [0]
  lhsNonContracting := [0]
  rhsNonContracting := [1]
  lhsBatch := []
  rhsBatch := []
  wf := dot_S250000x3_S3x64_S250000x64_1_0_0_1_n_n_wf
def scatter_S16x1_S250000x1_S250000x1_1_0_0_1 : ScatterDims S16x1 S250000x1 S250000x1 where
  updateWindowDims := [1]
  insertedWindowDims := [0]
  scatterDimsToOperandDims := [0]
  indexVectorDim := 1
  wf := scatter_S16x1_S250000x1_S250000x1_1_0_0_1_wf
def scatter_S16x64_S250000x1_S250000x64_1_0_0_1 : ScatterDims S16x64 S250000x1 S250000x64 where
  updateWindowDims := [1]
  insertedWindowDims := [0]
  scatterDimsToOperandDims := [0]
  indexVectorDim := 1
  wf := scatter_S16x64_S250000x1_S250000x64_1_0_0_1_wf
def gather_S16x64_S250000x1_S250000x64_1_0_n_n_0_1_164 : GatherDims S16x64 S250000x1 S250000x64 where
  offsetDims := [1]
  collapsedSliceDims := [0]
  operandBatchingDims := []
  startIndicesBatchingDims := []
  startIndexMap := [0]
  indexVectorDim := 1
  sliceSizes := ![1, 64]
  wf := gather_S16x64_S250000x1_S250000x64_1_0_n_n_0_1_164_wf
def dot_S250000x64_S64x128_S250000x128_1_0_0_1_n_n : DotDims S250000x64 S64x128 S250000x128 where
  lhsContracting := [1]
  rhsContracting := [0]
  lhsNonContracting := [0]
  rhsNonContracting := [1]
  lhsBatch := []
  rhsBatch := []
  wf := dot_S250000x64_S64x128_S250000x128_1_0_0_1_n_n_wf
def scatter_S16x128_S250000x1_S250000x128_1_0_0_1 : ScatterDims S16x128 S250000x1 S250000x128 where
  updateWindowDims := [1]
  insertedWindowDims := [0]
  scatterDimsToOperandDims := [0]
  indexVectorDim := 1
  wf := scatter_S16x128_S250000x1_S250000x128_1_0_0_1_wf
def gather_S16x128_S250000x1_S250000x128_1_0_n_n_0_1_1128 : GatherDims S16x128 S250000x1 S250000x128 where
  offsetDims := [1]
  collapsedSliceDims := [0]
  operandBatchingDims := []
  startIndicesBatchingDims := []
  startIndexMap := [0]
  indexVectorDim := 1
  sliceSizes := ![1, 128]
  wf := gather_S16x128_S250000x1_S250000x128_1_0_n_n_0_1_1128_wf
def dot_S250000x128_S128x1024_S250000x1024_1_0_0_1_n_n : DotDims S250000x128 S128x1024 S250000x1024 where
  lhsContracting := [1]
  rhsContracting := [0]
  lhsNonContracting := [0]
  rhsNonContracting := [1]
  lhsBatch := []
  rhsBatch := []
  wf := dot_S250000x128_S128x1024_S250000x1024_1_0_0_1_n_n_wf
def scatter_S16x1024_S250000x1_S250000x1024_1_0_0_1 : ScatterDims S16x1024 S250000x1 S250000x1024 where
  updateWindowDims := [1]
  insertedWindowDims := [0]
  scatterDimsToOperandDims := [0]
  indexVectorDim := 1
  wf := scatter_S16x1024_S250000x1_S250000x1024_1_0_0_1_wf
def gather_S16x1024_S250000x1_S250000x1024_1_0_n_n_0_1_11024 : GatherDims S16x1024 S250000x1 S250000x1024 where
  offsetDims := [1]
  collapsedSliceDims := [0]
  operandBatchingDims := []
  startIndicesBatchingDims := []
  startIndexMap := [0]
  indexVectorDim := 1
  sliceSizes := ![1, 1024]
  wf := gather_S16x1024_S250000x1_S250000x1024_1_0_n_n_0_1_11024_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S16x256_S256x9_S16x9_1_0_0_1_n_n : DotDims S16x256 S256x9 S16x9 where
  lhsContracting := [1]
  rhsContracting := [0]
  lhsNonContracting := [0]
  rhsNonContracting := [1]
  lhsBatch := []
  rhsBatch := []
  wf := dot_S16x256_S256x9_S16x9_1_0_0_1_n_n_wf
def gather_S16x9_S250000x1_S250000x9_1_0_n_n_0_1_19 : GatherDims S16x9 S250000x1 S250000x9 where
  offsetDims := [1]
  collapsedSliceDims := [0]
  operandBatchingDims := []
  startIndicesBatchingDims := []
  startIndexMap := [0]
  indexVectorDim := 1
  sliceSizes := ![1, 9]
  wf := gather_S16x9_S250000x1_S250000x9_1_0_n_n_0_1_19_wf

class Facts : Prop extends Facts₀ where

variable [Facts]
-- ==== Proof.K.Reg0.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

theorem hz2 : ∀ a, (![0, 0] : Fin 2 → Nat) a = 0 := by decide

section
variable {κ : Kind} {sp : Space} {S : Shape} {e : EltTy} (v : View sig κ sp S e) {off : Fin S.rank → Nat} (hz : ∀ a, off a = 0)
  (inb : ∀ a, off a + S.size a ≤ S.size a) (w : S.Idx → Elt F e) (L : List (View.Piece (Elt F) S e))
include hz

theorem stored_whole (f : v.ty.Contents (Elt F)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero (funext hz) inb y⟩)).trans
    (View.canon_cons_unit_zero (funext hz) inb w L)

theorem loaded_whole (f : v.ty.Contents (Elt F)) : v.readAt (Elt F) (Rect.unit off S.size inb).toLoadRect f = v.read (Elt F) f :=
  View.ld_unit_zero (funext hz) inb _

theorem reloaded_whole : v.readCov ((⟨Rect.unit off S.size inb, w⟩ : View.Piece (Elt F) S e) :: L) (Rect.unit off S.size inb).toLoadRect = w := by
  obtain rfl := funext hz
  rw [View.readCov_eq_canon_ld _ _ _ (fun y => ⟨_, List.mem_cons_self, View.mem_set_unit_zero rfl inb y⟩),
    View.canon_cons_unit_zero rfl, View.ld_unit_zero rfl]

end

abbrev addSum (x : Vec F S1000x3 .f32) (w : Vec F S3x64 .f32) (ids : Vec F S1000x1 .i32) (acc : Vec F S16x64 .f32) : Vec F S16x64 .f32 :=
  k0_pay10 x w ids acc

abbrev addSq (x : Vec F S1000x3 .f32) (w : Vec F S3x64 .f32) (ids : Vec F S1000x1 .i32) (acc : Vec F S16x64 .f32) : Vec F S16x64 .f32 :=
  k0_pay11 x w ids acc

abbrev addCnt (ids : Vec F S1000x1 .i32) (acc : Vec F S16x1 .f32) : Vec F S16x1 .f32 :=
  k0_pay1 (k0_pay9 ids) (k0_pay12 (F := F)) acc (constant S16x1 .f32 0x00000000#32)

abbrev resets (i : grid0.Coords) : Prop :=
  (Scalar.cmpi .ne (Scalar.extui (Scalar.cmpi .eq (BitVec.ofNat 32 (i 1).val) 0#32)) 0#32) = 1#1

theorem resets_iff : ∀ t : Fin cfg0.N, resets (grid0.coords t) ↔ t.val % 125 = 0 :=
  (by decide +kernel : ∀ t : Fin grid0.N, resets (grid0.coords t) ↔ t.val % 125 = 0)

set_option maxHeartbeats 4000000 in
theorem kernel_body {c : Dev nD} {E : Set ℕ} {i arg2 harg2 arg3 harg3 arg4 harg4 arg5 harg5 arg6 harg6 arg7 harg7 arg8 harg8 arg9 harg9 arg10 harg10 arg11 harg11}
    {x0 x1 x2 d3 d4 d5 d6 s0 s1 s2 a0 a1 a2} {K : PUnit → sProp 𝕄}
    (ha : resets i ∧ a0 = k0_pay5 ∧ a1 = k0_pay6 ∧ a2 = k0_pay7 ∨ ¬resets i ∧ a0 = s0 ∧ a1 = s1 ∧ a2 = s2) :
    iprop(owns c arg2 fullShare x0 ∗ owns c arg3 fullShare x1 ∗ owns c arg4 fullShare x2
        ∗ owns c arg5 fullShare d3 ∗ owns c arg6 fullShare d4
        ∗ owns c arg7 fullShare d5 ∗ owns c arg8 fullShare d6
        ∗ owns c arg9 fullShare s0 ∗ owns c arg10 fullShare s1 ∗ owns c arg11 fullShare s2
        ∗ (iprop(owns c arg2 fullShare x0 ∗ owns c arg3 fullShare x1 ∗ owns c arg4 fullShare x2
            ∗ owns c arg5 fullShare (k0_pay8 x0 x1)
            ∗ owns c arg6 fullShare (k0_pay2 (addSum x0 x1 x2 a0))
            ∗ owns c arg7 fullShare (k0_pay3 (addSq x0 x1 x2 a1))
            ∗ owns c arg8 fullShare (k0_pay4 (addCnt x2 a2))
            ∗ owns c arg9 fullShare (addSum x0 x1 x2 a0)
            ∗ owns c arg10 fullShare (addSq x0 x1 x2 a1)
            ∗ owns c arg11 fullShare (addCnt x2 a2)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10 arg11 harg11) K := by
  obtain ⟨hc, rfl, rfl, rfl⟩ | ⟨hc, rfl, rfl, rfl⟩ := ha
  all_goals
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, -, H3⟩, ⟨%f4, -, H4⟩, ⟨%f5, -, H5⟩, ⟨%f6, -, H6⟩, ⟨%f7, %hf7, H7⟩, ⟨%f8, %hf8, H8⟩, ⟨%f9, %hf9, H9⟩, Hk⟩
    subst hf0 hf1 hf2 hf7 hf8 hf9
    sl_exec (disch := first | exact hc)
    sl_step
    iapply Hk
    isplitl [H0]; rotate_left
    isplitl [H1]; rotate_left
    isplitl [H2]; rotate_left
    isplitl [H3]; rotate_left
    isplitl [H4]; rotate_left
    isplitl [H5]; rotate_left
    isplitl [H6]; rotate_left
    isplitl [H7]; rotate_left
    isplitl [H8]; rotate_left
    all_goals
      iexists _; isplitr; swap; · iassumption
      ipureintro; sl_unfold_run_names
      first | with_reducible rfl | (
        refine (stored_whole _ (by decide) _ _ _ _).trans ?_
        simp only [loaded_whole arg2.view hz2, loaded_whole arg3.view hz2, loaded_whole arg4.view hz2, loaded_whole arg9.view hz2, loaded_whole arg10.view hz2,
          loaded_whole arg11.view hz2, reloaded_whole arg9.view hz2, reloaded_whole arg10.view hz2, reloaded_whole arg11.view hz2])

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xAt (c : Dev nD) (t : Fin cfg0.N) : Vec F S1000x3 .f32 := iblk V c 0 t
abbrev wAt (c : Dev nD) (t : Fin cfg0.N) : Vec F S3x64 .f32 := iblk V c 1 t
abbrev idAt (c : Dev nD) (t : Fin cfg0.N) : Vec F S1000x1 .i32 := iblk V c 2 t

def carried {α : Type} (z : α) (step : (n : ℕ) → n < cfg0.N → α → α) : (n : ℕ) → n < cfg0.N → α
  | 0, h => step 0 h z
  | n + 1, h => step (n + 1) h (if (n + 1) % 125 = 0 then z else carried z step n (Nat.lt_of_succ_lt h))

theorem carried_of_mod {α : Type} (z : α) (step : (n : ℕ) → n < cfg0.N → α → α) :
    ∀ (n : ℕ) (h : n < cfg0.N), n % 125 = 0 → carried z step n h = step n h z
  | 0, _, _ => rfl
  | n + 1, h, hm => congrArg (step (n + 1) h) (if_pos hm)

theorem carried_succ {α : Type} (z : α) (step : (n : ℕ) → n < cfg0.N → α → α) (n : ℕ) (h : n + 1 < cfg0.N)
    (hm : ¬(n + 1) % 125 = 0) : carried z step (n + 1) h = step (n + 1) h (carried z step n (Nat.lt_of_succ_lt h)) :=
  congrArg (step (n + 1) h) (if_neg hm)

theorem carried_pos {α : Type} (z : α) (step : (n : ℕ) → n < cfg0.N → α → α) :
    ∀ (n : ℕ) (h : n < cfg0.N), ¬n % 125 = 0 →
      carried z step n h = step n h (carried z step (n - 1) (Nat.lt_of_le_of_lt (Nat.sub_le _ _) h))
  | 0, _, hm => absurd (Nat.zero_mod _) hm
  | n + 1, h, hm => carried_succ z step n h hm

def sumAt (c : Dev nD) (n : ℕ) (h : n < cfg0.N) : Vec F S16x64 .f32 :=
  carried (k0_pay5 (F := F)) (fun n h acc => addSum (xAt V c ⟨n, h⟩) (wAt V c ⟨n, h⟩) (idAt V c ⟨n, h⟩) acc) n h
def sqAt (c : Dev nD) (n : ℕ) (h : n < cfg0.N) : Vec F S16x64 .f32 :=
  carried (k0_pay6 (F := F)) (fun n h acc => addSq (xAt V c ⟨n, h⟩) (wAt V c ⟨n, h⟩) (idAt V c ⟨n, h⟩) acc) n h
def cntAt (c : Dev nD) (n : ℕ) (h : n < cfg0.N) : Vec F S16x1 .f32 :=
  carried (k0_pay7 (F := F)) (fun n h acc => addCnt (idAt V c ⟨n, h⟩) acc) n h

abbrev scS : Memref sig .tc .vmem S16x64 .f32 := Memref.whole cc0_scratch0
abbrev scQ : Memref sig .tc .vmem S16x64 .f32 := Memref.whole cc0_scratch1
abbrev scC : Memref sig .tc .vmem S16x1 .f32 := Memref.whole cc0_scratch2

def tot (c : Dev nD) (s0 s1 : Vec F S16x64 .f32) (s2 : Vec F S16x1 .f32) : sProp 𝕄 :=
  iprop(((owns c scS fullShare s0 ∗ owns c scQ fullShare s1 ∗ owns c scC fullShare s2)
      ∗ Pipeline.scopedRestBut spec0 c [cc0_scratch0, cc0_scratch1, cc0_scratch2]) ∗ (∃ r, prngReg c r))

def inv (c : Dev nD) : (n : ℕ) → n ≤ cfg0.N → sProp 𝕄
  | 0, _ => Pipeline.ΦA spec0 c
  | n + 1, hn => tot c (sumAt V c n hn) (sqAt V c n hn) (cntAt V c n hn)

theorem inv_zero (c : Dev nD) (n : ℕ) (h : n ≤ cfg0.N) (hz : n = 0) : inv V c n h = Pipeline.ΦA spec0 c := by
  subst hz; rfl

theorem inv_pos (c : Dev nD) : ∀ (n : ℕ) (h : n ≤ cfg0.N) (hz : n ≠ 0),
    inv V c n h = tot c (sumAt V c (n - 1) (by omega)) (sqAt V c (n - 1) (by omega)) (cntAt V c (n - 1) (by omega))
  | 0, _, hz => absurd rfl hz
  | n + 1, _, _ => rfl

theorem PhiA_eq (c : Dev nD) :
    (Pipeline.ΦA spec0 c : sProp 𝕄)
      = iprop(iprop(iprop((∃ d, owns c scS fullShare d) ∗ (∃ d, owns c scQ fullShare d)
            ∗ (∃ d, owns c scC fullShare d))
          ∗ Pipeline.scopedRestBut spec0 c [cc0_scratch0, cc0_scratch1, cc0_scratch2]) ∗ (∃ r, prngReg c r)) := by
  unfold Pipeline.ΦA; rw [scopedRest0_split]; simp only [scS, scQ, scC, owns_whole]; try rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay8 (xAt V c t) (wAt V c t)
    | ⟨4, _⟩ => k0_pay2 (sumAt V c t.val t.isLt)
    | ⟨5, _⟩ => k0_pay3 (sqAt V c t.val t.isLt)
    | ⟨6, _⟩ => k0_pay4 (cntAt V c t.val t.isLt)
  Φ t := inv V c t.val (Nat.le_of_lt_succ t.isLt)
  q _ := fullShare
  owed _ := 0

theorem A_eq (c : Dev nD) (w : Fin cfg0.W) : (dat V c).A w = V c (Pipeline.arrRef spec0 w) := rfl

theorem after_3 (c : Dev nD) (t : Fin cfg0.N) : (dat V c).after 3 t = k0_pay8 (xAt V c t) (wAt V c t) := rfl
theorem after_4 (c : Dev nD) (t : Fin cfg0.N) : (dat V c).after 4 t = k0_pay2 (sumAt V c t.val t.isLt) := rfl
theorem after_5 (c : Dev nD) (t : Fin cfg0.N) : (dat V c).after 5 t = k0_pay3 (sqAt V c t.val t.isLt) := rfl
theorem after_6 (c : Dev nD) (t : Fin cfg0.N) : (dat V c).after 6 t = k0_pay4 (cntAt V c t.val t.isLt) := rfl

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl

theorem sound_body (c : Dev nD) (t : Fin cfg0.N) :
    iprop(inv V c t.val (Nat.le_of_lt t.isLt) ∗ (dat V c).owesAt () t.castSucc
      ∗ bigSep Finset.univ fun w => iprop(∃ d, owns c ((cfg0.win w).stage (cfg0.slots t w)) fullShare ((dat V c).before w t d)))
    ⊢ wp frame (wpE (defs₀ (F := F)) Variants.none c none) Set.univ (bodyAt0 t) (fun _ =>
      iprop(tot c (sumAt V c t.val t.isLt) (sqAt V c t.val t.isLt) (cntAt V c t.val t.isLt) ∗ (dat V c).owesAt () t.castSucc
        ∗ bigSep Finset.univ fun w => owns c ((cfg0.win w).stage (cfg0.slots t w)) fullShare ((dat V c).after w t))) := by
  unfold bodyAt0
  rw [bigSep_W0, bigSep_W0, show (dat V c).after 0 t = iblk V c 0 t from rfl, show (dat V c).after 1 t = iblk V c 1 t from rfl,
    show (dat V c).after 2 t = iblk V c 2 t from rfl, after_3, after_4, after_5, after_6]
  simp only [before_0, before_1, before_2]
  by_cases hz : t.val = 0
  · have h0 : t.val % 125 = 0 := by rw [hz]
    rw [inv_zero V c _ _ hz, PhiA_eq]; unfold tot sumAt sqAt cntAt
    simp only [carried_of_mod _ _ _ _ h0]
    iintro ⟨⟨⟨⟨⟨%e0, HS⟩, ⟨%e1, HQ⟩, ⟨%e2, HC⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply kernel_body (.inl ⟨(resets_iff t).2 h0, rfl, rfl, rfl⟩)
    iframe
    iintro ⟨H0, H1, H2, H3, H4, H5, H6, HS, HQ, HC⟩
    iframe
  · rw [inv_pos V c _ _ hz]; unfold tot sumAt sqAt cntAt
    by_cases h0 : t.val % 125 = 0 <;> [simp only [carried_of_mod _ _ _ _ h0]; simp only [carried_pos _ _ _ _ h0]] <;>
      iintro ⟨⟨⟨⟨HS, HQ, HC⟩, HR⟩, Hg⟩, Ho, ⟨%d0, H0⟩, ⟨%d1, H1⟩, ⟨%d2, H2⟩, ⟨%d3, H3⟩, ⟨%d4, H4⟩, ⟨%d5, H5⟩, ⟨%d6, H6⟩⟩ <;>
      [iapply kernel_body (.inl ⟨(resets_iff t).2 h0, rfl, rfl, rfl⟩); iapply kernel_body (.inr ⟨mt (resets_iff t).1 h0, rfl, rfl, rfl⟩)] <;>
      (iframe; iintro ⟨H0, H1, H2, H3, H4, H5, H6, HS, HQ, HC⟩; iframe)

theorem body_obligation (c : Dev nD) : BodyObligation (dat (F := F) V c) (defs₀ (F := F)) Variants.none () Set.univ :=
  sound_body V c

theorem hin (c : Dev nD) : (Pipeline.ΦA spec0 c : sProp 𝕄) ⊢ (dat V c).Φ 0 := .rfl

theorem hout (c : Dev nD) : (dat V c).Φ (Fin.last cfg0.N) ⊢ (Pipeline.ΦA spec0 c : sProp 𝕄) := by
  rw [show (dat V c).Φ (Fin.last cfg0.N) = inv V c cfg0.N (Nat.le_refl _) from rfl, inv_pos V c cfg0.N _ (by decide), PhiA_eq]; unfold tot
  iintro ⟨⟨⟨HS, HQ, HC⟩, HR⟩, Hg⟩
  iframe HR Hg
  isplitl [HS]; · iexists _; iexact HS
  isplitl [HQ]; · iexists _; iexact HQ
  iexists _; iexact HC

end Cert.Kernel.Reg0

end
-- ==== Proof.K.Reg1.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg1

open Gen Idealize ShloMosaic TcCoe SL RA BI BIBase Sem
open Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev wholeRows : Rect S1000x64 := Rect.unit (s := S1000x64) ![0, 0] S1000x64.size inb_S1000x64_S1000x64_0_0
abbrev wholeIds : Rect S1000x1 := Rect.unit (s := S1000x1) ![0, 0] S1000x1.size inb_S1000x1_S1000x1_0_0
abbrev wholeTable : Rect S16x64 := Rect.unit (s := S16x64) ![0, 0] S16x64.size inb_S16x64_S16x64_0_0

def normRelu (h : Vec F S1000x64 .f32) (ids : Vec F S1000x1 .i32) (mean inv : Vec F S16x64 .f32) :
    Vec F S1000x64 .f32 :=
  View.canon [⟨wholeRows, k1_pay1 (View.ld ids wholeIds) (View.ld mean wholeTable) (View.ld inv wholeTable) (View.ld h wholeRows)⟩]

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => normRelu (blockAt V c 0 t) (blockAt V c 1 t) (blockAt V c 2 t) (blockAt V c 3 t)
  Φ _ := Pipeline.ΦA spec1 c
  q _ := fullShare
  owed _ := 0

theorem A_eq (c : Dev nD) (w : Fin cfg1.W) : (dat V c).A w = V c (Pipeline.arrRef spec1 w) := rfl

theorem after_out (c : Dev nD) (t : Fin cfg1.N) :
    (dat V c).after 4 t = normRelu (blockAt V c 0 t) (blockAt V c 1 t) (blockAt V c 2 t) (blockAt V c 3 t) := by
  dsimp only [dat]

theorem staged (c t w) (h : (cfg1.win w).isOut = false) :
    ∀ d, (dat V c).before w t d = (dat V c).after w t := by
  fin_cases w <;> first | exact (dat V c).before_in_eq_fetched _ rfl (fun _ => rfl) (fun _ _ _ => rfl) (fun _ => rfl) t | cases h

theorem body_obligation (c : Dev nD) : BodyObligation (dat (F := F) V c) (defs₀ (F := F)) Variants.none () Set.univ := fun t => by
  simp (disch := rfl) only [bigSep_W1, staged V c t]
  dsimp only [dat, Dat.owesAt, Dat.bound]
  show _ ⊢ wp frame _ _ (bodyAt1 t) _
  simp only [bodyAt1, cc1_kernel_eq_skeleton]; unfold cc1_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe
  isplitl [H0]; · iexists f0; iframe H0 %hf0
  isplitl [H1]; · iexists f1; iframe H1 %hf1
  isplitl [H2]; · iexists f2; iframe H2 %hf2
  isplitl [H3]; · iexists f3; iframe H3 %hf3
  iexists _; iframe H4; ipureintro
  rw [← hf0, ← hf1, ← hf2, ← hf3]
  exact View.read_writes_eq_canon _ _ _ (View.cover_of_tiled [⟨wholeRows, _⟩] S1000x64.size (by rfl))

theorem hin (c : Dev nD) : (Pipeline.ΦA spec1 c : sProp 𝕄) ⊢ (dat V c).Φ 0 := BIBase.Entails.rfl

theorem hout (c : Dev nD) : (dat V c).Φ (Fin.last cfg1.N) ⊢ (Pipeline.ΦA spec1 c : sProp 𝕄) := BIBase.Entails.rfl

end Cert.Kernel.Reg1

end
-- ==== Proof.K.Reg2.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

theorem read_last_whole_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (p : S.Idx → Elt F e) (L : List (View.Piece (Elt F) S e)) :
    v.read (Elt F) (v.writes (Elt F) f (⟨Rect.unit off S.size inb, p⟩ :: L)) = p := by
  rw [View.read_writes_eq_canon _ _ _ (fun y => ⟨_, List.mem_cons.mpr (Or.inl rfl), View.mem_set_unit_zero h inb y⟩),
    View.canon_cons_unit_zero h]

abbrev atStart (i : grid2.Coords) : Prop :=
  (Scalar.cmpi .ne (Scalar.extui (Scalar.cmpi .eq (BitVec.ofNat 32 (i 1).val) 0#32)) 0#32) = 1#1

theorem atStart_iff : ∀ t : Fin cfg2.N, atStart (grid2.coords t) ↔ t.val % 125 = 0 :=
  (by decide +kernel : ∀ t : Fin grid2.N, atStart (grid2.coords t) ↔ t.val % 125 = 0)

set_option maxHeartbeats 1000000 in
theorem run (c : Dev nD) (t : Fin cfg2.N)
    (arg2 : Memref sig .tc .vmem S1000x64 .f32) (harg2 : arg2.IsWhole) (arg3 : Memref sig .tc .vmem S64x128 .f32) (harg3 : arg3.IsWhole)
    (arg4 : Memref sig .tc .vmem S1000x1 .i32) (harg4 : arg4.IsWhole) (arg5 : Memref sig .tc .vmem S1000x128 .f32) (harg5 : arg5.IsWhole)
    (arg6 : Memref sig .tc .vmem S1x16x128 .f32) (harg6 : arg6.IsWhole) (arg7 : Memref sig .tc .vmem S1x16x128 .f32) (harg7 : arg7.IsWhole)
    (arg8 : Memref sig .tc .vmem S16x128 .f32) (harg8 : arg8.IsWhole) (arg9 : Memref sig .tc .vmem S16x128 .f32) (harg9 : arg9.IsWhole)
    (x : Vec F S1000x64 .f32) (w : Vec F S64x128 .f32) (ids : Vec F S1000x1 .i32) (d5 : Vec F S1000x128 .f32) (d6 d7 : Vec F S1x16x128 .f32) (s q : Vec F S16x128 .f32)
    (E : Set ℕ) (K : PUnit → sProp 𝕄) :
    iprop(owns (c : Thread nD τ) arg2 fullShare x ∗ owns (c : Thread nD τ) arg3 fullShare w ∗ owns (c : Thread nD τ) arg4 fullShare ids
        ∗ owns (c : Thread nD τ) arg5 fullShare d5 ∗ owns (c : Thread nD τ) arg6 fullShare d6 ∗ owns (c : Thread nD τ) arg7 fullShare d7
        ∗ owns (c : Thread nD τ) arg8 fullShare s ∗ owns (c : Thread nD τ) arg9 fullShare q
        ∗ (iprop(owns (c : Thread nD τ) arg2 fullShare x ∗ owns (c : Thread nD τ) arg3 fullShare w ∗ owns (c : Thread nD τ) arg4 fullShare ids
            ∗ owns (c : Thread nD τ) arg5 fullShare (k2_pay5 x w)
            ∗ owns (c : Thread nD τ) arg6 fullShare (k2_pay1 (k2_pay7 x w ids (if t.val % 125 = 0 then k2_pay3 (F := F) else s)))
            ∗ owns (c : Thread nD τ) arg7 fullShare (k2_pay2 (k2_pay8 x w ids (if t.val % 125 = 0 then k2_pay4 (F := F) else q)))
            ∗ owns (c : Thread nD τ) arg8 fullShare (k2_pay7 x w ids (if t.val % 125 = 0 then k2_pay3 (F := F) else s))
            ∗ owns (c : Thread nD τ) arg9 fullShare (k2_pay8 x w ids (if t.val % 125 = 0 then k2_pay4 (F := F) else q))) -∗ K ⟨⟩))
      ⊢ wp frame (wpE (defs₀ (F := F)) Variants.none c none) E (cc2_kernel (grid2.coords t) arg2 harg2 arg3 harg3 arg4 harg4 arg5 harg5 arg6 harg6 arg7 harg7 arg8 harg8 arg9 harg9) K := by
  by_cases hc : atStart (grid2.coords t) <;>
    [rw [if_pos ((atStart_iff t).mp hc), if_pos ((atStart_iff t).mp hc)]; rw [if_neg (mt (atStart_iff t).mpr hc), if_neg (mt (atStart_iff t).mpr hc)]] <;>
  · simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, -, H5⟩, ⟨%f6, -, H6⟩, ⟨%f7, -, H7⟩, ⟨%f8, %hf8, H8⟩, ⟨%f9, %hf9, H9⟩, Hk⟩
    obtain rfl := harg2.eq_unread hf2; obtain rfl := harg3.eq_unread hf3; obtain rfl := harg4.eq_unread hf4
    obtain rfl := harg8.eq_unread hf8; obtain rfl := harg9.eq_unread hf9
    sl_exec (disch := first | exact hc)
    sl_step
    sl_unfold_words
    iapply Hk
    isplitl [H2]; rotate_left; isplitl [H3]; rotate_left; isplitl [H4]; rotate_left; isplitl [H5]; rotate_left
    isplitl [H6]; rotate_left; isplitl [H7]; rotate_left; isplitl [H8]; rotate_left
    all_goals (iexists _; isplitr; swap; (· iassumption); ipureintro)
    all_goals first
      | exact harg2.read_unread _ | exact harg3.read_unread _ | exact harg4.read_unread _
      | refine Eq.trans (read_last_whole_store _ _ (by first | exact zeros2 | exact zeros3) _ _ _) ?_
        simp only [View.readCov_cons_toLoadRect, View.readAt_eq_ld, harg2.read_unread, harg3.read_unread, harg4.read_unread, harg8.read_unread, harg9.read_unread,
        View.ld_unit_zero (S := S1000x64) zeros2, View.ld_unit_zero (S := S64x128) zeros2, View.ld_unit_zero (S := S1000x1) zeros2, View.ld_unit_zero (S := S16x128) zeros2]

variable (V : (c : Dev nD) → (b : Ref sig .tc) → Buf (Elt F) ((c : Thread nD τ).loc b))

def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsAt (c : Dev nD) (t : Fin cfg2.N) : Vec F S1000x64 .f32 := blockAt V c 0 t
abbrev weightsAt (c : Dev nD) (t : Fin cfg2.N) : Vec F S64x128 .f32 := blockAt V c 1 t
abbrev idsAt (c : Dev nD) (t : Fin cfg2.N) : Vec F S1000x1 .i32 := blockAt V c 2 t

def sumAt (c : Dev nD) : (n : ℕ) → n < cfg2.N → Vec F S16x128 .f32
  | 0, h => k2_pay7 (rowsAt V c ⟨0, h⟩) (weightsAt V c ⟨0, h⟩) (idsAt V c ⟨0, h⟩) (k2_pay3 (F := F))
  | n + 1, h => k2_pay7 (rowsAt V c ⟨n + 1, h⟩) (weightsAt V c ⟨n + 1, h⟩) (idsAt V c ⟨n + 1, h⟩)
      (if (n + 1) % 125 = 0 then (k2_pay3 (F := F)) else sumAt c n (Nat.lt_of_succ_lt h))

def sumsqAt (c : Dev nD) : (n : ℕ) → n < cfg2.N → Vec F S16x128 .f32
  | 0, h => k2_pay8 (rowsAt V c ⟨0, h⟩) (weightsAt V c ⟨0, h⟩) (idsAt V c ⟨0, h⟩) (k2_pay4 (F := F))
  | n + 1, h => k2_pay8 (rowsAt V c ⟨n + 1, h⟩) (weightsAt V c ⟨n + 1, h⟩) (idsAt V c ⟨n + 1, h⟩)
      (if (n + 1) % 125 = 0 then (k2_pay4 (F := F)) else sumsqAt c n (Nat.lt_of_succ_lt h))

theorem sumAt_start (c : Dev nD) (t : Fin cfg2.N) (h0 : t.val % 125 = 0) :
    sumAt V c t.val t.isLt = k2_pay7 (rowsAt V c t) (weightsAt V c t) (idsAt V c t) (k2_pay3 (F := F)) := by
  obtain ⟨_ | n, hn⟩ := t
  · rfl
  · exact congrArg (k2_pay7 _ _ _) (if_pos h0)

theorem sumAt_step (c : Dev nD) (t : Fin cfg2.N) (h0 : ¬ t.val % 125 = 0) :
    sumAt V c t.val t.isLt = k2_pay7 (rowsAt V c t) (weightsAt V c t) (idsAt V c t)
      (sumAt V c (t.val - 1) (Nat.lt_of_le_of_lt (Nat.sub_le _ _) t.isLt)) := by
  obtain ⟨_ | n, hn⟩ := t
  · exact absurd (Nat.zero_mod _) h0
  · exact congrArg (k2_pay7 _ _ _) (if_neg h0)

theorem sumsqAt_start (c : Dev nD) (t : Fin cfg2.N) (h0 : t.val % 125 = 0) :
    sumsqAt V c t.val t.isLt = k2_pay8 (rowsAt V c t) (weightsAt V c t) (idsAt V c t) (k2_pay4 (F := F)) := by
  obtain ⟨_ | n, hn⟩ := t
  · rfl
  · exact congrArg (k2_pay8 _ _ _) (if_pos h0)

theorem sumsqAt_step (c : Dev nD) (t : Fin cfg2.N) (h0 : ¬ t.val % 125 = 0) :
    sumsqAt V c t.val t.isLt = k2_pay8 (rowsAt V c t) (weightsAt V c t) (idsAt V c t)
      (sumsqAt V c (t.val - 1) (Nat.lt_of_le_of_lt (Nat.sub_le _ _) t.isLt)) := by
  obtain ⟨_ | n, hn⟩ := t
  · exact absurd (Nat.zero_mod _) h0
  · exact congrArg (k2_pay8 _ _ _) (if_neg h0)

abbrev sumBuf : Memref sig .tc .vmem S16x128 .f32 := Memref.whole cc2_scratch0
abbrev sumsqBuf : Memref sig .tc .vmem S16x128 .f32 := Memref.whole cc2_scratch1

abbrev otherScoped (c : Dev nD) : sProp 𝕄 :=
  Pipeline.scopedRestBut (Ix := Unit) (Name := ℕ) (U := UR sig nD τ) (Lvl := ℕ) (Val := Elt F) spec2 c [cc2_scratch0, cc2_scratch1]

theorem entry_eq (c : Dev nD) :
    (Pipeline.ΦA spec2 c : sProp 𝕄)
      = iprop(iprop(iprop((∃ d, owns (c : Thread nD τ) sumBuf fullShare d) ∗ (∃ d, owns (c : Thread nD τ) sumsqBuf fullShare d)) ∗ otherScoped c) ∗ (∃ r, prngReg c r)) := by
  unfold Pipeline.ΦA; rw [scopedRest2_split]; simp only [sumBuf, sumsqBuf, owns_whole]; try rfl

def Inv (c : Dev nD) (n : ℕ) (_ : n ≤ cfg2.N) : sProp 𝕄 :=
  iprop(∃ s q, ⌜∀ h : n < cfg2.N,
        sumAt V c n h = k2_pay7 (rowsAt V c ⟨n, h⟩) (weightsAt V c ⟨n, h⟩) (idsAt V c ⟨n, h⟩) (if n % 125 = 0 then k2_pay3 (F := F) else s)
        ∧ sumsqAt V c n h = k2_pay8 (rowsAt V c ⟨n, h⟩) (weightsAt V c ⟨n, h⟩) (idsAt V c ⟨n, h⟩) (if n % 125 = 0 then k2_pay4 (F := F) else q)⌝
    ∗ iprop(iprop(iprop(owns (c : Thread nD τ) sumBuf fullShare s ∗ owns (c : Thread nD τ) sumsqBuf fullShare q) ∗ otherScoped c) ∗ (∃ r, prngReg c r)))

def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => k2_pay5 (rowsAt V c t) (weightsAt V c t)
    | ⟨4, _⟩ => k2_pay1 (sumAt V c t.val t.isLt)
    | ⟨5, _⟩ => k2_pay2 (sumsqAt V c t.val t.isLt)
  Φ t := Inv V c t.val (Nat.le_of_lt_succ t.isLt)
  q _ := fullShare
  owed _ := 0

theorem A_eq (c : Dev nD) (w : Fin cfg2.W) : (dat V c).A w = V c (Pipeline.arrRef spec2 w) := by
  dsimp only [dat]

theorem after_3 (c : Dev nD) (t : Fin cfg2.N) : (dat V c).after 3 t = k2_pay5 (rowsAt V c t) (weightsAt V c t) := by dsimp only [dat]
theorem after_4 (c : Dev nD) (t : Fin cfg2.N) : (dat V c).after 4 t = k2_pay1 (sumAt V c t.val t.isLt) := by dsimp only [dat]
theorem after_5 (c : Dev nD) (t : Fin cfg2.N) : (dat V c).after 5 t = k2_pay2 (sumsqAt V c t.val t.isLt) := by dsimp only [dat]

theorem before_in (c : Dev nD) (t : Fin cfg2.N) :
    (∀ d, (dat V c).before 0 t d = blockAt V c 0 t) ∧ (∀ d, (dat V c).before 1 t d = blockAt V c 1 t) ∧ (∀ d, (dat V c).before 2 t d = blockAt V c 2 t) := by
  refine ⟨fun d => ?_, fun d => ?_, fun d => ?_⟩ <;>
  exact ((dat V c).before_in_eq_fetched _ rfl (fun _ => rfl) (fun _ _ _ => rfl) (fun _ => rfl) t d).trans rfl

theorem body_obligation (c : Dev nD) : BodyObligation (dat (F := F) V c) (defs₀ (F := F)) Variants.none () Set.univ := fun t => by
  rw [bigSep_W2, bigSep_W2, show (dat V c).Φ t.castSucc = Inv V c t.val (Nat.le_of_lt t.isLt) from rfl]
  show _ ⊢ wp frame _ Set.univ (bodyAt2 t) (fun _ =>
      iprop(Inv V c (t.val + 1) t.isLt ∗ (dat V c).owesAt () t.castSucc
        ∗ owns (c : Thread nD τ) (st2_0 t) fullShare (rowsAt V c t) ∗ owns (c : Thread nD τ) (st2_1 t) fullShare (weightsAt V c t) ∗ owns (c : Thread nD τ) (st2_2 t) fullShare (idsAt V c t)
        ∗ owns (c : Thread nD τ) (st2_3 t) fullShare (k2_pay5 (rowsAt V c t) (weightsAt V c t))
        ∗ owns (c : Thread nD τ) (st2_4 t) fullShare (k2_pay1 (sumAt V c t.val t.isLt)) ∗ owns (c : Thread nD τ) (st2_5 t) fullShare (k2_pay2 (sumsqAt V c t.val t.isLt))))
  simp only [(before_in V c t).1, (before_in V c t).2.1, (before_in V c t).2.2]
  unfold Inv bodyAt2
  iintro ⟨⟨%s, %q, %h, ⟨⟨HS0, HS1⟩, Hr⟩, Hg⟩, Ho, ⟨%d0, H0⟩, ⟨%d1, H1⟩, ⟨%d2, H2⟩, ⟨%d3, H3⟩, ⟨%d4, H4⟩, ⟨%d5, H5⟩⟩
  rw [(h t.isLt).1, (h t.isLt).2]
  iapply (run c t _ _ _ _ _ _ _ _ _ _ _ _ _ _ _ _ (rowsAt V c t) (weightsAt V c t) (idsAt V c t) _ _ _ s q Set.univ _)
  iframe
  iintro ⟨H0, H1, H2, H3, H4, H5, HS0, HS1⟩
  iframe
  iexists _, _
  iframe
  ipureintro; exact fun _ => ⟨by rw [← (h t.isLt).1]; rfl, by rw [← (h t.isLt).2]; rfl⟩

theorem hin (c : Dev nD) : (Pipeline.ΦA spec2 c : sProp 𝕄) ⊢ (dat V c).Φ 0 := by
  show _ ⊢ Inv V c 0 (Nat.zero_le _)
  rw [entry_eq]; unfold Inv
  iintro ⟨⟨⟨⟨%s, HS0⟩, ⟨%q, HS1⟩⟩, Hr⟩, Hg⟩
  iexists s, q
  iframe
  ipureintro; exact fun _ => ⟨rfl, rfl⟩

theorem hout (c : Dev nD) : (dat V c).Φ (Fin.last cfg2.N) ⊢ (Pipeline.ΦA spec2 c : sProp 𝕄) := by
  show Inv V c _ (Nat.le_of_lt_succ (Fin.last cfg2.N).isLt) ⊢ _
  rw [entry_eq]; unfold Inv
  iintro ⟨%s, %q, -, ⟨⟨HS0, HS1⟩, Hr⟩, Hg⟩
  iframe
  isplitl [HS0] <;> iexists _ <;> iassumption

end Cert.Kernel.Reg2

end
-- ==== Proof.K.Reg3.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg3

open Gen Idealize ShloMosaic TcCoe SL RA BI BIBase Sem
open Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def entryBlock (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev allRows : Rect S1000x128 := Rect.unit (s := S1000x128) ![0, 0] S1000x128.size inb_S1000x128_S1000x128_0_0
abbrev allIds : Rect S1000x1 := Rect.unit (s := S1000x1) ![0, 0] S1000x1.size inb_S1000x1_S1000x1_0_0
abbrev allTable : Rect S16x128 := Rect.unit (s := S16x128) ![0, 0] S16x128.size inb_S16x128_S16x128_0_0

def normReluBlock (h : Vec F S1000x128 .f32) (ids : Vec F S1000x1 .i32) (mean inv : Vec F S16x128 .f32) : Vec F S1000x128 .f32 :=
  View.canon [⟨allRows, k3_pay1 (View.ld ids allIds) (View.ld mean allTable) (View.ld inv allTable) (View.ld h allRows)⟩]

def dat (c : Dev nD) : Dat τ (Elt F) Unit ℕ (UR sig nD τ) ℕ cfg3 c where
  A w := V c (Pipeline.arrRef spec3 w)
  after w t := match w with
    | ⟨0, _⟩ => entryBlock V c 0 t
    | ⟨1, _⟩ => entryBlock V c 1 t
    | ⟨2, _⟩ => entryBlock V c 2 t
    | ⟨3, _⟩ => entryBlock V c 3 t
    | ⟨4, _⟩ => normReluBlock (entryBlock V c 0 t) (entryBlock V c 1 t) (entryBlock V c 2 t) (entryBlock V c 3 t)
  Φ _ := Pipeline.ΦA spec3 c
  q _ := fullShare
  owed _ := 0

theorem A_eq (c : Dev nD) (w : Fin cfg3.W) : (dat V c).A w = V c (Pipeline.arrRef spec3 w) := rfl

theorem after_out (c : Dev nD) (t : Fin cfg3.N) :
    (dat V c).after 4 t = normReluBlock (entryBlock V c 0 t) (entryBlock V c 1 t) (entryBlock V c 2 t) (entryBlock V c 3 t) := by
  dsimp only [dat]

theorem staged (c t w) (h : (cfg3.win w).isOut = false) :
    ∀ d, (dat V c).before w t d = (dat V c).after w t := by
  fin_cases w <;> first | exact (dat V c).before_in_eq_fetched _ rfl (fun _ => rfl) (fun _ _ _ => rfl) (fun _ => rfl) t | cases h

theorem body_obligation (c : Dev nD) : BodyObligation (dat (F := F) V c) (defs₀ (F := F)) Variants.none () Set.univ := fun t => by
  simp (disch := rfl) only [bigSep_W3, staged V c t]
  dsimp only [dat, Dat.owesAt, Dat.bound]
  show _ ⊢ wp frame _ _ (bodyAt3 t) _
  simp only [bodyAt3, cc3_kernel_eq_skeleton]; unfold cc3_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe
  isplitl [H0]; · iexists f0; iframe H0 %hf0
  isplitl [H1]; · iexists f1; iframe H1 %hf1
  isplitl [H2]; · iexists f2; iframe H2 %hf2
  isplitl [H3]; · iexists f3; iframe H3 %hf3
  iexists _; iframe H4; ipureintro
  rw [← hf0, ← hf1, ← hf2, ← hf3]
  exact View.read_writes_eq_canon _ _ _ (View.cover_of_tiled [⟨allRows, _⟩] S1000x128.size (by rfl))

theorem hin (c : Dev nD) : (Pipeline.ΦA spec3 c : sProp 𝕄) ⊢ (dat V c).Φ 0 := BIBase.Entails.rfl

theorem hout (c : Dev nD) : (dat V c).Φ (Fin.last cfg3.N) ⊢ (Pipeline.ΦA spec3 c : sProp 𝕄) := BIBase.Entails.rfl

end Cert.Kernel.Reg3

end
-- ==== Proof.K.Reg4.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid4.Coords) : Prop :=
  (Scalar.cmpi .ne (Scalar.extui (Scalar.cmpi .eq (BitVec.ofNat 32 (i 1).val) 0#32)) 0#32) = 1#1

theorem isFirst_iff : ∀ t : Fin cfg4.N, isFirst (grid4.coords t) ↔ t.val % 125 = 0 :=
  (by decide +kernel : ∀ t : Fin grid4.N, isFirst (grid4.coords t) ↔ t.val % 125 = 0)

theorem zero2 : (![0, 0] : Fin 2 → Nat) = fun _ => 0 := funext fun a => by fin_cases a <;> rfl
theorem zero3 : (![0, 0, 0] : Fin 3 → Nat) = fun _ => 0 := funext fun a => by fin_cases a <;> rfl

theorem read_after_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

abbrev scr0 : Memref sig .tc .vmem S16x1024 .f32 := Memref.whole cc4_scratch0
abbrev scr1 : Memref sig .tc .vmem S16x1024 .f32 := Memref.whole cc4_scratch1

set_option maxHeartbeats 4000000 in
theorem body (c : Dev nD) (i : grid4.Coords)
    (arg2 : Memref sig .tc .vmem S1000x128 .f32) (harg2 : arg2.IsWhole)
    (arg3 : Memref sig .tc .vmem S128x1024 .f32) (harg3 : arg3.IsWhole)
    (arg4 : Memref sig .tc .vmem S1000x1 .i32) (harg4 : arg4.IsWhole)
    (arg5 : Memref sig .tc .vmem S1x16x1024 .f32) (harg5 : arg5.IsWhole)
    (arg6 : Memref sig .tc .vmem S1x16x1024 .f32) (harg6 : arg6.IsWhole)
    (x : Vec F S1000x128 .f32) (w : Vec F S128x1024 .f32) (ids : Vec F S1000x1 .i32)
    (o5 o6 : Vec F S1x16x1024 .f32) (s0 s1 z0 z1 : Vec F S16x1024 .f32)
    (hz : isFirst i ∧ z0 = k4_pay2 (F := F) ∧ z1 = k4_pay3 (F := F) ∨ ¬isFirst i ∧ z0 = s0 ∧ z1 = s1)
    (E : Set ℕ) (K : PUnit → sProp 𝕄) :
    iprop(owns c.tc arg2 fullShare x ∗ owns c.tc arg3 fullShare w ∗ owns c.tc arg4 fullShare ids
        ∗ owns c.tc arg5 fullShare o5 ∗ owns c.tc arg6 fullShare o6
        ∗ owns c.tc scr0 fullShare s0 ∗ owns c.tc scr1 fullShare s1
        ∗ (iprop(owns c.tc arg2 fullShare x ∗ owns c.tc arg3 fullShare w ∗ owns c.tc arg4 fullShare ids
            ∗ owns c.tc arg5 fullShare (k4_pay8 (k4_pay6 x w ids z0))
            ∗ owns c.tc arg6 fullShare (k4_pay1 (k4_pay7 x w ids z1))
            ∗ owns c.tc scr0 fullShare (k4_pay6 x w ids z0)
            ∗ owns c.tc scr1 fullShare (k4_pay7 x w ids z1)) -∗ K ⟨⟩))
      ⊢ wp frame (wpE (defs₀ (F := F)) Variants.none c none) E
          (cc4_kernel i arg2 harg2 arg3 harg3 arg4 harg4 arg5 harg5 arg6 harg6 scr0 (Memref.isWhole_whole _) scr1 (Memref.isWhole_whole _)) K := by
  simp only [cc4_kernel_eq_skeleton]; unfold cc4_kernel_skel
  simp only [k4_part1_eq_skeleton]; unfold k4_part1_skel
  unfold owns
  iintro ⟨⟨%f2, %hf2, H2⟩, ⟨%f3, %hf3, H3⟩, ⟨%f4, %hf4, H4⟩, ⟨%f5, %hf5, H5⟩, ⟨%f6, %hf6, H6⟩, ⟨%g0, %hg0, HS0⟩, ⟨%g1, %hg1, HS1⟩, Hk⟩
  obtain rfl := harg2.eq_unread hf2; obtain rfl := harg3.eq_unread hf3; obtain rfl := harg4.eq_unread hf4
  obtain rfl := harg5.eq_unread hf5; obtain rfl := harg6.eq_unread hf6
  obtain rfl := (Memref.isWhole_whole cc4_scratch0).eq_unread hg0; obtain rfl := (Memref.isWhole_whole cc4_scratch1).eq_unread hg1
  rcases hz with ⟨hc, rfl, rfl⟩ | ⟨hc, rfl, rfl⟩
  all_goals
    sl_exec (disch := first | exact hc)
    sl_step
    iapply Hk
    isplitl [H2]; swap; isplitl [H3]; swap; isplitl [H4]; swap; isplitl [H5]; swap; isplitl [H6]; swap; isplitl [HS0]; swap
    all_goals (iexists _; isplitr; swap; first | iexact H2 | iexact H3 | iexact H4 | iexact H5 | iexact H6 | iexact HS0 | iexact HS1)
    all_goals ipureintro
    rotate_left 4; exact hf4; exact hf3; exact hf2
    all_goals
      try sl_unfold_words
      refine (read_after_whole_store _ _ (by first | exact zero2 | exact zero3) _ _ _).trans ?_
      simp only [View.readCov_cons_toLoadRect, View.readAt_eq_ld, hf2, hf3, hf4, hg0, hg1,
        View.ld_unit_zero (S := S1000x128) zero2, View.ld_unit_zero (S := S128x1024) zero2,
        View.ld_unit_zero (S := S1000x1) zero2, View.ld_unit_zero (S := S16x1024) zero2]

variable (V : (c : Dev nD) → (b : Ref sig .tc) → Buf (Elt F) ((c : Thread nD τ).loc b))

def xblk (c : Dev nD) (t : Fin cfg4.N) : Vec F S1000x128 .f32 :=
  ((cfg4.win 0).blk t).view.read (Elt F) (V c (Pipeline.arrRef spec4 0))
def wblk (c : Dev nD) (t : Fin cfg4.N) : Vec F S128x1024 .f32 :=
  ((cfg4.win 1).blk t).view.read (Elt F) (V c (Pipeline.arrRef spec4 1))
def idblk (c : Dev nD) (t : Fin cfg4.N) : Vec F S1000x1 .i32 :=
  ((cfg4.win 2).blk t).view.read (Elt F) (V c (Pipeline.arrRef spec4 2))

def sumAt (c : Dev nD) : (n : ℕ) → n < cfg4.N → Vec F S16x1024 .f32
  | 0, h => k4_pay6 (xblk V c ⟨0, h⟩) (wblk V c ⟨0, h⟩) (idblk V c ⟨0, h⟩) (k4_pay2 (F := F))
  | n + 1, h =>
    if (n + 1) % 125 = 0 then k4_pay6 (xblk V c ⟨n + 1, h⟩) (wblk V c ⟨n + 1, h⟩) (idblk V c ⟨n + 1, h⟩) (k4_pay2 (F := F))
    else k4_pay6 (xblk V c ⟨n + 1, h⟩) (wblk V c ⟨n + 1, h⟩) (idblk V c ⟨n + 1, h⟩) (sumAt c n (Nat.lt_of_succ_lt h))

def sqAt (c : Dev nD) : (n : ℕ) → n < cfg4.N → Vec F S16x1024 .f32
  | 0, h => k4_pay7 (xblk V c ⟨0, h⟩) (wblk V c ⟨0, h⟩) (idblk V c ⟨0, h⟩) (k4_pay3 (F := F))
  | n + 1, h =>
    if (n + 1) % 125 = 0 then k4_pay7 (xblk V c ⟨n + 1, h⟩) (wblk V c ⟨n + 1, h⟩) (idblk V c ⟨n + 1, h⟩) (k4_pay3 (F := F))
    else k4_pay7 (xblk V c ⟨n + 1, h⟩) (wblk V c ⟨n + 1, h⟩) (idblk V c ⟨n + 1, h⟩) (sqAt c n (Nat.lt_of_succ_lt h))

theorem sumAt_first (c : Dev nD) (t : Fin cfg4.N) (h0 : t.val % 125 = 0) :
    sumAt V c t.val t.isLt = k4_pay6 (xblk V c t) (wblk V c t) (idblk V c t) (k4_pay2 (F := F)) :=
  match t, h0 with
  | ⟨0, _⟩, _ => rfl
  | ⟨_ + 1, _⟩, h0 => if_pos h0

theorem sumAt_next (c : Dev nD) (t : Fin cfg4.N) (h0 : ¬t.val % 125 = 0) :
    sumAt V c t.val t.isLt
      = k4_pay6 (xblk V c t) (wblk V c t) (idblk V c t) (sumAt V c (t.val - 1) (Nat.lt_of_le_of_lt (Nat.sub_le _ _) t.isLt)) :=
  match t, h0 with
  | ⟨0, _⟩, h0 => absurd (Nat.zero_mod _) h0
  | ⟨_ + 1, _⟩, h0 => if_neg h0

theorem sqAt_first (c : Dev nD) (t : Fin cfg4.N) (h0 : t.val % 125 = 0) :
    sqAt V c t.val t.isLt = k4_pay7 (xblk V c t) (wblk V c t) (idblk V c t) (k4_pay3 (F := F)) :=
  match t, h0 with
  | ⟨0, _⟩, _ => rfl
  | ⟨_ + 1, _⟩, h0 => if_pos h0

theorem sqAt_next (c : Dev nD) (t : Fin cfg4.N) (h0 : ¬t.val % 125 = 0) :
    sqAt V c t.val t.isLt
      = k4_pay7 (xblk V c t) (wblk V c t) (idblk V c t) (sqAt V c (t.val - 1) (Nat.lt_of_le_of_lt (Nat.sub_le _ _) t.isLt)) :=
  match t, h0 with
  | ⟨0, _⟩, h0 => absurd (Nat.zero_mod _) h0
  | ⟨_ + 1, _⟩, h0 => if_neg h0

def Acc (c : Dev nD) (a b : Vec F S16x1024 .f32) : sProp 𝕄 :=
  iprop((iprop(owns c.tc scr0 fullShare a ∗ owns c.tc scr1 fullShare b)
      ∗ Pipeline.scopedRestBut (Ix := Unit) (Name := ℕ) (U := UR sig nD τ) (Lvl := ℕ) (Val := Elt F) spec4 c [cc4_scratch0, cc4_scratch1])
    ∗ (∃ r, prngReg c r))

def Inv (c : Dev nD) (n : ℕ) (hn : n ≤ cfg4.N) : sProp 𝕄 :=
  iprop(∃ a b, ⌜∀ h : n ≠ 0, a = sumAt V c (n - 1) (by omega) ∧ b = sqAt V c (n - 1) (by omega)⌝ ∗ Acc c a b)

theorem PhiA_open (c : Dev nD) :
    (Pipeline.ΦA spec4 c : sProp 𝕄)
      = iprop((iprop((∃ d, owns c.tc scr0 fullShare d) ∗ (∃ d, owns c.tc scr1 fullShare d))
          ∗ Pipeline.scopedRestBut (Ix := Unit) (Name := ℕ) (U := UR sig nD τ) (Lvl := ℕ) (Val := Elt F) spec4 c [cc4_scratch0, cc4_scratch1])
        ∗ (∃ r, prngReg c r)) := by
  unfold Pipeline.ΦA; rw [scopedRest4_split]; simp only [scr0, scr1, owns_whole]; try rfl

def dat (c : Dev nD) : Dat τ (Elt F) Unit ℕ (UR sig nD τ) ℕ cfg4 c where
  A w := V c (Pipeline.arrRef spec4 w)
  after w t := match w with
    | ⟨0, _⟩ => xblk V c t
    | ⟨1, _⟩ => wblk V c t
    | ⟨2, _⟩ => idblk V c t
    | ⟨3, _⟩ => k4_pay8 (sumAt V c t.val t.isLt)
    | ⟨4, _⟩ => k4_pay1 (sqAt V c t.val t.isLt)
  Φ t := Inv V c t.val (Nat.le_of_lt_succ t.isLt)
  q _ := fullShare
  owed _ := 0

theorem A_eq (c : Dev nD) (w : Fin cfg4.W) : (dat V c).A w = V c (Pipeline.arrRef spec4 w) := rfl

theorem after_3 (c : Dev nD) (t : Fin cfg4.N) : (dat V c).after 3 t = k4_pay8 (sumAt V c t.val t.isLt) := rfl
theorem after_4 (c : Dev nD) (t : Fin cfg4.N) : (dat V c).after 4 t = k4_pay1 (sqAt V c t.val t.isLt) := rfl

theorem before_0 (c : Dev nD) (t : Fin cfg4.N) (d) : (dat V c).before 0 t d = xblk V c t :=
  (dat V c).before_in_eq_fetched 0 rfl (fun _ => rfl) (fun _ _ _ => rfl) (fun _ => rfl) t d
theorem before_1 (c : Dev nD) (t : Fin cfg4.N) (d) : (dat V c).before 1 t d = wblk V c t :=
  (dat V c).before_in_eq_fetched 1 rfl (fun _ => rfl) (fun _ _ _ => rfl) (fun _ => rfl) t d
theorem before_2 (c : Dev nD) (t : Fin cfg4.N) (d) : (dat V c).before 2 t d = idblk V c t :=
  (dat V c).before_in_eq_fetched 2 rfl (fun _ => rfl) (fun _ _ _ => rfl) (fun _ => rfl) t d

theorem sound_body (c : Dev nD) (t : Fin cfg4.N) :
    iprop(Inv V c t.val (Nat.le_of_lt t.isLt) ∗ (dat V c).owesAt () t.castSucc
      ∗ (∃ d, owns c.tc (win4_0.stage (cfg4.slots t 0)) fullShare ((dat V c).before 0 t d))
      ∗ (∃ d, owns c.tc (win4_1.stage (cfg4.slots t 1)) fullShare ((dat V c).before 1 t d))
      ∗ (∃ d, owns c.tc (win4_2.stage (cfg4.slots t 2)) fullShare ((dat V c).before 2 t d))
      ∗ (∃ d, owns c.tc (win4_3.stage (cfg4.slots t 3)) fullShare ((dat V c).before 3 t d))
      ∗ (∃ d, owns c.tc (win4_4.stage (cfg4.slots t 4)) fullShare ((dat V c).before 4 t d)))
      ⊢ wp frame (wpE (defs₀ (F := F)) Variants.none c none) Set.univ (bodyAt4 t) fun _ =>
        iprop(Inv V c (t.val + 1) t.isLt ∗ (dat V c).owesAt () t.castSucc
        ∗ owns c.tc (win4_0.stage (cfg4.slots t 0)) fullShare (xblk V c t) ∗ owns c.tc (win4_1.stage (cfg4.slots t 1)) fullShare (wblk V c t)
        ∗ owns c.tc (win4_2.stage (cfg4.slots t 2)) fullShare (idblk V c t)
        ∗ owns c.tc (win4_3.stage (cfg4.slots t 3)) fullShare (k4_pay8 (sumAt V c t.val t.isLt))
        ∗ owns c.tc (win4_4.stage (cfg4.slots t 4)) fullShare (k4_pay1 (sqAt V c t.val t.isLt))) := by
  unfold bodyAt4
  simp only [before_0, before_1, before_2]
  unfold Inv Acc
  iintro ⟨⟨%a, %b, %hab, ⟨⟨HS0, HS1⟩, Hr⟩, Hg⟩, Ho, ⟨%d0, H0⟩, ⟨%d1, H1⟩, ⟨%d2, H2⟩, ⟨%d3, H3⟩, ⟨%d4, H4⟩⟩
  obtain ⟨z0, z1, hz, e0, e1⟩ : ∃ z0 z1,
      (isFirst (grid4.coords t) ∧ z0 = k4_pay2 (F := F) ∧ z1 = k4_pay3 (F := F) ∨ ¬isFirst (grid4.coords t) ∧ z0 = a ∧ z1 = b)
      ∧ sumAt V c t.val t.isLt = k4_pay6 (xblk V c t) (wblk V c t) (idblk V c t) z0
      ∧ sqAt V c t.val t.isLt = k4_pay7 (xblk V c t) (wblk V c t) (idblk V c t) z1 := by
    by_cases h0 : t.val % 125 = 0
    · exact ⟨_, _, .inl ⟨(isFirst_iff t).mpr h0, rfl, rfl⟩, sumAt_first V c t h0, sqAt_first V c t h0⟩
    · obtain ⟨rfl, rfl⟩ := hab fun e => h0 (by rw [e])
      exact ⟨_, _, .inr ⟨mt (isFirst_iff t).mp h0, rfl, rfl⟩, sumAt_next V c t h0, sqAt_next V c t h0⟩
  rw [e0, e1]
  iapply (body c _ _ _ _ _ _ _ _ _ _ _
    (xblk V c t) (wblk V c t) (idblk V c t) _ _ a b z0 z1 hz Set.univ _)
  iframe H0 H1 H2 H3 H4 HS0 HS1
  iintro ⟨H0, H1, H2, H3, H4, HS0, HS1⟩
  iframe Ho H0 H1 H2 H3 H4
  iexists _, _; isplitr; swap
  · isplitr [Hg]; swap; · iexact Hg
    isplitr [Hr]; swap; · iexact Hr
    isplitl [HS0]; · iexact HS0
    iexact HS1
  ipureintro; exact fun _ => ⟨e0.symm, e1.symm⟩

theorem body_obligation (c : Dev nD) : BodyObligation (dat (F := F) V c) (defs₀ (F := F)) Variants.none () Set.univ := fun t => by
  rw [bigSep_W4, bigSep_W4]
  exact sound_body V c t

theorem hin (c : Dev nD) : (Pipeline.ΦA spec4 c : sProp 𝕄) ⊢ (dat V c).Φ 0 := by
  rw [PhiA_open]; show _ ⊢ Inv V c 0 (Nat.zero_le _); unfold Inv Acc
  iintro ⟨⟨⟨⟨%a, Ha⟩, ⟨%b, Hb⟩⟩, Hr⟩, Hg⟩
  iexists a, b; isplitr; · ipureintro; exact fun h => absurd rfl h
  iframe

theorem hout (c : Dev nD) : (dat V c).Φ (Fin.last cfg4.N) ⊢ (Pipeline.ΦA spec4 c : sProp 𝕄) := by
  rw [PhiA_open]; show Inv V c cfg4.N le_rfl ⊢ _; unfold Inv Acc
  iintro ⟨%a, %b, %h, ⟨⟨Ha, Hb⟩, Hr⟩, Hg⟩
  iframe Hr Hg
  isplitl [Ha]; · iexists a; iexact Ha
  iexists b; iexact Hb

end Cert.Kernel.Reg4

end
-- ==== Proof.K.Reg5.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev opensRun (i : grid5.Coords) : Prop :=
  Scalar.cmpi .ne (Scalar.extui (Scalar.cmpi .eq (BitVec.ofNat 32 (i 1).val) 0#32)) 0#32 = 1#1

theorem opensRun_iff : ∀ t : Fin grid5.N, opensRun (grid5.coords t) ↔ t.val % 125 = 0 := by decide +kernel

theorem hz2 : (![0, 0] : Fin 2 → Nat) = fun _ => 0 := by decide
theorem hz3 : (![0, 0, 0] : Fin 3 → Nat) = fun _ => 0 := by decide

abbrev poolStep (x : Vec F S1000x128 .f32) (w : Vec F S128x1024 .f32) (ids : Vec F S1000x1 .i32)
    (mu sg acc : Vec F S16x1024 .f32) : Vec F S16x1024 .f32 := k5_pay3 x w ids mu sg acc

abbrev poolZero : Vec F S16x1024 .f32 := k5_pay2 (F := F)

abbrev poolOut (acc : Vec F S16x1024 .f32) : Vec F S1x16x1024 .f32 := k5_pay1 acc

set_option maxHeartbeats 2000000 in
/-- One point of the body on whole buffers: the accumulator restarts from zero where a run opens, else goes on from `d`. -/
theorem body (c : Dev nD) (i : grid5.Coords)
    (a2 : Memref sig .tc .vmem S1000x128 .f32) (h2 : a2.IsWhole) (a3 : Memref sig .tc .vmem S128x1024 .f32) (h3 : a3.IsWhole)
    (a4 : Memref sig .tc .vmem S1000x1 .i32) (h4 : a4.IsWhole) (a5 : Memref sig .tc .vmem S16x1024 .f32) (h5 : a5.IsWhole)
    (a6 : Memref sig .tc .vmem S16x1024 .f32) (h6 : a6.IsWhole) (a7 : Memref sig .tc .vmem S1x16x1024 .f32) (h7 : a7.IsWhole)
    (a8 : Memref sig .tc .vmem S16x1024 .f32) (h8 : a8.IsWhole)
    (x : Vec F S1000x128 .f32) (w : Vec F S128x1024 .f32) (ids : Vec F S1000x1 .i32) (mu sg d : Vec F S16x1024 .f32)
    (E : Set ℕ) (K : PUnit → sProp 𝕄) :
    iprop(iprop(owns c a2 fullShare x ∗ owns c a3 fullShare w ∗ owns c a4 fullShare ids
          ∗ owns c a5 fullShare mu ∗ owns c a6 fullShare sg)
        ∗ (∃ d, owns c a7 fullShare d) ∗ owns c a8 fullShare d
        ∗ (iprop(iprop(owns c a2 fullShare x ∗ owns c a3 fullShare w ∗ owns c a4 fullShare ids
              ∗ owns c a5 fullShare mu ∗ owns c a6 fullShare sg)
            ∗ owns c a7 fullShare (poolOut (poolStep x w ids mu sg (if opensRun i then poolZero else d)))
            ∗ owns c a8 fullShare (poolStep x w ids mu sg (if opensRun i then poolZero else d))) -∗ K ⟨⟩))
      ⊢ wp frame (wpE (defs₀ (F := F)) Variants.none c none) E (cc5_kernel i a2 h2 a3 h3 a4 h4 a5 h5 a6 h6 a7 h7 a8 h8) K := by
  by_cases hc : opensRun i <;> (first | rw [if_pos hc] | rw [if_neg hc]) <;> (
  simp only [cc5_kernel_eq_skeleton]; unfold cc5_kernel_skel
  simp only [k5_part1_eq_skeleton]; unfold k5_part1_skel
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, Hk⟩
  sl_exec (disch := first | exact hc)
  sl_step
  iapply Hk
  isplitl [H2 H3 H4 H5 H6]; · sl_close
  isplitl [H7] <;> (iexists _; isplitr; swap; · iassumption) <;> ipureintro <;> sl_unfold_words <;>
    simp only [View.readCov_cons_toLoadRect, View.readAt_eq_ld, hf2, hf3, hf4, hf5, hf6, hf8, View.ld_unit_zero (S := S1000x128) hz2, View.ld_unit_zero (S := S128x1024) hz2,
      View.ld_unit_zero (S := S1000x1) hz2, View.ld_unit_zero (S := S16x1024) hz2]
  · rw [View.read_writes_eq_canon _ _ _ (fun y => ⟨_, List.Mem.head _, View.mem_set_unit_zero hz3 inb_S1x16x1024_S1x16x1024_0_0_0 y⟩),
      View.canon_unit_zero hz3]
  · rw [View.read_writes_eq_canon _ _ _ (fun y => ⟨_, List.Mem.head _, View.mem_set_unit_zero hz2 inb_S16x1024_S16x1024_0_0 y⟩),
      View.canon_cons_unit_zero hz2])

variable (V : (c : Dev nD) → (b : Ref sig .tc) → Buf (Elt F) ((c : Thread nD τ).loc b))

def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rowsAt (c : Dev nD) (t : Fin cfg5.N) : Vec F S1000x128 .f32 := blockAt V c 0 t
abbrev weightsAt (c : Dev nD) (t : Fin cfg5.N) : Vec F S128x1024 .f32 := blockAt V c 1 t
abbrev idsAt (c : Dev nD) (t : Fin cfg5.N) : Vec F S1000x1 .i32 := blockAt V c 2 t
abbrev meanAt (c : Dev nD) (t : Fin cfg5.N) : Vec F S16x1024 .f32 := blockAt V c 3 t
abbrev scaleAt (c : Dev nD) (t : Fin cfg5.N) : Vec F S16x1024 .f32 := blockAt V c 4 t

abbrev stepAt (c : Dev nD) (t : Fin cfg5.N) (acc : Vec F S16x1024 .f32) : Vec F S16x1024 .f32 :=
  poolStep (rowsAt V c t) (weightsAt V c t) (idsAt V c t) (meanAt V c t) (scaleAt V c t) acc

def pooled (c : Dev nD) : (n : ℕ) → n < cfg5.N → Vec F S16x1024 .f32
  | 0, h => stepAt V c ⟨0, h⟩ (poolZero (F := F))
  | n + 1, h => stepAt V c ⟨n + 1, h⟩ (if (n + 1) % 125 = 0 then poolZero (F := F) else pooled c n (Nat.lt_of_succ_lt h))

abbrev accM : Memref sig .tc .vmem S16x1024 .f32 := Memref.whole cc5_scratch0

/-- The region's invariant with the accumulator holding `P`. -/
abbrev PhiAt (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0])
    ∗ (∃ r, prngReg c r))

theorem PhiA_open (c : Dev nD) :
    (Pipeline.ΦA spec5 c : sProp 𝕄) = PhiAt c iprop(∃ d, owns c accM fullShare d) := by
  unfold Pipeline.ΦA; rw [scopedRest5_split]; simp only [accM, owns_whole]; rfl

def PhiS (c : Dev nD) : (n : ℕ) → n ≤ cfg5.N → sProp 𝕄
  | 0, _ => Pipeline.ΦA spec5 c
  | n + 1, hn => PhiAt c (owns c accM fullShare (pooled V c n hn))

/-- Before point `n` the accumulator holds some `d` from which the recursion takes its step at `n`. -/
theorem PhiS_open (c : Dev nD) (n : ℕ) (h : n ≤ cfg5.N) :
    PhiS V c n h ⊢ ∃ d, ⌜∀ hn : n < cfg5.N, pooled V c n hn
        = stepAt V c ⟨n, hn⟩ (if opensRun (grid5.coords ⟨n, hn⟩) then poolZero else d)⌝
      ∗ PhiAt c (owns c accM fullShare d) := by
  cases n with
  | zero =>
    rw [PhiS, PhiA_open]; unfold PhiAt; iintro ⟨⟨⟨%d, HS⟩, HR⟩, Hg⟩; iexists d; isplitr
    · ipureintro; exact fun hn => congrArg (stepAt V c ⟨0, hn⟩) (if_pos ((opensRun_iff ⟨0, hn⟩).mpr rfl)).symm
    iframe
  | succ n =>
    rw [PhiS]; iintro H; iexists (pooled V c n h); isplitr
    · ipureintro; exact fun hn => congrArg (stepAt V c ⟨n + 1, hn⟩) (if_congr (opensRun_iff ⟨n + 1, hn⟩).symm rfl rfl)
    iexact H

def dat (c : Dev nD) : Dat τ (Elt F) Unit ℕ (UR sig nD τ) ℕ cfg5 c where
  A w := V c (Pipeline.arrRef spec5 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => poolOut (pooled V c t.val t.isLt)
  Φ t := PhiS V c t.val (Nat.le_of_lt_succ t.isLt)
  q _ := fullShare
  owed _ := 0

theorem A_eq (c : Dev nD) (w : Fin cfg5.W) : (dat V c).A w = V c (Pipeline.arrRef spec5 w) := by
  dsimp only [dat]

theorem after_5 (c : Dev nD) (t : Fin cfg5.N) : (dat V c).after 5 t = poolOut (pooled V c t.val t.isLt) := by dsimp only [dat]

theorem before_in (c : Dev nD) (t : Fin cfg5.N) :
    (∀ d, (dat V c).before 0 t d = blockAt V c 0 t) ∧ (∀ d, (dat V c).before 1 t d = blockAt V c 1 t)
      ∧ (∀ d, (dat V c).before 2 t d = blockAt V c 2 t) ∧ (∀ d, (dat V c).before 3 t d = blockAt V c 3 t)
      ∧ (∀ d, (dat V c).before 4 t d = blockAt V c 4 t) := by
  refine ⟨?_, ?_, ?_, ?_, ?_⟩ <;> intro d <;>
    exact ((dat V c).before_in_eq_fetched _ rfl (fun _ => rfl) (fun _ _ _ => rfl) (fun _ => rfl) t d).trans rfl

theorem body_obligation (c : Dev nD) : BodyObligation (dat (F := F) V c) (defs₀ (F := F)) Variants.none () Set.univ := fun t => by
  rw [bigSep_W5, bigSep_W5]
  show _ ⊢ wp frame (wpE (defs₀ (F := F)) Variants.none c none) Set.univ (bodyAt5 t) fun _ =>
      iprop(PhiAt c (owns c accM fullShare (pooled V c t.val t.isLt)) ∗ (dat V c).owesAt () t.castSucc
        ∗ owns c (st5_0 t) fullShare (rowsAt V c t) ∗ owns c (st5_1 t) fullShare (weightsAt V c t)
        ∗ owns c (st5_2 t) fullShare (idsAt V c t) ∗ owns c (st5_3 t) fullShare (meanAt V c t)
        ∗ owns c (st5_4 t) fullShare (scaleAt V c t)
        ∗ owns c (st5_5 t) fullShare (poolOut (pooled V c t.val t.isLt)))
  simp only [before_in V c t]
  refine (sep_mono_left (PhiS_open V c t.val (Nat.le_of_lt t.isLt))).trans ?_
  unfold PhiAt
  iintro ⟨⟨%d, %hd, ⟨HS, HR⟩, Hg⟩, Ho, ⟨%d0, H0⟩, ⟨%d1, H1⟩, ⟨%d2, H2⟩, ⟨%d3, H3⟩, ⟨%d4, H4⟩, ⟨%d5, H5⟩⟩
  rw [hd t.isLt]
  iapply (body c _ _ _ _ _ _ _ _ _ _ _ _ _ _ _
    (rowsAt V c t) (weightsAt V c t) (idsAt V c t) (meanAt V c t) (scaleAt V c t) d Set.univ _)
  iframe H0 H1 H2 H3 H4 HS
  isplitl [H5]; · iexists _; iexact H5
  iintro ⟨⟨H0, H1, H2, H3, H4⟩, H5, HS⟩
  iframe

theorem hin (c : Dev nD) : (Pipeline.ΦA spec5 c : sProp 𝕄) ⊢ (dat V c).Φ 0 := .rfl

theorem hout (c : Dev nD) : (dat V c).Φ (Fin.last cfg5.N) ⊢ (Pipeline.ΦA spec5 c : sProp 𝕄) := by
  refine (PhiS_open V c cfg5.N (Nat.le_refl _)).trans ?_
  rw [PhiA_open]; unfold PhiAt; iintro ⟨%d, -, ⟨HS, HR⟩, Hg⟩; iframe HR Hg; iexists d; iexact HS

end Cert.Kernel.Reg5

end
-- ==== Proof.K.Reg6.lean ====
import proofs.«429425_j21053929685331_2_alg».proof.Proof.Gen.Kernel.Launch
import proofs.«429425_j21053929685331_2_alg».proof.Proof.Gen.Kernel.Skeleton
import proofs.«429425_j21053929685331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg6

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

abbrev idsRect : Rect S1000x1 := Rect.unit (s := S1000x1) ![0, 0] S1000x1.size inb_S1000x1_S1000x1_0_0
abbrev tableRect : Rect S16x9 := Rect.unit (s := S16x9) ![0, 0] S16x9.size inb_S16x9_S16x9_0_0
abbrev outRect : Rect S1000x9 := Rect.unit (s := S1000x9) ![0, 0] S1000x9.size inb_S1000x9_S1000x9_0_0

def broadcastBlock (x0 : Vec F S1000x1 .i32) (x1 : Vec F S16x9 .f32) : Vec F S1000x9 .f32 :=
  View.canon [⟨outRect, k6_pay1 (View.ld x0 idsRect) (View.ld x1 tableRect)⟩]

def dat (c : Dev nD) : Dat τ (Elt F) Unit ℕ (UR sig nD τ) ℕ cfg6 c where
  A w := V c (Pipeline.arrRef spec6 w)
  after w t := match w with
    | ⟨0, _⟩ => blockAt V c 0 t
    | ⟨1, _⟩ => blockAt V c 1 t
    | ⟨2, _⟩ => broadcastBlock (blockAt V c 0 t) (blockAt V c 1 t)
  Φ _ := Pipeline.ΦA spec6 c
  q _ := fullShare
  owed _ := 0

theorem A_eq (c : Dev nD) (w : Fin cfg6.W) : (dat V c).A w = V c (Pipeline.arrRef spec6 w) := rfl

theorem after_out (c : Dev nD) (t : Fin cfg6.N) :
    (dat V c).after 2 t = broadcastBlock (blockAt V c 0 t) (blockAt V c 1 t) := by dsimp only [dat]

theorem staged (c : Dev nD) (t : Fin cfg6.N) :
    (∀ d, (dat V c).before 0 t d = blockAt V c 0 t) ∧ ∀ d, (dat V c).before 1 t d = blockAt V c 1 t := by
  refine ⟨?_, ?_⟩ <;> exact (dat V c).before_in_eq_fetched _ rfl (fun _ => rfl) (fun _ _ _ => rfl) (fun _ => rfl) t

theorem body_obligation (c : Dev nD) : BodyObligation (dat (F := F) V c) (defs₀ (F := F)) Variants.none () Set.univ := fun t => by
  simp only [bigSep_W6, staged V c t]
  dsimp only [dat, Dat.owesAt, Dat.bound]
  show _ ⊢ wp frame _ _ (bodyAt6 t) _
  simp only [bodyAt6, cc6_kernel_eq_skeleton]; unfold cc6_kernel_skel owns
  iintro ⟨HΦ, Ho, ⟨%d0, %f0, %hf0, H0⟩, ⟨%d1, %f1, %hf1, H1⟩, ⟨%d2, %f2, -, H2⟩⟩
  sl_exec
  sl_step
  iframe HΦ Ho
  isplitl [H0]; · iexists f0; iframe H0 %hf0
  isplitl [H1]; · iexists f1; iframe H1 %hf1
  iexists _; iframe H2; ipureintro
  rw [← hf0, ← hf1]
  exact View.read_writes_eq_canon _ _ _ (View.cover_of_tiled [⟨outRect, _⟩] S1000x9.size (by rfl))

theorem hin (c : Dev nD) : (Pipeline.ΦA spec6 c : sProp 𝕄) ⊢ (dat V c).Φ 0 := BIBase.Entails.rfl

theorem hout (c : Dev nD) : (dat V c).Φ (Fin.last cfg6.N) ⊢ (Pipeline.ΦA spec6 c : sProp 𝕄) := BIBase.Entails.rfl

end Cert.Kernel.Reg6

end
-- ==== Proof.K.Fold.lean ====
import proofs.«429425_j21053929685331_2_alg».proof.Proof.Gen.Kernel.Regions
import proofs.«429425_j21053929685331_2_alg».proof.Proof.K.Reg0
import proofs.«429425_j21053929685331_2_alg».proof.Proof.K.Reg1
import proofs.«429425_j21053929685331_2_alg».proof.Proof.K.Reg2
import proofs.«429425_j21053929685331_2_alg».proof.Proof.K.Reg3
import proofs.«429425_j21053929685331_2_alg».proof.Proof.K.Reg4
import proofs.«429425_j21053929685331_2_alg».proof.Proof.K.Reg5
import proofs.«429425_j21053929685331_2_alg».proof.Proof.K.Reg6
import Idealize.ShloMosaic.Lib.Pipeline.FrameSuffix

noncomputable section

namespace Cert.Kernel

open Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg)

namespace Fold

abbrev launchSt : MemSt nD τ sig (Elt F) := ⟨m, fun _ => 0, ρ⟩

/-- A core's buffers read at its own references. -/
abbrev tcOf (W : Dev nD → Valuation τ sig (Elt F)) : (c : Dev nD) → (b : Ref sig .tc) → Buf (Elt F) ((c : Thread nD τ).loc b) :=
  fun c b => W c b

abbrev W0 : Dev nD → Valuation τ sig (Elt F) := fun c b => (launchSt m ρ).mem ((c : Dev nD), b)
abbrev V0 := tcOf (W0 m ρ)
abbrev W1 : Dev nD → Valuation τ sig (Elt F) := fun c => StableHlo.after hostOps0 (W0 m ρ c)
abbrev V1 := tcOf (W1 m ρ)
def W2 (c : Dev nD) : Valuation τ sig (Elt F) :=
  Pipeline.withArrays spec0 c (W1 m ρ c) fun w => (Reg0.dat (V1 m ρ) c).arrAt w cfg0.N
abbrev V2 := tcOf (W2 m ρ)
abbrev W3 : Dev nD → Valuation τ sig (Elt F) := fun c => StableHlo.after hostOps1 (W2 m ρ c)
abbrev V3 := tcOf (W3 m ρ)
def W4 (c : Dev nD) : Valuation τ sig (Elt F) :=
  Pipeline.withArrays spec1 c (W3 m ρ c) fun w => (Reg1.dat (V3 m ρ) c).arrAt w cfg1.N
abbrev V4 := tcOf (W4 m ρ)
def W5 (c : Dev nD) : Valuation τ sig (Elt F) :=
  Pipeline.withArrays spec2 c (W4 m ρ c) fun w => (Reg2.dat (V4 m ρ) c).arrAt w cfg2.N
abbrev V5 := tcOf (W5 m ρ)
abbrev W6 : Dev nD → Valuation τ sig (Elt F) := fun c => StableHlo.after hostOps3 (W5 m ρ c)
abbrev V6 := tcOf (W6 m ρ)
def W7 (c : Dev nD) : Valuation τ sig (Elt F) :=
  Pipeline.withArrays spec3 c (W6 m ρ c) fun w => (Reg3.dat (V6 m ρ) c).arrAt w cfg3.N
abbrev V7 := tcOf (W7 m ρ)
def W8 (c : Dev nD) : Valuation τ sig (Elt F) :=
  Pipeline.withArrays spec4 c (W7 m ρ c) fun w => (Reg4.dat (V7 m ρ) c).arrAt w cfg4.N
abbrev V8 := tcOf (W8 m ρ)
abbrev W9 : Dev nD → Valuation τ sig (Elt F) := fun c => StableHlo.after hostOps5 (W8 m ρ c)
abbrev V9 := tcOf (W9 m ρ)
def W10 (c : Dev nD) : Valuation τ sig (Elt F) :=
  Pipeline.withArrays spec5 c (W9 m ρ c) fun w => (Reg5.dat (V9 m ρ) c).arrAt w cfg5.N
abbrev V10 := tcOf (W10 m ρ)
abbrev W11 : Dev nD → Valuation τ sig (Elt F) := fun c => StableHlo.after hostOps6 (W10 m ρ c)
abbrev V11 := tcOf (W11 m ρ)
abbrev W12 : Dev nD → Valuation τ sig (Elt F) := fun c => StableHlo.after hostOps6_1 (W11 m ρ c)
abbrev V12 := tcOf (W12 m ρ)
abbrev W13 : Dev nD → Valuation τ sig (Elt F) := fun c => StableHlo.after hostOps6_2 (W12 m ρ c)
abbrev V13 := tcOf (W13 m ρ)
abbrev W14 : Dev nD → Valuation τ sig (Elt F) := fun c => StableHlo.after hostOps6_3 (W13 m ρ c)
abbrev V14 := tcOf (W14 m ρ)
abbrev W15 : Dev nD → Valuation τ sig (Elt F) := fun c => StableHlo.after hostOps6_4 (W14 m ρ c)
abbrev V15 := tcOf (W15 m ρ)
def W16 (c : Dev nD) : Valuation τ sig (Elt F) :=
  Pipeline.withArrays spec6 c (W15 m ρ c) fun w => (Reg6.dat (V15 m ρ) c).arrAt w cfg6.N
abbrev V16 := tcOf (W16 m ρ)

theorem W2_arr (c : Dev nD) (w : Fin cfg0.W) :
    W2 m ρ c (Proc.devRef .tc (Pipeline.arrRef spec0 w)) = (Reg0.dat (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W4_arr (c : Dev nD) (w : Fin cfg1.W) :
    W4 m ρ c (Proc.devRef .tc (Pipeline.arrRef spec1 w)) = (Reg1.dat (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W5_arr (c : Dev nD) (w : Fin cfg2.W) :
    W5 m ρ c (Proc.devRef .tc (Pipeline.arrRef spec2 w)) = (Reg2.dat (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
theorem W7_arr (c : Dev nD) (w : Fin cfg3.W) :
    W7 m ρ c (Proc.devRef .tc (Pipeline.arrRef spec3 w)) = (Reg3.dat (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
theorem W8_arr (c : Dev nD) (w : Fin cfg4.W) :
    W8 m ρ c (Proc.devRef .tc (Pipeline.arrRef spec4 w)) = (Reg4.dat (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb
theorem W10_arr (c : Dev nD) (w : Fin cfg5.W) :
    W10 m ρ c (Proc.devRef .tc (Pipeline.arrRef spec5 w)) = (Reg5.dat (V9 m ρ) c).arrAt w cfg5.N :=
  Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) :=
  Pipeline.withArrays_of_ne spec5 c _ _ b hb
theorem W16_arr (c : Dev nD) (w : Fin cfg6.W) :
    W16 m ρ c (Proc.devRef .tc (Pipeline.arrRef spec6 w)) = (Reg6.dat (V15 m ρ) c).arrAt w cfg6.N :=
  Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) :=
  Pipeline.withArrays_of_ne spec6 c _ _ b hb

/-- The arrays of a region's output windows. -/
def outs (cfg : Pipeline.Cfg sig Λ₀) : List (Ref sig .tc) :=
  ((List.finRange cfg.W).filter fun w => (cfg.win w).isOut).map (Pipeline.arrRef cfg.spec)

/-- `arrAt` is constant on an input window, so `W'` (the fold's last stage on the arrays, `W` elsewhere) differs from `W` only on output arrays. -/
theorem keep_of (cfg : Pipeline.Cfg sig Λ₀) {c : Dev nD} {W W' : Valuation τ sig (Elt F)}
    (D : Dat τ (Elt F) Unit ℕ (UR sig nD τ) ℕ cfg c)
    (harr : ∀ w, W' (Proc.devRef .tc (Pipeline.arrRef cfg.spec w)) = D.arrAt w cfg.N)
    (hne : ∀ b, (∀ w, Pipeline.arrRef cfg.spec w ≠ b) → W' (Proc.devRef .tc b) = W (Proc.devRef .tc b))
    (hA : ∀ w, D.A w = W (Proc.devRef .tc (Pipeline.arrRef cfg.spec w))) {b : Ref sig .tc} (hb : b ∉ outs cfg) :
    W' (Proc.devRef .tc b) = W (Proc.devRef .tc b) := by
  by_cases h : ∃ w, Pipeline.arrRef cfg.spec w = b
  · obtain ⟨w, rfl⟩ := h
    rw [harr, D.arrAt_in w (by_contra fun ho => hb (List.mem_map.2
      ⟨w, List.mem_filter.2 ⟨List.mem_finRange w, by simpa using ho⟩, rfl⟩)), hA]
  · exact hne b fun w e => h ⟨w, e⟩

/-- The buffers item `k` of the program may change: those a host stretch writes, a region's output arrays. -/
def touched : Nat → List (Ref sig .tc)
  | 0 => hostOps0_W
  | 1 => outs cfg0
  | 2 => hostOps1_W
  | 3 => outs cfg1
  | 4 => outs cfg2
  | 5 => hostOps3_W
  | 6 => outs cfg3
  | 7 => outs cfg4
  | 8 => hostOps5_W
  | 9 => outs cfg5
  | 10 => hostOps6_W
  | 11 => hostOps6_1_W
  | 12 => hostOps6_2_W
  | 13 => hostOps6_3_W
  | 14 => hostOps6_4_W
  | 15 => outs cfg6
  | _ => []

end Fold

namespace Chain

open Fold

/-- Boundary `k`'s contents; every `k ≥ 16` names the last boundary. -/
def Wat : Nat → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | _ => W16 m ρ

abbrev Spares (k : Nat) (b : Ref sig .tc) : Prop := b ∉ touched k

theorem Wat_succ_lo (c : Dev nD) {b : Ref sig .tc} (k : Nat) (hk : k < 8) (h : Spares k b) :
    Wat m ρ (k + 1) c (Proc.devRef .tc b) = Wat m ρ k c (Proc.devRef .tc b) := by
  by_cases e : k = 0; · subst e; exact StableHlo.after_of_writes_sub hostOps0 _ hostOps0_writes h
  by_cases e : k = 1; · subst e; exact keep_of cfg0 _ (W2_arr m ρ c) (W2_of_ne m ρ c) (Reg0.A_eq (V1 m ρ) c) h
  by_cases e : k = 2; · subst e; exact StableHlo.after_of_writes_sub hostOps1 _ hostOps1_writes h
  by_cases e : k = 3; · subst e; exact keep_of cfg1 _ (W4_arr m ρ c) (W4_of_ne m ρ c) (Reg1.A_eq (V3 m ρ) c) h
  by_cases e : k = 4; · subst e; exact keep_of cfg2 _ (W5_arr m ρ c) (W5_of_ne m ρ c) (Reg2.A_eq (V4 m ρ) c) h
  by_cases e : k = 5; · subst e; exact StableHlo.after_of_writes_sub hostOps3 _ hostOps3_writes h
  by_cases e : k = 6; · subst e; exact keep_of cfg3 _ (W7_arr m ρ c) (W7_of_ne m ρ c) (Reg3.A_eq (V6 m ρ) c) h
  by_cases e : k = 7; · subst e; exact keep_of cfg4 _ (W8_arr m ρ c) (W8_of_ne m ρ c) (Reg4.A_eq (V7 m ρ) c) h
  omega

theorem Wat_succ (c : Dev nD) {b : Ref sig .tc} (k : Nat) (h : Spares k b) :
    Wat m ρ (k + 1) c (Proc.devRef .tc b) = Wat m ρ k c (Proc.devRef .tc b) := by
  by_cases hk : k < 8; · exact Wat_succ_lo m ρ c k hk h
  by_cases e : k = 8; · subst e; exact StableHlo.after_of_writes_sub hostOps5 _ hostOps5_writes h
  by_cases e : k = 9; · subst e; exact keep_of cfg5 _ (W10_arr m ρ c) (W10_of_ne m ρ c) (Reg5.A_eq (V9 m ρ) c) h
  by_cases e : k = 10; · subst e; exact StableHlo.after_of_writes_sub hostOps6 _ hostOps6_writes h
  by_cases e : k = 11; · subst e; exact StableHlo.after_of_writes_sub hostOps6_1 _ hostOps6_1_writes h
  by_cases e : k = 12; · subst e; exact StableHlo.after_of_writes_sub hostOps6_2 _ hostOps6_2_writes h
  by_cases e : k = 13; · subst e; exact StableHlo.after_of_writes_sub hostOps6_3 _ hostOps6_3_writes h
  by_cases e : k = 14; · subst e; exact StableHlo.after_of_writes_sub hostOps6_4 _ hostOps6_4_writes h
  by_cases e : k = 15; · subst e; exact keep_of cfg6 _ (W16_arr m ρ c) (W16_of_ne m ρ c) (Reg6.A_eq (V15 m ρ) c) h
  obtain ⟨j, rfl⟩ : ∃ j, k = j + 16 := ⟨k - 16, by omega⟩
  rfl

/-- What no item from `lo` up to `hi` may change is the same at both boundaries. -/
theorem kept (c : Dev nD) (b : Ref sig .tc) (lo hi : Nat) (hle : lo ≤ hi)
    (h : ∀ k, k < hi - lo → Spares (lo + k) b) :
    Wat m ρ hi c (Proc.devRef .tc b) = Wat m ρ lo c (Proc.devRef .tc b) := by
  obtain ⟨n, rfl⟩ := Nat.exists_eq_add_of_le hle
  rw [Nat.add_sub_cancel_left] at h
  clear hle
  induction n with
  | zero => rfl
  | succ n ih => exact (Wat_succ m ρ c (lo + n) (h n n.lt_succ_self)).trans (ih fun k hk => h k (Nat.lt_succ_of_lt hk))

end Chain

namespace Fold

theorem W16_main_arg0 (c : Dev nD) : W16 m ρ c (Proc.devRef .tc main_arg0) = m ((c : Thread nD τ).loc main_arg0) :=
  Chain.kept m ρ c main_arg0 0 16 (by decide) (by decide)
theorem W16_main_arg1 (c : Dev nD) : W16 m ρ c (Proc.devRef .tc main_arg1) = m ((c : Thread nD τ).loc main_arg1) :=
  Chain.kept m ρ c main_arg1 0 16 (by decide) (by decide)
theorem W16_main_arg2 (c : Dev nD) : W16 m ρ c (Proc.devRef .tc main_arg2) = m ((c : Thread nD τ).loc main_arg2) :=
  Chain.kept m ρ c main_arg2 0 16 (by decide) (by decide)
theorem W16_main_arg3 (c : Dev nD) : W16 m ρ c (Proc.devRef .tc main_arg3) = m ((c : Thread nD τ).loc main_arg3) :=
  Chain.kept m ρ c main_arg3 0 16 (by decide) (by decide)
theorem W16_main_arg4 (c : Dev nD) : W16 m ρ c (Proc.devRef .tc main_arg4) = m ((c : Thread nD τ).loc main_arg4) :=
  Chain.kept m ρ c main_arg4 0 16 (by decide) (by decide)
theorem W16_main_arg5 (c : Dev nD) : W16 m ρ c (Proc.devRef .tc main_arg5) = m ((c : Thread nD τ).loc main_arg5) :=
  Chain.kept m ρ c main_arg5 0 16 (by decide) (by decide)
theorem W16_main_arg6 (c : Dev nD) : W16 m ρ c (Proc.devRef .tc main_arg6) = m ((c : Thread nD τ).loc main_arg6) :=
  Chain.kept m ρ c main_arg6 0 16 (by decide) (by decide)
theorem W16_main_arg7 (c : Dev nD) : W16 m ρ c (Proc.devRef .tc main_arg7) = m ((c : Thread nD τ).loc main_arg7) :=
  Chain.kept m ρ c main_arg7 0 16 (by decide) (by decide)
theorem W16_main_arg8 (c : Dev nD) : W16 m ρ c (Proc.devRef .tc main_arg8) = m ((c : Thread nD τ).loc main_arg8) :=
  Chain.kept m ρ c main_arg8 0 16 (by decide) (by decide)

end Fold

end Cert.Kernel

end
-- ==== Proof.K.Run.lean ====
import proofs.«429425_j21053929685331_2_alg».proof.Proof.K.Fold
import Idealize.ShloMosaic.Lib.Pipeline.RegionsLoop

noncomputable section

namespace Cert.Kernel.Run

open Cert.Kernel Cert.Kernel.Fold
open Cert.Kernel.Gen hiding V0 V1 V2 V3 V4 V5 V6 V7 V8 V9 V10 V11 V12 V13 V14 V15 V16 segs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | 0 => Reg0.dat (V1 m ρ)
  | 1 => Reg1.dat (V3 m ρ)
  | 2 => Reg2.dat (V4 m ρ)
  | 3 => Reg3.dat (V6 m ρ)
  | 4 => Reg4.dat (V7 m ρ)
  | 5 => Reg5.dat (V9 m ρ)
  | 6 => Reg6.dat (V15 m ρ)

abbrev vars : Variants := Variants.none
abbrev lvls : GSem nD τ sig → Finset Unit := fun _ => ∅
abbrev lvOf : GSem nD τ sig → Unit → ℕ := fun _ _ => 0

abbrev carried (c : Dev nD) : sProp 𝕄 :=
  iprop((∃ r, prngReg c r) ∗ ∃ W, owes (c : Thread nD τ) (0 : CellTallies nD τ sig Unit) W)

/-- The state between two items, when the buffers hold the contents `W c`. -/
abbrev stateAt (W : Dev nD → Valuation τ sig (Elt F)) (c : Dev nD) : sProp 𝕄 :=
  iprop(StableHlo.held (c : Thread nD τ) (Pipeline.ucRefs τ sig) (W c) ∗ carried c)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lvOf :=
  Pipeline.HostSeg.ofOps _ _ _ _ _ (Pipeline.ucRefs τ sig) ops
    (fun op h => Pipeline.sub_ucRefs op (List.forall_iff_forall_mem.mp hsub op h))
    (List.forall_iff_forall_mem.mp hfresh) W carried

/-- One record for all seven regions: entered at `W`, left at `W'`, which differs from `W` at the region's arrays only. -/
def reg (p : Fin 7) (L : Pipeline.LaunchFacts (nD := nD) (τ := τ) cfgs p) (W W' : Dev nD → Valuation τ sig (Elt F))
    (hb : ∀ c, Pipeline.BodyObligation (pdats m ρ p c) defs₀ vars () Set.univ)
    (hi : ∀ c, Pipeline.ΦA (cfgs p).spec c ⊢ (pdats m ρ p c).Φ 0)
    (ho : ∀ c, (pdats m ρ p c).Φ (Fin.last _) ⊢ Pipeline.ΦA (cfgs p).spec c)
    (hF : ∀ c w, W' c (Pipeline.arrRef (cfgs p).spec w) = (pdats m ρ p c).arrAt w (cfgs p).N)
    (hne : ∀ c (b : Ref sig .tc), (∀ w, Pipeline.arrRef (cfgs p).spec w ≠ b) → W' c b = W c b)
    (hq : ∀ c w, (pdats m ρ p c).q w = fullShare := by intros; rfl)
    (h0 : ∀ c t, (pdats m ρ p c).owed t = 0 := by intros; rfl)
    (hr : ∀ c, (pdats m ρ p c).recorded 0 = Set.univ := by intros; rfl)
    (hA : ∀ c w, (pdats m ρ p c).A w = W c (Pipeline.arrRef (cfgs p).spec w) := by intros; rfl) :
    Pipeline.RegionSeg (pcfgs (F := F)) adm (pdats m ρ) () defs₀ vars lvls lvOf p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ lvls lvOf p h0
  pre := stateAt W
  post := stateAt W'
  X c := iprop(∃ r, prngReg c r)
  Y c := iprop(∃ r, prngReg c r)
  Z c := Pipeline.unscopedRest (cfgs p).spec c fun b => W c b
  hentry c := by
    have hs := Pipeline.arrays_of_unscopedBufs (p := p) (pcfgs (F := F)) adm (pdats m ρ) L.win L.arr_whole c
      ((pdats m ρ p c).share_full (hq c)) (fun b => W c b) (hA c)
    rw [Pipeline.unscopedBufs_held] at hs
    unfold Pipeline.prefHeld Pipeline.Dat.owesAt Pipeline.owesWithin
    rw [h0 c 0, show (Finset.univ : Finset (Fin 0)) = ∅ from rfl, BI.bigSep_empty]
    iintro ⟨⟨Hd, Hg, %O, HO⟩, -⟩
    ihave H := hs $$ Hd
    icases H with ⟨Ha, Hr⟩
    imodintro
    isplitl [Ha]; · iexact Ha
    isplitr; · iempintro
    isplitl [HO]
    · iexists O; isplitr
      · ipureintro; exact fun _ _ => .inl (hr c ▸ trivial)
      iexact HO
    isplitl [Hg] <;> iassumption
  hin c := by
    refine .trans ?_ (hi c)
    unfold Pipeline.ΦA
    iintro ⟨Hg, -, Hs⟩
    isplitl [Hs] <;> iassumption
  hout c := by
    refine (ho c).trans ?_
    rw [Pipeline.ownSems0_none]; unfold Pipeline.ΦA
    iintro ⟨Hs, Hg⟩
    isplitl [Hg]; · iexact Hg
    isplitr; · iempintro
    iexact Hs
  hexit c := by
    have hj := Pipeline.unscopedBufs_of_arrays (p := p) (pcfgs (F := F)) adm L.win L.arr_whole c (pdats m ρ)
      ((pdats m ρ p c).share_full (hq c))
      (fun b => W c b) (fun b => W' c b) ((pdats m ρ p c).arrAt · (cfgs p).N) (fun w => (hF c w).symm)
      (fun b hb => hne c b fun w e => hb (Finset.mem_image.mpr ⟨w, Finset.mem_univ _, e⟩))
    rw [Pipeline.unscopedBufs_held] at hj
    unfold Pipeline.Dat.owesAt Pipeline.owesWithin
    rw [h0 c _]
    iintro ⟨Ha, ⟨%O, -, HO⟩, HY, Hr⟩
    imodintro
    isplitl [Ha Hr]
    · iapply hj; isplitl [Ha] <;> iassumption
    isplitl [HY]; · iexact HY
    iexists O; iexact HO

abbrev segs : List (Pipeline.Seg (pcfgs (F := F)) adm (pdats m ρ) () defs₀ vars lvls lvOf) :=
  [ .host (hostSeg hostOps0 hostOps0_sub hostOps0_fresh (W0 m ρ)),
    .region (reg m ρ 0 launch0 (W1 m ρ) (W2 m ρ) (Reg0.body_obligation _) (Reg0.hin _) (Reg0.hout _)
      (W2_arr m ρ) (W2_of_ne m ρ)),
    .host (hostSeg hostOps1 hostOps1_sub hostOps1_fresh (W2 m ρ)),
    .region (reg m ρ 1 launch1 (W3 m ρ) (W4 m ρ) (Reg1.body_obligation _) (Reg1.hin _) (Reg1.hout _)
      (W4_arr m ρ) (W4_of_ne m ρ)),
    .region (reg m ρ 2 launch2 (W4 m ρ) (W5 m ρ) (Reg2.body_obligation _) (Reg2.hin _) (Reg2.hout _)
      (W5_arr m ρ) (W5_of_ne m ρ)),
    .host (hostSeg hostOps3 hostOps3_sub hostOps3_fresh (W5 m ρ)),
    .region (reg m ρ 3 launch3 (W6 m ρ) (W7 m ρ) (Reg3.body_obligation _) (Reg3.hin _) (Reg3.hout _)
      (W7_arr m ρ) (W7_of_ne m ρ)),
    .region (reg m ρ 4 launch4 (W7 m ρ) (W8 m ρ) (Reg4.body_obligation _) (Reg4.hin _) (Reg4.hout _)
      (W8_arr m ρ) (W8_of_ne m ρ)),
    .host (hostSeg hostOps5 hostOps5_sub hostOps5_fresh (W8 m ρ)),
    .region (reg m ρ 5 launch5 (W9 m ρ) (W10 m ρ) (Reg5.body_obligation _) (Reg5.hin _) (Reg5.hout _)
      (W10_arr m ρ) (W10_of_ne m ρ)),
    .host (hostSeg hostOps6 hostOps6_sub hostOps6_fresh (W10 m ρ)),
    .host (hostSeg hostOps6_1 hostOps6_1_sub hostOps6_1_fresh (W11 m ρ)),
    .host (hostSeg hostOps6_2 hostOps6_2_sub hostOps6_2_fresh (W12 m ρ)),
    .host (hostSeg hostOps6_3 hostOps6_3_sub hostOps6_3_fresh (W13 m ρ)),
    .host (hostSeg hostOps6_4 hostOps6_4_sub hostOps6_4_fresh (W14 m ρ)),
    .region (reg m ρ 6 launch6 (W15 m ρ) (W16 m ρ) (Reg6.body_obligation _) (Reg6.hin _) (Reg6.hout _)
      (W16_arr m ρ) (W16_of_ne m ρ)) ]

/-- Every fair execution from `m` terminates, and each buffer ends at the contents `W16`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W16 m ρ c b) :=
  Pipeline.θ_run_regions_kit (pcfgs (F := F)) adm (pdats m ρ) () cellOf_inj emb₁ defs₀ vars lvls lvOf m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const, ownU_emb₁]
      iintro Hu
      imodintro
      isplitl [Hu]; · iexact Hu
      iempintro)
    (T₀ := stateAt (W0 m ρ))
    (Tₙ := fun c => iprop(StableHlo.held (c : Thread nD τ) (Pipeline.ucRefs τ sig) (W16 m ρ c) ∗ ∃ r, prngReg c r))
    (hch := by and_intros <;> intro c <;> first | exact .rfl | exact sep_assoc')
    (hinit := by
      refine Pipeline.initEach lvls lvOf fun c => ?_
      rw [show unscopedBufs c (fun b => m ((c : Thread nD τ).loc b)) = _ from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := _)
    (hfin := fun c s' => by
      iintro ⟨⟨Hh, -⟩, HSI⟩
      unfold StableHlo.held
      imodintro
      iapply (pointsTo_read_all (Pipeline.ucRefs τ sig) (fun b => ((c : Thread nD τ).1, b)) (W16 m ρ c) s')
      iframe)
    (hQ := fun _ h => h)

theorem run_result : θ_run defs (onTc (τ := τ) (main (F := F))) ⟨m, fun _ => 0, ρ⟩ (fun r => ∀ c : Dev nD,
      r.2.mem ((c.tc : Thread nD τ).loc main_v83) = W16 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_all m ρ)
  have a {b : Ref sig .tc} {x} (e : W16 m ρ c (Proc.devRef .tc b) = x)
      (hb : ¬ (Proc.devRef .tc b : DevRef τ sig).isScoped := by decide) :=
    (h c _ (Finset.mem_filter.mpr ⟨StableHlo.devRef_mem_tcRefs b, hb⟩)).trans e
  exact ⟨a rfl, a (W16_main_arg0 m ρ c), a (W16_main_arg1 m ρ c), a (W16_main_arg2 m ρ c), a (W16_main_arg3 m ρ c),
    a (W16_main_arg4 m ρ c), a (W16_main_arg5 m ρ c), a (W16_main_arg6 m ρ c), a (W16_main_arg7 m ρ c), a (W16_main_arg8 m ρ c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Run
end
-- ==== Proof.KI.Reg0.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

theorem hz2 : ∀ a, (![0, 0] : Fin 2 → Nat) a = 0 := by decide

section
variable {κ : Kind} {sp : Space} {S : Shape} {e : EltTy} (v : View sig κ sp S e) {off : Fin S.rank → Nat} (hz : ∀ a, off a = 0)
  (inb : ∀ a, off a + S.size a ≤ S.size a) (w : S.Idx → Elt F e) (L : List (View.Piece (Elt F) S e))
include hz

theorem stored_whole (f : v.ty.Contents (Elt F)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero (funext hz) inb y⟩)).trans
    (View.canon_cons_unit_zero (funext hz) inb w L)

theorem loaded_whole (f : v.ty.Contents (Elt F)) : v.readAt (Elt F) (Rect.unit off S.size inb).toLoadRect f = v.read (Elt F) f :=
  View.ld_unit_zero (funext hz) inb _

theorem reloaded_whole : v.readCov ((⟨Rect.unit off S.size inb, w⟩ : View.Piece (Elt F) S e) :: L) (Rect.unit off S.size inb).toLoadRect = w := by
  obtain rfl := funext hz
  rw [View.readCov_eq_canon_ld _ _ _ (fun y => ⟨_, List.mem_cons_self, View.mem_set_unit_zero rfl inb y⟩),
    View.canon_cons_unit_zero rfl, View.ld_unit_zero rfl]

end

abbrev addSum (x : Vec F S1000x3 .f32) (w : Vec F S3x64 .f32) (ids : Vec F S1000x1 .i32) (acc : Vec F S16x64 .f32) : Vec F S16x64 .f32 :=
  k0_pay10 x w ids acc

abbrev addSq (x : Vec F S1000x3 .f32) (w : Vec F S3x64 .f32) (ids : Vec F S1000x1 .i32) (acc : Vec F S16x64 .f32) : Vec F S16x64 .f32 :=
  k0_pay11 x w ids acc

abbrev addCnt (ids : Vec F S1000x1 .i32) (acc : Vec F S16x1 .f32) : Vec F S16x1 .f32 :=
  k0_pay1 (k0_pay9 ids) (k0_pay12 (F := F)) acc (constant S16x1 .f32 0x00000000#32)

abbrev resets (i : grid0.Coords) : Prop :=
  (Scalar.cmpi .ne (Scalar.extui (Scalar.cmpi .eq (BitVec.ofNat 32 (i 1).val) 0#32)) 0#32) = 1#1

theorem resets_iff : ∀ t : Fin cfg0.N, resets (grid0.coords t) ↔ t.val % 125 = 0 :=
  (by decide +kernel : ∀ t : Fin grid0.N, resets (grid0.coords t) ↔ t.val % 125 = 0)

set_option maxHeartbeats 4000000 in
theorem kernel_body {c : Dev nD} {E : Set ℕ} {i arg2 harg2 arg3 harg3 arg4 harg4 arg5 harg5 arg6 harg6 arg7 harg7 arg8 harg8 arg9 harg9 arg10 harg10 arg11 harg11}
    {x0 x1 x2 d3 d4 d5 d6 s0 s1 s2 a0 a1 a2} {K : PUnit → sProp 𝕄}
    (ha : resets i ∧ a0 = k0_pay5 ∧ a1 = k0_pay6 ∧ a2 = k0_pay7 ∨ ¬resets i ∧ a0 = s0 ∧ a1 = s1 ∧ a2 = s2) :
    iprop(owns c arg2 fullShare x0 ∗ owns c arg3 fullShare x1 ∗ owns c arg4 fullShare x2
        ∗ owns c arg5 fullShare d3 ∗ owns c arg6 fullShare d4
        ∗ owns c arg7 fullShare d5 ∗ owns c arg8 fullShare d6
        ∗ owns c arg9 fullShare s0 ∗ owns c arg10 fullShare s1 ∗ owns c arg11 fullShare s2
        ∗ (iprop(owns c arg2 fullShare x0 ∗ owns c arg3 fullShare x1 ∗ owns c arg4 fullShare x2
            ∗ owns c arg5 fullShare (k0_pay8 x0 x1)
            ∗ owns c arg6 fullShare (k0_pay2 (addSum x0 x1 x2 a0))
            ∗ owns c arg7 fullShare (k0_pay3 (addSq x0 x1 x2 a1))
            ∗ owns c arg8 fullShare (k0_pay4 (addCnt x2 a2))
            ∗ owns c arg9 fullShare (addSum x0 x1 x2 a0)
            ∗ owns c arg10 fullShare (addSq x0 x1 x2 a1)
            ∗ owns c arg11 fullShare (addCnt x2 a2)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10 arg11 harg11) K := by
  obtain ⟨hc, rfl, rfl, rfl⟩ | ⟨hc, rfl, rfl, rfl⟩ := ha
  all_goals
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, -, H3⟩, ⟨%f4, -, H4⟩, ⟨%f5, -, H5⟩, ⟨%f6, -, H6⟩, ⟨%f7, %hf7, H7⟩, ⟨%f8, %hf8, H8⟩, ⟨%f9, %hf9, H9⟩, Hk⟩
    subst hf0 hf1 hf2 hf7 hf8 hf9
    sl_exec (disch := first | exact hc)
    sl_step
    iapply Hk
    isplitl [H0]; rotate_left
    isplitl [H1]; rotate_left
    isplitl [H2]; rotate_left
    isplitl [H3]; rotate_left
    isplitl [H4]; rotate_left
    isplitl [H5]; rotate_left
    isplitl [H6]; rotate_left
    isplitl [H7]; rotate_left
    isplitl [H8]; rotate_left
    all_goals
      iexists _; isplitr; swap; · iassumption
      ipureintro; sl_unfold_run_names
      first | with_reducible rfl | (
        refine (stored_whole _ (by decide) _ _ _ _).trans ?_
        simp only [loaded_whole arg2.view hz2, loaded_whole arg3.view hz2, loaded_whole arg4.view hz2, loaded_whole arg9.view hz2, loaded_whole arg10.view hz2,
          loaded_whole arg11.view hz2, reloaded_whole arg9.view hz2, reloaded_whole arg10.view hz2, reloaded_whole arg11.view hz2])

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xAt (c : Dev nD) (t : Fin cfg0.N) : Vec F S1000x3 .f32 := iblk V c 0 t
abbrev wAt (c : Dev nD) (t : Fin cfg0.N) : Vec F S3x64 .f32 := iblk V c 1 t
abbrev idAt (c : Dev nD) (t : Fin cfg0.N) : Vec F S1000x1 .i32 := iblk V c 2 t

def carried {α : Type} (z : α) (step : (n : ℕ) → n < cfg0.N → α → α) : (n : ℕ) → n < cfg0.N → α
  | 0, h => step 0 h z
  | n + 1, h => step (n + 1) h (if (n + 1) % 125 = 0 then z else carried z step n (Nat.lt_of_succ_lt h))

theorem carried_of_mod {α : Type} (z : α) (step : (n : ℕ) → n < cfg0.N → α → α) :
    ∀ (n : ℕ) (h : n < cfg0.N), n % 125 = 0 → carried z step n h = step n h z
  | 0, _, _ => rfl
  | n + 1, h, hm => congrArg (step (n + 1) h) (if_pos hm)

theorem carried_succ {α : Type} (z : α) (step : (n : ℕ) → n < cfg0.N → α → α) (n : ℕ) (h : n + 1 < cfg0.N)
    (hm : ¬(n + 1) % 125 = 0) : carried z step (n + 1) h = step (n + 1) h (carried z step n (Nat.lt_of_succ_lt h)) :=
  congrArg (step (n + 1) h) (if_neg hm)

theorem carried_pos {α : Type} (z : α) (step : (n : ℕ) → n < cfg0.N → α → α) :
    ∀ (n : ℕ) (h : n < cfg0.N), ¬n % 125 = 0 →
      carried z step n h = step n h (carried z step (n - 1) (Nat.lt_of_le_of_lt (Nat.sub_le _ _) h))
  | 0, _, hm => absurd (Nat.zero_mod _) hm
  | n + 1, h, hm => carried_succ z step n h hm

def sumAt (c : Dev nD) (n : ℕ) (h : n < cfg0.N) : Vec F S16x64 .f32 :=
  carried (k0_pay5 (F := F)) (fun n h acc => addSum (xAt V c ⟨n, h⟩) (wAt V c ⟨n, h⟩) (idAt V c ⟨n, h⟩) acc) n h
def sqAt (c : Dev nD) (n : ℕ) (h : n < cfg0.N) : Vec F S16x64 .f32 :=
  carried (k0_pay6 (F := F)) (fun n h acc => addSq (xAt V c ⟨n, h⟩) (wAt V c ⟨n, h⟩) (idAt V c ⟨n, h⟩) acc) n h
def cntAt (c : Dev nD) (n : ℕ) (h : n < cfg0.N) : Vec F S16x1 .f32 :=
  carried (k0_pay7 (F := F)) (fun n h acc => addCnt (idAt V c ⟨n, h⟩) acc) n h

abbrev scS : Memref sig .tc .vmem S16x64 .f32 := Memref.whole cc0_scratch0
abbrev scQ : Memref sig .tc .vmem S16x64 .f32 := Memref.whole cc0_scratch1
abbrev scC : Memref sig .tc .vmem S16x1 .f32 := Memref.whole cc0_scratch2

def tot (c : Dev nD) (s0 s1 : Vec F S16x64 .f32) (s2 : Vec F S16x1 .f32) : sProp 𝕄 :=
  iprop(((owns c scS fullShare s0 ∗ owns c scQ fullShare s1 ∗ owns c scC fullShare s2)
      ∗ Pipeline.scopedRestBut spec0 c [cc0_scratch0, cc0_scratch1, cc0_scratch2]) ∗ (∃ r, prngReg c r))

def inv (c : Dev nD) : (n : ℕ) → n ≤ cfg0.N → sProp 𝕄
  | 0, _ => Pipeline.ΦA spec0 c
  | n + 1, hn => tot c (sumAt V c n hn) (sqAt V c n hn) (cntAt V c n hn)

theorem inv_zero (c : Dev nD) (n : ℕ) (h : n ≤ cfg0.N) (hz : n = 0) : inv V c n h = Pipeline.ΦA spec0 c := by
  subst hz; rfl

theorem inv_pos (c : Dev nD) : ∀ (n : ℕ) (h : n ≤ cfg0.N) (hz : n ≠ 0),
    inv V c n h = tot c (sumAt V c (n - 1) (by omega)) (sqAt V c (n - 1) (by omega)) (cntAt V c (n - 1) (by omega))
  | 0, _, hz => absurd rfl hz
  | n + 1, _, _ => rfl

theorem PhiA_eq (c : Dev nD) :
    (Pipeline.ΦA spec0 c : sProp 𝕄)
      = iprop(iprop(iprop((∃ d, owns c scS fullShare d) ∗ (∃ d, owns c scQ fullShare d)
            ∗ (∃ d, owns c scC fullShare d))
          ∗ Pipeline.scopedRestBut spec0 c [cc0_scratch0, cc0_scratch1, cc0_scratch2]) ∗ (∃ r, prngReg c r)) := by
  unfold Pipeline.ΦA; rw [scopedRest0_split]; simp only [scS, scQ, scC, owns_whole]; try rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay8 (xAt V c t) (wAt V c t)
    | ⟨4, _⟩ => k0_pay2 (sumAt V c t.val t.isLt)
    | ⟨5, _⟩ => k0_pay3 (sqAt V c t.val t.isLt)
    | ⟨6, _⟩ => k0_pay4 (cntAt V c t.val t.isLt)
  Φ t := inv V c t.val (Nat.le_of_lt_succ t.isLt)
  q _ := fullShare
  owed _ := 0

theorem A_eq (c : Dev nD) (w : Fin cfg0.W) : (dat V c).A w = V c (Pipeline.arrRef spec0 w) := rfl

theorem after_3 (c : Dev nD) (t : Fin cfg0.N) : (dat V c).after 3 t = k0_pay8 (xAt V c t) (wAt V c t) := rfl
theorem after_4 (c : Dev nD) (t : Fin cfg0.N) : (dat V c).after 4 t = k0_pay2 (sumAt V c t.val t.isLt) := rfl
theorem after_5 (c : Dev nD) (t : Fin cfg0.N) : (dat V c).after 5 t = k0_pay3 (sqAt V c t.val t.isLt) := rfl
theorem after_6 (c : Dev nD) (t : Fin cfg0.N) : (dat V c).after 6 t = k0_pay4 (cntAt V c t.val t.isLt) := rfl

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl

theorem sound_body (c : Dev nD) (t : Fin cfg0.N) :
    iprop(inv V c t.val (Nat.le_of_lt t.isLt) ∗ (dat V c).owesAt () t.castSucc
      ∗ bigSep Finset.univ fun w => iprop(∃ d, owns c ((cfg0.win w).stage (cfg0.slots t w)) fullShare ((dat V c).before w t d)))
    ⊢ wp frame (wpE (defs₀ (F := F)) Variants.none c none) Set.univ (bodyAt0 t) (fun _ =>
      iprop(tot c (sumAt V c t.val t.isLt) (sqAt V c t.val t.isLt) (cntAt V c t.val t.isLt) ∗ (dat V c).owesAt () t.castSucc
        ∗ bigSep Finset.univ fun w => owns c ((cfg0.win w).stage (cfg0.slots t w)) fullShare ((dat V c).after w t))) := by
  unfold bodyAt0
  rw [bigSep_W0, bigSep_W0, show (dat V c).after 0 t = iblk V c 0 t from rfl, show (dat V c).after 1 t = iblk V c 1 t from rfl,
    show (dat V c).after 2 t = iblk V c 2 t from rfl, after_3, after_4, after_5, after_6]
  simp only [before_0, before_1, before_2]
  by_cases hz : t.val = 0
  · have h0 : t.val % 125 = 0 := by rw [hz]
    rw [inv_zero V c _ _ hz, PhiA_eq]; unfold tot sumAt sqAt cntAt
    simp only [carried_of_mod _ _ _ _ h0]
    iintro ⟨⟨⟨⟨⟨%e0, HS⟩, ⟨%e1, HQ⟩, ⟨%e2, HC⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply kernel_body (.inl ⟨(resets_iff t).2 h0, rfl, rfl, rfl⟩)
    iframe
    iintro ⟨H0, H1, H2, H3, H4, H5, H6, HS, HQ, HC⟩
    iframe
  · rw [inv_pos V c _ _ hz]; unfold tot sumAt sqAt cntAt
    by_cases h0 : t.val % 125 = 0 <;> [simp only [carried_of_mod _ _ _ _ h0]; simp only [carried_pos _ _ _ _ h0]] <;>
      iintro ⟨⟨⟨⟨HS, HQ, HC⟩, HR⟩, Hg⟩, Ho, ⟨%d0, H0⟩, ⟨%d1, H1⟩, ⟨%d2, H2⟩, ⟨%d3, H3⟩, ⟨%d4, H4⟩, ⟨%d5, H5⟩, ⟨%d6, H6⟩⟩ <;>
      [iapply kernel_body (.inl ⟨(resets_iff t).2 h0, rfl, rfl, rfl⟩); iapply kernel_body (.inr ⟨mt (resets_iff t).1 h0, rfl, rfl, rfl⟩)] <;>
      (iframe; iintro ⟨H0, H1, H2, H3, H4, H5, H6, HS, HQ, HC⟩; iframe)

theorem body_obligation (c : Dev nD) : BodyObligation (dat (F := F) V c) (defs₀ (F := F)) Variants.none () Set.univ :=
  sound_body V c

theorem hin (c : Dev nD) : (Pipeline.ΦA spec0 c : sProp 𝕄) ⊢ (dat V c).Φ 0 := .rfl

theorem hout (c : Dev nD) : (dat V c).Φ (Fin.last cfg0.N) ⊢ (Pipeline.ΦA spec0 c : sProp 𝕄) := by
  rw [show (dat V c).Φ (Fin.last cfg0.N) = inv V c cfg0.N (Nat.le_refl _) from rfl, inv_pos V c cfg0.N _ (by decide), PhiA_eq]; unfold tot
  iintro ⟨⟨⟨HS, HQ, HC⟩, HR⟩, Hg⟩
  iframe HR Hg
  isplitl [HS]; · iexists _; iexact HS
  isplitl [HQ]; · iexists _; iexact HQ
  iexists _; iexact HC

end Cert.KernelIdeal.Reg0

end
-- ==== Proof.KI.Reg1.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg1

open Gen Idealize ShloMosaic TcCoe SL RA BI BIBase Sem
open Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev wholeRows : Rect S1000x64 := Rect.unit (s := S1000x64) ![0, 0] S1000x64.size inb_S1000x64_S1000x64_0_0
abbrev wholeIds : Rect S1000x1 := Rect.unit (s := S1000x1) ![0, 0] S1000x1.size inb_S1000x1_S1000x1_0_0
abbrev wholeTable : Rect S16x64 := Rect.unit (s := S16x64) ![0, 0] S16x64.size inb_S16x64_S16x64_0_0

def normRelu (h : Vec F S1000x64 .f32) (ids : Vec F S1000x1 .i32) (mean inv : Vec F S16x64 .f32) :
    Vec F S1000x64 .f32 :=
  View.canon [⟨wholeRows, k1_pay1 (View.ld ids wholeIds) (View.ld mean wholeTable) (View.ld inv wholeTable) (View.ld h wholeRows)⟩]

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => normRelu (blockAt V c 0 t) (blockAt V c 1 t) (blockAt V c 2 t) (blockAt V c 3 t)
  Φ _ := Pipeline.ΦA spec1 c
  q _ := fullShare
  owed _ := 0

theorem A_eq (c : Dev nD) (w : Fin cfg1.W) : (dat V c).A w = V c (Pipeline.arrRef spec1 w) := rfl

theorem after_out (c : Dev nD) (t : Fin cfg1.N) :
    (dat V c).after 4 t = normRelu (blockAt V c 0 t) (blockAt V c 1 t) (blockAt V c 2 t) (blockAt V c 3 t) := by
  dsimp only [dat]

theorem staged (c t w) (h : (cfg1.win w).isOut = false) :
    ∀ d, (dat V c).before w t d = (dat V c).after w t := by
  fin_cases w <;> first | exact (dat V c).before_in_eq_fetched _ rfl (fun _ => rfl) (fun _ _ _ => rfl) (fun _ => rfl) t | cases h

theorem body_obligation (c : Dev nD) : BodyObligation (dat (F := F) V c) (defs₀ (F := F)) Variants.none () Set.univ := fun t => by
  simp (disch := rfl) only [bigSep_W1, staged V c t]
  dsimp only [dat, Dat.owesAt, Dat.bound]
  show _ ⊢ wp frame _ _ (bodyAt1 t) _
  simp only [bodyAt1, cc1_kernel_eq_skeleton]; unfold cc1_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe
  isplitl [H0]; · iexists f0; iframe H0 %hf0
  isplitl [H1]; · iexists f1; iframe H1 %hf1
  isplitl [H2]; · iexists f2; iframe H2 %hf2
  isplitl [H3]; · iexists f3; iframe H3 %hf3
  iexists _; iframe H4; ipureintro
  rw [← hf0, ← hf1, ← hf2, ← hf3]
  exact View.read_writes_eq_canon _ _ _ (View.cover_of_tiled [⟨wholeRows, _⟩] S1000x64.size (by rfl))

theorem hin (c : Dev nD) : (Pipeline.ΦA spec1 c : sProp 𝕄) ⊢ (dat V c).Φ 0 := BIBase.Entails.rfl

theorem hout (c : Dev nD) : (dat V c).Φ (Fin.last cfg1.N) ⊢ (Pipeline.ΦA spec1 c : sProp 𝕄) := BIBase.Entails.rfl

end Cert.KernelIdeal.Reg1

end
-- ==== Proof.KI.Reg2.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

theorem read_last_whole_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (p : S.Idx → Elt F e) (L : List (View.Piece (Elt F) S e)) :
    v.read (Elt F) (v.writes (Elt F) f (⟨Rect.unit off S.size inb, p⟩ :: L)) = p := by
  rw [View.read_writes_eq_canon _ _ _ (fun y => ⟨_, List.mem_cons.mpr (Or.inl rfl), View.mem_set_unit_zero h inb y⟩),
    View.canon_cons_unit_zero h]

abbrev atStart (i : grid2.Coords) : Prop :=
  (Scalar.cmpi .ne (Scalar.extui (Scalar.cmpi .eq (BitVec.ofNat 32 (i 1).val) 0#32)) 0#32) = 1#1

theorem atStart_iff : ∀ t : Fin cfg2.N, atStart (grid2.coords t) ↔ t.val % 125 = 0 :=
  (by decide +kernel : ∀ t : Fin grid2.N, atStart (grid2.coords t) ↔ t.val % 125 = 0)

set_option maxHeartbeats 1000000 in
theorem run (c : Dev nD) (t : Fin cfg2.N)
    (arg2 : Memref sig .tc .vmem S1000x64 .f32) (harg2 : arg2.IsWhole) (arg3 : Memref sig .tc .vmem S64x128 .f32) (harg3 : arg3.IsWhole)
    (arg4 : Memref sig .tc .vmem S1000x1 .i32) (harg4 : arg4.IsWhole) (arg5 : Memref sig .tc .vmem S1000x128 .f32) (harg5 : arg5.IsWhole)
    (arg6 : Memref sig .tc .vmem S1x16x128 .f32) (harg6 : arg6.IsWhole) (arg7 : Memref sig .tc .vmem S1x16x128 .f32) (harg7 : arg7.IsWhole)
    (arg8 : Memref sig .tc .vmem S16x128 .f32) (harg8 : arg8.IsWhole) (arg9 : Memref sig .tc .vmem S16x128 .f32) (harg9 : arg9.IsWhole)
    (x : Vec F S1000x64 .f32) (w : Vec F S64x128 .f32) (ids : Vec F S1000x1 .i32) (d5 : Vec F S1000x128 .f32) (d6 d7 : Vec F S1x16x128 .f32) (s q : Vec F S16x128 .f32)
    (E : Set ℕ) (K : PUnit → sProp 𝕄) :
    iprop(owns (c : Thread nD τ) arg2 fullShare x ∗ owns (c : Thread nD τ) arg3 fullShare w ∗ owns (c : Thread nD τ) arg4 fullShare ids
        ∗ owns (c : Thread nD τ) arg5 fullShare d5 ∗ owns (c : Thread nD τ) arg6 fullShare d6 ∗ owns (c : Thread nD τ) arg7 fullShare d7
        ∗ owns (c : Thread nD τ) arg8 fullShare s ∗ owns (c : Thread nD τ) arg9 fullShare q
        ∗ (iprop(owns (c : Thread nD τ) arg2 fullShare x ∗ owns (c : Thread nD τ) arg3 fullShare w ∗ owns (c : Thread nD τ) arg4 fullShare ids
            ∗ owns (c : Thread nD τ) arg5 fullShare (k2_pay5 x w)
            ∗ owns (c : Thread nD τ) arg6 fullShare (k2_pay1 (k2_pay7 x w ids (if t.val % 125 = 0 then k2_pay3 (F := F) else s)))
            ∗ owns (c : Thread nD τ) arg7 fullShare (k2_pay2 (k2_pay8 x w ids (if t.val % 125 = 0 then k2_pay4 (F := F) else q)))
            ∗ owns (c : Thread nD τ) arg8 fullShare (k2_pay7 x w ids (if t.val % 125 = 0 then k2_pay3 (F := F) else s))
            ∗ owns (c : Thread nD τ) arg9 fullShare (k2_pay8 x w ids (if t.val % 125 = 0 then k2_pay4 (F := F) else q))) -∗ K ⟨⟩))
      ⊢ wp frame (wpE (defs₀ (F := F)) Variants.none c none) E (cc2_kernel (grid2.coords t) arg2 harg2 arg3 harg3 arg4 harg4 arg5 harg5 arg6 harg6 arg7 harg7 arg8 harg8 arg9 harg9) K := by
  by_cases hc : atStart (grid2.coords t) <;>
    [rw [if_pos ((atStart_iff t).mp hc), if_pos ((atStart_iff t).mp hc)]; rw [if_neg (mt (atStart_iff t).mpr hc), if_neg (mt (atStart_iff t).mpr hc)]] <;>
  · simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, -, H5⟩, ⟨%f6, -, H6⟩, ⟨%f7, -, H7⟩, ⟨%f8, %hf8, H8⟩, ⟨%f9, %hf9, H9⟩, Hk⟩
    obtain rfl := harg2.eq_unread hf2; obtain rfl := harg3.eq_unread hf3; obtain rfl := harg4.eq_unread hf4
    obtain rfl := harg8.eq_unread hf8; obtain rfl := harg9.eq_unread hf9
    sl_exec (disch := first | exact hc)
    sl_step
    sl_unfold_words
    iapply Hk
    isplitl [H2]; rotate_left; isplitl [H3]; rotate_left; isplitl [H4]; rotate_left; isplitl [H5]; rotate_left
    isplitl [H6]; rotate_left; isplitl [H7]; rotate_left; isplitl [H8]; rotate_left
    all_goals (iexists _; isplitr; swap; (· iassumption); ipureintro)
    all_goals first
      | exact harg2.read_unread _ | exact harg3.read_unread _ | exact harg4.read_unread _
      | refine Eq.trans (read_last_whole_store _ _ (by first | exact zeros2 | exact zeros3) _ _ _) ?_
        simp only [View.readCov_cons_toLoadRect, View.readAt_eq_ld, harg2.read_unread, harg3.read_unread, harg4.read_unread, harg8.read_unread, harg9.read_unread,
        View.ld_unit_zero (S := S1000x64) zeros2, View.ld_unit_zero (S := S64x128) zeros2, View.ld_unit_zero (S := S1000x1) zeros2, View.ld_unit_zero (S := S16x128) zeros2]

variable (V : (c : Dev nD) → (b : Ref sig .tc) → Buf (Elt F) ((c : Thread nD τ).loc b))

def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsAt (c : Dev nD) (t : Fin cfg2.N) : Vec F S1000x64 .f32 := blockAt V c 0 t
abbrev weightsAt (c : Dev nD) (t : Fin cfg2.N) : Vec F S64x128 .f32 := blockAt V c 1 t
abbrev idsAt (c : Dev nD) (t : Fin cfg2.N) : Vec F S1000x1 .i32 := blockAt V c 2 t

def sumAt (c : Dev nD) : (n : ℕ) → n < cfg2.N → Vec F S16x128 .f32
  | 0, h => k2_pay7 (rowsAt V c ⟨0, h⟩) (weightsAt V c ⟨0, h⟩) (idsAt V c ⟨0, h⟩) (k2_pay3 (F := F))
  | n + 1, h => k2_pay7 (rowsAt V c ⟨n + 1, h⟩) (weightsAt V c ⟨n + 1, h⟩) (idsAt V c ⟨n + 1, h⟩)
      (if (n + 1) % 125 = 0 then (k2_pay3 (F := F)) else sumAt c n (Nat.lt_of_succ_lt h))

def sumsqAt (c : Dev nD) : (n : ℕ) → n < cfg2.N → Vec F S16x128 .f32
  | 0, h => k2_pay8 (rowsAt V c ⟨0, h⟩) (weightsAt V c ⟨0, h⟩) (idsAt V c ⟨0, h⟩) (k2_pay4 (F := F))
  | n + 1, h => k2_pay8 (rowsAt V c ⟨n + 1, h⟩) (weightsAt V c ⟨n + 1, h⟩) (idsAt V c ⟨n + 1, h⟩)
      (if (n + 1) % 125 = 0 then (k2_pay4 (F := F)) else sumsqAt c n (Nat.lt_of_succ_lt h))

theorem sumAt_start (c : Dev nD) (t : Fin cfg2.N) (h0 : t.val % 125 = 0) :
    sumAt V c t.val t.isLt = k2_pay7 (rowsAt V c t) (weightsAt V c t) (idsAt V c t) (k2_pay3 (F := F)) := by
  obtain ⟨_ | n, hn⟩ := t
  · rfl
  · exact congrArg (k2_pay7 _ _ _) (if_pos h0)

theorem sumAt_step (c : Dev nD) (t : Fin cfg2.N) (h0 : ¬ t.val % 125 = 0) :
    sumAt V c t.val t.isLt = k2_pay7 (rowsAt V c t) (weightsAt V c t) (idsAt V c t)
      (sumAt V c (t.val - 1) (Nat.lt_of_le_of_lt (Nat.sub_le _ _) t.isLt)) := by
  obtain ⟨_ | n, hn⟩ := t
  · exact absurd (Nat.zero_mod _) h0
  · exact congrArg (k2_pay7 _ _ _) (if_neg h0)

theorem sumsqAt_start (c : Dev nD) (t : Fin cfg2.N) (h0 : t.val % 125 = 0) :
    sumsqAt V c t.val t.isLt = k2_pay8 (rowsAt V c t) (weightsAt V c t) (idsAt V c t) (k2_pay4 (F := F)) := by
  obtain ⟨_ | n, hn⟩ := t
  · rfl
  · exact congrArg (k2_pay8 _ _ _) (if_pos h0)

theorem sumsqAt_step (c : Dev nD) (t : Fin cfg2.N) (h0 : ¬ t.val % 125 = 0) :
    sumsqAt V c t.val t.isLt = k2_pay8 (rowsAt V c t) (weightsAt V c t) (idsAt V c t)
      (sumsqAt V c (t.val - 1) (Nat.lt_of_le_of_lt (Nat.sub_le _ _) t.isLt)) := by
  obtain ⟨_ | n, hn⟩ := t
  · exact absurd (Nat.zero_mod _) h0
  · exact congrArg (k2_pay8 _ _ _) (if_neg h0)

abbrev sumBuf : Memref sig .tc .vmem S16x128 .f32 := Memref.whole cc2_scratch0
abbrev sumsqBuf : Memref sig .tc .vmem S16x128 .f32 := Memref.whole cc2_scratch1

abbrev otherScoped (c : Dev nD) : sProp 𝕄 :=
  Pipeline.scopedRestBut (Ix := Unit) (Name := ℕ) (U := UR sig nD τ) (Lvl := ℕ) (Val := Elt F) spec2 c [cc2_scratch0, cc2_scratch1]

theorem entry_eq (c : Dev nD) :
    (Pipeline.ΦA spec2 c : sProp 𝕄)
      = iprop(iprop(iprop((∃ d, owns (c : Thread nD τ) sumBuf fullShare d) ∗ (∃ d, owns (c : Thread nD τ) sumsqBuf fullShare d)) ∗ otherScoped c) ∗ (∃ r, prngReg c r)) := by
  unfold Pipeline.ΦA; rw [scopedRest2_split]; simp only [sumBuf, sumsqBuf, owns_whole]; try rfl

def Inv (c : Dev nD) (n : ℕ) (_ : n ≤ cfg2.N) : sProp 𝕄 :=
  iprop(∃ s q, ⌜∀ h : n < cfg2.N,
        sumAt V c n h = k2_pay7 (rowsAt V c ⟨n, h⟩) (weightsAt V c ⟨n, h⟩) (idsAt V c ⟨n, h⟩) (if n % 125 = 0 then k2_pay3 (F := F) else s)
        ∧ sumsqAt V c n h = k2_pay8 (rowsAt V c ⟨n, h⟩) (weightsAt V c ⟨n, h⟩) (idsAt V c ⟨n, h⟩) (if n % 125 = 0 then k2_pay4 (F := F) else q)⌝
    ∗ iprop(iprop(iprop(owns (c : Thread nD τ) sumBuf fullShare s ∗ owns (c : Thread nD τ) sumsqBuf fullShare q) ∗ otherScoped c) ∗ (∃ r, prngReg c r)))

def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => k2_pay5 (rowsAt V c t) (weightsAt V c t)
    | ⟨4, _⟩ => k2_pay1 (sumAt V c t.val t.isLt)
    | ⟨5, _⟩ => k2_pay2 (sumsqAt V c t.val t.isLt)
  Φ t := Inv V c t.val (Nat.le_of_lt_succ t.isLt)
  q _ := fullShare
  owed _ := 0

theorem A_eq (c : Dev nD) (w : Fin cfg2.W) : (dat V c).A w = V c (Pipeline.arrRef spec2 w) := by
  dsimp only [dat]

theorem after_3 (c : Dev nD) (t : Fin cfg2.N) : (dat V c).after 3 t = k2_pay5 (rowsAt V c t) (weightsAt V c t) := by dsimp only [dat]
theorem after_4 (c : Dev nD) (t : Fin cfg2.N) : (dat V c).after 4 t = k2_pay1 (sumAt V c t.val t.isLt) := by dsimp only [dat]
theorem after_5 (c : Dev nD) (t : Fin cfg2.N) : (dat V c).after 5 t = k2_pay2 (sumsqAt V c t.val t.isLt) := by dsimp only [dat]

theorem before_in (c : Dev nD) (t : Fin cfg2.N) :
    (∀ d, (dat V c).before 0 t d = blockAt V c 0 t) ∧ (∀ d, (dat V c).before 1 t d = blockAt V c 1 t) ∧ (∀ d, (dat V c).before 2 t d = blockAt V c 2 t) := by
  refine ⟨fun d => ?_, fun d => ?_, fun d => ?_⟩ <;>
  exact ((dat V c).before_in_eq_fetched _ rfl (fun _ => rfl) (fun _ _ _ => rfl) (fun _ => rfl) t d).trans rfl

theorem body_obligation (c : Dev nD) : BodyObligation (dat (F := F) V c) (defs₀ (F := F)) Variants.none () Set.univ := fun t => by
  rw [bigSep_W2, bigSep_W2, show (dat V c).Φ t.castSucc = Inv V c t.val (Nat.le_of_lt t.isLt) from rfl]
  show _ ⊢ wp frame _ Set.univ (bodyAt2 t) (fun _ =>
      iprop(Inv V c (t.val + 1) t.isLt ∗ (dat V c).owesAt () t.castSucc
        ∗ owns (c : Thread nD τ) (st2_0 t) fullShare (rowsAt V c t) ∗ owns (c : Thread nD τ) (st2_1 t) fullShare (weightsAt V c t) ∗ owns (c : Thread nD τ) (st2_2 t) fullShare (idsAt V c t)
        ∗ owns (c : Thread nD τ) (st2_3 t) fullShare (k2_pay5 (rowsAt V c t) (weightsAt V c t))
        ∗ owns (c : Thread nD τ) (st2_4 t) fullShare (k2_pay1 (sumAt V c t.val t.isLt)) ∗ owns (c : Thread nD τ) (st2_5 t) fullShare (k2_pay2 (sumsqAt V c t.val t.isLt))))
  simp only [(before_in V c t).1, (before_in V c t).2.1, (before_in V c t).2.2]
  unfold Inv bodyAt2
  iintro ⟨⟨%s, %q, %h, ⟨⟨HS0, HS1⟩, Hr⟩, Hg⟩, Ho, ⟨%d0, H0⟩, ⟨%d1, H1⟩, ⟨%d2, H2⟩, ⟨%d3, H3⟩, ⟨%d4, H4⟩, ⟨%d5, H5⟩⟩
  rw [(h t.isLt).1, (h t.isLt).2]
  iapply (run c t _ _ _ _ _ _ _ _ _ _ _ _ _ _ _ _ (rowsAt V c t) (weightsAt V c t) (idsAt V c t) _ _ _ s q Set.univ _)
  iframe
  iintro ⟨H0, H1, H2, H3, H4, H5, HS0, HS1⟩
  iframe
  iexists _, _
  iframe
  ipureintro; exact fun _ => ⟨by rw [← (h t.isLt).1]; rfl, by rw [← (h t.isLt).2]; rfl⟩

theorem hin (c : Dev nD) : (Pipeline.ΦA spec2 c : sProp 𝕄) ⊢ (dat V c).Φ 0 := by
  show _ ⊢ Inv V c 0 (Nat.zero_le _)
  rw [entry_eq]; unfold Inv
  iintro ⟨⟨⟨⟨%s, HS0⟩, ⟨%q, HS1⟩⟩, Hr⟩, Hg⟩
  iexists s, q
  iframe
  ipureintro; exact fun _ => ⟨rfl, rfl⟩

theorem hout (c : Dev nD) : (dat V c).Φ (Fin.last cfg2.N) ⊢ (Pipeline.ΦA spec2 c : sProp 𝕄) := by
  show Inv V c _ (Nat.le_of_lt_succ (Fin.last cfg2.N).isLt) ⊢ _
  rw [entry_eq]; unfold Inv
  iintro ⟨%s, %q, -, ⟨⟨HS0, HS1⟩, Hr⟩, Hg⟩
  iframe
  isplitl [HS0] <;> iexists _ <;> iassumption

end Cert.KernelIdeal.Reg2

end
-- ==== Proof.KI.Reg3.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg3

open Gen Idealize ShloMosaic TcCoe SL RA BI BIBase Sem
open Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def entryBlock (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev allRows : Rect S1000x128 := Rect.unit (s := S1000x128) ![0, 0] S1000x128.size inb_S1000x128_S1000x128_0_0
abbrev allIds : Rect S1000x1 := Rect.unit (s := S1000x1) ![0, 0] S1000x1.size inb_S1000x1_S1000x1_0_0
abbrev allTable : Rect S16x128 := Rect.unit (s := S16x128) ![0, 0] S16x128.size inb_S16x128_S16x128_0_0

def normReluBlock (h : Vec F S1000x128 .f32) (ids : Vec F S1000x1 .i32) (mean inv : Vec F S16x128 .f32) : Vec F S1000x128 .f32 :=
  View.canon [⟨allRows, k3_pay1 (View.ld ids allIds) (View.ld mean allTable) (View.ld inv allTable) (View.ld h allRows)⟩]

def dat (c : Dev nD) : Dat τ (Elt F) Unit ℕ (UR sig nD τ) ℕ cfg3 c where
  A w := V c (Pipeline.arrRef spec3 w)
  after w t := match w with
    | ⟨0, _⟩ => entryBlock V c 0 t
    | ⟨1, _⟩ => entryBlock V c 1 t
    | ⟨2, _⟩ => entryBlock V c 2 t
    | ⟨3, _⟩ => entryBlock V c 3 t
    | ⟨4, _⟩ => normReluBlock (entryBlock V c 0 t) (entryBlock V c 1 t) (entryBlock V c 2 t) (entryBlock V c 3 t)
  Φ _ := Pipeline.ΦA spec3 c
  q _ := fullShare
  owed _ := 0

theorem A_eq (c : Dev nD) (w : Fin cfg3.W) : (dat V c).A w = V c (Pipeline.arrRef spec3 w) := rfl

theorem after_out (c : Dev nD) (t : Fin cfg3.N) :
    (dat V c).after 4 t = normReluBlock (entryBlock V c 0 t) (entryBlock V c 1 t) (entryBlock V c 2 t) (entryBlock V c 3 t) := by
  dsimp only [dat]

theorem staged (c t w) (h : (cfg3.win w).isOut = false) :
    ∀ d, (dat V c).before w t d = (dat V c).after w t := by
  fin_cases w <;> first | exact (dat V c).before_in_eq_fetched _ rfl (fun _ => rfl) (fun _ _ _ => rfl) (fun _ => rfl) t | cases h

theorem body_obligation (c : Dev nD) : BodyObligation (dat (F := F) V c) (defs₀ (F := F)) Variants.none () Set.univ := fun t => by
  simp (disch := rfl) only [bigSep_W3, staged V c t]
  dsimp only [dat, Dat.owesAt, Dat.bound]
  show _ ⊢ wp frame _ _ (bodyAt3 t) _
  simp only [bodyAt3, cc3_kernel_eq_skeleton]; unfold cc3_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe
  isplitl [H0]; · iexists f0; iframe H0 %hf0
  isplitl [H1]; · iexists f1; iframe H1 %hf1
  isplitl [H2]; · iexists f2; iframe H2 %hf2
  isplitl [H3]; · iexists f3; iframe H3 %hf3
  iexists _; iframe H4; ipureintro
  rw [← hf0, ← hf1, ← hf2, ← hf3]
  exact View.read_writes_eq_canon _ _ _ (View.cover_of_tiled [⟨allRows, _⟩] S1000x128.size (by rfl))

theorem hin (c : Dev nD) : (Pipeline.ΦA spec3 c : sProp 𝕄) ⊢ (dat V c).Φ 0 := BIBase.Entails.rfl

theorem hout (c : Dev nD) : (dat V c).Φ (Fin.last cfg3.N) ⊢ (Pipeline.ΦA spec3 c : sProp 𝕄) := BIBase.Entails.rfl

end Cert.KernelIdeal.Reg3

end
-- ==== Proof.KI.Reg4.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid4.Coords) : Prop :=
  (Scalar.cmpi .ne (Scalar.extui (Scalar.cmpi .eq (BitVec.ofNat 32 (i 1).val) 0#32)) 0#32) = 1#1

theorem isFirst_iff : ∀ t : Fin cfg4.N, isFirst (grid4.coords t) ↔ t.val % 125 = 0 :=
  (by decide +kernel : ∀ t : Fin grid4.N, isFirst (grid4.coords t) ↔ t.val % 125 = 0)

theorem zero2 : (![0, 0] : Fin 2 → Nat) = fun _ => 0 := funext fun a => by fin_cases a <;> rfl
theorem zero3 : (![0, 0, 0] : Fin 3 → Nat) = fun _ => 0 := funext fun a => by fin_cases a <;> rfl

theorem read_after_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

abbrev scr0 : Memref sig .tc .vmem S16x1024 .f32 := Memref.whole cc4_scratch0
abbrev scr1 : Memref sig .tc .vmem S16x1024 .f32 := Memref.whole cc4_scratch1

set_option maxHeartbeats 4000000 in
theorem body (c : Dev nD) (i : grid4.Coords)
    (arg2 : Memref sig .tc .vmem S1000x128 .f32) (harg2 : arg2.IsWhole)
    (arg3 : Memref sig .tc .vmem S128x1024 .f32) (harg3 : arg3.IsWhole)
    (arg4 : Memref sig .tc .vmem S1000x1 .i32) (harg4 : arg4.IsWhole)
    (arg5 : Memref sig .tc .vmem S1x16x1024 .f32) (harg5 : arg5.IsWhole)
    (arg6 : Memref sig .tc .vmem S1x16x1024 .f32) (harg6 : arg6.IsWhole)
    (x : Vec F S1000x128 .f32) (w : Vec F S128x1024 .f32) (ids : Vec F S1000x1 .i32)
    (o5 o6 : Vec F S1x16x1024 .f32) (s0 s1 z0 z1 : Vec F S16x1024 .f32)
    (hz : isFirst i ∧ z0 = k4_pay2 (F := F) ∧ z1 = k4_pay3 (F := F) ∨ ¬isFirst i ∧ z0 = s0 ∧ z1 = s1)
    (E : Set ℕ) (K : PUnit → sProp 𝕄) :
    iprop(owns c.tc arg2 fullShare x ∗ owns c.tc arg3 fullShare w ∗ owns c.tc arg4 fullShare ids
        ∗ owns c.tc arg5 fullShare o5 ∗ owns c.tc arg6 fullShare o6
        ∗ owns c.tc scr0 fullShare s0 ∗ owns c.tc scr1 fullShare s1
        ∗ (iprop(owns c.tc arg2 fullShare x ∗ owns c.tc arg3 fullShare w ∗ owns c.tc arg4 fullShare ids
            ∗ owns c.tc arg5 fullShare (k4_pay8 (k4_pay6 x w ids z0))
            ∗ owns c.tc arg6 fullShare (k4_pay1 (k4_pay7 x w ids z1))
            ∗ owns c.tc scr0 fullShare (k4_pay6 x w ids z0)
            ∗ owns c.tc scr1 fullShare (k4_pay7 x w ids z1)) -∗ K ⟨⟩))
      ⊢ wp frame (wpE (defs₀ (F := F)) Variants.none c none) E
          (cc4_kernel i arg2 harg2 arg3 harg3 arg4 harg4 arg5 harg5 arg6 harg6 scr0 (Memref.isWhole_whole _) scr1 (Memref.isWhole_whole _)) K := by
  simp only [cc4_kernel_eq_skeleton]; unfold cc4_kernel_skel
  simp only [k4_part1_eq_skeleton]; unfold k4_part1_skel
  unfold owns
  iintro ⟨⟨%f2, %hf2, H2⟩, ⟨%f3, %hf3, H3⟩, ⟨%f4, %hf4, H4⟩, ⟨%f5, %hf5, H5⟩, ⟨%f6, %hf6, H6⟩, ⟨%g0, %hg0, HS0⟩, ⟨%g1, %hg1, HS1⟩, Hk⟩
  obtain rfl := harg2.eq_unread hf2; obtain rfl := harg3.eq_unread hf3; obtain rfl := harg4.eq_unread hf4
  obtain rfl := harg5.eq_unread hf5; obtain rfl := harg6.eq_unread hf6
  obtain rfl := (Memref.isWhole_whole cc4_scratch0).eq_unread hg0; obtain rfl := (Memref.isWhole_whole cc4_scratch1).eq_unread hg1
  rcases hz with ⟨hc, rfl, rfl⟩ | ⟨hc, rfl, rfl⟩
  all_goals
    sl_exec (disch := first | exact hc)
    sl_step
    iapply Hk
    isplitl [H2]; swap; isplitl [H3]; swap; isplitl [H4]; swap; isplitl [H5]; swap; isplitl [H6]; swap; isplitl [HS0]; swap
    all_goals (iexists _; isplitr; swap; first | iexact H2 | iexact H3 | iexact H4 | iexact H5 | iexact H6 | iexact HS0 | iexact HS1)
    all_goals ipureintro
    rotate_left 4; exact hf4; exact hf3; exact hf2
    all_goals
      try sl_unfold_words
      refine (read_after_whole_store _ _ (by first | exact zero2 | exact zero3) _ _ _).trans ?_
      simp only [View.readCov_cons_toLoadRect, View.readAt_eq_ld, hf2, hf3, hf4, hg0, hg1,
        View.ld_unit_zero (S := S1000x128) zero2, View.ld_unit_zero (S := S128x1024) zero2,
        View.ld_unit_zero (S := S1000x1) zero2, View.ld_unit_zero (S := S16x1024) zero2]

variable (V : (c : Dev nD) → (b : Ref sig .tc) → Buf (Elt F) ((c : Thread nD τ).loc b))

def xblk (c : Dev nD) (t : Fin cfg4.N) : Vec F S1000x128 .f32 :=
  ((cfg4.win 0).blk t).view.read (Elt F) (V c (Pipeline.arrRef spec4 0))
def wblk (c : Dev nD) (t : Fin cfg4.N) : Vec F S128x1024 .f32 :=
  ((cfg4.win 1).blk t).view.read (Elt F) (V c (Pipeline.arrRef spec4 1))
def idblk (c : Dev nD) (t : Fin cfg4.N) : Vec F S1000x1 .i32 :=
  ((cfg4.win 2).blk t).view.read (Elt F) (V c (Pipeline.arrRef spec4 2))

def sumAt (c : Dev nD) : (n : ℕ) → n < cfg4.N → Vec F S16x1024 .f32
  | 0, h => k4_pay6 (xblk V c ⟨0, h⟩) (wblk V c ⟨0, h⟩) (idblk V c ⟨0, h⟩) (k4_pay2 (F := F))
  | n + 1, h =>
    if (n + 1) % 125 = 0 then k4_pay6 (xblk V c ⟨n + 1, h⟩) (wblk V c ⟨n + 1, h⟩) (idblk V c ⟨n + 1, h⟩) (k4_pay2 (F := F))
    else k4_pay6 (xblk V c ⟨n + 1, h⟩) (wblk V c ⟨n + 1, h⟩) (idblk V c ⟨n + 1, h⟩) (sumAt c n (Nat.lt_of_succ_lt h))

def sqAt (c : Dev nD) : (n : ℕ) → n < cfg4.N → Vec F S16x1024 .f32
  | 0, h => k4_pay7 (xblk V c ⟨0, h⟩) (wblk V c ⟨0, h⟩) (idblk V c ⟨0, h⟩) (k4_pay3 (F := F))
  | n + 1, h =>
    if (n + 1) % 125 = 0 then k4_pay7 (xblk V c ⟨n + 1, h⟩) (wblk V c ⟨n + 1, h⟩) (idblk V c ⟨n + 1, h⟩) (k4_pay3 (F := F))
    else k4_pay7 (xblk V c ⟨n + 1, h⟩) (wblk V c ⟨n + 1, h⟩) (idblk V c ⟨n + 1, h⟩) (sqAt c n (Nat.lt_of_succ_lt h))

theorem sumAt_first (c : Dev nD) (t : Fin cfg4.N) (h0 : t.val % 125 = 0) :
    sumAt V c t.val t.isLt = k4_pay6 (xblk V c t) (wblk V c t) (idblk V c t) (k4_pay2 (F := F)) :=
  match t, h0 with
  | ⟨0, _⟩, _ => rfl
  | ⟨_ + 1, _⟩, h0 => if_pos h0

theorem sumAt_next (c : Dev nD) (t : Fin cfg4.N) (h0 : ¬t.val % 125 = 0) :
    sumAt V c t.val t.isLt
      = k4_pay6 (xblk V c t) (wblk V c t) (idblk V c t) (sumAt V c (t.val - 1) (Nat.lt_of_le_of_lt (Nat.sub_le _ _) t.isLt)) :=
  match t, h0 with
  | ⟨0, _⟩, h0 => absurd (Nat.zero_mod _) h0
  | ⟨_ + 1, _⟩, h0 => if_neg h0

theorem sqAt_first (c : Dev nD) (t : Fin cfg4.N) (h0 : t.val % 125 = 0) :
    sqAt V c t.val t.isLt = k4_pay7 (xblk V c t) (wblk V c t) (idblk V c t) (k4_pay3 (F := F)) :=
  match t, h0 with
  | ⟨0, _⟩, _ => rfl
  | ⟨_ + 1, _⟩, h0 => if_pos h0

theorem sqAt_next (c : Dev nD) (t : Fin cfg4.N) (h0 : ¬t.val % 125 = 0) :
    sqAt V c t.val t.isLt
      = k4_pay7 (xblk V c t) (wblk V c t) (idblk V c t) (sqAt V c (t.val - 1) (Nat.lt_of_le_of_lt (Nat.sub_le _ _) t.isLt)) :=
  match t, h0 with
  | ⟨0, _⟩, h0 => absurd (Nat.zero_mod _) h0
  | ⟨_ + 1, _⟩, h0 => if_neg h0

def Acc (c : Dev nD) (a b : Vec F S16x1024 .f32) : sProp 𝕄 :=
  iprop((iprop(owns c.tc scr0 fullShare a ∗ owns c.tc scr1 fullShare b)
      ∗ Pipeline.scopedRestBut (Ix := Unit) (Name := ℕ) (U := UR sig nD τ) (Lvl := ℕ) (Val := Elt F) spec4 c [cc4_scratch0, cc4_scratch1])
    ∗ (∃ r, prngReg c r))

def Inv (c : Dev nD) (n : ℕ) (hn : n ≤ cfg4.N) : sProp 𝕄 :=
  iprop(∃ a b, ⌜∀ h : n ≠ 0, a = sumAt V c (n - 1) (by omega) ∧ b = sqAt V c (n - 1) (by omega)⌝ ∗ Acc c a b)

theorem PhiA_open (c : Dev nD) :
    (Pipeline.ΦA spec4 c : sProp 𝕄)
      = iprop((iprop((∃ d, owns c.tc scr0 fullShare d) ∗ (∃ d, owns c.tc scr1 fullShare d))
          ∗ Pipeline.scopedRestBut (Ix := Unit) (Name := ℕ) (U := UR sig nD τ) (Lvl := ℕ) (Val := Elt F) spec4 c [cc4_scratch0, cc4_scratch1])
        ∗ (∃ r, prngReg c r)) := by
  unfold Pipeline.ΦA; rw [scopedRest4_split]; simp only [scr0, scr1, owns_whole]; try rfl

def dat (c : Dev nD) : Dat τ (Elt F) Unit ℕ (UR sig nD τ) ℕ cfg4 c where
  A w := V c (Pipeline.arrRef spec4 w)
  after w t := match w with
    | ⟨0, _⟩ => xblk V c t
    | ⟨1, _⟩ => wblk V c t
    | ⟨2, _⟩ => idblk V c t
    | ⟨3, _⟩ => k4_pay8 (sumAt V c t.val t.isLt)
    | ⟨4, _⟩ => k4_pay1 (sqAt V c t.val t.isLt)
  Φ t := Inv V c t.val (Nat.le_of_lt_succ t.isLt)
  q _ := fullShare
  owed _ := 0

theorem A_eq (c : Dev nD) (w : Fin cfg4.W) : (dat V c).A w = V c (Pipeline.arrRef spec4 w) := rfl

theorem after_3 (c : Dev nD) (t : Fin cfg4.N) : (dat V c).after 3 t = k4_pay8 (sumAt V c t.val t.isLt) := rfl
theorem after_4 (c : Dev nD) (t : Fin cfg4.N) : (dat V c).after 4 t = k4_pay1 (sqAt V c t.val t.isLt) := rfl

theorem before_0 (c : Dev nD) (t : Fin cfg4.N) (d) : (dat V c).before 0 t d = xblk V c t :=
  (dat V c).before_in_eq_fetched 0 rfl (fun _ => rfl) (fun _ _ _ => rfl) (fun _ => rfl) t d
theorem before_1 (c : Dev nD) (t : Fin cfg4.N) (d) : (dat V c).before 1 t d = wblk V c t :=
  (dat V c).before_in_eq_fetched 1 rfl (fun _ => rfl) (fun _ _ _ => rfl) (fun _ => rfl) t d
theorem before_2 (c : Dev nD) (t : Fin cfg4.N) (d) : (dat V c).before 2 t d = idblk V c t :=
  (dat V c).before_in_eq_fetched 2 rfl (fun _ => rfl) (fun _ _ _ => rfl) (fun _ => rfl) t d

theorem sound_body (c : Dev nD) (t : Fin cfg4.N) :
    iprop(Inv V c t.val (Nat.le_of_lt t.isLt) ∗ (dat V c).owesAt () t.castSucc
      ∗ (∃ d, owns c.tc (win4_0.stage (cfg4.slots t 0)) fullShare ((dat V c).before 0 t d))
      ∗ (∃ d, owns c.tc (win4_1.stage (cfg4.slots t 1)) fullShare ((dat V c).before 1 t d))
      ∗ (∃ d, owns c.tc (win4_2.stage (cfg4.slots t 2)) fullShare ((dat V c).before 2 t d))
      ∗ (∃ d, owns c.tc (win4_3.stage (cfg4.slots t 3)) fullShare ((dat V c).before 3 t d))
      ∗ (∃ d, owns c.tc (win4_4.stage (cfg4.slots t 4)) fullShare ((dat V c).before 4 t d)))
      ⊢ wp frame (wpE (defs₀ (F := F)) Variants.none c none) Set.univ (bodyAt4 t) fun _ =>
        iprop(Inv V c (t.val + 1) t.isLt ∗ (dat V c).owesAt () t.castSucc
        ∗ owns c.tc (win4_0.stage (cfg4.slots t 0)) fullShare (xblk V c t) ∗ owns c.tc (win4_1.stage (cfg4.slots t 1)) fullShare (wblk V c t)
        ∗ owns c.tc (win4_2.stage (cfg4.slots t 2)) fullShare (idblk V c t)
        ∗ owns c.tc (win4_3.stage (cfg4.slots t 3)) fullShare (k4_pay8 (sumAt V c t.val t.isLt))
        ∗ owns c.tc (win4_4.stage (cfg4.slots t 4)) fullShare (k4_pay1 (sqAt V c t.val t.isLt))) := by
  unfold bodyAt4
  simp only [before_0, before_1, before_2]
  unfold Inv Acc
  iintro ⟨⟨%a, %b, %hab, ⟨⟨HS0, HS1⟩, Hr⟩, Hg⟩, Ho, ⟨%d0, H0⟩, ⟨%d1, H1⟩, ⟨%d2, H2⟩, ⟨%d3, H3⟩, ⟨%d4, H4⟩⟩
  obtain ⟨z0, z1, hz, e0, e1⟩ : ∃ z0 z1,
      (isFirst (grid4.coords t) ∧ z0 = k4_pay2 (F := F) ∧ z1 = k4_pay3 (F := F) ∨ ¬isFirst (grid4.coords t) ∧ z0 = a ∧ z1 = b)
      ∧ sumAt V c t.val t.isLt = k4_pay6 (xblk V c t) (wblk V c t) (idblk V c t) z0
      ∧ sqAt V c t.val t.isLt = k4_pay7 (xblk V c t) (wblk V c t) (idblk V c t) z1 := by
    by_cases h0 : t.val % 125 = 0
    · exact ⟨_, _, .inl ⟨(isFirst_iff t).mpr h0, rfl, rfl⟩, sumAt_first V c t h0, sqAt_first V c t h0⟩
    · obtain ⟨rfl, rfl⟩ := hab fun e => h0 (by rw [e])
      exact ⟨_, _, .inr ⟨mt (isFirst_iff t).mp h0, rfl, rfl⟩, sumAt_next V c t h0, sqAt_next V c t h0⟩
  rw [e0, e1]
  iapply (body c _ _ _ _ _ _ _ _ _ _ _
    (xblk V c t) (wblk V c t) (idblk V c t) _ _ a b z0 z1 hz Set.univ _)
  iframe H0 H1 H2 H3 H4 HS0 HS1
  iintro ⟨H0, H1, H2, H3, H4, HS0, HS1⟩
  iframe Ho H0 H1 H2 H3 H4
  iexists _, _; isplitr; swap
  · isplitr [Hg]; swap; · iexact Hg
    isplitr [Hr]; swap; · iexact Hr
    isplitl [HS0]; · iexact HS0
    iexact HS1
  ipureintro; exact fun _ => ⟨e0.symm, e1.symm⟩

theorem body_obligation (c : Dev nD) : BodyObligation (dat (F := F) V c) (defs₀ (F := F)) Variants.none () Set.univ := fun t => by
  rw [bigSep_W4, bigSep_W4]
  exact sound_body V c t

theorem hin (c : Dev nD) : (Pipeline.ΦA spec4 c : sProp 𝕄) ⊢ (dat V c).Φ 0 := by
  rw [PhiA_open]; show _ ⊢ Inv V c 0 (Nat.zero_le _); unfold Inv Acc
  iintro ⟨⟨⟨⟨%a, Ha⟩, ⟨%b, Hb⟩⟩, Hr⟩, Hg⟩
  iexists a, b; isplitr; · ipureintro; exact fun h => absurd rfl h
  iframe

theorem hout (c : Dev nD) : (dat V c).Φ (Fin.last cfg4.N) ⊢ (Pipeline.ΦA spec4 c : sProp 𝕄) := by
  rw [PhiA_open]; show Inv V c cfg4.N le_rfl ⊢ _; unfold Inv Acc
  iintro ⟨%a, %b, %h, ⟨⟨Ha, Hb⟩, Hr⟩, Hg⟩
  iframe Hr Hg
  isplitl [Ha]; · iexists a; iexact Ha
  iexists b; iexact Hb

end Cert.KernelIdeal.Reg4

end
-- ==== Proof.KI.Reg5.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev opensRun (i : grid5.Coords) : Prop :=
  Scalar.cmpi .ne (Scalar.extui (Scalar.cmpi .eq (BitVec.ofNat 32 (i 1).val) 0#32)) 0#32 = 1#1

theorem opensRun_iff : ∀ t : Fin grid5.N, opensRun (grid5.coords t) ↔ t.val % 125 = 0 := by decide +kernel

theorem hz2 : (![0, 0] : Fin 2 → Nat) = fun _ => 0 := by decide
theorem hz3 : (![0, 0, 0] : Fin 3 → Nat) = fun _ => 0 := by decide

abbrev poolStep (x : Vec F S1000x128 .f32) (w : Vec F S128x1024 .f32) (ids : Vec F S1000x1 .i32)
    (mu sg acc : Vec F S16x1024 .f32) : Vec F S16x1024 .f32 := k5_pay3 x w ids mu sg acc

abbrev poolZero : Vec F S16x1024 .f32 := k5_pay2 (F := F)

abbrev poolOut (acc : Vec F S16x1024 .f32) : Vec F S1x16x1024 .f32 := k5_pay1 acc

set_option maxHeartbeats 2000000 in
/-- One point of the body on whole buffers: the accumulator restarts from zero where a run opens, else goes on from `d`. -/
theorem body (c : Dev nD) (i : grid5.Coords)
    (a2 : Memref sig .tc .vmem S1000x128 .f32) (h2 : a2.IsWhole) (a3 : Memref sig .tc .vmem S128x1024 .f32) (h3 : a3.IsWhole)
    (a4 : Memref sig .tc .vmem S1000x1 .i32) (h4 : a4.IsWhole) (a5 : Memref sig .tc .vmem S16x1024 .f32) (h5 : a5.IsWhole)
    (a6 : Memref sig .tc .vmem S16x1024 .f32) (h6 : a6.IsWhole) (a7 : Memref sig .tc .vmem S1x16x1024 .f32) (h7 : a7.IsWhole)
    (a8 : Memref sig .tc .vmem S16x1024 .f32) (h8 : a8.IsWhole)
    (x : Vec F S1000x128 .f32) (w : Vec F S128x1024 .f32) (ids : Vec F S1000x1 .i32) (mu sg d : Vec F S16x1024 .f32)
    (E : Set ℕ) (K : PUnit → sProp 𝕄) :
    iprop(iprop(owns c a2 fullShare x ∗ owns c a3 fullShare w ∗ owns c a4 fullShare ids
          ∗ owns c a5 fullShare mu ∗ owns c a6 fullShare sg)
        ∗ (∃ d, owns c a7 fullShare d) ∗ owns c a8 fullShare d
        ∗ (iprop(iprop(owns c a2 fullShare x ∗ owns c a3 fullShare w ∗ owns c a4 fullShare ids
              ∗ owns c a5 fullShare mu ∗ owns c a6 fullShare sg)
            ∗ owns c a7 fullShare (poolOut (poolStep x w ids mu sg (if opensRun i then poolZero else d)))
            ∗ owns c a8 fullShare (poolStep x w ids mu sg (if opensRun i then poolZero else d))) -∗ K ⟨⟩))
      ⊢ wp frame (wpE (defs₀ (F := F)) Variants.none c none) E (cc5_kernel i a2 h2 a3 h3 a4 h4 a5 h5 a6 h6 a7 h7 a8 h8) K := by
  by_cases hc : opensRun i <;> (first | rw [if_pos hc] | rw [if_neg hc]) <;> (
  simp only [cc5_kernel_eq_skeleton]; unfold cc5_kernel_skel
  simp only [k5_part1_eq_skeleton]; unfold k5_part1_skel
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, Hk⟩
  sl_exec (disch := first | exact hc)
  sl_step
  iapply Hk
  isplitl [H2 H3 H4 H5 H6]; · sl_close
  isplitl [H7] <;> (iexists _; isplitr; swap; · iassumption) <;> ipureintro <;> sl_unfold_words <;>
    simp only [View.readCov_cons_toLoadRect, View.readAt_eq_ld, hf2, hf3, hf4, hf5, hf6, hf8, View.ld_unit_zero (S := S1000x128) hz2, View.ld_unit_zero (S := S128x1024) hz2,
      View.ld_unit_zero (S := S1000x1) hz2, View.ld_unit_zero (S := S16x1024) hz2]
  · rw [View.read_writes_eq_canon _ _ _ (fun y => ⟨_, List.Mem.head _, View.mem_set_unit_zero hz3 inb_S1x16x1024_S1x16x1024_0_0_0 y⟩),
      View.canon_unit_zero hz3]
  · rw [View.read_writes_eq_canon _ _ _ (fun y => ⟨_, List.Mem.head _, View.mem_set_unit_zero hz2 inb_S16x1024_S16x1024_0_0 y⟩),
      View.canon_cons_unit_zero hz2])

variable (V : (c : Dev nD) → (b : Ref sig .tc) → Buf (Elt F) ((c : Thread nD τ).loc b))

def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rowsAt (c : Dev nD) (t : Fin cfg5.N) : Vec F S1000x128 .f32 := blockAt V c 0 t
abbrev weightsAt (c : Dev nD) (t : Fin cfg5.N) : Vec F S128x1024 .f32 := blockAt V c 1 t
abbrev idsAt (c : Dev nD) (t : Fin cfg5.N) : Vec F S1000x1 .i32 := blockAt V c 2 t
abbrev meanAt (c : Dev nD) (t : Fin cfg5.N) : Vec F S16x1024 .f32 := blockAt V c 3 t
abbrev scaleAt (c : Dev nD) (t : Fin cfg5.N) : Vec F S16x1024 .f32 := blockAt V c 4 t

abbrev stepAt (c : Dev nD) (t : Fin cfg5.N) (acc : Vec F S16x1024 .f32) : Vec F S16x1024 .f32 :=
  poolStep (rowsAt V c t) (weightsAt V c t) (idsAt V c t) (meanAt V c t) (scaleAt V c t) acc

def pooled (c : Dev nD) : (n : ℕ) → n < cfg5.N → Vec F S16x1024 .f32
  | 0, h => stepAt V c ⟨0, h⟩ (poolZero (F := F))
  | n + 1, h => stepAt V c ⟨n + 1, h⟩ (if (n + 1) % 125 = 0 then poolZero (F := F) else pooled c n (Nat.lt_of_succ_lt h))

abbrev accM : Memref sig .tc .vmem S16x1024 .f32 := Memref.whole cc5_scratch0

/-- The region's invariant with the accumulator holding `P`. -/
abbrev PhiAt (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0])
    ∗ (∃ r, prngReg c r))

theorem PhiA_open (c : Dev nD) :
    (Pipeline.ΦA spec5 c : sProp 𝕄) = PhiAt c iprop(∃ d, owns c accM fullShare d) := by
  unfold Pipeline.ΦA; rw [scopedRest5_split]; simp only [accM, owns_whole]; rfl

def PhiS (c : Dev nD) : (n : ℕ) → n ≤ cfg5.N → sProp 𝕄
  | 0, _ => Pipeline.ΦA spec5 c
  | n + 1, hn => PhiAt c (owns c accM fullShare (pooled V c n hn))

/-- Before point `n` the accumulator holds some `d` from which the recursion takes its step at `n`. -/
theorem PhiS_open (c : Dev nD) (n : ℕ) (h : n ≤ cfg5.N) :
    PhiS V c n h ⊢ ∃ d, ⌜∀ hn : n < cfg5.N, pooled V c n hn
        = stepAt V c ⟨n, hn⟩ (if opensRun (grid5.coords ⟨n, hn⟩) then poolZero else d)⌝
      ∗ PhiAt c (owns c accM fullShare d) := by
  cases n with
  | zero =>
    rw [PhiS, PhiA_open]; unfold PhiAt; iintro ⟨⟨⟨%d, HS⟩, HR⟩, Hg⟩; iexists d; isplitr
    · ipureintro; exact fun hn => congrArg (stepAt V c ⟨0, hn⟩) (if_pos ((opensRun_iff ⟨0, hn⟩).mpr rfl)).symm
    iframe
  | succ n =>
    rw [PhiS]; iintro H; iexists (pooled V c n h); isplitr
    · ipureintro; exact fun hn => congrArg (stepAt V c ⟨n + 1, hn⟩) (if_congr (opensRun_iff ⟨n + 1, hn⟩).symm rfl rfl)
    iexact H

def dat (c : Dev nD) : Dat τ (Elt F) Unit ℕ (UR sig nD τ) ℕ cfg5 c where
  A w := V c (Pipeline.arrRef spec5 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => poolOut (pooled V c t.val t.isLt)
  Φ t := PhiS V c t.val (Nat.le_of_lt_succ t.isLt)
  q _ := fullShare
  owed _ := 0

theorem A_eq (c : Dev nD) (w : Fin cfg5.W) : (dat V c).A w = V c (Pipeline.arrRef spec5 w) := by
  dsimp only [dat]

theorem after_5 (c : Dev nD) (t : Fin cfg5.N) : (dat V c).after 5 t = poolOut (pooled V c t.val t.isLt) := by dsimp only [dat]

theorem before_in (c : Dev nD) (t : Fin cfg5.N) :
    (∀ d, (dat V c).before 0 t d = blockAt V c 0 t) ∧ (∀ d, (dat V c).before 1 t d = blockAt V c 1 t)
      ∧ (∀ d, (dat V c).before 2 t d = blockAt V c 2 t) ∧ (∀ d, (dat V c).before 3 t d = blockAt V c 3 t)
      ∧ (∀ d, (dat V c).before 4 t d = blockAt V c 4 t) := by
  refine ⟨?_, ?_, ?_, ?_, ?_⟩ <;> intro d <;>
    exact ((dat V c).before_in_eq_fetched _ rfl (fun _ => rfl) (fun _ _ _ => rfl) (fun _ => rfl) t d).trans rfl

theorem body_obligation (c : Dev nD) : BodyObligation (dat (F := F) V c) (defs₀ (F := F)) Variants.none () Set.univ := fun t => by
  rw [bigSep_W5, bigSep_W5]
  show _ ⊢ wp frame (wpE (defs₀ (F := F)) Variants.none c none) Set.univ (bodyAt5 t) fun _ =>
      iprop(PhiAt c (owns c accM fullShare (pooled V c t.val t.isLt)) ∗ (dat V c).owesAt () t.castSucc
        ∗ owns c (st5_0 t) fullShare (rowsAt V c t) ∗ owns c (st5_1 t) fullShare (weightsAt V c t)
        ∗ owns c (st5_2 t) fullShare (idsAt V c t) ∗ owns c (st5_3 t) fullShare (meanAt V c t)
        ∗ owns c (st5_4 t) fullShare (scaleAt V c t)
        ∗ owns c (st5_5 t) fullShare (poolOut (pooled V c t.val t.isLt)))
  simp only [before_in V c t]
  refine (sep_mono_left (PhiS_open V c t.val (Nat.le_of_lt t.isLt))).trans ?_
  unfold PhiAt
  iintro ⟨⟨%d, %hd, ⟨HS, HR⟩, Hg⟩, Ho, ⟨%d0, H0⟩, ⟨%d1, H1⟩, ⟨%d2, H2⟩, ⟨%d3, H3⟩, ⟨%d4, H4⟩, ⟨%d5, H5⟩⟩
  rw [hd t.isLt]
  iapply (body c _ _ _ _ _ _ _ _ _ _ _ _ _ _ _
    (rowsAt V c t) (weightsAt V c t) (idsAt V c t) (meanAt V c t) (scaleAt V c t) d Set.univ _)
  iframe H0 H1 H2 H3 H4 HS
  isplitl [H5]; · iexists _; iexact H5
  iintro ⟨⟨H0, H1, H2, H3, H4⟩, H5, HS⟩
  iframe

theorem hin (c : Dev nD) : (Pipeline.ΦA spec5 c : sProp 𝕄) ⊢ (dat V c).Φ 0 := .rfl

theorem hout (c : Dev nD) : (dat V c).Φ (Fin.last cfg5.N) ⊢ (Pipeline.ΦA spec5 c : sProp 𝕄) := by
  refine (PhiS_open V c cfg5.N (Nat.le_refl _)).trans ?_
  rw [PhiA_open]; unfold PhiAt; iintro ⟨%d, -, ⟨HS, HR⟩, Hg⟩; iframe HR Hg; iexists d; iexact HS

end Cert.KernelIdeal.Reg5

end
-- ==== Proof.KI.Reg6.lean ====
import proofs.«429425_j21053929685331_2_alg».proof.Proof.Gen.KernelIdeal.Launch
import proofs.«429425_j21053929685331_2_alg».proof.Proof.Gen.KernelIdeal.Skeleton
import proofs.«429425_j21053929685331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg6

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

abbrev idsRect : Rect S1000x1 := Rect.unit (s := S1000x1) ![0, 0] S1000x1.size inb_S1000x1_S1000x1_0_0
abbrev tableRect : Rect S16x9 := Rect.unit (s := S16x9) ![0, 0] S16x9.size inb_S16x9_S16x9_0_0
abbrev outRect : Rect S1000x9 := Rect.unit (s := S1000x9) ![0, 0] S1000x9.size inb_S1000x9_S1000x9_0_0

def broadcastBlock (x0 : Vec F S1000x1 .i32) (x1 : Vec F S16x9 .f32) : Vec F S1000x9 .f32 :=
  View.canon [⟨outRect, k6_pay1 (View.ld x0 idsRect) (View.ld x1 tableRect)⟩]

def dat (c : Dev nD) : Dat τ (Elt F) Unit ℕ (UR sig nD τ) ℕ cfg6 c where
  A w := V c (Pipeline.arrRef spec6 w)
  after w t := match w with
    | ⟨0, _⟩ => blockAt V c 0 t
    | ⟨1, _⟩ => blockAt V c 1 t
    | ⟨2, _⟩ => broadcastBlock (blockAt V c 0 t) (blockAt V c 1 t)
  Φ _ := Pipeline.ΦA spec6 c
  q _ := fullShare
  owed _ := 0

theorem A_eq (c : Dev nD) (w : Fin cfg6.W) : (dat V c).A w = V c (Pipeline.arrRef spec6 w) := rfl

theorem after_out (c : Dev nD) (t : Fin cfg6.N) :
    (dat V c).after 2 t = broadcastBlock (blockAt V c 0 t) (blockAt V c 1 t) := by dsimp only [dat]

theorem staged (c : Dev nD) (t : Fin cfg6.N) :
    (∀ d, (dat V c).before 0 t d = blockAt V c 0 t) ∧ ∀ d, (dat V c).before 1 t d = blockAt V c 1 t := by
  refine ⟨?_, ?_⟩ <;> exact (dat V c).before_in_eq_fetched _ rfl (fun _ => rfl) (fun _ _ _ => rfl) (fun _ => rfl) t

theorem body_obligation (c : Dev nD) : BodyObligation (dat (F := F) V c) (defs₀ (F := F)) Variants.none () Set.univ := fun t => by
  simp only [bigSep_W6, staged V c t]
  dsimp only [dat, Dat.owesAt, Dat.bound]
  show _ ⊢ wp frame _ _ (bodyAt6 t) _
  simp only [bodyAt6, cc6_kernel_eq_skeleton]; unfold cc6_kernel_skel owns
  iintro ⟨HΦ, Ho, ⟨%d0, %f0, %hf0, H0⟩, ⟨%d1, %f1, %hf1, H1⟩, ⟨%d2, %f2, -, H2⟩⟩
  sl_exec
  sl_step
  iframe HΦ Ho
  isplitl [H0]; · iexists f0; iframe H0 %hf0
  isplitl [H1]; · iexists f1; iframe H1 %hf1
  iexists _; iframe H2; ipureintro
  rw [← hf0, ← hf1]
  exact View.read_writes_eq_canon _ _ _ (View.cover_of_tiled [⟨outRect, _⟩] S1000x9.size (by rfl))

theorem hin (c : Dev nD) : (Pipeline.ΦA spec6 c : sProp 𝕄) ⊢ (dat V c).Φ 0 := BIBase.Entails.rfl

theorem hout (c : Dev nD) : (dat V c).Φ (Fin.last cfg6.N) ⊢ (Pipeline.ΦA spec6 c : sProp 𝕄) := BIBase.Entails.rfl

end Cert.KernelIdeal.Reg6

end
-- ==== Proof.KI.Fold.lean ====
import proofs.«429425_j21053929685331_2_alg».proof.Proof.Gen.KernelIdeal.Regions
import proofs.«429425_j21053929685331_2_alg».proof.Proof.KI.Reg0
import proofs.«429425_j21053929685331_2_alg».proof.Proof.KI.Reg1
import proofs.«429425_j21053929685331_2_alg».proof.Proof.KI.Reg2
import proofs.«429425_j21053929685331_2_alg».proof.Proof.KI.Reg3
import proofs.«429425_j21053929685331_2_alg».proof.Proof.KI.Reg4
import proofs.«429425_j21053929685331_2_alg».proof.Proof.KI.Reg5
import proofs.«429425_j21053929685331_2_alg».proof.Proof.KI.Reg6
import Idealize.ShloMosaic.Lib.Pipeline.FrameSuffix

noncomputable section

namespace Cert.KernelIdeal

open Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg)

namespace Fold

abbrev launchSt : MemSt nD τ sig (Elt F) := ⟨m, fun _ => 0, ρ⟩

/-- A core's buffers read at its own references. -/
abbrev tcOf (W : Dev nD → Valuation τ sig (Elt F)) : (c : Dev nD) → (b : Ref sig .tc) → Buf (Elt F) ((c : Thread nD τ).loc b) :=
  fun c b => W c b

abbrev W0 : Dev nD → Valuation τ sig (Elt F) := fun c b => (launchSt m ρ).mem ((c : Dev nD), b)
abbrev V0 := tcOf (W0 m ρ)
abbrev W1 : Dev nD → Valuation τ sig (Elt F) := fun c => StableHlo.after hostOps0 (W0 m ρ c)
abbrev V1 := tcOf (W1 m ρ)
def W2 (c : Dev nD) : Valuation τ sig (Elt F) :=
  Pipeline.withArrays spec0 c (W1 m ρ c) fun w => (Reg0.dat (V1 m ρ) c).arrAt w cfg0.N
abbrev V2 := tcOf (W2 m ρ)
abbrev W3 : Dev nD → Valuation τ sig (Elt F) := fun c => StableHlo.after hostOps1 (W2 m ρ c)
abbrev V3 := tcOf (W3 m ρ)
def W4 (c : Dev nD) : Valuation τ sig (Elt F) :=
  Pipeline.withArrays spec1 c (W3 m ρ c) fun w => (Reg1.dat (V3 m ρ) c).arrAt w cfg1.N
abbrev V4 := tcOf (W4 m ρ)
def W5 (c : Dev nD) : Valuation τ sig (Elt F) :=
  Pipeline.withArrays spec2 c (W4 m ρ c) fun w => (Reg2.dat (V4 m ρ) c).arrAt w cfg2.N
abbrev V5 := tcOf (W5 m ρ)
abbrev W6 : Dev nD → Valuation τ sig (Elt F) := fun c => StableHlo.after hostOps3 (W5 m ρ c)
abbrev V6 := tcOf (W6 m ρ)
def W7 (c : Dev nD) : Valuation τ sig (Elt F) :=
  Pipeline.withArrays spec3 c (W6 m ρ c) fun w => (Reg3.dat (V6 m ρ) c).arrAt w cfg3.N
abbrev V7 := tcOf (W7 m ρ)
def W8 (c : Dev nD) : Valuation τ sig (Elt F) :=
  Pipeline.withArrays spec4 c (W7 m ρ c) fun w => (Reg4.dat (V7 m ρ) c).arrAt w cfg4.N
abbrev V8 := tcOf (W8 m ρ)
abbrev W9 : Dev nD → Valuation τ sig (Elt F) := fun c => StableHlo.after hostOps5 (W8 m ρ c)
abbrev V9 := tcOf (W9 m ρ)
def W10 (c : Dev nD) : Valuation τ sig (Elt F) :=
  Pipeline.withArrays spec5 c (W9 m ρ c) fun w => (Reg5.dat (V9 m ρ) c).arrAt w cfg5.N
abbrev V10 := tcOf (W10 m ρ)
abbrev W11 : Dev nD → Valuation τ sig (Elt F) := fun c => StableHlo.after hostOps6 (W10 m ρ c)
abbrev V11 := tcOf (W11 m ρ)
abbrev W12 : Dev nD → Valuation τ sig (Elt F) := fun c => StableHlo.after hostOps6_1 (W11 m ρ c)
abbrev V12 := tcOf (W12 m ρ)
abbrev W13 : Dev nD → Valuation τ sig (Elt F) := fun c => StableHlo.after hostOps6_2 (W12 m ρ c)
abbrev V13 := tcOf (W13 m ρ)
abbrev W14 : Dev nD → Valuation τ sig (Elt F) := fun c => StableHlo.after hostOps6_3 (W13 m ρ c)
abbrev V14 := tcOf (W14 m ρ)
abbrev W15 : Dev nD → Valuation τ sig (Elt F) := fun c => StableHlo.after hostOps6_4 (W14 m ρ c)
abbrev V15 := tcOf (W15 m ρ)
def W16 (c : Dev nD) : Valuation τ sig (Elt F) :=
  Pipeline.withArrays spec6 c (W15 m ρ c) fun w => (Reg6.dat (V15 m ρ) c).arrAt w cfg6.N
abbrev V16 := tcOf (W16 m ρ)

theorem W2_arr (c : Dev nD) (w : Fin cfg0.W) :
    W2 m ρ c (Proc.devRef .tc (Pipeline.arrRef spec0 w)) = (Reg0.dat (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W4_arr (c : Dev nD) (w : Fin cfg1.W) :
    W4 m ρ c (Proc.devRef .tc (Pipeline.arrRef spec1 w)) = (Reg1.dat (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W5_arr (c : Dev nD) (w : Fin cfg2.W) :
    W5 m ρ c (Proc.devRef .tc (Pipeline.arrRef spec2 w)) = (Reg2.dat (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
theorem W7_arr (c : Dev nD) (w : Fin cfg3.W) :
    W7 m ρ c (Proc.devRef .tc (Pipeline.arrRef spec3 w)) = (Reg3.dat (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
theorem W8_arr (c : Dev nD) (w : Fin cfg4.W) :
    W8 m ρ c (Proc.devRef .tc (Pipeline.arrRef spec4 w)) = (Reg4.dat (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb
theorem W10_arr (c : Dev nD) (w : Fin cfg5.W) :
    W10 m ρ c (Proc.devRef .tc (Pipeline.arrRef spec5 w)) = (Reg5.dat (V9 m ρ) c).arrAt w cfg5.N :=
  Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) :=
  Pipeline.withArrays_of_ne spec5 c _ _ b hb
theorem W16_arr (c : Dev nD) (w : Fin cfg6.W) :
    W16 m ρ c (Proc.devRef .tc (Pipeline.arrRef spec6 w)) = (Reg6.dat (V15 m ρ) c).arrAt w cfg6.N :=
  Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) :=
  Pipeline.withArrays_of_ne spec6 c _ _ b hb

/-- The arrays of a region's output windows. -/
def outs (cfg : Pipeline.Cfg sig Λ₀) : List (Ref sig .tc) :=
  ((List.finRange cfg.W).filter fun w => (cfg.win w).isOut).map (Pipeline.arrRef cfg.spec)

/-- `arrAt` is constant on an input window, so `W'` (the fold's last stage on the arrays, `W` elsewhere) differs from `W` only on output arrays. -/
theorem keep_of (cfg : Pipeline.Cfg sig Λ₀) {c : Dev nD} {W W' : Valuation τ sig (Elt F)}
    (D : Dat τ (Elt F) Unit ℕ (UR sig nD τ) ℕ cfg c)
    (harr : ∀ w, W' (Proc.devRef .tc (Pipeline.arrRef cfg.spec w)) = D.arrAt w cfg.N)
    (hne : ∀ b, (∀ w, Pipeline.arrRef cfg.spec w ≠ b) → W' (Proc.devRef .tc b) = W (Proc.devRef .tc b))
    (hA : ∀ w, D.A w = W (Proc.devRef .tc (Pipeline.arrRef cfg.spec w))) {b : Ref sig .tc} (hb : b ∉ outs cfg) :
    W' (Proc.devRef .tc b) = W (Proc.devRef .tc b) := by
  by_cases h : ∃ w, Pipeline.arrRef cfg.spec w = b
  · obtain ⟨w, rfl⟩ := h
    rw [harr, D.arrAt_in w (by_contra fun ho => hb (List.mem_map.2
      ⟨w, List.mem_filter.2 ⟨List.mem_finRange w, by simpa using ho⟩, rfl⟩)), hA]
  · exact hne b fun w e => h ⟨w, e⟩

/-- The buffers item `k` of the program may change: those a host stretch writes, a region's output arrays. -/
def touched : Nat → List (Ref sig .tc)
  | 0 => hostOps0_W
  | 1 => outs cfg0
  | 2 => hostOps1_W
  | 3 => outs cfg1
  | 4 => outs cfg2
  | 5 => hostOps3_W
  | 6 => outs cfg3
  | 7 => outs cfg4
  | 8 => hostOps5_W
  | 9 => outs cfg5
  | 10 => hostOps6_W
  | 11 => hostOps6_1_W
  | 12 => hostOps6_2_W
  | 13 => hostOps6_3_W
  | 14 => hostOps6_4_W
  | 15 => outs cfg6
  | _ => []

end Fold

namespace Chain

open Fold

/-- Boundary `k`'s contents; every `k ≥ 16` names the last boundary. -/
def Wat : Nat → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | _ => W16 m ρ

abbrev Spares (k : Nat) (b : Ref sig .tc) : Prop := b ∉ touched k

theorem Wat_succ_lo (c : Dev nD) {b : Ref sig .tc} (k : Nat) (hk : k < 8) (h : Spares k b) :
    Wat m ρ (k + 1) c (Proc.devRef .tc b) = Wat m ρ k c (Proc.devRef .tc b) := by
  by_cases e : k = 0; · subst e; exact StableHlo.after_of_writes_sub hostOps0 _ hostOps0_writes h
  by_cases e : k = 1; · subst e; exact keep_of cfg0 _ (W2_arr m ρ c) (W2_of_ne m ρ c) (Reg0.A_eq (V1 m ρ) c) h
  by_cases e : k = 2; · subst e; exact StableHlo.after_of_writes_sub hostOps1 _ hostOps1_writes h
  by_cases e : k = 3; · subst e; exact keep_of cfg1 _ (W4_arr m ρ c) (W4_of_ne m ρ c) (Reg1.A_eq (V3 m ρ) c) h
  by_cases e : k = 4; · subst e; exact keep_of cfg2 _ (W5_arr m ρ c) (W5_of_ne m ρ c) (Reg2.A_eq (V4 m ρ) c) h
  by_cases e : k = 5; · subst e; exact StableHlo.after_of_writes_sub hostOps3 _ hostOps3_writes h
  by_cases e : k = 6; · subst e; exact keep_of cfg3 _ (W7_arr m ρ c) (W7_of_ne m ρ c) (Reg3.A_eq (V6 m ρ) c) h
  by_cases e : k = 7; · subst e; exact keep_of cfg4 _ (W8_arr m ρ c) (W8_of_ne m ρ c) (Reg4.A_eq (V7 m ρ) c) h
  omega

theorem Wat_succ (c : Dev nD) {b : Ref sig .tc} (k : Nat) (h : Spares k b) :
    Wat m ρ (k + 1) c (Proc.devRef .tc b) = Wat m ρ k c (Proc.devRef .tc b) := by
  by_cases hk : k < 8; · exact Wat_succ_lo m ρ c k hk h
  by_cases e : k = 8; · subst e; exact StableHlo.after_of_writes_sub hostOps5 _ hostOps5_writes h
  by_cases e : k = 9; · subst e; exact keep_of cfg5 _ (W10_arr m ρ c) (W10_of_ne m ρ c) (Reg5.A_eq (V9 m ρ) c) h
  by_cases e : k = 10; · subst e; exact StableHlo.after_of_writes_sub hostOps6 _ hostOps6_writes h
  by_cases e : k = 11; · subst e; exact StableHlo.after_of_writes_sub hostOps6_1 _ hostOps6_1_writes h
  by_cases e : k = 12; · subst e; exact StableHlo.after_of_writes_sub hostOps6_2 _ hostOps6_2_writes h
  by_cases e : k = 13; · subst e; exact StableHlo.after_of_writes_sub hostOps6_3 _ hostOps6_3_writes h
  by_cases e : k = 14; · subst e; exact StableHlo.after_of_writes_sub hostOps6_4 _ hostOps6_4_writes h
  by_cases e : k = 15; · subst e; exact keep_of cfg6 _ (W16_arr m ρ c) (W16_of_ne m ρ c) (Reg6.A_eq (V15 m ρ) c) h
  obtain ⟨j, rfl⟩ : ∃ j, k = j + 16 := ⟨k - 16, by omega⟩
  rfl

/-- What no item from `lo` up to `hi` may change is the same at both boundaries. -/
theorem kept (c : Dev nD) (b : Ref sig .tc) (lo hi : Nat) (hle : lo ≤ hi)
    (h : ∀ k, k < hi - lo → Spares (lo + k) b) :
    Wat m ρ hi c (Proc.devRef .tc b) = Wat m ρ lo c (Proc.devRef .tc b) := by
  obtain ⟨n, rfl⟩ := Nat.exists_eq_add_of_le hle
  rw [Nat.add_sub_cancel_left] at h
  clear hle
  induction n with
  | zero => rfl
  | succ n ih => exact (Wat_succ m ρ c (lo + n) (h n n.lt_succ_self)).trans (ih fun k hk => h k (Nat.lt_succ_of_lt hk))

end Chain

namespace Fold

theorem W16_main_arg0 (c : Dev nD) : W16 m ρ c (Proc.devRef .tc main_arg0) = m ((c : Thread nD τ).loc main_arg0) :=
  Chain.kept m ρ c main_arg0 0 16 (by decide) (by decide)
theorem W16_main_arg1 (c : Dev nD) : W16 m ρ c (Proc.devRef .tc main_arg1) = m ((c : Thread nD τ).loc main_arg1) :=
  Chain.kept m ρ c main_arg1 0 16 (by decide) (by decide)
theorem W16_main_arg2 (c : Dev nD) : W16 m ρ c (Proc.devRef .tc main_arg2) = m ((c : Thread nD τ).loc main_arg2) :=
  Chain.kept m ρ c main_arg2 0 16 (by decide) (by decide)
theorem W16_main_arg3 (c : Dev nD) : W16 m ρ c (Proc.devRef .tc main_arg3) = m ((c : Thread nD τ).loc main_arg3) :=
  Chain.kept m ρ c main_arg3 0 16 (by decide) (by decide)
theorem W16_main_arg4 (c : Dev nD) : W16 m ρ c (Proc.devRef .tc main_arg4) = m ((c : Thread nD τ).loc main_arg4) :=
  Chain.kept m ρ c main_arg4 0 16 (by decide) (by decide)
theorem W16_main_arg5 (c : Dev nD) : W16 m ρ c (Proc.devRef .tc main_arg5) = m ((c : Thread nD τ).loc main_arg5) :=
  Chain.kept m ρ c main_arg5 0 16 (by decide) (by decide)
theorem W16_main_arg6 (c : Dev nD) : W16 m ρ c (Proc.devRef .tc main_arg6) = m ((c : Thread nD τ).loc main_arg6) :=
  Chain.kept m ρ c main_arg6 0 16 (by decide) (by decide)
theorem W16_main_arg7 (c : Dev nD) : W16 m ρ c (Proc.devRef .tc main_arg7) = m ((c : Thread nD τ).loc main_arg7) :=
  Chain.kept m ρ c main_arg7 0 16 (by decide) (by decide)
theorem W16_main_arg8 (c : Dev nD) : W16 m ρ c (Proc.devRef .tc main_arg8) = m ((c : Thread nD τ).loc main_arg8) :=
  Chain.kept m ρ c main_arg8 0 16 (by decide) (by decide)

end Fold

end Cert.KernelIdeal

end
-- ==== Proof.KI.Run.lean ====
import proofs.«429425_j21053929685331_2_alg».proof.Proof.KI.Fold
import Idealize.ShloMosaic.Lib.Pipeline.RegionsLoop

noncomputable section

namespace Cert.KernelIdeal.Run

open Cert.KernelIdeal Cert.KernelIdeal.Fold
open Cert.KernelIdeal.Gen hiding V0 V1 V2 V3 V4 V5 V6 V7 V8 V9 V10 V11 V12 V13 V14 V15 V16 segs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | 0 => Reg0.dat (V1 m ρ)
  | 1 => Reg1.dat (V3 m ρ)
  | 2 => Reg2.dat (V4 m ρ)
  | 3 => Reg3.dat (V6 m ρ)
  | 4 => Reg4.dat (V7 m ρ)
  | 5 => Reg5.dat (V9 m ρ)
  | 6 => Reg6.dat (V15 m ρ)

abbrev vars : Variants := Variants.none
abbrev lvls : GSem nD τ sig → Finset Unit := fun _ => ∅
abbrev lvOf : GSem nD τ sig → Unit → ℕ := fun _ _ => 0

abbrev carried (c : Dev nD) : sProp 𝕄 :=
  iprop((∃ r, prngReg c r) ∗ ∃ W, owes (c : Thread nD τ) (0 : CellTallies nD τ sig Unit) W)

/-- The state between two items, when the buffers hold the contents `W c`. -/
abbrev stateAt (W : Dev nD → Valuation τ sig (Elt F)) (c : Dev nD) : sProp 𝕄 :=
  iprop(StableHlo.held (c : Thread nD τ) (Pipeline.ucRefs τ sig) (W c) ∗ carried c)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lvOf :=
  Pipeline.HostSeg.ofOps _ _ _ _ _ (Pipeline.ucRefs τ sig) ops
    (fun op h => Pipeline.sub_ucRefs op (List.forall_iff_forall_mem.mp hsub op h))
    (List.forall_iff_forall_mem.mp hfresh) W carried

/-- One record for all seven regions: entered at `W`, left at `W'`, which differs from `W` at the region's arrays only. -/
def reg (p : Fin 7) (L : Pipeline.LaunchFacts (nD := nD) (τ := τ) cfgs p) (W W' : Dev nD → Valuation τ sig (Elt F))
    (hb : ∀ c, Pipeline.BodyObligation (pdats m ρ p c) defs₀ vars () Set.univ)
    (hi : ∀ c, Pipeline.ΦA (cfgs p).spec c ⊢ (pdats m ρ p c).Φ 0)
    (ho : ∀ c, (pdats m ρ p c).Φ (Fin.last _) ⊢ Pipeline.ΦA (cfgs p).spec c)
    (hF : ∀ c w, W' c (Pipeline.arrRef (cfgs p).spec w) = (pdats m ρ p c).arrAt w (cfgs p).N)
    (hne : ∀ c (b : Ref sig .tc), (∀ w, Pipeline.arrRef (cfgs p).spec w ≠ b) → W' c b = W c b)
    (hq : ∀ c w, (pdats m ρ p c).q w = fullShare := by intros; rfl)
    (h0 : ∀ c t, (pdats m ρ p c).owed t = 0 := by intros; rfl)
    (hr : ∀ c, (pdats m ρ p c).recorded 0 = Set.univ := by intros; rfl)
    (hA : ∀ c w, (pdats m ρ p c).A w = W c (Pipeline.arrRef (cfgs p).spec w) := by intros; rfl) :
    Pipeline.RegionSeg (pcfgs (F := F)) adm (pdats m ρ) () defs₀ vars lvls lvOf p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ lvls lvOf p h0
  pre := stateAt W
  post := stateAt W'
  X c := iprop(∃ r, prngReg c r)
  Y c := iprop(∃ r, prngReg c r)
  Z c := Pipeline.unscopedRest (cfgs p).spec c fun b => W c b
  hentry c := by
    have hs := Pipeline.arrays_of_unscopedBufs (p := p) (pcfgs (F := F)) adm (pdats m ρ) L.win L.arr_whole c
      ((pdats m ρ p c).share_full (hq c)) (fun b => W c b) (hA c)
    rw [Pipeline.unscopedBufs_held] at hs
    unfold Pipeline.prefHeld Pipeline.Dat.owesAt Pipeline.owesWithin
    rw [h0 c 0, show (Finset.univ : Finset (Fin 0)) = ∅ from rfl, BI.bigSep_empty]
    iintro ⟨⟨Hd, Hg, %O, HO⟩, -⟩
    ihave H := hs $$ Hd
    icases H with ⟨Ha, Hr⟩
    imodintro
    isplitl [Ha]; · iexact Ha
    isplitr; · iempintro
    isplitl [HO]
    · iexists O; isplitr
      · ipureintro; exact fun _ _ => .inl (hr c ▸ trivial)
      iexact HO
    isplitl [Hg] <;> iassumption
  hin c := by
    refine .trans ?_ (hi c)
    unfold Pipeline.ΦA
    iintro ⟨Hg, -, Hs⟩
    isplitl [Hs] <;> iassumption
  hout c := by
    refine (ho c).trans ?_
    rw [Pipeline.ownSems0_none]; unfold Pipeline.ΦA
    iintro ⟨Hs, Hg⟩
    isplitl [Hg]; · iexact Hg
    isplitr; · iempintro
    iexact Hs
  hexit c := by
    have hj := Pipeline.unscopedBufs_of_arrays (p := p) (pcfgs (F := F)) adm L.win L.arr_whole c (pdats m ρ)
      ((pdats m ρ p c).share_full (hq c))
      (fun b => W c b) (fun b => W' c b) ((pdats m ρ p c).arrAt · (cfgs p).N) (fun w => (hF c w).symm)
      (fun b hb => hne c b fun w e => hb (Finset.mem_image.mpr ⟨w, Finset.mem_univ _, e⟩))
    rw [Pipeline.unscopedBufs_held] at hj
    unfold Pipeline.Dat.owesAt Pipeline.owesWithin
    rw [h0 c _]
    iintro ⟨Ha, ⟨%O, -, HO⟩, HY, Hr⟩
    imodintro
    isplitl [Ha Hr]
    · iapply hj; isplitl [Ha] <;> iassumption
    isplitl [HY]; · iexact HY
    iexists O; iexact HO

abbrev segs : List (Pipeline.Seg (pcfgs (F := F)) adm (pdats m ρ) () defs₀ vars lvls lvOf) :=
  [ .host (hostSeg hostOps0 hostOps0_sub hostOps0_fresh (W0 m ρ)),
    .region (reg m ρ 0 launch0 (W1 m ρ) (W2 m ρ) (Reg0.body_obligation _) (Reg0.hin _) (Reg0.hout _)
      (W2_arr m ρ) (W2_of_ne m ρ)),
    .host (hostSeg hostOps1 hostOps1_sub hostOps1_fresh (W2 m ρ)),
    .region (reg m ρ 1 launch1 (W3 m ρ) (W4 m ρ) (Reg1.body_obligation _) (Reg1.hin _) (Reg1.hout _)
      (W4_arr m ρ) (W4_of_ne m ρ)),
    .region (reg m ρ 2 launch2 (W4 m ρ) (W5 m ρ) (Reg2.body_obligation _) (Reg2.hin _) (Reg2.hout _)
      (W5_arr m ρ) (W5_of_ne m ρ)),
    .host (hostSeg hostOps3 hostOps3_sub hostOps3_fresh (W5 m ρ)),
    .region (reg m ρ 3 launch3 (W6 m ρ) (W7 m ρ) (Reg3.body_obligation _) (Reg3.hin _) (Reg3.hout _)
      (W7_arr m ρ) (W7_of_ne m ρ)),
    .region (reg m ρ 4 launch4 (W7 m ρ) (W8 m ρ) (Reg4.body_obligation _) (Reg4.hin _) (Reg4.hout _)
      (W8_arr m ρ) (W8_of_ne m ρ)),
    .host (hostSeg hostOps5 hostOps5_sub hostOps5_fresh (W8 m ρ)),
    .region (reg m ρ 5 launch5 (W9 m ρ) (W10 m ρ) (Reg5.body_obligation _) (Reg5.hin _) (Reg5.hout _)
      (W10_arr m ρ) (W10_of_ne m ρ)),
    .host (hostSeg hostOps6 hostOps6_sub hostOps6_fresh (W10 m ρ)),
    .host (hostSeg hostOps6_1 hostOps6_1_sub hostOps6_1_fresh (W11 m ρ)),
    .host (hostSeg hostOps6_2 hostOps6_2_sub hostOps6_2_fresh (W12 m ρ)),
    .host (hostSeg hostOps6_3 hostOps6_3_sub hostOps6_3_fresh (W13 m ρ)),
    .host (hostSeg hostOps6_4 hostOps6_4_sub hostOps6_4_fresh (W14 m ρ)),
    .region (reg m ρ 6 launch6 (W15 m ρ) (W16 m ρ) (Reg6.body_obligation _) (Reg6.hin _) (Reg6.hout _)
      (W16_arr m ρ) (W16_of_ne m ρ)) ]

/-- Every fair execution from `m` terminates, and each buffer ends at the contents `W16`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W16 m ρ c b) :=
  Pipeline.θ_run_regions_kit (pcfgs (F := F)) adm (pdats m ρ) () cellOf_inj emb₁ defs₀ vars lvls lvOf m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const, ownU_emb₁]
      iintro Hu
      imodintro
      isplitl [Hu]; · iexact Hu
      iempintro)
    (T₀ := stateAt (W0 m ρ))
    (Tₙ := fun c => iprop(StableHlo.held (c : Thread nD τ) (Pipeline.ucRefs τ sig) (W16 m ρ c) ∗ ∃ r, prngReg c r))
    (hch := by and_intros <;> intro c <;> first | exact .rfl | exact sep_assoc')
    (hinit := by
      refine Pipeline.initEach lvls lvOf fun c => ?_
      rw [show unscopedBufs c (fun b => m ((c : Thread nD τ).loc b)) = _ from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := _)
    (hfin := fun c s' => by
      iintro ⟨⟨Hh, -⟩, HSI⟩
      unfold StableHlo.held
      imodintro
      iapply (pointsTo_read_all (Pipeline.ucRefs τ sig) (fun b => ((c : Thread nD τ).1, b)) (W16 m ρ c) s')
      iframe)
    (hQ := fun _ h => h)

theorem run_result : θ_run defs (onTc (τ := τ) (main (F := F))) ⟨m, fun _ => 0, ρ⟩ (fun r => ∀ c : Dev nD,
      r.2.mem ((c.tc : Thread nD τ).loc main_v83) = W16 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_all m ρ)
  have a {b : Ref sig .tc} {x} (e : W16 m ρ c (Proc.devRef .tc b) = x)
      (hb : ¬ (Proc.devRef .tc b : DevRef τ sig).isScoped := by decide) :=
    (h c _ (Finset.mem_filter.mpr ⟨StableHlo.devRef_mem_tcRefs b, hb⟩)).trans e
  exact ⟨a rfl, a (W16_main_arg0 m ρ c), a (W16_main_arg1 m ρ c), a (W16_main_arg2 m ρ c), a (W16_main_arg3 m ρ c),
    a (W16_main_arg4 m ρ c), a (W16_main_arg5 m ρ c), a (W16_main_arg6 m ρ c), a (W16_main_arg7 m ρ c), a (W16_main_arg8 m ρ c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Run
end
-- ==== Proof.Net.lean ====
import Idealize.ShloMosaic.PureOps.Ideal
import Mathlib.Algebra.BigOperators.Fin
import Mathlib.Data.Fintype.BigOperators

noncomputable section

namespace Cert.Net

open Idealize.ShloMosaic
open scoped BigOperators

variable {N : ℕ} (seg : Fin N → Fin 16)

def eps : EReal := Ideal.ofBits .f32 0x3727C5AC#32

def lin {K C : ℕ} (x : Fin N → Fin K → EReal) (W : Fin K → Fin C → EReal) (i : Fin N) (c : Fin C) : EReal :=
  ∑ k : Fin K, x i k * W k c

def members (b : Fin 16) : Finset (Fin N) := Finset.univ.filter fun i => seg i = b

def cnt (b : Fin 16) : EReal := ∑ _i ∈ members seg b, (1 : EReal)

def segSum {C : ℕ} (y : Fin N → Fin C → EReal) (b : Fin 16) (c : Fin C) : EReal := ∑ i ∈ members seg b, y i c

def mean {C : ℕ} (y : Fin N → Fin C → EReal) (b : Fin 16) (c : Fin C) : EReal := Ideal.div (segSum seg y b c) (cnt seg b)

def var {C : ℕ} (y : Fin N → Fin C → EReal) (b : Fin 16) (c : Fin C) : EReal :=
  Ideal.div (segSum seg (fun i c => y i c * y i c) b c) (cnt seg b) - mean seg y b c * mean seg y b c

def norm {C : ℕ} (y : Fin N → Fin C → EReal) (i : Fin N) (c : Fin C) : EReal :=
  max ((y i c - mean seg y (seg i) c) * Ideal.rsqrt (var seg y (seg i) c + eps)) 0

def ind (i : Fin N) (b : Fin 16) : EReal := if seg i = b then 1 else 0

def pick {C : ℕ} (T : Fin 16 → Fin C → EReal) (i : Fin N) (c : Fin C) : EReal := ∑ b : Fin 16, ind seg i b * T b c

def pool {C : ℕ} (y : Fin N → Fin C → EReal) (b : Fin 16) (c : Fin C) : EReal := Ideal.div (segSum seg y b c) (cnt seg b)

def selfNorm (a : EReal) : EReal := max ((a - a) * Ideal.rsqrt ((a * a - a * a) + eps)) 0

def eye9 (j : Fin 9) : EReal := if j.val / 3 = j.val % 3 then 1 else 0

def head (w4 : Fin 1024 → Fin 512 → EReal) (w5 : Fin 512 → Fin 256 → EReal) (w6 : Fin 256 → Fin 9 → EReal)
    (b6 : Fin 9 → EReal) (g : Fin 1024 → EReal) (j : Fin 9) : EReal :=
  ((∑ k : Fin 256, selfNorm (∑ k' : Fin 512, selfNorm (∑ k'' : Fin 1024, g k'' * w4 k'' k') * w5 k' k) * w6 k j) + b6 j) + eye9 j

end Cert.Net

end
-- ==== Proof.KI.HostStats.lean ====
import proofs.«429425_j21053929685331_2_alg».proof.Proof.Gen.KernelIdeal.Regions
import proofs.«429425_j21053929685331_2_alg».proof.Proof.Net
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

noncomputable section

namespace Cert.KernelIdeal.HostStats

open Idealize.ShloMosaic Idealize.ShloMosaic.TcCoe Idealize.ShloMosaic.ValueIdx Idealize.ShloMosaic.StableHlo
open Cert.KernelIdeal Cert.KernelIdeal.Gen
open scoped BigOperators

abbrev coreSum {a c : ℕ} (x : (⟨3, ![2, a, c]⟩ : Shape).Idx → EReal) (b : Fin a) (j : Fin c) : EReal :=
  ∑ p : Fin 2, x (ix3 p b j)

abbrev invDev (s q n : EReal) : EReal :=
  Ideal.rsqrt (max (Ideal.div q n - Ideal.div s n * Ideal.div s n) 0 + Net.eps)

theorem reduce_cores_apply {a c : ℕ}
    (h' : (⟨3, ![2, a, c]⟩ : Shape).ReducesTo [0] ⟨2, ![a, c]⟩) (h : (⟨3, ![2, a, c]⟩ : Shape).Reduces [0] ⟨2, ![a, c]⟩)
    (x : (⟨3, ![2, a, c]⟩ : Shape).Idx → EReal) (b : Fin a) (j : Fin c) :
    Host.reduceAdd (F := Ideal) (φ := .f32) x (constant (F := Ideal) S_ .f32 0x00000000#32) h' h_S_ (ix2 b j)
      = coreSum x b j := by
  show Ideal.hostReduceAdd h' x (Ideal.ofBits .f32 0x00000000#32) (ix2 b j) = _
  rw [Ideal.hostReduceAdd_single h' h, Ideal.ofBits_zero_f32, zero_add]
  refine Finset.sum_congr rfl fun p _ => congrArg x (funext fun ax => ?_)
  match ax with
  | ⟨0, _⟩ => rfl
  | ⟨1, _⟩ => rfl
  | ⟨2, _⟩ => rfl

section Layer

variable {c : ℕ}
  (h3 : (⟨3, ![2, 16, c]⟩ : Shape).ReducesTo [0] ⟨2, ![16, c]⟩)
  (hb : (⟨2, ![16, 1]⟩ : Shape).BroadcastsInDim ⟨2, ![16, c]⟩ (![0, 1] : Fin 2 → Fin 2))
  (hr : (⟨3, ![2, 16, c]⟩ : Shape).Reduces [0] ⟨2, ![16, c]⟩)
  (Sm Sq : (⟨3, ![2, 16, c]⟩ : Shape).Idx → EReal) (n : S16x1.Idx → EReal) (b : Fin 16) (j : Fin c)

abbrev meanArr : (⟨2, ![16, c]⟩ : Shape).Idx → EReal :=
  Host.divf (F := Ideal) (φ := .f32)
    (Host.reduceAdd (F := Ideal) (φ := .f32) Sm (constant (F := Ideal) S_ .f32 0x00000000#32) h3 h_S_)
    (broadcastInDim ⟨2, ![16, c]⟩ ![0, 1] hb n)

include hr

theorem mean_at : meanArr h3 hb Sm n (ix2 b j) = Ideal.div (coreSum Sm b j) (n (ix2 b (0 : Fin 1))) :=
  congrArg₂ Ideal.div (reduce_cores_apply h3 hr Sm b j) (broadcastInDim_apply _ hb n (ix2 b j) (ix2 b (0 : Fin 1)) fun ax => by
    match ax with
    | ⟨0, _⟩ => exact (if_neg (show ¬(16 : ℕ) = 1 by decide)).symm
    | ⟨1, _⟩ => rfl)

theorem inv_at :
    Ideal.rsqrt (max (meanArr h3 hb Sq n (ix2 b j) - meanArr h3 hb Sm n (ix2 b j) * meanArr h3 hb Sm n (ix2 b j))
      (Ideal.ofBits .f32 0x00000000#32) + Net.eps)
      = invDev (coreSum Sm b j) (coreSum Sq b j) (n (ix2 b (0 : Fin 1))) := by
  rw [mean_at h3 hb hr Sm n b j, mean_at h3 hb hr Sq n b j, Ideal.ofBits_zero_f32]

end Layer

variable (Vin : Valuation τ sig (Elt Ideal))

abbrev idsIn : S250000.Idx → BitVec 32 := Vin (Proc.devRef .tc main_arg1)

theorem ids_col (i : Fin 250000) :
    (StableHlo.after hostOps0 Vin (Proc.devRef .tc main_v0) : S250000x1.Idx → BitVec 32) (ix2 i (0 : Fin 1))
      = idsIn Vin (ix1 i) := by
  have e : (StableHlo.after hostOps0 Vin (Proc.devRef .tc main_v0) : S250000x1.Idx → BitVec 32)
      = shapeCast S250000x1 (idsIn Vin) shapeCasts_S250000_S250000x1 := by
    dsimp only [hostOps0]; after_results <;> rfl
  rw [e]
  refine shapeCast_apply _ _ _ _ ?_
  rw [Shape.rowMajor_val_one, Shape.rowMajor_val_two]
  exact (Nat.mul_one _).symm

abbrev Cn1 : S2x16x1.Idx → EReal := Vin (Proc.devRef .tc main_v1_3)

abbrev cntArr (Cn : S2x16x1.Idx → EReal) : S16x1.Idx → EReal :=
  Host.reduceAdd (F := Ideal) (φ := .f32) Cn (constant (F := Ideal) S_ .f32 0x00000000#32) reducesTo_S2x16x1_S16x1_d0 h_S_

theorem cntArr_apply (Cn : S2x16x1.Idx → EReal) (b : Fin 16) : cntArr Cn (ix2 b (0 : Fin 1)) = coreSum Cn b (0 : Fin 1) :=
  reduce_cores_apply _ (by decide) Cn b (0 : Fin 1)

theorem cnt1 (b : Fin 16) :
    (StableHlo.after hostOps1 Vin (Proc.devRef .tc main_v2) : S16x1.Idx → EReal) (ix2 b (0 : Fin 1))
      = coreSum (Cn1 Vin) b (0 : Fin 1) := by
  dsimp only [hostOps1]; after_results
  exact cntArr_apply (Cn1 Vin) b

abbrev CntIn : S16x1.Idx → EReal := Vin (Proc.devRef .tc main_v2)

abbrev Sm1 : S2x16x64.Idx → EReal := Vin (Proc.devRef .tc main_v1_1)
abbrev Sq1 : S2x16x64.Idx → EReal := Vin (Proc.devRef .tc main_v1_2)

theorem mean1 (b : Fin 16) (j : Fin 64) :
    (StableHlo.after hostOps1 Vin (Proc.devRef .tc main_v6) : S16x64.Idx → EReal) (ix2 b j)
      = Ideal.div (coreSum (Sm1 Vin) b j) (coreSum (Cn1 Vin) b (0 : Fin 1)) := by
  rw [← cntArr_apply]
  dsimp only [hostOps1]; after_results
  exact mean_at reducesTo_S2x16x64_S16x64_d0 bcast_S16x1_S16x64_0_1 (by decide) (Sm1 Vin) (cntArr (Cn1 Vin)) b j

theorem inv1 (b : Fin 16) (j : Fin 64) :
    (StableHlo.after hostOps1 Vin (Proc.devRef .tc main_v15) : S16x64.Idx → EReal) (ix2 b j)
      = invDev (coreSum (Sm1 Vin) b j) (coreSum (Sq1 Vin) b j) (coreSum (Cn1 Vin) b (0 : Fin 1)) := by
  rw [← cntArr_apply]
  dsimp only [hostOps1]; after_results
  exact inv_at reducesTo_S2x16x64_S16x64_d0 bcast_S16x1_S16x64_0_1 (by decide) (Sm1 Vin) (Sq1 Vin) (cntArr (Cn1 Vin)) b j

abbrev Sm2 : S2x16x128.Idx → EReal := Vin (Proc.devRef .tc main_v17_1)
abbrev Sq2 : S2x16x128.Idx → EReal := Vin (Proc.devRef .tc main_v17_2)

theorem mean2 (b : Fin 16) (j : Fin 128) :
    (StableHlo.after hostOps3 Vin (Proc.devRef .tc main_v21) : S16x128.Idx → EReal) (ix2 b j)
      = Ideal.div (coreSum (Sm2 Vin) b j) (CntIn Vin (ix2 b (0 : Fin 1))) := by
  dsimp only [hostOps3]; after_results
  exact mean_at reducesTo_S2x16x128_S16x128_d0 bcast_S16x1_S16x128_0_1 (by decide) (Sm2 Vin) (CntIn Vin) b j

theorem inv2 (b : Fin 16) (j : Fin 128) :
    (StableHlo.after hostOps3 Vin (Proc.devRef .tc main_v30) : S16x128.Idx → EReal) (ix2 b j)
      = invDev (coreSum (Sm2 Vin) b j) (coreSum (Sq2 Vin) b j) (CntIn Vin (ix2 b (0 : Fin 1))) := by
  dsimp only [hostOps3]; after_results
  exact inv_at reducesTo_S2x16x128_S16x128_d0 bcast_S16x1_S16x128_0_1 (by decide) (Sm2 Vin) (Sq2 Vin) (CntIn Vin) b j

abbrev Sm3 : S2x16x1024.Idx → EReal := Vin (Proc.devRef .tc main_v32_0)
abbrev Sq3 : S2x16x1024.Idx → EReal := Vin (Proc.devRef .tc main_v32_1)

theorem mean3 (b : Fin 16) (j : Fin 1024) :
    (StableHlo.after hostOps5 Vin (Proc.devRef .tc main_v36) : S16x1024.Idx → EReal) (ix2 b j)
      = Ideal.div (coreSum (Sm3 Vin) b j) (CntIn Vin (ix2 b (0 : Fin 1))) := by
  dsimp only [hostOps5]; after_results
  exact mean_at reducesTo_S2x16x1024_S16x1024_d0 bcast_S16x1_S16x1024_0_1 (by decide) (Sm3 Vin) (CntIn Vin) b j

theorem inv3 (b : Fin 16) (j : Fin 1024) :
    (StableHlo.after hostOps5 Vin (Proc.devRef .tc main_v45) : S16x1024.Idx → EReal) (ix2 b j)
      = invDev (coreSum (Sm3 Vin) b j) (coreSum (Sq3 Vin) b j) (CntIn Vin (ix2 b (0 : Fin 1))) := by
  dsimp only [hostOps5]; after_results
  exact inv_at reducesTo_S2x16x1024_S16x1024_d0 bcast_S16x1_S16x1024_0_1 (by decide) (Sm3 Vin) (Sq3 Vin) (CntIn Vin) b j

end Cert.KernelIdeal.HostStats

end
-- ==== Proof.NetLayers.lean ====
import proofs.«429425_j21053929685331_2_alg».proof.Proof.Net

noncomputable section

namespace Cert.Net

def hidden1 (seg : Fin 250000 → Fin 16) (x : Fin 250000 → Fin 3 → EReal) (w1 : Fin 3 → Fin 64 → EReal) :
    Fin 250000 → Fin 64 → EReal :=
  norm seg (lin x w1)

def hidden2 (seg : Fin 250000 → Fin 16) (x : Fin 250000 → Fin 3 → EReal) (w1 : Fin 3 → Fin 64 → EReal)
    (w2 : Fin 64 → Fin 128 → EReal) : Fin 250000 → Fin 128 → EReal :=
  norm seg (lin (hidden1 seg x w1) w2)

def hidden3 (seg : Fin 250000 → Fin 16) (x : Fin 250000 → Fin 3 → EReal) (w1 : Fin 3 → Fin 64 → EReal)
    (w2 : Fin 64 → Fin 128 → EReal) (w3 : Fin 128 → Fin 1024 → EReal) : Fin 250000 → Fin 1024 → EReal :=
  norm seg (lin (hidden2 seg x w1 w2) w3)

def pooled3 (seg : Fin 250000 → Fin 16) (x : Fin 250000 → Fin 3 → EReal) (w1 : Fin 3 → Fin 64 → EReal)
    (w2 : Fin 64 → Fin 128 → EReal) (w3 : Fin 128 → Fin 1024 → EReal) (b : Fin 16) (k : Fin 1024) : EReal :=
  pool seg (hidden3 seg x w1 w2 w3) b k

def output (seg : Fin 250000 → Fin 16) (x : Fin 250000 → Fin 3 → EReal) (w1 : Fin 3 → Fin 64 → EReal)
    (w2 : Fin 64 → Fin 128 → EReal) (w3 : Fin 128 → Fin 1024 → EReal) (w4 : Fin 1024 → Fin 512 → EReal)
    (w5 : Fin 512 → Fin 256 → EReal) (w6 : Fin 256 → Fin 9 → EReal) (b6 : Fin 9 → EReal) (i : Fin 250000) (j : Fin 9) :
    EReal :=
  head w4 w5 w6 b6 (fun k => pooled3 seg x w1 w2 w3 (seg i) k) j

end Cert.Net

end
-- ==== Proof.NetLaws.lean ====
import proofs.«429425_j21053929685331_2_alg».proof.Proof.Net
import Mathlib.Algebra.Order.Chebyshev
import Mathlib.Data.EReal.Basic
import Mathlib.Data.EReal.Operations
import Mathlib.Analysis.Real.Sqrt

noncomputable section

namespace Cert.Net

open Idealize.ShloMosaic
open scoped BigOperators

variable {N : ℕ} (seg : Fin N → Fin 16)

def IsReal (x : EReal) : Prop := ∃ r : ℝ, x = (r : EReal)

theorem IsReal.mul {a b : EReal} : IsReal a → IsReal b → IsReal (a * b)
  | ⟨r, hr⟩, ⟨s, hs⟩ => ⟨r * s, by rw [hr, hs, EReal.coe_mul]⟩

theorem IsReal.max {a b : EReal} (ha : IsReal a) (hb : IsReal b) : IsReal (max a b) := by
  rcases max_choice a b with h | h <;> rwa [h]

theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

theorem IsReal.sum {ι : Type*} (s : Finset ι) (g : ι → EReal) (h : ∀ i ∈ s, IsReal (g i)) :
    IsReal (∑ i ∈ s, g i) := by
  classical
  choose! f hf using h
  exact ⟨∑ i ∈ s, f i, by rw [Finset.sum_congr rfl hf, sum_coe]⟩

theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem pick_eq {C : ℕ} (T : Fin 16 → Fin C → EReal) (i : Fin N) (c : Fin C) :
    pick seg T i c = T (seg i) c := by
  simp [pick, ind]

theorem segSum_eq_ind {C : ℕ} (y : Fin N → Fin C → EReal) (b : Fin 16) (c : Fin C) :
    segSum seg y b c = ∑ i : Fin N, ind seg i b * y i c := by
  unfold segSum members ind
  rw [Finset.sum_filter]
  exact Finset.sum_congr rfl fun i _ => by rw [ite_mul, one_mul, zero_mul]

theorem cnt_eq_ind (b : Fin 16) : cnt seg b = ∑ i : Fin N, ind seg i b * 1 :=
  segSum_eq_ind seg (fun _ _ => 1) b (0 : Fin 1)

theorem lin_real {K C : ℕ} (x : Fin N → Fin K → EReal) (W : Fin K → Fin C → EReal)
    (hx : ∀ i k, IsReal (x i k)) (hW : ∀ k c, IsReal (W k c)) (i : Fin N) (c : Fin C) :
    IsReal (lin x W i c) :=
  IsReal.sum _ _ fun k _ => (hx i k).mul (hW k c)

theorem eps_pos : ∃ e : ℝ, 0 < e ∧ eps = (e : EReal) :=
  ⟨(10995116 : ℝ) / 2 ^ 40, by positivity, by
    unfold eps
    simp [Ideal.ofBits, Ideal.ieee, -EReal.coe_mul]
    norm_num⟩

theorem members_nonempty (i : Fin N) : (members seg (seg i)).Nonempty :=
  ⟨i, Finset.mem_filter.mpr ⟨Finset.mem_univ i, rfl⟩⟩

/-- Mean of squares minus square of the mean. -/
def rvar {ι : Type*} (s : Finset ι) (f : ι → ℝ) : ℝ :=
  (∑ i ∈ s, f i * f i) / s.card - (∑ i ∈ s, f i) / s.card * ((∑ i ∈ s, f i) / s.card)

/-- A segment average of real entries is the real average. -/
theorem avg_of_real {C : ℕ} (y : Fin N → Fin C → EReal) (f : Fin N → ℝ) (b : Fin 16) (hb : (members seg b).Nonempty)
    (c : Fin C) (h : ∀ i, y i c = ((f i : ℝ) : EReal)) :
    Ideal.div (segSum seg y b c) (cnt seg b) = (((∑ i ∈ members seg b, f i) / ((members seg b).card : ℝ) : ℝ) : EReal) := by
  unfold segSum cnt
  rw [Finset.sum_congr rfl fun i _ => h i, sum_coe, ← EReal.coe_one, sum_coe, Finset.sum_const, nsmul_eq_mul, mul_one,
    Ideal.div_coe (y := ((members seg b).card : ℝ)) (by exact_mod_cast hb.card_pos.ne'), ← EReal.coe_mul, mul_one_div]

theorem mean_of_real {C : ℕ} (y : Fin N → Fin C → EReal) (f : Fin N → Fin C → ℝ)
    (hf : ∀ i c, y i c = ((f i c : ℝ) : EReal)) (b : Fin 16) (hb : (members seg b).Nonempty) (c : Fin C) :
    mean seg y b c = (((∑ i ∈ members seg b, f i c) / ((members seg b).card : ℝ) : ℝ) : EReal) :=
  avg_of_real seg y (fun i => f i c) b hb c fun i => hf i c

theorem var_of_real {C : ℕ} (y : Fin N → Fin C → EReal) (f : Fin N → Fin C → ℝ)
    (hf : ∀ i c, y i c = ((f i c : ℝ) : EReal)) (b : Fin 16) (hb : (members seg b).Nonempty) (c : Fin C) :
    var seg y b c = ((rvar (members seg b) fun i => f i c : ℝ) : EReal) := by
  unfold var rvar
  rw [mean_of_real seg y f hf b hb c,
    avg_of_real seg (fun i c => y i c * y i c) (fun i => f i c * f i c) b hb c
      (fun i => by show y i c * y i c = _; rw [hf i c, EReal.coe_mul]),
    ← EReal.coe_mul, ← EReal.coe_sub]

theorem real_var_nonneg {ι : Type*} (s : Finset ι) (hs : s.Nonempty) (f : ι → ℝ) : 0 ≤ rvar s f := by
  unfold rvar
  have hn : (0 : ℝ) < s.card := by exact_mod_cast hs.card_pos
  have hcs : (∑ i ∈ s, f i) ^ 2 ≤ (s.card : ℝ) * ∑ i ∈ s, f i ^ 2 := sq_sum_le_card_mul_sum_sq
  simp only [sq] at hcs
  rw [sub_nonneg, div_mul_div_comm, div_le_div_iff₀ (mul_pos hn hn) hn]
  nlinarith [mul_le_mul_of_nonneg_right hcs hn.le]

theorem var_nonneg {C : ℕ} (y : Fin N → Fin C → EReal) (hy : ∀ i c, IsReal (y i c))
    (b : Fin 16) (hb : (members seg b).Nonempty) (c : Fin C) : 0 ≤ var seg y b c := by
  choose f hf using hy
  rw [var_of_real seg y f hf b hb c]
  exact EReal.coe_nonneg.mpr (real_var_nonneg _ hb fun i => f i c)

theorem norm_real {C : ℕ} (y : Fin N → Fin C → EReal) (hy : ∀ i c, IsReal (y i c))
    (i : Fin N) (c : Fin C) : IsReal (norm seg y i c) := by
  have hb := members_nonempty seg i
  choose f hf using hy
  obtain ⟨e, he, hE⟩ := eps_pos
  have hv := real_var_nonneg _ hb fun i => f i c
  unfold norm
  rw [var_of_real seg y f hf _ hb c, mean_of_real seg y f hf _ hb c, hE, ← EReal.coe_add, rsqrt_coe_of_pos (by linarith),
    hf i c, ← EReal.coe_sub, ← EReal.coe_mul]
  exact IsReal.max ⟨_, rfl⟩ ⟨0, EReal.coe_zero.symm⟩

end Cert.Net

end
-- ==== Proof.LibBlockSum.lean ====
import Mathlib.Algebra.BigOperators.Fin
import Mathlib.Data.Fintype.BigOperators
import Mathlib.Logic.Equiv.Fin.Basic

namespace Cert.BlockSum

open scoped BigOperators

theorem block_lt {B S : ℕ} (b : Fin B) (r : Fin S) : S * b.val + r.val < B * S := by
  have h := Nat.mul_le_mul_left S b.isLt
  have := r.isLt
  rw [Nat.mul_add_one] at h
  rw [Nat.mul_comm B S]
  omega

theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

end Cert.BlockSum
-- ==== Proof.NetStages.lean ====
import proofs.«429425_j21053929685331_2_alg».proof.Proof.Net
import proofs.«429425_j21053929685331_2_alg».proof.Proof.NetLaws
import proofs.«429425_j21053929685331_2_alg».proof.Proof.LibBlockSum

noncomputable section

namespace Cert.Net

open Idealize.ShloMosaic
open scoped BigOperators

variable (seg : Fin 250000 → Fin 16) (ids : Fin 250000 → BitVec 32)

abbrev hot (i : Fin 250000) (b : Fin 16) : EReal := if ids i = BitVec.ofNat 32 b.val then 1 else 0

theorem word_eq_iff (a b : Fin 16) : BitVec.ofNat 32 a.val = BitVec.ofNat 32 b.val ↔ a = b :=
  ⟨fun h => Fin.ext (by
    have h' := congrArg BitVec.toNat h
    rw [BitVec.toNat_ofNat, BitVec.toNat_ofNat] at h'
    omega), fun h => h ▸ rfl⟩

theorem halves (rowf : Fin 2 → Fin 125000 → Fin 250000) (hrow : ∀ p r, (rowf p r).val = 125000 * p.val + r.val)
    (f : Fin 250000 → EReal) : ∑ p : Fin 2, ∑ r : Fin 125000, f (rowf p r) = ∑ i : Fin 250000, f i := by
  refine Eq.trans ?_ (Cert.BlockSum.sum_blocks 2 125000 f)
  refine Finset.sum_congr rfl fun p _ => Finset.sum_congr rfl fun r _ => ?_
  exact congrArg f (Fin.ext (hrow p r))

theorem layers_real {K C₁ C₂ C₃ : ℕ} (x : Fin 250000 → Fin K → EReal) (w1 : Fin K → Fin C₁ → EReal)
    (w2 : Fin C₁ → Fin C₂ → EReal) (w3 : Fin C₂ → Fin C₃ → EReal)
    (hx : ∀ i k, IsReal (x i k)) (hw1 : ∀ k c, IsReal (w1 k c)) (hw2 : ∀ k c, IsReal (w2 k c))
    (hw3 : ∀ k c, IsReal (w3 k c)) :
    (∀ i c, IsReal (lin x w1 i c)) ∧
    (∀ i c, IsReal (norm seg (lin x w1) i c)) ∧
    (∀ i c, IsReal (lin (norm seg (lin x w1)) w2 i c)) ∧
    (∀ i c, IsReal (norm seg (lin (norm seg (lin x w1)) w2) i c)) ∧
    (∀ i c, IsReal (lin (norm seg (lin (norm seg (lin x w1)) w2)) w3 i c)) ∧
    (∀ i c, IsReal (norm seg (lin (norm seg (lin (norm seg (lin x w1)) w2)) w3) i c)) := by
  have h1 := lin_real x w1 hx hw1
  have h2 := norm_real seg _ h1
  have h3 := lin_real _ w2 h2 hw2
  have h4 := norm_real seg _ h3
  have h5 := lin_real _ w3 h4 hw3
  exact ⟨h1, h2, h3, h4, h5, norm_real seg _ h5⟩

variable (hids : ∀ i, ids i = BitVec.ofNat 32 (seg i).val)
include hids

theorem hot_eq_ind (i : Fin 250000) (b : Fin 16) : hot ids i b = ind seg i b :=
  if_congr (by rw [hids i]; exact word_eq_iff (seg i) b) rfl rfl

theorem pick_stage {C : ℕ} (T : Fin 16 → Fin C → EReal) (i : Fin 250000) (j : Fin C) :
    ∑ b : Fin 16, hot ids i b * T b j = T (seg i) j :=
  (Finset.sum_congr rfl fun b _ => by rw [hot_eq_ind seg ids hids i b]).trans (pick_eq seg T i j)

theorem norm_stage {C : ℕ}
    (L : Fin 250000 → Fin C → EReal) (hL : ∀ i c, IsReal (L i c))
    (rows : Fin 250000 → Fin C → EReal) (hrows : ∀ i j, rows i j = L i j)
    (meanT invT : Fin 16 → Fin C → EReal) (hmean : ∀ b j, meanT b j = mean seg L b j)
    (hinv : ∀ b j, invT b j = Ideal.rsqrt (max (var seg L b j) 0 + eps)) (i : Fin 250000) (j : Fin C) :
    max ((rows i j - ∑ b : Fin 16, hot ids i b * meanT b j) * (∑ b : Fin 16, hot ids i b * invT b j)) 0
      = norm seg L i j := by
  rw [hrows i j, pick_stage seg ids hids meanT i j, pick_stage seg ids hids invT i j, hmean, hinv,
    max_eq_left (var_nonneg seg L hL (seg i) (members_nonempty seg i) j)]
  rfl

variable (rowf : Fin 2 → Fin 125000 → Fin 250000) (hrow : ∀ p r, (rowf p r).val = 125000 * p.val + r.val)
include hrow

theorem stat_sum' {C : ℕ} (y : Fin 250000 → Fin C → EReal) (b : Fin 16) (j : Fin C) (S : Fin 2 → EReal)
    (hS : ∀ p, S p = ∑ r : Fin 125000, hot ids (rowf p r) b * y (rowf p r) j) :
    (0 : EReal) + ∑ p : Fin 2, S p = segSum seg y b j := by
  have key := halves rowf hrow fun i => hot ids i b * y i j
  beta_reduce at key
  rw [zero_add, Finset.sum_congr rfl fun p _ => hS p, key, segSum_eq_ind]
  exact Finset.sum_congr rfl fun i _ => by rw [hot_eq_ind seg ids hids i b]

/-- The count is the segment sum of the constant 1. -/
theorem stat_cnt' (b : Fin 16) (S : Fin 2 → EReal)
    (hS : ∀ p, S p = ∑ r : Fin 125000, hot ids (rowf p r) b * 1) :
    (0 : EReal) + ∑ p : Fin 2, S p = cnt seg b :=
  stat_sum' seg ids hids rowf hrow (fun _ _ => 1) b (0 : Fin 1) S hS

theorem pool_stage {C : ℕ} (z : Fin 250000 → Fin C → EReal) (b : Fin 16) (k : Fin C) (cntv : EReal) (hc : cntv = cnt seg b)
    (S : Fin 2 → EReal) (hS : ∀ p, S p = ∑ r : Fin 125000, hot ids (rowf p r) b * z (rowf p r) k) :
    Ideal.div ((0 : EReal) + ∑ p : Fin 2, S p) cntv = pool seg z b k := by
  rw [stat_sum' seg ids hids rowf hrow z b k S hS, hc]
  rfl

end Cert.Net

end
-- ==== Proof.KI.Chain.Entry.lean ====
import proofs.«429425_j21053929685331_2_alg».proof.Proof.KI.Fold
import proofs.«429425_j21053929685331_2_alg».proof.Proof.KI.HostStats
import proofs.«429425_j21053929685331_2_alg».proof.Proof.NetLayers
import proofs.«429425_j21053929685331_2_alg».proof.Proof.NetLaws
import proofs.«429425_j21053929685331_2_alg».proof.Proof.NetStages

noncomputable section

namespace Cert.KernelIdeal.Chain

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

abbrev A0 : S250000x3.Idx → EReal := m ((c.tc : Thread nD τ).loc main_arg0)
abbrev A1 : S250000.Idx → BitVec 32 := m ((c.tc : Thread nD τ).loc main_arg1)
abbrev A2 : S3x64.Idx → EReal := m ((c.tc : Thread nD τ).loc main_arg2)
abbrev A3 : S64x128.Idx → EReal := m ((c.tc : Thread nD τ).loc main_arg3)
abbrev A4 : S128x1024.Idx → EReal := m ((c.tc : Thread nD τ).loc main_arg4)
abbrev A5 : S1024x512.Idx → EReal := m ((c.tc : Thread nD τ).loc main_arg5)
abbrev A6 : S512x256.Idx → EReal := m ((c.tc : Thread nD τ).loc main_arg6)
abbrev A7 : S256x9.Idx → EReal := m ((c.tc : Thread nD τ).loc main_arg7)
abbrev A8 : S9.Idx → EReal := m ((c.tc : Thread nD τ).loc main_arg8)

abbrev x0 : Fin 250000 → Fin 3 → EReal := fun i k => A0 m c (ix2 i k)
abbrev w1 : Fin 3 → Fin 64 → EReal := fun k c' => A2 m c (ix2 k c')
abbrev w2 : Fin 64 → Fin 128 → EReal := fun k c' => A3 m c (ix2 k c')
abbrev w3 : Fin 128 → Fin 1024 → EReal := fun k c' => A4 m c (ix2 k c')
abbrev w4 : Fin 1024 → Fin 512 → EReal := fun k c' => A5 m c (ix2 k c')
abbrev w5 : Fin 512 → Fin 256 → EReal := fun k c' => A6 m c (ix2 k c')
abbrev w6 : Fin 256 → Fin 9 → EReal := fun k c' => A7 m c (ix2 k c')
abbrev b6 : Fin 9 → EReal := fun j => A8 m c (ix1 j)
abbrev idw : Fin 250000 → BitVec 32 := fun i => A1 m c (ix1 i)

def half (p : Fin 2) (r : Fin 125000) : Fin 250000 := ⟨125000 * p.val + r.val, by have := p.isLt; have := r.isLt; omega⟩

theorem half_val (p : Fin 2) (r : Fin 125000) : (half p r).val = 125000 * p.val + r.val := rfl

theorem at_launch (b : Ref sig .tc) (k : Nat) (h : ∀ j, j < k - 0 → Spares (0 + j) b) :
    Wat m ρ k c (Proc.devRef .tc b) = m ((c.tc : Thread nD τ).loc b) :=
  kept m ρ c b 0 k (Nat.zero_le k) h

theorem ids_at (k : Nat) (h1 : 1 ≤ k) (hk : ∀ j, j < k - 1 → Spares (1 + j) main_v0) (i : Fin 250000) :
    (Wat m ρ k c (Proc.devRef .tc main_v0) : S250000x1.Idx → BitVec 32) (ix2 i (0 : Fin 1)) = idw m c i := by
  rw [kept m ρ c main_v0 1 k h1 hk]
  exact HostStats.ids_col (Fold.W0 m ρ c) i

theorem hot_of_word (w : BitVec 32) (i : Fin 250000) (b : Fin 16) (h : w = idw m c i) :
    (if w = BitVec.ofNat 32 b.val then (1 : EReal) else 0) = Cert.Net.hot (idw m c) i b := by rw [h]

end Cert.KernelIdeal.Chain

end
-- ==== Proof.KI.Chain.Layer.lean ====
import proofs.«429425_j21053929685331_2_alg».proof.Proof.NetStages
import proofs.«429425_j21053929685331_2_alg».proof.Proof.NetLayers

noncomputable section

namespace Cert.KernelIdeal.Chain

open Cert.Net Idealize.ShloMosaic
open scoped BigOperators

variable (seg : Fin 250000 → Fin 16) (ids : Fin 250000 → BitVec 32) (hids : ∀ i, ids i = BitVec.ofNat 32 (seg i).val)
include hids

theorem layer_norm {C : ℕ}
    (L : Fin 250000 → Fin C → EReal) (hL : ∀ i c, IsReal (L i c))
    (rows : Fin 250000 → Fin C → EReal) (hrows : ∀ i j, rows i j = L i j)
    (meanT invT : Fin 16 → Fin C → EReal) (hmean : ∀ b j, meanT b j = mean seg L b j)
    (hinv : ∀ b j, invT b j = Ideal.rsqrt (max (var seg L b j) 0 + eps)) (i : Fin 250000) (j : Fin C) :
    max ((rows i j - ∑ b : Fin 16, hot ids i b * meanT b j) * (∑ b : Fin 16, hot ids i b * invT b j)) 0
      = norm seg L i j :=
  norm_stage seg ids hids L hL rows hrows meanT invT hmean hinv i j

variable (rowf : Fin 2 → Fin 125000 → Fin 250000) (hrow : ∀ p r, (rowf p r).val = 125000 * p.val + r.val)
include hrow

theorem halves_cnt (b : Fin 16) (S : Fin 2 → EReal) (hS : ∀ p, S p = ∑ r : Fin 125000, hot ids (rowf p r) b * 1) :
    ∑ p : Fin 2, S p = cnt seg b :=
  (zero_add _).symm.trans (stat_cnt' seg ids hids rowf hrow b S hS)

theorem layer_tables {C : ℕ} (L : Fin 250000 → Fin C → EReal)
    (Sm Sq : Fin 2 → Fin 16 → Fin C → EReal) (cntT : Fin 16 → EReal)
    (hSm : ∀ p b j, Sm p b j = ∑ r : Fin 125000, hot ids (rowf p r) b * L (rowf p r) j)
    (hSq : ∀ p b j, Sq p b j = ∑ r : Fin 125000, hot ids (rowf p r) b * (L (rowf p r) j * L (rowf p r) j))
    (hc : ∀ b, cntT b = cnt seg b)
    (meanT invT : Fin 16 → Fin C → EReal)
    (hmean : ∀ b j, meanT b j = Ideal.div (∑ p : Fin 2, Sm p b j) (cntT b))
    (hinv : ∀ b j, invT b j = Ideal.rsqrt (max (Ideal.div (∑ p : Fin 2, Sq p b j) (cntT b)
        - Ideal.div (∑ p : Fin 2, Sm p b j) (cntT b) * Ideal.div (∑ p : Fin 2, Sm p b j) (cntT b)) 0 + eps)) :
    (∀ b j, meanT b j = mean seg L b j) ∧ (∀ b j, invT b j = Ideal.rsqrt (max (var seg L b j) 0 + eps)) := by
  have hs : ∀ b j, ∑ p : Fin 2, Sm p b j = segSum seg L b j := fun b j =>
    (zero_add _).symm.trans (stat_sum' seg ids hids rowf hrow L b j _ fun p => hSm p b j)
  have hq : ∀ b j, ∑ p : Fin 2, Sq p b j = segSum seg (fun i c => L i c * L i c) b j := fun b j =>
    (zero_add _).symm.trans (stat_sum' seg ids hids rowf hrow _ b j _ fun p => hSq p b j)
  exact ⟨fun b j => by rw [hmean, hs, hc]; rfl, fun b j => by rw [hinv, hs, hq, hc]; rfl⟩

end Cert.KernelIdeal.Chain

end
-- ==== Proof.KI.OneHot.lean ====
import proofs.«429425_j21053929685331_2_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.OneHot

open Idealize.ShloMosaic Idealize.ShloMosaic.ValueIdx Idealize.ShloMosaic.StableHlo.Predicate
open Cert.KernelIdeal Cert.KernelIdeal.Gen

/-- The ids' column repeated along the second axis meets that axis's counter: the equality bit, widened, reads 1 or 0. -/
theorem onehot_apply (v7 : Vec Ideal S1000x1 .i32) (r : Fin 1000) (b : Fin 16) :
    (sitofp (F := Ideal) .f32 (extui 32 (cmpi .eq (broadcastTo S1000x16 (shapeCast S1000x1 v7 shapeCasts_S1000x1_S1000x1)
        broadcasts_S1000x1_S1000x16) (iota .tc S1000x16 32 [1] iota_S1000x16_d1_w32)) natLt_1_32)) (ix2 r b)
      = if v7 (ix2 r 0) = BitVec.ofNat 32 b.val then (1 : EReal) else 0 := by
  show ((((IntOp.cmpi .eq (broadcastTo S1000x16 (shapeCast S1000x1 v7 _) _ (ix2 r b))
      (iota .tc S1000x16 32 [1] _ (ix2 r b))).setWidth 32).toInt : ℝ) : EReal) = _
  rw [iota_single_apply, shapeCast_self,
    broadcastTo_apply v7 _ _ (ix2 r 0) fun a => match a with | ⟨0, _⟩ => rfl | ⟨1, _⟩ => rfl]
  by_cases h : v7 (ix2 r 0) = BitVec.ofNat 32 b.val
  · rw [if_pos h, cmpi_eq_iff.mpr h]; norm_num
  · rw [if_neg h, eq_zero_of_ne_one (mt cmpi_eq_iff.mp h)]; norm_num

theorem k0_pay9_apply (v7 : Vec Ideal S1000x1 .i32) (r : Fin 1000) (b : Fin 16) :
    k0_pay9 (F := Ideal) v7 (ix2 r b) = if v7 (ix2 r 0) = BitVec.ofNat 32 b.val then (1 : EReal) else 0 :=
  onehot_apply v7 r b

theorem k2_pay6_apply (v8 : Vec Ideal S1000x1 .i32) (r : Fin 1000) (b : Fin 16) :
    k2_pay6 (F := Ideal) v8 (ix2 r b) = if v8 (ix2 r 0) = BitVec.ofNat 32 b.val then (1 : EReal) else 0 :=
  onehot_apply v8 r b

theorem k4_pay5_apply (v7 : Vec Ideal S1000x1 .i32) (r : Fin 1000) (b : Fin 16) :
    k4_pay5 (F := Ideal) v7 (ix2 r b) = if v7 (ix2 r 0) = BitVec.ofNat 32 b.val then (1 : EReal) else 0 :=
  onehot_apply v7 r b

end Cert.KernelIdeal.OneHot

end
-- ==== Proof.LibDotCols.lean ====
import Idealize.ShloMosaic.PureOps.Ideal
import Idealize.ShloMosaic.PureOps.Ideal.Laws
import Idealize.ShloMosaic.Lib.ValueIdx

noncomputable section

namespace Cert.LibDotCols

open Idealize.ShloMosaic Idealize.ShloMosaic.ValueIdx
open scoped BigOperators

variable {K A B : Nat}

def cols (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap (0 : Fin 2) 1 [],
    by simpa [List.finRange] using List.Perm.swap (0 : Fin 2) 1 [],
    rfl, Nat.two_pos, fun b => by
      match b with
      | ⟨0, _⟩ => rfl
      | ⟨1, _⟩ => rfl⟩

theorem eq_cols (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = []) : d = cols K A B := by
  cases d
  simp only at hlc hrc hln hrn hlb hrb
  subst hlc hrc hln hrn hlb hrb
  rfl

theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 k p) * rhs (ix2 k q) := by
  rw [eq_cols d hlc hrc hln hrn hlb hrb, Ideal.matmul_constant_zero_apply,
    ← Equiv.sum_comp (contrEquiv1 (cols K A B) K rfl rfl).symm]
  refine Finset.sum_congr rfl fun k _ => ?_
  congr 2 <;> exact funext fun a => Fin.ext (match a with | ⟨0, _⟩ => rfl | ⟨1, _⟩ => rfl)

end Cert.LibDotCols

end
-- ==== Proof.LibPlainDot.lean ====
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K rfl rfl).symm]
  refine Finset.sum_congr rfl fun k _ => ?_
  congr 2 <;> exact funext fun a => Fin.ext (match a with | ⟨0, _⟩ => rfl | ⟨1, _⟩ => rfl)

variable (d : DotDims ⟨2, ![A, K]⟩ ⟨2, ![K, B]⟩ ⟨2, ![A, B]⟩)
  (hlc : d.lhsContracting = [1]) (hrc : d.rhsContracting = [0]) (hln : d.lhsNonContracting = [0])
  (hrn : d.rhsNonContracting = [1]) (hlb : d.lhsBatch = []) (hrb : d.rhsBatch = [])
include hlc hrc hln hrn hlb hrb

theorem eq_plain : d = DotDims.plain A K B := by
  cases d
  simp only at hlc hrc hln hrn hlb hrb
  subst hlc hrc hln hrn hlb hrb
  rfl

theorem matmul_zero_apply (prec : Option ContractPrecision) (lhs : FVec Ideal ⟨2, ![A, K]⟩ .f32)
    (rhs : FVec Ideal ⟨2, ![K, B]⟩ .f32) (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

theorem dotGeneral_apply (prec : Option ContractPrecision) (sched : HostSchedule) (lhs : FVec Ideal ⟨2, ![A, K]⟩ .f32)
    (rhs : FVec Ideal ⟨2, ![K, B]⟩ .f32) (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KI.Val0.lean ====
import proofs.«429425_j21053929685331_2_alg».proof.Proof.KI.Reg0
import proofs.«429425_j21053929685331_2_alg».proof.Proof.KI.OneHot
import proofs.«429425_j21053929685331_2_alg».proof.Proof.LibDotCols
import proofs.«429425_j21053929685331_2_alg».proof.Proof.LibPlainDot
import proofs.«429425_j21053929685331_2_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val0

open Cert.KernelIdeal Cert.KernelIdeal.Gen
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

abbrev X (c : Dev nD) : Vec Ideal S250000x3 .f32 := V c (Pipeline.arrRef spec0 0)
abbrev W (c : Dev nD) : Vec Ideal S3x64 .f32 := V c (Pipeline.arrRef spec0 1)
abbrev Ids (c : Dev nD) : Vec Ideal S250000x1 .i32 := V c (Pipeline.arrRef spec0 2)

def L (c : Dev nD) (i : Fin 250000) (j : Fin 64) : EReal := ∑ k : Fin 3, X V c (ix2 i k) * W V c (ix2 k j)

def oh (c : Dev nD) (i : Fin 250000) (b : Fin 16) : EReal := if Ids V c (ix2 i 0) = BitVec.ofNat 32 b.val then 1 else 0

def row (p : Fin 2) (r : Fin 125000) : Fin 250000 := ⟨125000 * p.val + r.val, by have := p.isLt; have := r.isLt; omega⟩

/-- A function of the rows, extended by zero, so that it can be summed over naturals. -/
def term (g : Fin 250000 → EReal) (n : ℕ) : EReal := if h : n < 250000 then g ⟨n, h⟩ else 0

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_4.index t (0 : Fin 3) = t.val / 125 ∧ win0_4.index t (1 : Fin 3) = 0 ∧ win0_4.index t (2 : Fin 3) = 0 :=
  (by decide +kernel : ∀ t : Fin grid0.N, _)

/-- Row `r` of point `t`'s block of 1000 rows is row `1000 t + r` of the array. -/
theorem emb_rows {R C : ℕ} {x y : (⟨2, ![R, C]⟩ : Shape).Idx} (t : Fin cfg0.N) (r : ℕ)
    (h0 : (x 0).val = win0_0.index t (0 : Fin 2) * 1000 + 1 * r) (h1 : (x 1).val = win0_0.index t (1 : Fin 2) * C + 1 * (y 1).val)
    (hi : (y 0).val = 1000 * t.val + r) : x = y := by
  obtain ⟨e0, e1, -⟩ := idx_facts t
  exact Shape.idx_ext₂ (by rw [h0, e0, hi]; omega) (by rw [h1, e1]; omega)

/-- Point `t`'s block of a totals' array is the array's row `t / 125`. -/
theorem emb_half {C : ℕ} {x : (⟨3, ![2, 16, C]⟩ : Shape).Idx} (t : Fin cfg0.N) (z : Fin 1) (b : Fin 16) (j : Fin C) (p : Fin 2)
    (h0 : (x 0).val = win0_4.index t (0 : Fin 3) * 1 + 1 * z.val) (h1 : (x 1).val = win0_4.index t (1 : Fin 3) * 16 + 1 * b.val)
    (h2 : (x 2).val = win0_4.index t (2 : Fin 3) * C + 1 * j.val) (hp : p.val = t.val / 125) : x = ix3 p b j := by
  obtain ⟨-, -, -, -, e0, e1, e2⟩ := idx_facts t
  funext a; apply Fin.ext
  match a with
  | ⟨0, _⟩ => show (x 0).val = p.val; rw [h0, e0, hp]; omega
  | ⟨1, _⟩ => show (x 1).val = b.val; rw [h1, e1]; omega
  | ⟨2, _⟩ => show (x 2).val = j.val; rw [h2, e2]; omega

theorem xAt_apply (c : Dev nD) (t : Fin cfg0.N) (r : Fin 1000) (k : Fin 3) (i : Fin 250000) (hi : i.val = 1000 * t.val + r.val) :
    Reg0.xAt V c t (ix2 r k) = X V c (ix2 i k) :=
  congrArg (V c (Pipeline.arrRef spec0 0)) (emb_rows t r.val rfl rfl hi)

theorem wAt_apply (c : Dev nD) (t : Fin cfg0.N) (k : Fin 3) (j : Fin 64) : Reg0.wAt V c t (ix2 k j) = W V c (ix2 k j) := by
  obtain ⟨-, -, e0, e1, -⟩ := idx_facts t
  exact congrArg (V c (Pipeline.arrRef spec0 1)) (Shape.idx_ext₂ (show win0_1.index t (0 : Fin 2) * 3 + 1 * k.val = k.val by rw [e0]; omega)
    (show win0_1.index t (1 : Fin 2) * 64 + 1 * j.val = j.val by rw [e1]; omega))

theorem idAt_apply (c : Dev nD) (t : Fin cfg0.N) (r : Fin 1000) (i : Fin 250000) (hi : i.val = 1000 * t.val + r.val) :
    Reg0.idAt V c t (ix2 r 0) = Ids V c (ix2 i 0) :=
  congrArg (V c (Pipeline.arrRef spec0 2)) (emb_rows t r.val rfl rfl hi)

/-- The linear layer of point `t`'s block at row `r` is that of row `1000 t + r`. -/
theorem lin_block (c : Dev nD) (t : Fin cfg0.N) (r : Fin 1000) (j : Fin 64) (i : Fin 250000) (hi : i.val = 1000 * t.val + r.val) :
    k0_pay8 (F := Ideal) (Reg0.xAt V c t) (Reg0.wAt V c t) (ix2 r j) = L V c i j :=
  (Cert.LibPlainDot.matmul_zero_apply dot_S1000x3_S3x64_S1000x64_1_0_0_1_n_n rfl rfl rfl rfl rfl rfl none _ _ r j).trans
    (Finset.sum_congr rfl fun k _ => by rw [xAt_apply V c t r k i hi, wAt_apply V c t k j])

theorem zero_apply {S : Shape} (h : S.ShapeCasts S) (i : S.Idx) :
    shapeCast S (broadcast S (Scalar.ofBits (F := Ideal) .f32 0x00000000#32)) h i = 0 :=
  (congrFun (shapeCast_self _ _) i).trans Ideal.ofBits_zero_f32

/-- One block adds to a total of instance `b`, column `j`, the sum of `g j` over the block's rows that belong to `b`. -/
theorem step_apply {C : ℕ} (d : DotDims S1000x16 ⟨2, ![1000, C]⟩ ⟨2, ![16, C]⟩) (h1 : d.lhsContracting = [0]) (h2 : d.rhsContracting = [0])
    (h3 : d.lhsNonContracting = [1]) (h4 : d.rhsNonContracting = [1]) (h5 : d.lhsBatch = []) (h6 : d.rhsBatch = [])
    (hs : (⟨2, ![16, C]⟩ : Shape).ShapeCasts ⟨2, ![16, C]⟩) (c : Dev nD) (t : Fin cfg0.N) (v : FVec Ideal ⟨2, ![1000, C]⟩ .f32)
    (g : Fin C → Fin 250000 → EReal) (hv : ∀ r j i, i.val = 1000 * t.val + r.val → v (ix2 r j) = g j i)
    (acc : FVec Ideal ⟨2, ![16, C]⟩ .f32) (b : Fin 16) (j : Fin C) :
    shapeCast ⟨2, ![16, C]⟩ (addf acc (matmul d none (k0_pay9 (F := Ideal) (Reg0.idAt V c t)) v (constant ⟨2, ![16, C]⟩ .f32 0x00000000#32))) hs (ix2 b j)
      = acc (ix2 b j) + ∑ r : Fin 1000, term (fun i => oh V c i b * g j i) (1000 * t.val + r.val) := by
  refine (congrFun (shapeCast_self _ _) _).trans (congrArg (acc (ix2 b j) + ·) ?_)
  refine (Cert.LibDotCols.matmul_zero_apply d h1 h2 h3 h4 h5 h6 none _ v b j).trans (Finset.sum_congr rfl fun r _ => ?_)
  have hN : cfg0.N = 250 := N_0
  have hlt : 1000 * t.val + r.val < 250000 := by have := r.isLt; have := t.isLt; omega
  rw [term, dif_pos hlt, OneHot.k0_pay9_apply, hv r j ⟨_, hlt⟩ rfl, oh, idAt_apply V c t r ⟨_, hlt⟩ rfl]

/-- The linear layer of every row, as an array. -/
def LinArr (c : Dev nD) : Vec Ideal S250000x64 .f32 := fun i => L V c (i 0) (i 1)

theorem flushed3_eq (c : Dev nD) (t : Fin cfg0.N) :
    (Reg0.dat V c).flushed 3 t = ((cfg0.win 3).blk t).view.read (Elt Ideal) (LinArr V c) := by
  show (cfg0.win 3).cut (grid0.coords t) ((Reg0.dat V c).after 3 t) = _
  rw [Reg0.after_3]
  have hN : cfg0.N = 250 := N_0
  have hlt := t.isLt
  refine funext fun (y : S1000x64.Idx) => ?_
  obtain ⟨r, j, rfl⟩ : ∃ (r : Fin 1000) (j : Fin 64), y = ix2 r j := ⟨y 0, y 1, eq_ix2 y⟩
  have hi : 1000 * t.val + r.val < 250000 := by have := r.isLt; omega
  show k0_pay8 (F := Ideal) (Reg0.xAt V c t) (Reg0.wAt V c t) (ix2 r j) = LinArr V c (((cfg0.win 3).blk t).view.emb (ix2 r j))
  exact (lin_block V c t r j ⟨_, hi⟩ rfl).trans (congrArg (LinArr V c) (emb_rows t r.val rfl rfl rfl (y := ix2 ⟨_, hi⟩ j))).symm

theorem lin_apply (c : Dev nD) (i : Fin 250000) (j : Fin 64) :
    (Reg0.dat V c).arrAt 3 cfg0.N (ix2 i j) = ∑ k : Fin 3, X V c (ix2 i k) * W V c (ix2 k j) := by
  have hN : cfg0.N = 250 := N_0
  have hi := i.isLt
  have ht : i.val / 1000 < cfg0.N := by omega
  have e : ((cfg0.win 3).blk ⟨_, ht⟩).view.emb (ix2 ⟨i.val % 1000, Nat.mod_lt _ (by decide)⟩ j) = ix2 i j :=
    emb_rows ⟨_, ht⟩ (i.val % 1000) rfl rfl (by show i.val = 1000 * (i.val / 1000) + i.val % 1000; omega)
  exact (Reg0.dat V c).arrAt_apply_of_mem 3 (LinArr V c) (fun t _ => flushed3_eq V c t) cfg0.N ⟨_, ht⟩ _ ht (flush0_3 _) (e ▸ View.emb_mem_set _ _)

/-- The array of the totals of `g` over the two halves of the rows. -/
def halfArr {C : ℕ} (g : Fin 16 → Fin C → Fin 250000 → EReal) : (⟨3, ![2, 16, C]⟩ : Shape).Idx → EReal :=
  fun i => ∑ r : Fin 125000, g (i 1) (i 2) (row (i 0) r)

theorem halfArr_eq {C : ℕ} (g : Fin 16 → Fin C → Fin 250000 → EReal) (i) : halfArr g i = ∑ r : Fin 125000, g (i 1) (i 2) (row (i 0) r) := rfl

attribute [irreducible] halfArr

/-- A total restarting from zero at the multiples of 125 and growing by `g` over each point's 1000 rows is, at a half's last point, the half's block of `halfArr g`. -/
theorem half_block {C : ℕ} (z : (⟨2, ![16, C]⟩ : Shape).Idx → EReal)
    (step : (n : ℕ) → n < cfg0.N → ((⟨2, ![16, C]⟩ : Shape).Idx → EReal) → (⟨2, ![16, C]⟩ : Shape).Idx → EReal)
    (g : Fin 16 → Fin C → Fin 250000 → EReal) (hz : ∀ i, z i = 0)
    (hstep : ∀ n h acc b j, step n h acc (ix2 b j) = acc (ix2 b j) + ∑ r : Fin 1000, term (g b j) (1000 * n + r.val))
    (t : Fin cfg0.N) (ht : t.val % 125 = 124) (hs : (⟨2, ![16, C]⟩ : Shape).ShapeCasts ⟨3, ![1, 16, C]⟩)
    (y : (⟨3, ![1, 16, C]⟩ : Shape).Idx) {x : (⟨3, ![2, 16, C]⟩ : Shape).Idx}
    (h0 : (x 0).val = win0_4.index t (0 : Fin 3) * 1 + 1 * (y 0).val) (h1 : (x 1).val = win0_4.index t (1 : Fin 3) * 16 + 1 * (y 1).val)
    (h2 : (x 2).val = win0_4.index t (2 : Fin 3) * C + 1 * (y 2).val) :
    shapeCast ⟨3, ![1, 16, C]⟩ (Reg0.carried z step t.val t.isLt) hs y = halfArr g x := by
  have hN : cfg0.N = 250 := N_0
  have hlt := t.isLt
  have h' : 125 * (t.val / 125) + t.val % 125 < cfg0.N := by omega
  obtain ⟨p, hp⟩ : ∃ p : Fin 2, p.val = t.val / 125 := ⟨⟨_, by omega⟩, rfl⟩
  obtain ⟨u, b, j, rfl⟩ : ∃ (u : Fin 1) (b : Fin 16) (j : Fin C), y = ix3 u b j := ⟨y 0, y 1, y 2, eq_ix3 y⟩
  rw [shapeCast_ab_1ab_apply, emb_half t u b j p h0 h1 h2 hp, halfArr_eq,
    Pipeline.eq_accAt_of_mod _ 125 (fun n h => step n h z) step (Reg0.carried_of_mod z step) (Reg0.carried_succ z step) (by decide) t.val t.isLt h',
    Pipeline.accAt_add_apply _ _ (fun _ => 0) (fun n i => ∑ r : Fin 1000, term (g (i 0) (i 1)) (1000 * n + r.val)) _ 124
      (fun h i => by obtain ⟨b, j, rfl⟩ : ∃ b j, i = ix2 b j := ⟨_, _, eq_ix2 i⟩; exact (hstep _ h z b j).trans (by rw [hz]; rfl))
      (fun n h acc i _ _ => by obtain ⟨b, j, rfl⟩ : ∃ b j, i = ix2 b j := ⟨_, _, eq_ix2 i⟩; exact hstep n h acc b j) _ (by omega) h',
    zero_add, ht, ← hp, Finset.sum_range]
  refine Eq.trans (Finset.sum_congr rfl fun s _ => Finset.sum_congr rfl fun r _ => ?_) (Cert.BlockSum.sum_blocks 125 1000 fun n => g b j (row p n))
  have hlt : 1000 * (125 * p.val + s.val) + r.val < 250000 := by have := p.isLt; have := s.isLt; have := r.isLt; omega
  rw [term, dif_pos hlt]
  exact congrArg (g b j) (Fin.ext (by show 1000 * (125 * p.val + s.val) + r.val = 125000 * p.val + (1000 * s.val + r.val); omega))

theorem lastPt (p : Fin 2) : ∃ t : Fin cfg0.N, t.val % 125 = 124 ∧ p.val = t.val / 125 :=
  ⟨⟨125 * p.val + 124, by have := p.isLt; have : cfg0.N = 250 := N_0; omega⟩, by show (125 * p.val + 124) % 125 = 124; omega,
    by show p.val = (125 * p.val + 124) / 125; omega⟩

theorem flushed4_eq (c : Dev nD) (t : Fin cfg0.N) (hf : (cfg0.win 4).flush t = true) :
    (Reg0.dat V c).flushed 4 t = ((cfg0.win 4).blk t).view.read (Elt Ideal) (halfArr fun b j i => oh V c i b * L V c i j) :=
  funext fun y => (congrFun (congrArg ((cfg0.win 4).cut (grid0.coords t)) (Reg0.after_4 V c t)) y).trans <| half_block _ _ _ (zero_apply _) (fun n h acc b j =>
    step_apply V dot_S1000x16_S1000x64_S16x64_0_0_1_1_n_n rfl rfl rfl rfl rfl rfl _ c ⟨n, h⟩ _ (fun j i => L V c i j)
      (fun r j i hi => lin_block V c ⟨n, h⟩ r j i hi) acc b j) t ((flush0_4 t).mp hf) _ y rfl rfl rfl

theorem sum_apply (c : Dev nD) (p : Fin 2) (b : Fin 16) (j : Fin 64) :
    (Reg0.dat V c).arrAt 4 cfg0.N (ix3 p b j) = ∑ r : Fin 125000, oh V c (row p r) b * L V c (row p r) j := by
  obtain ⟨t, hm, hp⟩ := lastPt p
  have e : ((cfg0.win 4).blk t).view.emb (ix3 0 b j) = ix3 p b j := emb_half t 0 b j p rfl rfl rfl hp
  exact ((Reg0.dat V c).arrAt_apply_of_mem 4 _ (flushed4_eq V c) cfg0.N t _ t.isLt ((flush0_4 t).mpr hm) (e ▸ View.emb_mem_set _ _)).trans (halfArr_eq _ _)

theorem flushed5_eq (c : Dev nD) (t : Fin cfg0.N) (hf : (cfg0.win 5).flush t = true) :
    (Reg0.dat V c).flushed 5 t = ((cfg0.win 5).blk t).view.read (Elt Ideal) (halfArr fun b j i => oh V c i b * (L V c i j * L V c i j)) :=
  funext fun y => (congrFun (congrArg ((cfg0.win 5).cut (grid0.coords t)) (Reg0.after_5 V c t)) y).trans <| half_block _ _ _ (zero_apply _) (fun n h acc b j =>
    step_apply V dot_S1000x16_S1000x64_S16x64_0_0_1_1_n_n rfl rfl rfl rfl rfl rfl _ c ⟨n, h⟩ _ (fun j i => L V c i j * L V c i j)
      (fun r j i hi => by rw [mulf_apply, lin_block V c ⟨n, h⟩ r j i hi]) acc b j) t ((flush0_5 t).mp hf) _ y rfl rfl rfl

theorem sumsq_apply (c : Dev nD) (p : Fin 2) (b : Fin 16) (j : Fin 64) :
    (Reg0.dat V c).arrAt 5 cfg0.N (ix3 p b j) = ∑ r : Fin 125000, oh V c (row p r) b * (L V c (row p r) j * L V c (row p r) j) := by
  obtain ⟨t, hm, hp⟩ := lastPt p
  have e : ((cfg0.win 5).blk t).view.emb (ix3 0 b j) = ix3 p b j := emb_half t 0 b j p rfl rfl rfl hp
  exact ((Reg0.dat V c).arrAt_apply_of_mem 5 _ (flushed5_eq V c) cfg0.N t _ t.isLt ((flush0_5 t).mpr hm) (e ▸ View.emb_mem_set _ _)).trans (halfArr_eq _ _)

theorem flushed6_eq (c : Dev nD) (t : Fin cfg0.N) (hf : (cfg0.win 6).flush t = true) :
    (Reg0.dat V c).flushed 6 t = ((cfg0.win 6).blk t).view.read (Elt Ideal) (halfArr fun b (_ : Fin 1) i => oh V c i b * 1) :=
  funext fun y => (congrFun (congrArg ((cfg0.win 6).cut (grid0.coords t)) (Reg0.after_6 V c t)) y).trans <| half_block _ _ _ (zero_apply _) (fun n h acc b j =>
    step_apply V dot_S1000x16_S1000x1_S16x1_0_0_1_1_n_n rfl rfl rfl rfl rfl rfl _ c ⟨n, h⟩ _ (fun _ _ => 1)
      (fun r j i hi => Ideal.ofBits_one_f32) acc b j) t ((flush0_6 t).mp hf) _ y rfl rfl rfl

theorem cnt_apply (c : Dev nD) (p : Fin 2) (b : Fin 16) :
    (Reg0.dat V c).arrAt 6 cfg0.N (ix3 p b 0) = ∑ r : Fin 125000, oh V c (row p r) b * 1 := by
  obtain ⟨t, hm, hp⟩ := lastPt p
  have e : ((cfg0.win 6).blk t).view.emb (ix3 0 b 0) = ix3 p b 0 := emb_half t 0 b 0 p rfl rfl rfl hp
  exact ((Reg0.dat V c).arrAt_apply_of_mem 6 _ (flushed6_eq V c) cfg0.N t _ t.isLt ((flush0_6 t).mpr hm) (e ▸ View.emb_mem_set _ _)).trans (halfArr_eq _ _)

end Cert.KernelIdeal.Val0

end
-- ==== Proof.KI.Val1.lean ====
import proofs.«429425_j21053929685331_2_alg».proof.Proof.KI.Reg1
import proofs.«429425_j21053929685331_2_alg».proof.Proof.KI.OneHot
import proofs.«429425_j21053929685331_2_alg».proof.Proof.LibPlainDot
import Idealize.ShloMosaic.Lib.Pipeline.Value
import Idealize.ShloMosaic.Lib.ValueIdx
import Idealize.ShloMosaic.PureOps.Ideal.Laws

noncomputable section

namespace Cert.KernelIdeal.Val1

open Cert.KernelIdeal Cert.KernelIdeal.Gen Idealize.ShloMosaic Idealize.ShloMosaic.TcCoe Idealize.SL.Sem
open Idealize.ShloMosaic.ValueIdx
open scoped BigOperators

theorem stored_apply (ids : IVec S1000x1 32) (mean inv : FVec Ideal S16x64 .f32) (h : FVec Ideal S1000x64 .f32)
    (r : Fin 1000) (j : Fin 64) :
    k1_pay1 ids mean inv h (ix2 r j)
      = max ((h (ix2 r j) - ∑ b : Fin 16, (if ids (ix2 r 0) = BitVec.ofNat 32 b.val then (1 : EReal) else 0) * mean (ix2 b j))
          * (∑ b : Fin 16, (if ids (ix2 r 0) = BitVec.ofNat 32 b.val then (1 : EReal) else 0) * inv (ix2 b j))) 0 := by
  unfold k1_pay1
  dsimp only
  unfold Idealize.ShloMosaic.matmul
  rw [maximumf_apply, mulf_apply, subf_apply, broadcast_apply, shapeCast_self mean, shapeCast_self inv, shapeCast_self h,
    LibPlainDot.matmul_zero_apply _ rfl rfl rfl rfl rfl rfl, LibPlainDot.matmul_zero_apply _ rfl rfl rfl rfl rfl rfl]
  have e := fun k : Fin 16 => OneHot.onehot_apply ids r k
  exact congrArg₂ max (congrArg₂ (fun a b => (h (ix2 r j) - a) * b) (Finset.sum_congr rfl fun k _ => congrArg (· * _) (e k))
    (Finset.sum_congr rfl fun k _ => congrArg (· * _) (e k))) Ideal.ofBits_zero_f32

variable (V : (c : Dev nD) → (b : Ref sig .tc) → Buf (Elt Ideal) ((c : Thread nD τ).loc b))

abbrev rowsArr (c : Dev nD) : FVec Ideal S250000x64 .f32 := V c (Pipeline.arrRef spec1 0)
abbrev idsArr (c : Dev nD) : IVec S250000x1 32 := V c (Pipeline.arrRef spec1 1)
abbrev meanArr (c : Dev nD) : FVec Ideal S16x64 .f32 := V c (Pipeline.arrRef spec1 2)
abbrev invArr (c : Dev nD) : FVec Ideal S16x64 .f32 := V c (Pipeline.arrRef spec1 3)

def oh (c : Dev nD) (i : Fin 250000) (b : Fin 16) : EReal :=
  if idsArr V c (ix2 i 0) = BitVec.ofNat 32 b.val then 1 else 0

def normAll (c : Dev nD) (x : S250000x64.Idx) : EReal :=
  max ((rowsArr V c x - ∑ b : Fin 16, oh V c (x 0) b * meanArr V c (ix2 b (x 1)))
    * (∑ b : Fin 16, oh V c (x 0) b * invArr V c (ix2 b (x 1)))) 0

theorem block_index : ∀ t : Fin cfg1.N,
    win1_0.index t 0 = t.val ∧ win1_0.index t 1 = 0
    ∧ win1_1.index t 0 = t.val ∧ win1_1.index t 1 = 0
    ∧ win1_2.index t 0 = 0 ∧ win1_2.index t 1 = 0
    ∧ win1_3.index t 0 = 0 ∧ win1_3.index t 1 = 0
    ∧ win1_4.index t 0 = t.val ∧ win1_4.index t 1 = 0 :=
  (by decide +kernel : ∀ t : Fin grid1.N, _)

theorem zero_offsets : (![0, 0] : Fin 2 → Nat) = fun _ => 0 := by decide

/-- A block entry sits in its array at block index times block size plus its own coordinate. -/
theorem out_coord (t : Fin cfg1.N) (r : Fin 1000) (j : Fin 64) (i : Fin 250000) (hi : i.val = t.val * 1000 + r.val) :
    ((cfg1.win 4).blk t).view.emb (ix2 r j) = ix2 i j := by
  obtain ⟨-, -, -, -, -, -, -, -, e0, e1⟩ := block_index t
  exact Shape.idx_ext₂ (by show win1_4.index t 0 * 1000 + 1 * r.val = i.val; omega)
    (by show win1_4.index t 1 * 64 + 1 * j.val = j.val; omega)

theorem flushed_eq (c : Dev nD) (t : Fin cfg1.N) :
    (Reg1.dat V c).flushed 4 t = ((cfg1.win 4).blk t).view.read (Elt Ideal) (normAll V c) := by
  show (cfg1.win 4).cut (grid1.coords t) ((Reg1.dat V c).after 4 t) = _
  rw [Reg1.after_out]
  unfold Reg1.normRelu
  rw [View.canon_unit_zero zero_offsets]
  simp only [View.ld_unit_zero (S := S1000x64) zero_offsets, View.ld_unit_zero (S := S1000x1) zero_offsets,
    View.ld_unit_zero (S := S16x64) zero_offsets]
  funext y
  obtain ⟨r, j, rfl⟩ : ∃ r j, y = ix2 r j := ⟨_, _, eq_ix2 y⟩
  obtain ⟨e0, e1, e2, e3, e4, e5, e6, e7, -⟩ := block_index t
  have hi : t.val * 1000 + r.val < 250000 := by have := lt_of_lt_of_eq t.isLt N_1; omega
  have E0 : Reg1.blockAt V c 0 t (ix2 r j) = rowsArr V c (ix2 ⟨_, hi⟩ j) :=
    congrArg (V c _) (Shape.idx_ext₂ (by show win1_0.index t 0 * 1000 + 1 * r.val = t.val * 1000 + r.val; omega)
      (by show win1_0.index t 1 * 64 + 1 * j.val = j.val; omega))
  have E1 : Reg1.blockAt V c 1 t (ix2 r 0) = idsArr V c (ix2 ⟨_, hi⟩ 0) :=
    congrArg (V c _) (Shape.idx_ext₂ (by show win1_1.index t 0 * 1000 + 1 * r.val = t.val * 1000 + r.val; omega)
      (by show win1_1.index t 1 * 1 + 1 * 0 = 0; omega))
  have E2 : ∀ b : Fin 16, Reg1.blockAt V c 2 t (ix2 b j) = meanArr V c (ix2 b j) := fun b =>
    congrArg (V c _) (Shape.idx_ext₂ (by show win1_2.index t 0 * 16 + 1 * b.val = b.val; omega)
      (by show win1_2.index t 1 * 64 + 1 * j.val = j.val; omega))
  have E3 : ∀ b : Fin 16, Reg1.blockAt V c 3 t (ix2 b j) = invArr V c (ix2 b j) := fun b =>
    congrArg (V c _) (Shape.idx_ext₂ (by show win1_3.index t 0 * 16 + 1 * b.val = b.val; omega)
      (by show win1_3.index t 1 * 64 + 1 * j.val = j.val; omega))
  refine (stored_apply _ _ _ _ r j).trans ?_
  rw [E0, E1]
  simp only [E2, E3]
  exact (congrArg (normAll V c) (out_coord t r j ⟨_, hi⟩ rfl)).symm

theorem out_covered (i : S250000x64.Idx) :
    ∃ t : Fin cfg1.N, (cfg1.win 4).flush t = true ∧ i ∈ ((cfg1.win 4).blk t).view.set := by
  obtain ⟨a, b, rfl⟩ : ∃ a b, i = ix2 a b := ⟨_, _, eq_ix2 i⟩
  have hN : a.val / 1000 < cfg1.N := by have := a.isLt; rw [show cfg1.N = 250 from N_1]; omega
  refine ⟨⟨_, hN⟩, flush1_4 _, ?_⟩
  rw [← out_coord ⟨_, hN⟩ ⟨a.val % 1000, Nat.mod_lt _ (by norm_num)⟩ b a (Nat.div_add_mod' _ _).symm]
  exact View.emb_mem_set _ _

theorem out_apply (c : Dev nD) (i : Fin 250000) (j : Fin 64) :
    (Reg1.dat (F := Ideal) V c).arrAt 4 cfg1.N (ix2 i j)
      = max ((rowsArr V c (ix2 i j) - ∑ b : Fin 16, oh V c i b * meanArr V c (ix2 b j))
          * (∑ b : Fin 16, oh V c i b * invArr V c (ix2 b j))) 0 :=
  congrFun ((Reg1.dat V c).arrAt_eq_of_cover 4 (normAll V c) (fun t _ => flushed_eq V c t) out_covered) (ix2 i j)

end Cert.KernelIdeal.Val1

end
-- ==== Proof.KI.Chain.Stage1.lean ====
import proofs.«429425_j21053929685331_2_alg».proof.Proof.KI.Chain.Entry
import proofs.«429425_j21053929685331_2_alg».proof.Proof.KI.Chain.Layer
import proofs.«429425_j21053929685331_2_alg».proof.Proof.KI.Val0
import proofs.«429425_j21053929685331_2_alg».proof.Proof.KI.Val1

noncomputable section

namespace Cert.KernelIdeal.Chain

open Cert.KernelIdeal Cert.KernelIdeal.Gen Cert.Net
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)
variable (seg : Fin 250000 → Fin 16)

abbrev lin1 : Fin 250000 → Fin 64 → EReal := lin (x0 m c) (w1 m c)

theorem region0_hot (i : Fin 250000) (b : Fin 16) : Val0.oh (Fold.V1 m ρ) c i b = hot (idw m c) i b :=
  hot_of_word m c _ i b (ids_at m ρ c 1 (by decide) (by decide) i)

section
variable (hseg : ∀ i, idw m c i = BitVec.ofNat 32 (seg i).val)
include hseg

theorem cnt_at3 (b : Fin 16) :
    (Wat m ρ 3 c (Proc.devRef .tc main_v2) : S16x1.Idx → EReal) (ix2 b (0 : Fin 1)) = cnt seg b :=
  (HostStats.cnt1 (Fold.W2 m ρ c) b).trans (halves_cnt seg (idw m c) hseg half half_val b _ fun p =>
    Eq.trans (Eq.trans (congrFun (Fold.W2_arr m ρ c 6) (ix3 p b (0 : Fin 1))) (Val0.cnt_apply (Fold.V1 m ρ) c p b))
      (Finset.sum_congr rfl fun r _ => congrArg (· * (1 : EReal)) (region0_hot m ρ c _ b)))

theorem hidden1_at4 (hL1 : ∀ i c', IsReal (lin1 m c i c')) (i : Fin 250000) (j : Fin 64) :
    (Wat m ρ 4 c (Proc.devRef .tc main_v16) : S250000x64.Idx → EReal) (ix2 i j)
      = hidden1 seg (x0 m c) (w1 m c) i j := by
  have hp : ∀ i j, Val0.L (Fold.V1 m ρ) c i j = lin1 m c i j := fun i j =>
    Finset.sum_congr rfl fun k _ => congrArg₂ (· * ·) (congrFun (at_launch m ρ c main_arg0 1 (by decide)) (ix2 i k))
      (congrFun (at_launch m ρ c main_arg2 1 (by decide)) (ix2 k j))
  refine (congrFun (Fold.W4_arr m ρ c 4) (ix2 i j)).trans ((Val1.out_apply (Fold.V3 m ρ) c i j).trans ?_)
  obtain ⟨hm, hv⟩ := layer_tables seg (idw m c) hseg half half_val (lin1 m c) _ _ _
    (fun p b j => Eq.trans (Eq.trans (congrFun (Fold.W2_arr m ρ c 4) (ix3 p b j)) (Val0.sum_apply (Fold.V1 m ρ) c p b j))
      (Finset.sum_congr rfl fun r _ => congrArg₂ (· * ·) (region0_hot m ρ c _ b) (hp _ j)))
    (fun p b j => Eq.trans (Eq.trans (congrFun (Fold.W2_arr m ρ c 5) (ix3 p b j)) (Val0.sumsq_apply (Fold.V1 m ρ) c p b j))
      (Finset.sum_congr rfl fun r _ => congrArg₂ (· * ·) (region0_hot m ρ c _ b)
        (congrArg₂ (· * ·) (hp _ j) (hp _ j))))
    (fun b => (HostStats.cnt1 (Fold.W2 m ρ c) b).symm.trans (cnt_at3 m ρ c seg hseg b)) _ _
    (fun b j => HostStats.mean1 (Fold.W2 m ρ c) b j) (fun b j => HostStats.inv1 (Fold.W2 m ρ c) b j)
  have eo : ∀ b : Fin 16, Val1.oh (Fold.V3 m ρ) c i b = hot (idw m c) i b := fun b =>
    hot_of_word m c _ i b (ids_at m ρ c 3 (by decide) (by decide) i)
  simp only [eo]
  exact layer_norm seg (idw m c) hseg (lin1 m c) hL1 _
    (fun i j => (congrFun (kept m ρ c main_v1_0 2 3 (by decide) (by decide)) (ix2 i j)).trans
      ((congrFun (Fold.W2_arr m ρ c 3) (ix2 i j)).trans ((Val0.lin_apply (Fold.V1 m ρ) c i j).trans (hp i j))))
    _ _ hm hv i j

end

end Cert.KernelIdeal.Chain

end
-- ==== Proof.KI.Val2.lean ====
import proofs.«429425_j21053929685331_2_alg».proof.Proof.KI.Reg2
import proofs.«429425_j21053929685331_2_alg».proof.Proof.KI.OneHot
import proofs.«429425_j21053929685331_2_alg».proof.Proof.LibDotCols
import proofs.«429425_j21053929685331_2_alg».proof.Proof.LibPlainDot
import proofs.«429425_j21053929685331_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val2

open Cert.KernelIdeal.Gen
open Idealize.ShloMosaic Idealize.ShloMosaic.TcCoe Idealize.ShloMosaic.ValueIdx

theorem product_apply (x : Vec Ideal S1000x64 .f32) (w : Vec Ideal S64x128 .f32) (r : Fin 1000) (j : Fin 128) :
    k2_pay5 x w (ix2 r j) = ∑ k : Fin 64, x (ix2 r k) * w (ix2 k j) := by
  unfold k2_pay5
  rw [shapeCast_self]
  exact Cert.LibPlainDot.matmul_zero_apply (A := 1000) (K := 64) (B := 128) _ rfl rfl rfl rfl rfl rfl none x w r j

theorem zero_apply (b : Fin 16) (j : Fin 128) : k2_pay3 (F := Ideal) (ix2 b j) = 0 := by
  unfold k2_pay3
  rw [shapeCast_self, broadcast_apply]
  exact Ideal.ofBits_zero_f32

def stepWith (m : FVec Ideal S1000x128 .f32) (ids : Vec Ideal S1000x1 .i32) (acc : Vec Ideal S16x128 .f32) : Vec Ideal S16x128 .f32 :=
  shapeCast S16x128 (addf acc (matmul dot_S1000x16_S1000x128_S16x128_0_0_1_1_n_n none (k2_pay6 ids) m
    (constant S16x128 .f32 0x00000000#32))) shapeCasts_S16x128_S16x128

-- One step adds to each instance b the rows of the block m whose instance number is b.
theorem step_apply (m : FVec Ideal S1000x128 .f32) (ids : Vec Ideal S1000x1 .i32) (acc : Vec Ideal S16x128 .f32)
    (b : Fin 16) (j : Fin 128) : stepWith m ids acc (ix2 b j)
      = acc (ix2 b j) + ∑ r : Fin 1000, (if ids (ix2 r 0) = BitVec.ofNat 32 b.val then (1 : EReal) else 0) * m (ix2 r j) := by
  unfold stepWith
  rw [shapeCast_self, addf_apply]
  refine congrArg (acc (ix2 b j) + ·) ((Cert.LibDotCols.matmul_zero_apply (K := 1000) (A := 16) (B := 128) _
    rfl rfl rfl rfl rfl rfl none _ m b j).trans (Finset.sum_congr rfl fun r _ => ?_))
  rw [Cert.KernelIdeal.OneHot.k2_pay6_apply]

variable (V : (c : Dev nD) → (b : Ref sig .tc) → Buf (Elt Ideal) ((c : Thread nD τ).loc b))

abbrev X (c : Dev nD) : Vec Ideal S250000x64 .f32 := V c (Pipeline.arrRef spec2 0)
abbrev W (c : Dev nD) : Vec Ideal S64x128 .f32 := V c (Pipeline.arrRef spec2 1)
abbrev Ids (c : Dev nD) : Vec Ideal S250000x1 .i32 := V c (Pipeline.arrRef spec2 2)

def L (c : Dev nD) (i : Fin 250000) (j : Fin 128) : EReal := ∑ k : Fin 64, X V c (ix2 i k) * W V c (ix2 k j)

def oh (c : Dev nD) (i : Fin 250000) (b : Fin 16) : EReal := if Ids V c (ix2 i 0) = BitVec.ofNat 32 b.val then 1 else 0

def row (p : Fin 2) (r : Fin 125000) : Fin 250000 := ⟨125000 * p.val + r.val, by omega⟩

theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_4.index t (0 : Fin 3) = t.val / 125 ∧ win2_4.index t (1 : Fin 3) = 0 ∧ win2_4.index t (2 : Fin 3) = 0 :=
  (by decide +kernel : ∀ t : Fin grid2.N, _)

theorem block_apply (c : Dev nD) (t : Fin cfg2.N) (r : Fin 1000) (j : Fin 128) (h : 1000 * t.val + r.val < 250000) :
    Reg2.idsAt V c t (ix2 r 0) = Ids V c (ix2 ⟨_, h⟩ 0)
      ∧ ∑ k : Fin 64, Reg2.rowsAt V c t (ix2 r k) * Reg2.weightsAt V c t (ix2 k j) = L V c ⟨_, h⟩ j := by
  obtain ⟨e0, e1, e2, e3, -⟩ := index_facts t
  refine ⟨congrArg (Ids V c) (Shape.idx_ext₂ ?_ ?_), Finset.sum_congr rfl fun k _ => congrArg₂ (· * ·)
    (congrArg (X V c) (Shape.idx_ext₂ ?_ ?_)) (congrArg (W V c) (Shape.idx_ext₂ ?_ ?_))⟩
  · show win2_0.index t (0 : Fin 2) * 1000 + 1 * r.val = 1000 * t.val + r.val; omega
  · show win2_0.index t (1 : Fin 2) * 1 + 1 * 0 = 0; omega
  · show win2_0.index t (0 : Fin 2) * 1000 + 1 * r.val = 1000 * t.val + r.val; omega
  · show win2_0.index t (1 : Fin 2) * 64 + 1 * k.val = k.val; omega
  · show win2_1.index t (0 : Fin 2) * 64 + 1 * k.val = k.val; omega
  · show win2_1.index t (1 : Fin 2) * 128 + 1 * j.val = j.val; omega

theorem mem_of_emb {sg : RefSig} {κ : Kind} {sp : Space} {S : Shape} {e : EltTy} (v : View sg κ sp S e) (y : S.Idx)
    {i : v.ty.Idx} (h : v.emb y = i) : i ∈ v.set := h ▸ v.emb_mem_set y

-- The blocks of 1000 consecutive rows cover the array: row i lies in block i / 1000.
theorem lin_apply (c : Dev nD) (i : Fin 250000) (j : Fin 128) :
    (Reg2.dat (F := Ideal) V c).arrAt 3 cfg2.N (ix2 i j) = ∑ k : Fin 64, X V c (ix2 i k) * W V c (ix2 k j) := by
  have hN : cfg2.N = 250 := N_2
  refine congrFun ((Reg2.dat V c).arrAt_eq_of_cover 3 (fun x => L V c (x 0) (x 1))
    (fun t _ => ?_) (fun x => ?_)) (ix2 i j)
  · show (cfg2.win 3).cut (grid2.coords t) ((Reg2.dat V c).after 3 t) = _
    rw [Reg2.after_3]
    obtain ⟨e0, e1, -⟩ := index_facts t
    funext y
    obtain ⟨r, q, rfl⟩ : ∃ (r : Fin 1000) (q : Fin 128), y = ix2 r q := ⟨y 0, y 1, eq_ix2 y⟩
    have h : 1000 * t.val + r.val < 250000 := by have := r.isLt; omega
    show k2_pay5 (Reg2.rowsAt V c t) (Reg2.weightsAt V c t) (ix2 r q) = _
    rw [product_apply, (block_apply V c t r q h).2]
    refine congrArg₂ (L V c) (Fin.ext ?_) (Fin.ext ?_)
    · show 1000 * t.val + r.val = win2_0.index t (0 : Fin 2) * 1000 + 1 * r.val; omega
    · show q.val = win2_0.index t (1 : Fin 2) * 128 + 1 * q.val; omega
  · have hx : (x 0).val < 250000 := (x 0).isLt
    have ht : (x 0).val / 1000 < cfg2.N := by omega
    obtain ⟨e0, e1, -⟩ := index_facts ⟨_, ht⟩
    refine ⟨⟨_, ht⟩, flush2_3 _, mem_of_emb _ (ix2 ⟨(x 0).val % 1000, Nat.mod_lt _ (by omega)⟩ ⟨(x 1).val, (x 1).isLt⟩) (Shape.idx_ext₂ ?_ ?_)⟩
    · show win2_0.index _ (0 : Fin 2) * 1000 + 1 * ((x 0).val % 1000) = (x 0).val; rw [e0]; show (x 0).val / 1000 * 1000 + _ = _; omega
    · show win2_0.index _ (1 : Fin 2) * 128 + 1 * (x 1).val = (x 1).val; omega

-- 125 consecutive blocks of 1000 rows are the 125000 rows of a half.
theorem run_rows (p : Fin 2) (g : ℕ → EReal) :
    ∑ s ∈ Finset.range 125, ∑ r : Fin 1000, g (1000 * (125 * p.val + s) + r.val)
      = ∑ n : Fin 125000, g (125000 * p.val + n.val) := by
  rw [Finset.sum_range (fun s => ∑ r : Fin 1000, g (1000 * (125 * p.val + s) + r.val))]
  refine Eq.trans ?_ (Cert.BlockSum.sum_blocks 125 1000 (fun n : Fin (125 * 1000) => g (125000 * p.val + n.val)))
  refine Finset.sum_congr rfl fun s _ => Finset.sum_congr rfl fun r _ => congrArg g ?_
  show 1000 * (125 * p.val + s.val) + r.val = 125000 * p.val + (1000 * s.val + r.val)
  omega

abbrev Acc := (n : ℕ) → n < cfg2.N → Vec Ideal S16x128 .f32

section Run

variable (f : EReal → EReal) (c : Dev nD)

def term (b : Fin 16) (j : Fin 128) (i : ℕ) : EReal :=
  if h : i < 250000 then oh V c ⟨i, h⟩ b * f (L V c ⟨i, h⟩ j) else 0

variable {A : Acc} {z : Vec Ideal S16x128 .f32} {m : Vec Ideal S1000x64 .f32 → Vec Ideal S64x128 .f32 → FVec Ideal S1000x128 .f32}
  (hz : ∀ b j, z (ix2 b j) = 0)
  (hm : ∀ x w r j, m x w (ix2 r j) = f (∑ k : Fin 64, x (ix2 r k) * w (ix2 k j)))
  (h0 : ∀ t : Fin cfg2.N, t.val % 125 = 0 →
    A t.val t.isLt = stepWith (m (Reg2.rowsAt V c t) (Reg2.weightsAt V c t)) (Reg2.idsAt V c t) z)
  (hs : ∀ t : Fin cfg2.N, ¬ t.val % 125 = 0 → A t.val t.isLt = stepWith (m (Reg2.rowsAt V c t) (Reg2.weightsAt V c t))
    (Reg2.idsAt V c t) (A (t.val - 1) (by omega)))

include hm in
theorem step_at (t : Fin cfg2.N) (acc : Vec Ideal S16x128 .f32) (b : Fin 16) (j : Fin 128) :
    stepWith (m (Reg2.rowsAt V c t) (Reg2.weightsAt V c t)) (Reg2.idsAt V c t) acc (ix2 b j)
      = acc (ix2 b j) + ∑ r : Fin 1000, term V f c b j (1000 * t.val + r.val) := by
  have hN : cfg2.N = 250 := N_2
  have ht := t.isLt
  refine (step_apply _ _ acc b j).trans (congrArg (acc (ix2 b j) + ·) (Finset.sum_congr rfl fun r _ => ?_))
  have h : 1000 * t.val + r.val < 250000 := by have := r.isLt; omega
  rw [hm, (block_apply V c t r j h).1, (block_apply V c t r j h).2]
  unfold term; rw [dif_pos h]; rfl

-- By induction along a run from the reset at its first point: after q + 1 points the total is the sum of their blocks' terms.
include hz hm h0 hs in
theorem run (p : Fin 2) (b : Fin 16) (j : Fin 128) (q : ℕ) (hq : q < 125) (h : 125 * p.val + q < cfg2.N) :
    A (125 * p.val + q) h (ix2 b j)
      = ∑ s ∈ Finset.range (q + 1), ∑ r : Fin 1000, term V f c b j (1000 * (125 * p.val + s) + r.val) := by
  induction q with
  | zero =>
    rw [Finset.sum_range_one]
    refine (congrFun (h0 ⟨_, h⟩ (Nat.mul_mod_right 125 _)) _).trans ?_
    rw [step_at V f c hm, hz, zero_add]
  | succ q ih =>
    rw [Finset.sum_range_succ, ← ih (by omega) (Nat.lt_of_succ_lt h)]
    exact (congrFun (hs ⟨_, h⟩ (by show ¬ (125 * p.val + (q + 1)) % 125 = 0; omega)) _).trans (step_at V f c hm ⟨_, h⟩ _ b j)

include hz hm h0 hs in
theorem total (p : Fin 2) (b : Fin 16) (j : Fin 128) (h : 125 * p.val + 124 < cfg2.N) :
    A (125 * p.val + 124) h (ix2 b j) = ∑ r : Fin 125000, oh V c (row p r) b * f (L V c (row p r) j) := by
  rw [run V f c hz hm h0 hs p b j 124 (by omega) h, run_rows p (term V f c b j)]
  refine Finset.sum_congr rfl fun r _ => ?_
  have hr : 125000 * p.val + r.val < 250000 := (row p r).isLt
  unfold term; rw [dif_pos hr]; rfl

end Run

theorem A_congr (A : Acc) {n n' : ℕ} (e : n = n') (h : n < cfg2.N) (h' : n' < cfg2.N)
    {x x' : S16x128.Idx} (ex : x = x') : A n h x = A n' h' x' := by subst e ex; rfl

theorem acc_lt (i : S2x16x128.Idx) : 125 * (i 0).val + 124 < cfg2.N := by
  have h : (i 0).val < 2 := (i 0).isLt; have hN : cfg2.N = 250 := N_2; omega

def accArr (A : Acc) : Vec Ideal S2x16x128 .f32 := fun i =>
  A (125 * (i 0).val + 124) (acc_lt i)
    (ix2 (i 1) (i 2))

theorem copy_eq (A : Acc) (t : Fin cfg2.N) (hm : t.val % 125 = 124) (y : S1x16x128.Idx) :
    k2_pay1 (A t.val t.isLt) y = accArr A ((win2_4.rect t).emb y) := by
  obtain ⟨-, -, -, -, e0, e1, e2⟩ := index_facts t
  obtain ⟨u, b, j, rfl⟩ : ∃ (u : Fin 1) (b : Fin 16) (j : Fin 128), y = ix3 u b j := ⟨y 0, y 1, y 2, eq_ix3 y⟩
  have hu := u.isLt
  refine (shapeCast_ab_1ab_apply _ _ u b j).trans (A_congr A ?_ _ _ (congrArg₂ (ix2 (n0 := 16) (n1 := 128)) (Fin.ext ?_) (Fin.ext ?_)))
  · show t.val = 125 * (win2_4.index t (0 : Fin 3) * 1 + 1 * u.val) + 124; omega
  · show b.val = win2_4.index t (1 : Fin 3) * 16 + 1 * b.val; omega
  · show j.val = win2_4.index t (2 : Fin 3) * 128 + 1 * j.val; omega

theorem cover_eq (i : S2x16x128.Idx) (h : 125 * (i 0).val + 124 < cfg2.N) :
    (win2_4.rect ⟨125 * (i 0).val + 124, h⟩).emb (ix3 (0 : Fin 1) ⟨(i 1).val, (i 1).isLt⟩ ⟨(i 2).val, (i 2).isLt⟩) = i := by
  obtain ⟨-, -, -, -, e0, e1, e2⟩ := index_facts ⟨125 * (i 0).val + 124, h⟩
  refine funext fun a => Fin.ext ?_
  match a with
  | ⟨0, _⟩ => show win2_4.index _ (0 : Fin 3) * 1 + 1 * 0 = (i 0).val; rw [e0]; show (125 * (i 0).val + 124) / 125 * 1 + 1 * 0 = _; omega
  | ⟨1, _⟩ => show win2_4.index _ (1 : Fin 3) * 16 + 1 * (i 1).val = (i 1).val; omega
  | ⟨2, _⟩ => show win2_4.index _ (2 : Fin 3) * 128 + 1 * (i 2).val = (i 2).val; omega

-- Row p of the array is block 125 * p + 124, the last of run p.
theorem sum_apply (c : Dev nD) (p : Fin 2) (b : Fin 16) (j : Fin 128) :
    (Reg2.dat (F := Ideal) V c).arrAt 4 cfg2.N (ix3 p b j) = ∑ r : Fin 125000, oh V c (row p r) b * L V c (row p r) j := by
  refine (congrFun ((Reg2.dat V c).arrAt_eq_of_cover 4 (accArr (Reg2.sumAt V c)) (fun t hf => ?_) (fun i => ⟨⟨_, acc_lt i⟩,
    (flush2_4 _).mpr (Nat.mul_add_mod 125 _ 124), mem_of_emb _ _ (cover_eq i (acc_lt i))⟩)) (ix3 p b j)).trans
    (total V id c zero_apply product_apply
      (Reg2.sumAt_start V c) (Reg2.sumAt_step V c) p b j (acc_lt (ix3 p b j)))
  show (cfg2.win 4).cut (grid2.coords t) ((Reg2.dat V c).after 4 t) = _
  rw [Reg2.after_4]
  exact funext (copy_eq (Reg2.sumAt V c) t ((flush2_4 t).mp hf))

theorem sumsq_apply (c : Dev nD) (p : Fin 2) (b : Fin 16) (j : Fin 128) :
    (Reg2.dat (F := Ideal) V c).arrAt 5 cfg2.N (ix3 p b j)
      = ∑ r : Fin 125000, oh V c (row p r) b * (L V c (row p r) j * L V c (row p r) j) := by
  refine (congrFun ((Reg2.dat V c).arrAt_eq_of_cover 5 (accArr (Reg2.sumsqAt V c)) (fun t hf => ?_) (fun i => ⟨⟨_, acc_lt i⟩,
    (flush2_5 _).mpr (Nat.mul_add_mod 125 _ 124), mem_of_emb _ _ (cover_eq i (acc_lt i))⟩)) (ix3 p b j)).trans
    (total V (fun a => a * a) c (m := fun x w => mulf (k2_pay5 x w) (k2_pay5 x w)) zero_apply
      (fun x w r j => by rw [mulf_apply, product_apply])
      (Reg2.sumsqAt_start V c) (Reg2.sumsqAt_step V c) p b j (acc_lt (ix3 p b j)))
  show (cfg2.win 5).cut (grid2.coords t) ((Reg2.dat V c).after 5 t) = _
  rw [Reg2.after_5]
  exact funext (copy_eq (Reg2.sumsqAt V c) t ((flush2_5 t).mp hf))

end Cert.KernelIdeal.Val2

end
-- ==== Proof.KI.Val3.lean ====
import proofs.«429425_j21053929685331_2_alg».proof.Proof.KI.Reg3
import proofs.«429425_j21053929685331_2_alg».proof.Proof.KI.OneHot
import proofs.«429425_j21053929685331_2_alg».proof.Proof.LibPlainDot
import Idealize.ShloMosaic.Lib.Pipeline.Value
import Idealize.ShloMosaic.Lib.ValueIdx
import Idealize.ShloMosaic.PureOps.Ideal.Laws

noncomputable section

namespace Cert.KernelIdeal.Val3

open Cert.KernelIdeal Cert.KernelIdeal.Gen Idealize.ShloMosaic Idealize.ShloMosaic.TcCoe Idealize.SL.Sem
open Idealize.ShloMosaic.ValueIdx
open scoped BigOperators

theorem stored_apply (ids : IVec S1000x1 32) (mean inv : FVec Ideal S16x128 .f32) (h : FVec Ideal S1000x128 .f32)
    (r : Fin 1000) (j : Fin 128) :
    k3_pay1 ids mean inv h (ix2 r j)
      = max ((h (ix2 r j) - ∑ b : Fin 16, (if ids (ix2 r 0) = BitVec.ofNat 32 b.val then (1 : EReal) else 0) * mean (ix2 b j))
          * (∑ b : Fin 16, (if ids (ix2 r 0) = BitVec.ofNat 32 b.val then (1 : EReal) else 0) * inv (ix2 b j))) 0 := by
  unfold k3_pay1
  dsimp only
  unfold Idealize.ShloMosaic.matmul
  rw [maximumf_apply, mulf_apply, subf_apply, broadcast_apply, shapeCast_self mean, shapeCast_self inv, shapeCast_self h,
    LibPlainDot.matmul_zero_apply _ rfl rfl rfl rfl rfl rfl, LibPlainDot.matmul_zero_apply _ rfl rfl rfl rfl rfl rfl]
  have e := fun k : Fin 16 => OneHot.onehot_apply ids r k
  exact congrArg₂ max (congrArg₂ (fun a b => (h (ix2 r j) - a) * b) (Finset.sum_congr rfl fun k _ => congrArg (· * _) (e k))
    (Finset.sum_congr rfl fun k _ => congrArg (· * _) (e k))) Ideal.ofBits_zero_f32

variable (V : (c : Dev nD) → (b : Ref sig .tc) → Buf (Elt Ideal) ((c : Thread nD τ).loc b))

abbrev H (c : Dev nD) : S250000x128.Idx → EReal := V c (Pipeline.arrRef spec3 0)
abbrev Ids (c : Dev nD) : S250000x1.Idx → BitVec 32 := V c (Pipeline.arrRef spec3 1)
abbrev Mean (c : Dev nD) : S16x128.Idx → EReal := V c (Pipeline.arrRef spec3 2)
abbrev Inv (c : Dev nD) : S16x128.Idx → EReal := V c (Pipeline.arrRef spec3 3)

def oh (c : Dev nD) (i : Fin 250000) (b : Fin 16) : EReal :=
  if Ids V c (ix2 i 0) = BitVec.ofNat 32 b.val then 1 else 0

def normAll (c : Dev nD) (x : S250000x128.Idx) : EReal :=
  max ((H V c x - ∑ b : Fin 16, oh V c (x 0) b * Mean V c (ix2 b (x 1)))
    * (∑ b : Fin 16, oh V c (x 0) b * Inv V c (ix2 b (x 1)))) 0

theorem block_index : ∀ t : Fin cfg3.N,
    win3_0.index t 0 = t.val ∧ win3_0.index t 1 = 0
    ∧ win3_1.index t 0 = t.val ∧ win3_1.index t 1 = 0
    ∧ win3_2.index t 0 = 0 ∧ win3_2.index t 1 = 0
    ∧ win3_3.index t 0 = 0 ∧ win3_3.index t 1 = 0
    ∧ win3_4.index t 0 = t.val ∧ win3_4.index t 1 = 0 :=
  (by decide +kernel : ∀ t : Fin grid3.N, _)

theorem zero_offsets : (![0, 0] : Fin 2 → Nat) = fun _ => 0 := by decide

/-- A block entry sits in its array at block index times block size plus its own coordinate. -/
theorem out_coord (t : Fin cfg3.N) (r : Fin 1000) (j : Fin 128) (i : Fin 250000) (hi : i.val = t.val * 1000 + r.val) :
    ((cfg3.win 4).blk t).view.emb (ix2 r j) = ix2 i j := by
  obtain ⟨-, -, -, -, -, -, -, -, e0, e1⟩ := block_index t
  exact Shape.idx_ext₂ (by show win3_4.index t 0 * 1000 + 1 * r.val = i.val; omega)
    (by show win3_4.index t 1 * 128 + 1 * j.val = j.val; omega)

theorem flushed_eq (c : Dev nD) (t : Fin cfg3.N) :
    (Reg3.dat V c).flushed 4 t = ((cfg3.win 4).blk t).view.read (Elt Ideal) (normAll V c) := by
  show (cfg3.win 4).cut (grid3.coords t) ((Reg3.dat V c).after 4 t) = _
  rw [Reg3.after_out]
  unfold Reg3.normReluBlock
  rw [View.canon_unit_zero zero_offsets]
  simp only [View.ld_unit_zero (S := S1000x128) zero_offsets, View.ld_unit_zero (S := S1000x1) zero_offsets,
    View.ld_unit_zero (S := S16x128) zero_offsets]
  funext y
  obtain ⟨r, j, rfl⟩ : ∃ r j, y = ix2 r j := ⟨_, _, eq_ix2 y⟩
  obtain ⟨e0, e1, e2, e3, e4, e5, e6, e7, -⟩ := block_index t
  have hi : t.val * 1000 + r.val < 250000 := by have := lt_of_lt_of_eq t.isLt N_3; omega
  have E0 : Reg3.entryBlock V c 0 t (ix2 r j) = H V c (ix2 ⟨_, hi⟩ j) :=
    congrArg (V c _) (Shape.idx_ext₂ (by show win3_0.index t 0 * 1000 + 1 * r.val = t.val * 1000 + r.val; omega)
      (by show win3_0.index t 1 * 128 + 1 * j.val = j.val; omega))
  have E1 : Reg3.entryBlock V c 1 t (ix2 r 0) = Ids V c (ix2 ⟨_, hi⟩ 0) :=
    congrArg (V c _) (Shape.idx_ext₂ (by show win3_1.index t 0 * 1000 + 1 * r.val = t.val * 1000 + r.val; omega)
      (by show win3_1.index t 1 * 1 + 1 * 0 = 0; omega))
  have E2 : ∀ b : Fin 16, Reg3.entryBlock V c 2 t (ix2 b j) = Mean V c (ix2 b j) := fun b =>
    congrArg (V c _) (Shape.idx_ext₂ (by show win3_2.index t 0 * 16 + 1 * b.val = b.val; omega)
      (by show win3_2.index t 1 * 128 + 1 * j.val = j.val; omega))
  have E3 : ∀ b : Fin 16, Reg3.entryBlock V c 3 t (ix2 b j) = Inv V c (ix2 b j) := fun b =>
    congrArg (V c _) (Shape.idx_ext₂ (by show win3_3.index t 0 * 16 + 1 * b.val = b.val; omega)
      (by show win3_3.index t 1 * 128 + 1 * j.val = j.val; omega))
  refine (stored_apply _ _ _ _ r j).trans ?_
  rw [E0, E1]
  simp only [E2, E3]
  exact (congrArg (normAll V c) (out_coord t r j ⟨_, hi⟩ rfl)).symm

theorem out_covered (i : S250000x128.Idx) :
    ∃ t : Fin cfg3.N, (cfg3.win 4).flush t = true ∧ i ∈ ((cfg3.win 4).blk t).view.set := by
  obtain ⟨a, b, rfl⟩ : ∃ a b, i = ix2 a b := ⟨_, _, eq_ix2 i⟩
  have hN : a.val / 1000 < cfg3.N := by have := a.isLt; rw [show cfg3.N = 250 from N_3]; omega
  refine ⟨⟨_, hN⟩, flush3_4 _, ?_⟩
  rw [← out_coord ⟨_, hN⟩ ⟨a.val % 1000, Nat.mod_lt _ (by norm_num)⟩ b a (Nat.div_add_mod' _ _).symm]
  exact View.emb_mem_set _ _

theorem out_apply (c : Dev nD) (i : Fin 250000) (j : Fin 128) :
    (Reg3.dat (F := Ideal) V c).arrAt 4 cfg3.N (ix2 i j)
      = max ((H V c (ix2 i j) - ∑ b : Fin 16, oh V c i b * Mean V c (ix2 b j))
          * (∑ b : Fin 16, oh V c i b * Inv V c (ix2 b j))) 0 :=
  congrFun ((Reg3.dat V c).arrAt_eq_of_cover 4 (normAll V c) (fun t _ => flushed_eq V c t) out_covered) (ix2 i j)

end Cert.KernelIdeal.Val3

end
-- ==== Proof.KI.Chain.Stage2.lean ====
import proofs.«429425_j21053929685331_2_alg».proof.Proof.KI.Chain.Entry
import proofs.«429425_j21053929685331_2_alg».proof.Proof.KI.Chain.Layer
import proofs.«429425_j21053929685331_2_alg».proof.Proof.KI.Val2
import proofs.«429425_j21053929685331_2_alg».proof.Proof.KI.Val3

noncomputable section

namespace Cert.KernelIdeal.Chain

open Cert.KernelIdeal Cert.KernelIdeal.Gen Cert.Net
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)
variable (seg : Fin 250000 → Fin 16)

abbrev lin2 : Fin 250000 → Fin 128 → EReal := lin (hidden1 seg (x0 m c) (w1 m c)) (w2 m c)

theorem hidden2_at7
    (hH1 : ∀ (i : Fin 250000) (k : Fin 64),
      (Wat m ρ 4 c (Proc.devRef .tc main_v16) : S250000x64.Idx → EReal) (ix2 i k) = hidden1 seg (x0 m c) (w1 m c) i k)
    (hseg : ∀ i, idw m c i = BitVec.ofNat 32 (seg i).val)
    (hcnt : ∀ b : Fin 16, (Wat m ρ 3 c (Proc.devRef .tc main_v2) : S16x1.Idx → EReal) (ix2 b (0 : Fin 1)) = cnt seg b)
    (hL2 : ∀ i c', IsReal (lin2 m c seg i c')) (i : Fin 250000) (j : Fin 128) :
    (Wat m ρ 7 c (Proc.devRef .tc main_v31) : S250000x128.Idx → EReal) (ix2 i j)
      = hidden2 seg (x0 m c) (w1 m c) (w2 m c) i j := by
  have hh : ∀ i b, Val2.oh (Fold.V4 m ρ) c i b = hot (idw m c) i b := fun i b =>
    hot_of_word m c _ i b (ids_at m ρ c 4 (by decide) (by decide) i)
  have hp : ∀ i j, Val2.L (Fold.V4 m ρ) c i j = lin2 m c seg i j := fun i j =>
    Finset.sum_congr rfl fun k _ => congrArg₂ (· * ·) (hH1 i k) (congrFun (at_launch m ρ c main_arg3 4 (by decide)) (ix2 k j))
  refine (congrFun (Fold.W7_arr m ρ c 4) (ix2 i j)).trans ((Val3.out_apply (Fold.V6 m ρ) c i j).trans ?_)
  obtain ⟨hm, hv⟩ := layer_tables seg (idw m c) hseg half half_val (lin2 m c seg) _ _ _
    (fun p b j => Eq.trans (Eq.trans (congrFun (Fold.W5_arr m ρ c 4) (ix3 p b j)) (Val2.sum_apply (Fold.V4 m ρ) c p b j))
      (Finset.sum_congr rfl fun r _ => congrArg₂ (· * ·) (hh _ b) (hp _ j)))
    (fun p b j => Eq.trans (Eq.trans (congrFun (Fold.W5_arr m ρ c 5) (ix3 p b j)) (Val2.sumsq_apply (Fold.V4 m ρ) c p b j))
      (Finset.sum_congr rfl fun r _ => congrArg₂ (· * ·) (hh _ b) (congrArg₂ (· * ·) (hp _ j) (hp _ j))))
    (fun b => (congrFun (kept m ρ c main_v2 3 5 (by decide) (by decide)) (ix2 b (0 : Fin 1))).trans (hcnt b)) _ _
    (fun b j => HostStats.mean2 (Fold.W5 m ρ c) b j) (fun b j => HostStats.inv2 (Fold.W5 m ρ c) b j)
  have eo : ∀ b : Fin 16, Val3.oh (Fold.V6 m ρ) c i b = hot (idw m c) i b := fun b =>
    hot_of_word m c _ i b (ids_at m ρ c 6 (by decide) (by decide) i)
  simp only [eo]
  exact layer_norm seg (idw m c) hseg (lin2 m c seg) hL2 _
    (fun i j => (congrFun (kept m ρ c main_v17_0 5 6 (by decide) (by decide)) (ix2 i j)).trans
      ((congrFun (Fold.W5_arr m ρ c 3) (ix2 i j)).trans ((Val2.lin_apply (Fold.V4 m ρ) c i j).trans (hp i j))))
    _ _ hm hv i j

end Cert.KernelIdeal.Chain

end
-- ==== Proof.KI.Val4.lean ====
import proofs.«429425_j21053929685331_2_alg».proof.Proof.KI.Reg4
import proofs.«429425_j21053929685331_2_alg».proof.Proof.KI.OneHot
import proofs.«429425_j21053929685331_2_alg».proof.Proof.LibDotCols
import proofs.«429425_j21053929685331_2_alg».proof.Proof.LibPlainDot
import proofs.«429425_j21053929685331_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val4

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem linear_apply (x : Vec Ideal S1000x128 .f32) (w : Vec Ideal S128x1024 .f32) (r : Fin 1000) (j : Fin 1024) :
    k4_pay4 (F := Ideal) x w (ix2 r j) = ∑ k : Fin 128, x (ix2 r k) * w (ix2 k j) := by
  unfold k4_pay4
  refine (Cert.LibPlainDot.matmul_zero_apply (A := 1000) (K := 128) (B := 1024) dot_S1000x128_S128x1024_S1000x1024_1_0_0_1_n_n
    rfl rfl rfl rfl rfl rfl none _ w r j).trans ?_
  rw [shapeCast_self]

theorem fill_apply (i : S16x1024.Idx) : k4_pay2 (F := Ideal) i = 0 := by
  unfold k4_pay2
  rw [shapeCast_self, broadcast_apply]
  exact Ideal.ofBits_zero_f32

-- An accumulator step gains, over the block's rows, the row's indicator times `f` of the row's linear map.
def Gains (pay : Vec Ideal S1000x128 .f32 → Vec Ideal S128x1024 .f32 → Vec Ideal S1000x1 .i32 → Vec Ideal S16x1024 .f32 →
    Vec Ideal S16x1024 .f32) (f : EReal → EReal) : Prop :=
  ∀ x w ids acc (i : S16x1024.Idx), pay x w ids acc i = acc i + ∑ r : Fin 1000,
    (if ids (ix2 r 0) = BitVec.ofNat 32 (i 0).val then (1 : EReal) else 0) * f (∑ k : Fin 128, x (ix2 r k) * w (ix2 k (i 1)))

theorem gains : Gains (k4_pay6 (F := Ideal)) (fun v => v) ∧ Gains (k4_pay7 (F := Ideal)) (fun v => v * v) := by
  constructor <;>
  · intro x w ids acc i
    obtain ⟨b, j, rfl⟩ : ∃ (b : Fin 16) (j : Fin 1024), i = ix2 b j := ⟨i 0, i 1, eq_ix2 i⟩
    first | unfold k4_pay6 | unfold k4_pay7
    rw [shapeCast_self, addf_apply]
    refine congrArg (acc (ix2 b j) + ·) ((Cert.LibDotCols.matmul_zero_apply (K := 1000) (A := 16) (B := 1024) _
      rfl rfl rfl rfl rfl rfl none _ _ b j).trans (Finset.sum_congr rfl fun r _ => ?_))
    simp only [Cert.KernelIdeal.OneHot.k4_pay5_apply, mulf_apply, linear_apply] <;> rfl

variable (V : (c : Dev nD) → (b : Ref sig .tc) → Buf (Elt Ideal) ((c : Thread nD τ).loc b))

abbrev X (c : Dev nD) : Vec Ideal S250000x128 .f32 := V c (Pipeline.arrRef spec4 0)
abbrev W (c : Dev nD) : Vec Ideal S128x1024 .f32 := V c (Pipeline.arrRef spec4 1)
abbrev Ids (c : Dev nD) : Vec Ideal S250000x1 .i32 := V c (Pipeline.arrRef spec4 2)

def L (c : Dev nD) (i : Fin 250000) (j : Fin 1024) : EReal := ∑ k : Fin 128, X V c (ix2 i k) * W V c (ix2 k j)

def oh (c : Dev nD) (i : Fin 250000) (b : Fin 16) : EReal := if Ids V c (ix2 i 0) = BitVec.ofNat 32 b.val then 1 else 0

def row (p : Fin 2) (r : Fin 125000) : Fin 250000 := ⟨125000 * p.val + r.val, by omega⟩

theorem where_blocks : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ win4_3.index t (0 : Fin 3) = t.val / 125 ∧ win4_3.index t (1 : Fin 3) = 0 ∧ win4_3.index t (2 : Fin 3) = 0 :=
  (by decide +kernel : ∀ t : Fin grid4.N, _)

def term (f : EReal → EReal) (c : Dev nD) (b : Fin 16) (j : Fin 1024) (i : ℕ) : EReal :=
  if h : i < 250000 then oh V c ⟨i, h⟩ b * f (L V c ⟨i, h⟩ j) else 0

variable {pay : Vec Ideal S1000x128 .f32 → Vec Ideal S128x1024 .f32 → Vec Ideal S1000x1 .i32 → Vec Ideal S16x1024 .f32 →
  Vec Ideal S16x1024 .f32} {f : EReal → EReal}

-- Row r of point t's blocks is row 1000·t + r of the arrays, and the weight's block is the whole weight.
theorem gain_at (hp : Gains pay f) (c : Dev nD) (t : Fin cfg4.N) (acc : Vec Ideal S16x1024 .f32) (i : S16x1024.Idx) :
    pay (Reg4.xblk V c t) (Reg4.wblk V c t) (Reg4.idblk V c t) acc i
      = acc i + ∑ r : Fin 1000, term V f c (i 0) (i 1) (1000 * t.val + r.val) := by
  have ht : t.val < 250 := lt_of_lt_of_eq t.isLt N_4
  obtain ⟨⟨x0, x1⟩, ⟨w0, w1⟩, -⟩ := where_blocks t
  refine (hp _ _ _ acc i).trans (congrArg (acc i + ·) (Finset.sum_congr rfl fun r _ => ?_))
  have h : 1000 * t.val + r.val < 250000 := by have := r.isLt; omega
  have ei : Reg4.idblk V c t (ix2 r 0) = Ids V c (ix2 ⟨1000 * t.val + r.val, h⟩ 0) := by
    refine congrArg (Ids V c) (Shape.idx_ext₂ ?_ ?_)
    · show win4_0.index t (0 : Fin 2) * 1000 + 1 * r.val = 1000 * t.val + r.val; omega
    · show win4_0.index t (1 : Fin 2) * 1 + 1 * 0 = 0; omega
  have el : ∑ k : Fin 128, Reg4.xblk V c t (ix2 r k) * Reg4.wblk V c t (ix2 k (i 1)) = L V c ⟨1000 * t.val + r.val, h⟩ (i 1) := by
    refine Finset.sum_congr rfl fun k _ => congrArg₂ (· * ·) (congrArg (X V c) (Shape.idx_ext₂ ?_ ?_)) (congrArg (W V c) (Shape.idx_ext₂ ?_ ?_))
    · show win4_0.index t (0 : Fin 2) * 1000 + 1 * r.val = 1000 * t.val + r.val; omega
    · show win4_0.index t (1 : Fin 2) * 128 + 1 * k.val = k.val; omega
    · show win4_1.index t (0 : Fin 2) * 128 + 1 * k.val = k.val; omega
    · show win4_1.index t (1 : Fin 2) * 1024 + 1 * (i 1).val = (i 1).val; omega
  rw [ei, el]; unfold term; rw [dif_pos h]; rfl

theorem half_rows (p : Fin 2) (g : ℕ → EReal) :
    ∑ s ∈ Finset.range 125, ∑ r : Fin 1000, g (1000 * (125 * p.val + s) + r.val) = ∑ n : Fin 125000, g (125000 * p.val + n.val) := by
  rw [Finset.sum_range (fun s => ∑ r : Fin 1000, g (1000 * (125 * p.val + s) + r.val))]
  refine Eq.trans ?_ (Cert.BlockSum.sum_blocks 125 1000 (fun n : Fin (125 * 1000) => g (125000 * p.val + n.val)))
  refine Finset.sum_congr rfl fun s _ => Finset.sum_congr rfl fun r _ => congrArg g ?_
  show 1000 * (125 * p.val + s.val) + r.val = 125000 * p.val + (1000 * s.val + r.val)
  omega

-- An accumulator reset at a run's first point and stepped at each later one holds, at the run's end, the half's sum.
theorem run_end (hp : Gains pay f) (c : Dev nD) (A : (n : ℕ) → n < cfg4.N → Vec Ideal S16x1024 .f32)
    (h1 : ∀ t : Fin cfg4.N, t.val % 125 = 0 →
      A t.val t.isLt = pay (Reg4.xblk V c t) (Reg4.wblk V c t) (Reg4.idblk V c t) (k4_pay2 (F := Ideal)))
    (h2 : ∀ t : Fin cfg4.N, ¬t.val % 125 = 0 → A t.val t.isLt
      = pay (Reg4.xblk V c t) (Reg4.wblk V c t) (Reg4.idblk V c t) (A (t.val - 1) (Nat.lt_of_le_of_lt (Nat.sub_le _ _) t.isLt)))
    (p : Fin 2) (b : Fin 16) (j : Fin 1024) (h : 125 * p.val + 124 < cfg4.N) :
    A (125 * p.val + 124) h (ix2 b j) = ∑ r : Fin 125000, oh V c (row p r) b * f (L V c (row p r) j) := by
  let g := fun (n : ℕ) (h : n < cfg4.N) (acc : Vec Ideal S16x1024 .f32) =>
    pay (Reg4.xblk V c ⟨n, h⟩) (Reg4.wblk V c ⟨n, h⟩) (Reg4.idblk V c ⟨n, h⟩) acc
  refine ((congrFun (Pipeline.eq_accAt A 125 (fun n h => g n h (k4_pay2 (F := Ideal))) g (fun n h => h1 ⟨n, h⟩) (fun n h => h2 ⟨n + 1, h⟩)
    p.val 124 (by omega) h) _).trans (Pipeline.accAt_add_apply _ g (fun _ => 0)
      (fun n i => ∑ r : Fin 1000, term V f c (i 0) (i 1) (1000 * n + r.val)) _ 124
      (fun h i => (gain_at V hp c ⟨_, h⟩ _ i).trans (by rw [fill_apply])) (fun n h acc i _ _ => gain_at V hp c ⟨n, h⟩ acc i) 124 le_rfl _ _)).trans ?_
  rw [zero_add, half_rows]
  exact Finset.sum_congr rfl fun r _ => dif_pos (row p r).isLt

theorem run_end_lt (i : S2x16x1024.Idx) : 125 * (i 0).val + 124 < cfg4.N := by
  have h : (i 0).val < 2 := (i 0).isLt
  have hN : cfg4.N = 250 := N_4
  omega

-- Entry (p, b, j): what the accumulator holds at (b, j) when run p ends.
def endArr (A : (n : ℕ) → n < cfg4.N → Vec Ideal S16x1024 .f32) : Vec Ideal S2x16x1024 .f32 := fun i =>
  A (125 * (i 0).val + 124) (run_end_lt i) (ix2 ⟨(i 1).val, (i 1).isLt⟩ ⟨(i 2).val, (i 2).isLt⟩)

theorem out_at (A : (n : ℕ) → n < cfg4.N → Vec Ideal S16x1024 .f32) (t : Fin cfg4.N) (hm : t.val % 125 = 124)
    (u : Fin 1) (b : Fin 16) (j : Fin 1024) (i : S2x16x1024.Idx)
    (h0 : (i 0).val = t.val / 125) (h1 : (i 1).val = b.val) (h2 : (i 2).val = j.val) :
    k4_pay8 (F := Ideal) (A t.val t.isLt) (ix3 u b j) = endArr A i := by
  unfold k4_pay8 endArr
  rw [shapeCast_ab_1ab_apply]
  have en : t.val = 125 * (i 0).val + 124 := by omega
  have same : ∀ (n : ℕ) (hn : n < cfg4.N), n = t.val → A t.val t.isLt = A n hn := fun n hn e => by subst e; rfl
  rw [same _ (run_end_lt i) en.symm]
  exact congrArg _ (congrArg₂ (ix2 (n0 := 16) (n1 := 1024)) (Fin.ext h1.symm) (Fin.ext h2.symm))

theorem cover_at (idx : Fin 3 → ℕ) (i : S2x16x1024.Idx) (e0 : idx 0 = (i 0).val) (e1 : idx 1 = 0) (e2 : idx 2 = 0) (a : Fin 3) :
    idx a * S1x16x1024.size a ≤ (i a).val ∧ (i a).val < idx a * S1x16x1024.size a + S1x16x1024.size a := by
  have hi1 : (i 1).val < 16 := (i 1).isLt
  have hi2 : (i 2).val < 1024 := (i 2).isLt
  match a with
  | ⟨0, _⟩ => show idx 0 * 1 ≤ (i 0).val ∧ (i 0).val < idx 0 * 1 + 1; omega
  | ⟨1, _⟩ => show idx 1 * 16 ≤ (i 1).val ∧ (i 1).val < idx 1 * 16 + 16; omega
  | ⟨2, _⟩ => show idx 2 * 1024 ≤ (i 2).val ∧ (i 2).val < idx 2 * 1024 + 1024; omega

-- The two outputs are blocked alike, so one argument serves both.
theorem arrays_final (c : Dev nD) :
    (Reg4.dat (F := Ideal) V c).arrAt 3 cfg4.N = endArr (Reg4.sumAt V c)
    ∧ (Reg4.dat (F := Ideal) V c).arrAt 4 cfg4.N = endArr (Reg4.sqAt V c) := by
  constructor <;>
  · refine Dat.arrAt_eq_of_cover _ _ _ (fun t hf => funext fun y => ?_) (fun (i : S2x16x1024.Idx) => ?_)
    · unfold Dat.flushed
      first | rw [Reg4.after_3] | rw [Reg4.after_4]
      obtain ⟨-, -, e0, e1, e2⟩ := where_blocks t
      obtain ⟨u, b, j, rfl⟩ : ∃ (u : Fin 1) (b : Fin 16) (j : Fin 1024), y = ix3 u b j := ⟨y 0, y 1, y 2, eq_ix3 y⟩
      have hu := u.isLt
      refine out_at _ t (by first | exact (flush4_3 t).mp hf | exact (flush4_4 t).mp hf) u b j _ ?_ ?_ ?_
      · show win4_3.index t (0 : Fin 3) * 1 + 1 * u.val = t.val / 125; omega
      · show win4_3.index t (1 : Fin 3) * 16 + 1 * b.val = b.val; omega
      · show win4_3.index t (2 : Fin 3) * 1024 + 1 * j.val = j.val; omega
    · have hlt := run_end_lt i
      obtain ⟨-, -, e0, e1, e2⟩ := where_blocks ⟨125 * (i 0).val + 124, hlt⟩
      have hd : (125 * (i 0).val + 124) / 125 = (i 0).val := by omega
      have hm : (125 * (i 0).val + 124) % 125 = 124 := by omega
      refine ⟨⟨_, hlt⟩, by first | exact (flush4_3 _).mpr hm | exact (flush4_4 _).mpr hm, ?_⟩
      erw [View.set_slice_whole, Rect.mem_set_unit]
      exact cover_at _ i (e0.trans hd) e1 e2

theorem sum_apply (c : Dev nD) (p : Fin 2) (b : Fin 16) (j : Fin 1024) :
    (Reg4.dat (F := Ideal) V c).arrAt 3 cfg4.N (ix3 p b j) = ∑ r : Fin 125000, oh V c (row p r) b * L V c (row p r) j :=
  (congrFun (arrays_final V c).1 (ix3 p b j)).trans
    (run_end V gains.1 c _ (Reg4.sumAt_first V c) (Reg4.sumAt_next V c) p b j _)

theorem sumsq_apply (c : Dev nD) (p : Fin 2) (b : Fin 16) (j : Fin 1024) :
    (Reg4.dat (F := Ideal) V c).arrAt 4 cfg4.N (ix3 p b j)
      = ∑ r : Fin 125000, oh V c (row p r) b * (L V c (row p r) j * L V c (row p r) j) :=
  (congrFun (arrays_final V c).2 (ix3 p b j)).trans
    (run_end V gains.2 c _ (Reg4.sqAt_first V c) (Reg4.sqAt_next V c) p b j _)

end Cert.KernelIdeal.Val4

end
-- ==== Proof.KI.Val5.Step.lean ====
import proofs.«429425_j21053929685331_2_alg».proof.Proof.Gen.KernelIdeal.Skeleton
import proofs.«429425_j21053929685331_2_alg».proof.Proof.LibDotCols
import proofs.«429425_j21053929685331_2_alg».proof.Proof.LibPlainDot
import proofs.«429425_j21053929685331_2_alg».proof.Proof.KI.OneHot
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val5

open Idealize.ShloMosaic Idealize.ShloMosaic.ValueIdx
open Cert.KernelIdeal Cert.KernelIdeal.Gen
open scoped BigOperators

def hot (ids : Vec Ideal S1000x1 .i32) (r : Fin 1000) (b : Fin 16) : EReal :=
  if ids (ix2 r 0) = BitVec.ofNat 32 b.val then 1 else 0

def act (x : Vec Ideal S1000x128 .f32) (w : Vec Ideal S128x1024 .f32) (ids : Vec Ideal S1000x1 .i32)
    (mu sg : Vec Ideal S16x1024 .f32) (r : Fin 1000) (j : Fin 1024) : EReal :=
  max (((∑ k : Fin 128, x (ix2 r k) * w (ix2 k j)) - ∑ b : Fin 16, hot ids r b * mu (ix2 b j))
    * (∑ b : Fin 16, hot ids r b * sg (ix2 b j))) 0

theorem zero_apply (b : Fin 16) (j : Fin 1024) : k5_pay2 (F := Ideal) (ix2 b j) = 0 := by
  rw [k5_pay2, shapeCast_self]; exact Ideal.ofBits_zero_f32

theorem step_apply (x : Vec Ideal S1000x128 .f32) (w : Vec Ideal S128x1024 .f32) (ids : Vec Ideal S1000x1 .i32)
    (mu sg acc : Vec Ideal S16x1024 .f32) (b : Fin 16) (j : Fin 1024) :
    k5_pay3 x w ids mu sg acc (ix2 b j) = acc (ix2 b j) + ∑ r : Fin 1000, hot ids r b * act x w ids mu sg r j := by
  have ho : k4_pay5 ids = fun i => hot ids (i 0) (i 1) := funext fun i => by
    obtain ⟨r, b, rfl⟩ : ∃ (r : Fin 1000) (b : Fin 16), i = ix2 r b := ⟨i 0, i 1, eq_ix2 i⟩
    exact OneHot.k4_pay5_apply ids r b
  simp only [k4_pay5] at ho
  have hz : FloatOps.ofBits (F := Ideal) .f32 0#32 = 0 := Ideal.ofBits_zero_f32
  simp only [k5_pay3, act]
  rw [ho]
  simp only [shapeCast_self, addf_apply, maximumf_apply, mulf_apply, subf_apply, broadcast_apply, hz,
    LibDotCols.matmul_zero_apply dot_S1000x16_S1000x1024_S16x1024_0_0_1_1_n_n rfl rfl rfl rfl rfl rfl,
    LibPlainDot.matmul_zero_apply dot_S1000x128_S128x1024_S1000x1024_1_0_0_1_n_n rfl rfl rfl rfl rfl rfl,
    LibPlainDot.matmul_zero_apply dot_S1000x16_S16x1024_S1000x1024_1_0_0_1_n_n rfl rfl rfl rfl rfl rfl]

end Cert.KernelIdeal.Val5

end
-- ==== Proof.KI.Val5.lean ====
import proofs.«429425_j21053929685331_2_alg».proof.Proof.KI.Reg5
import proofs.«429425_j21053929685331_2_alg».proof.Proof.KI.Val5.Step
import proofs.«429425_j21053929685331_2_alg».proof.Proof.LibBlockSum
import Idealize.ShloMosaic.Lib.Pipeline.Value
import Idealize.ShloMosaic.Lib.ValueIdx
import Idealize.ShloMosaic.PureOps.Ideal.Laws

noncomputable section

namespace Cert.KernelIdeal.Val5

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

abbrev X (c : Dev nD) : Vec Ideal S250000x128 .f32 := V c (Pipeline.arrRef spec5 0)
abbrev W (c : Dev nD) : Vec Ideal S128x1024 .f32 := V c (Pipeline.arrRef spec5 1)
abbrev Ids (c : Dev nD) : Vec Ideal S250000x1 .i32 := V c (Pipeline.arrRef spec5 2)
abbrev Mean (c : Dev nD) : Vec Ideal S16x1024 .f32 := V c (Pipeline.arrRef spec5 3)
abbrev Inv (c : Dev nD) : Vec Ideal S16x1024 .f32 := V c (Pipeline.arrRef spec5 4)

def oh (c : Dev nD) (i : Fin 250000) (b : Fin 16) : EReal :=
  if Ids V c (ix2 i 0) = BitVec.ofNat 32 b.val then 1 else 0

def L (c : Dev nD) (i : Fin 250000) (j : Fin 1024) : EReal := ∑ k : Fin 128, X V c (ix2 i k) * W V c (ix2 k j)

def Z (c : Dev nD) (i : Fin 250000) (j : Fin 1024) : EReal :=
  max ((L V c i j - ∑ b : Fin 16, oh V c i b * Mean V c (ix2 b j)) * (∑ b : Fin 16, oh V c i b * Inv V c (ix2 b j))) 0

def row (p : Fin 2) (r : Fin 125000) : Fin 250000 := ⟨125000 * p.val + r.val, by have := p.isLt; have := r.isLt; omega⟩

def rowOf (n : ℕ) (hn : n < 250) (r : Fin 1000) : Fin 250000 := ⟨1000 * n + r.val, by have := r.isLt; omega⟩

def share (c : Dev nD) (n : ℕ) (b : Fin 16) (j : Fin 1024) : EReal :=
  if hn : n < 250 then ∑ r : Fin 1000, oh V c (rowOf n hn r) b * Z V c (rowOf n hn r) j else 0

theorem idx : ∀ t : Fin cfg5.N, win5_5.index t 0 = t.val / 125 ∧ win5_5.index t 1 = 0 ∧ win5_5.index t 2 = 0
    ∧ win5_0.index t 0 = t.val ∧ win5_0.index t 1 = 0 ∧ win5_1.index t 0 = 0 ∧ win5_1.index t 1 = 0
    ∧ win5_2.index t 0 = t.val ∧ win5_2.index t 1 = 0 ∧ win5_3.index t 0 = 0 ∧ win5_3.index t 1 = 0
    ∧ win5_4.index t 0 = 0 ∧ win5_4.index t 1 = 0 :=
  (by decide +kernel : ∀ t : Fin grid5.N, _)

theorem stepAt_apply (c : Dev nD) (t : Fin cfg5.N) (acc : Vec Ideal S16x1024 .f32) (b : Fin 16) (j : Fin 1024) :
    Reg5.stepAt V c t acc (ix2 b j) = acc (ix2 b j) + share V c t.val b j := by
  have hn : t.val < 250 := lt_of_lt_of_eq t.isLt N_5
  obtain ⟨-, -, -, a0, a1, b0, b1, c0, c1, d0, d1, e0, e1⟩ := idx t
  have hX : Reg5.rowsAt V c t = fun y => X V c (ix2 (rowOf t.val hn (y 0)) (y 1)) := funext fun y =>
    congrArg (V c _) (Shape.idx_ext₂ (by show win5_0.index t 0 * 1000 + 1 * (y 0).val = 1000 * t.val + (y 0).val; omega)
      (by show win5_0.index t 1 * 128 + 1 * (y 1).val = (y 1).val; omega))
  have hI : Reg5.idsAt V c t = fun y => Ids V c (ix2 (rowOf t.val hn (y 0)) (y 1)) := funext fun y =>
    congrArg (V c _) (Shape.idx_ext₂ (by show win5_2.index t 0 * 1000 + 1 * (y 0).val = 1000 * t.val + (y 0).val; omega)
      (by show win5_2.index t 1 * 1 + 1 * (y 1).val = (y 1).val; omega))
  have hW : Reg5.weightsAt V c t = W V c := funext fun y =>
    congrArg (V c _) (Shape.idx_ext₂ (by show win5_1.index t 0 * 128 + 1 * (y 0).val = (y 0).val; omega)
      (by show win5_1.index t 1 * 1024 + 1 * (y 1).val = (y 1).val; omega))
  have hM : Reg5.meanAt V c t = Mean V c := funext fun y =>
    congrArg (V c _) (Shape.idx_ext₂ (by show win5_3.index t 0 * 16 + 1 * (y 0).val = (y 0).val; omega)
      (by show win5_3.index t 1 * 1024 + 1 * (y 1).val = (y 1).val; omega))
  have hS : Reg5.scaleAt V c t = Inv V c := funext fun y =>
    congrArg (V c _) (Shape.idx_ext₂ (by show win5_4.index t 0 * 16 + 1 * (y 0).val = (y 0).val; omega)
      (by show win5_4.index t 1 * 1024 + 1 * (y 1).val = (y 1).val; omega))
  refine (step_apply _ _ _ _ _ acc b j).trans ?_
  rw [share, dif_pos hn, hX, hI, hW, hM, hS]
  rfl

theorem poolZero_apply (b : Fin 16) (j : Fin 1024) : Reg5.poolZero (F := Ideal) (ix2 b j) = 0 := zero_apply b j

/-- After point `n` the accumulator holds the shares of the blocks from the start of `n`'s run up to `n`. -/
theorem pooled_apply (c : Dev nD) (b : Fin 16) (j : Fin 1024) : ∀ (n : ℕ) (hn : n < cfg5.N),
    Reg5.pooled V c n hn (ix2 b j) = ∑ s ∈ Finset.range (n % 125 + 1), share V c (n - n % 125 + s) b j
  | 0, hn => by
    refine (stepAt_apply V c ⟨0, hn⟩ _ b j).trans ?_
    rw [poolZero_apply, zero_add]
    exact (Finset.sum_range_one fun s => share V c (0 - 0 % 125 + s) b j).symm
  | n + 1, hn => by
    refine (stepAt_apply V c ⟨n + 1, hn⟩ _ b j).trans ?_
    show _ + share V c (n + 1) b j = _
    by_cases h0 : (n + 1) % 125 = 0
    · rw [if_pos h0, poolZero_apply, zero_add, h0, Finset.sum_range_one]; rfl
    · rw [if_neg h0, pooled_apply c b j n (Nat.lt_of_succ_lt hn), show (n + 1) % 125 = n % 125 + 1 by omega,
        show n + 1 - (n % 125 + 1) = n - n % 125 by omega, Finset.sum_range_succ _ (n % 125 + 1),
        show n - n % 125 + (n % 125 + 1) = n + 1 by omega]

/-- The 125 blocks of a run are the 125000 rows of its half. -/
theorem run_sum (c : Dev nD) (p : Fin 2) (b : Fin 16) (j : Fin 1024) :
    ∑ s ∈ Finset.range 125, share V c (125 * p.val + s) b j = ∑ r : Fin 125000, oh V c (row p r) b * Z V c (row p r) j := by
  have hp := p.isLt
  rw [Finset.sum_range]
  refine Eq.trans ?_ (Cert.BlockSum.sum_blocks 125 1000 fun m : Fin 125000 => oh V c (row p m) b * Z V c (row p m) j)
  refine Finset.sum_congr rfl fun s _ => ?_
  have hs := s.isLt
  rw [share, dif_pos (by omega : 125 * p.val + s.val < 250)]
  refine Finset.sum_congr rfl fun r _ => ?_
  rw [show rowOf (125 * p.val + s.val) (by omega) r = row p ⟨1000 * s.val + r.val, Cert.BlockSum.block_lt s r⟩ from
    Fin.ext (by show 1000 * (125 * p.val + s.val) + r.val = 125000 * p.val + (1000 * s.val + r.val); omega)]

theorem poolOut_apply (acc : Vec Ideal S16x1024 .f32) (z : Fin 1) (b : Fin 16) (j : Fin 1024) :
    Reg5.poolOut acc (ix3 z b j) = acc (ix2 b j) :=
  (shapeCast_addUnit_apply ![16, 1024] acc _ (ix3 z b j)).trans (congrArg acc (Shape.idx_ext₂ rfl rfl))

def poolArr (c : Dev nD) : Vec Ideal S2x16x1024 .f32 := fun i => ∑ r : Fin 125000, oh V c (row (i 0) r) (i 1) * Z V c (row (i 0) r) (i 2)

theorem flushed_eq (c : Dev nD) (t : Fin cfg5.N) (hf : (cfg5.win 5).flush t = true) :
    (Reg5.dat V c).flushed 5 t = ((cfg5.win 5).blk t).view.read (Elt Ideal) (poolArr V c) := by
  have h124 : t.val % 125 = 124 := (flush5_5 t).mp hf
  have hN : t.val < 250 := lt_of_lt_of_eq t.isLt N_5
  obtain ⟨f0, f1, f2, -⟩ := idx t
  show (cfg5.win 5).cut (grid5.coords t) ((Reg5.dat V c).after 5 t) = _
  rw [Reg5.after_5]
  funext y
  obtain ⟨z, b, j, rfl⟩ : ∃ (z : Fin 1) (b : Fin 16) (j : Fin 1024), y = ix3 z b j := ⟨y 0, y 1, y 2, eq_ix3 y⟩
  have e : ((cfg5.win 5).blk t).view.emb (ix3 z b j) = ix3 (⟨t.val / 125, by omega⟩ : Fin 2) b j :=
    funext fun a => Fin.ext (match a with
      | ⟨0, _⟩ => by show win5_5.index t 0 * 1 + 1 * z.val = t.val / 125; omega
      | ⟨1, _⟩ => by show win5_5.index t 1 * 16 + 1 * b.val = b.val; omega
      | ⟨2, _⟩ => by show win5_5.index t 2 * 1024 + 1 * j.val = j.val; omega)
  rw [View.read_apply, e]
  refine ((poolOut_apply (Reg5.pooled V c t.val t.isLt) z b j).trans ?_).trans (cast_eq _ _).symm
  rw [pooled_apply V c b j t.val t.isLt, h124, show t.val - 124 = 125 * (t.val / 125) by omega]
  exact run_sum V c ⟨t.val / 125, by omega⟩ b j

theorem covered (c : Dev nD) (i : ((cfg5.win 5).arr.view.loc (c.tc : Thread nD τ)).2.ty.Idx) :
    ∃ t : Fin cfg5.N, (cfg5.win 5).flush t = true ∧ i ∈ ((cfg5.win 5).blk t).view.set := by
  have h0 : (i 0 : Nat) < 2 := (i 0).isLt
  have h1 : (i 1 : Nat) < 16 := (i 1).isLt
  have h2 : (i 2 : Nat) < 1024 := (i 2).isLt
  obtain ⟨t, ht⟩ : ∃ t : Fin cfg5.N, t.val = 125 * (i 0 : Nat) + 124 :=
    ⟨⟨_, lt_of_lt_of_eq (by omega : 125 * (i 0 : Nat) + 124 < 250) N_5.symm⟩, rfl⟩
  obtain ⟨f0, f1, f2, -⟩ := idx t
  refine ⟨t, (flush5_5 t).mpr (by omega), ?_⟩
  show i ∈ ((View.whole main_v46).slice (win5_5.rect t)).set
  rw [View.set_slice_whole, Rect.mem_set_unit]
  intro a
  match a with
  | ⟨0, _⟩ => show win5_5.index t 0 * 1 ≤ (i 0 : Nat) ∧ (i 0 : Nat) < win5_5.index t 0 * 1 + 1; omega
  | ⟨1, _⟩ => show win5_5.index t 1 * 16 ≤ (i 1 : Nat) ∧ (i 1 : Nat) < win5_5.index t 1 * 16 + 16; omega
  | ⟨2, _⟩ => show win5_5.index t 2 * 1024 ≤ (i 2 : Nat) ∧ (i 2 : Nat) < win5_5.index t 2 * 1024 + 1024; omega

theorem pool_apply (c : Dev nD) (p : Fin 2) (b : Fin 16) (j : Fin 1024) :
    (Reg5.dat V c).arrAt 5 cfg5.N (ix3 p b j) = ∑ r : Fin 125000, oh V c (row p r) b * Z V c (row p r) j :=
  congrFun ((Reg5.dat V c).arrAt_eq_of_cover 5 (poolArr V c) (flushed_eq V c) (covered c)) (ix3 p b j)

end Cert.KernelIdeal.Val5

end
-- ==== Proof.KI.HostHead.lean ====
import proofs.«429425_j21053929685331_2_alg».proof.Proof.Gen.KernelIdeal.Launch
import proofs.«429425_j21053929685331_2_alg».proof.Proof.Gen.KernelIdeal.Regions
import proofs.«429425_j21053929685331_2_alg».proof.Proof.Net
import proofs.«429425_j21053929685331_2_alg».proof.Proof.LibPlainDot
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostHead

open Cert.KernelIdeal Cert.KernelIdeal.Gen
open Idealize.ShloMosaic Idealize.ShloMosaic.TcCoe Idealize.SL.Sem Idealize.ShloMosaic.ValueIdx Idealize.ShloMosaic.StableHlo
open scoped BigOperators

variable (V : Valuation τ sig (Elt Ideal))

abbrev Pool : FVec Ideal S2x16x1024 .f32 := V (Proc.devRef .tc main_v46)

abbrev Cnt : FVec Ideal S16x1 .f32 := V (Proc.devRef .tc main_v2)

abbrev W4 : FVec Ideal S1024x512 .f32 := V (Proc.devRef .tc main_arg5)
abbrev W5 : FVec Ideal S512x256 .f32 := V (Proc.devRef .tc main_arg6)
abbrev W6 : FVec Ideal S256x9 .f32 := V (Proc.devRef .tc main_arg7)
abbrev B6 : FVec Ideal S9 .f32 := V (Proc.devRef .tc main_arg8)

abbrev Pooled : FVec Ideal S16x1024 .f32 := V (Proc.devRef .tc main_v49)
abbrev Pre1 : FVec Ideal S16x512 .f32 := V (Proc.devRef .tc main_v58)
abbrev Act1 : FVec Ideal S16x512 .f32 := V (Proc.devRef .tc main_v59)
abbrev Pre2 : FVec Ideal S16x256 .f32 := V (Proc.devRef .tc main_v68)
abbrev Act2 : FVec Ideal S16x256 .f32 := V (Proc.devRef .tc main_v69)
abbrev Out : FVec Ideal S16x9 .f32 := V (Proc.devRef .tc main_v82)

def pooledArr (P : FVec Ideal S2x16x1024 .f32) (n : FVec Ideal S16x1 .f32) : FVec Ideal S16x1024 .f32 :=
  Host.divf (Host.reduceAdd P (constant (F := Ideal) S_ .f32 0x00000000#32) reducesTo_S2x16x1024_S16x1024_d0 h_S_)
    (broadcastInDim S16x1024 ![0, 1] bcast_S16x1_S16x1024_0_1 n)

theorem pooled_term : Pooled (StableHlo.after hostOps6 V) = pooledArr (Pool V) (Cnt V) := by
  unfold pooledArr
  dsimp only [hostOps6, Pooled, Pool, Cnt]; after_results

def eyeArr : FVec Ideal S3x3 .f32 :=
  uitofp (F := Ideal) .f32 (cmpi .eq (addi (iotaInDim S3x3 32 0) (broadcastInDim S3x3 ![] bcast_S_S3x3 (constantI S_ 32 0#32))) (iotaInDim S3x3 32 1))

def preNorm (a : EReal) : EReal := (a - a) * Ideal.rsqrt ((a * a - a * a) + Net.eps)

theorem selfNorm_eq (a : EReal) : Net.selfNorm a = max (preNorm a) 0 := rfl

theorem pooledRow (b : Fin 16) (k : Fin 1024) :
    Pooled (StableHlo.after hostOps6 V) (ix2 b k)
      = Ideal.div (0 + ∑ p : Fin 2, Pool V (ix3 p b k)) (Cnt V (ix2 b 0)) := by
  rw [pooled_term]
  unfold pooledArr
  show Ideal.div (Ideal.hostReduceAdd reducesTo_S2x16x1024_S16x1024_d0 (Pool V) (Ideal.ofBits .f32 0x00000000#32) (ix2 b k))
      (broadcastInDim S16x1024 ![0, 1] bcast_S16x1_S16x1024_0_1 (Cnt V) (ix2 b k)) = _
  rw [Ideal.hostReduceAdd_single reducesTo_S2x16x1024_S16x1024_d0 (by decide) _ _ (ix2 b k), Ideal.ofBits_zero_f32,
    broadcastInDim_apply _ bcast_S16x1_S16x1024_0_1 _ (ix2 b k) (ix2 b 0) (fun a => match a with
      | ⟨0, _⟩ => by show b.val = if (16 : Nat) = 1 then 0 else b.val; rw [if_neg (by decide)]
      | ⟨1, _⟩ => by show 0 = if (1 : Nat) = 1 then 0 else k.val; rw [if_pos rfl])]
  refine congrArg (fun s => Ideal.div (0 + s) _) (Finset.sum_congr rfl fun p _ => congrArg _ (funext fun a => Fin.ext ?_))
  match a with
  | ⟨0, _⟩ => rfl
  | ⟨1, _⟩ => rfl
  | ⟨2, _⟩ => rfl

set_option maxHeartbeats 2000000 in
theorem fc1Row (b : Fin 16) (c : Fin 512) :
    Pre1 (StableHlo.after hostOps6 V) (ix2 b c)
      = preNorm (∑ k : Fin 1024, Pooled (StableHlo.after hostOps6 V) (ix2 b k) * W4 V (ix2 k c)) := by
  rw [pooled_term]
  dsimp only [hostOps6, Pre1]; after_results
  exact congrArg preNorm (Cert.LibPlainDot.dotGeneral_apply
    dot_S16x1024_S1024x512_S16x512_1_0_0_1_n_n rfl rfl rfl rfl rfl rfl none .single (pooledArr (Pool V) (Cnt V)) (W4 V) b c)

theorem relu1Row (b : Fin 16) (c : Fin 512) :
    Act1 (StableHlo.after hostOps6_1 V) (ix2 b c) = max (Pre1 V (ix2 b c)) 0 := by
  dsimp only [hostOps6_1, Act1, Pre1]; after_results; simp only [TRef.ofBuf, TRef.toBuf, cast_eq]
  exact congrArg (max _) Ideal.ofBits_zero_f32

theorem fc2Row (b : Fin 16) (c : Fin 256) :
    Pre2 (StableHlo.after hostOps6_2 V) (ix2 b c) = preNorm (∑ k : Fin 512, Act1 V (ix2 b k) * W5 V (ix2 k c)) := by
  dsimp only [hostOps6_2, Pre2]; after_results
  exact congrArg preNorm (Cert.LibPlainDot.dotGeneral_apply
    dot_S16x512_S512x256_S16x256_1_0_0_1_n_n rfl rfl rfl rfl rfl rfl none .single (Act1 V) (W5 V) b c)

theorem relu2Row (b : Fin 16) (c : Fin 256) :
    Act2 (StableHlo.after hostOps6_3 V) (ix2 b c) = max (Pre2 V (ix2 b c)) 0 := by
  dsimp only [hostOps6_3, Act2, Pre2]; after_results; simp only [TRef.ofBuf, TRef.toBuf, cast_eq]
  exact congrArg (max _) Ideal.ofBits_zero_f32

theorem eye_bit : ∀ r c : Fin 3, IntOp.cmpi .eq (IntOp.addi (BitVec.ofNat 32 r.val) 0#32) (BitVec.ofNat 32 c.val)
    = if r.val = c.val then 1#1 else 0#1 := by decide

theorem eyeArr_apply (r c : Fin 3) : eyeArr (ix2 r c) = if r.val = c.val then 1 else 0 := by
  unfold eyeArr
  show (((IntOp.cmpi .eq (IntOp.addi (BitVec.ofNat 32 r.val) 0#32) (BitVec.ofNat 32 c.val)).toNat : ℝ) : EReal) = _
  rw [eye_bit]
  by_cases h : r.val = c.val
  · rw [if_pos h, if_pos h]; simp
  · rw [if_neg h, if_neg h]; simp

theorem fc3Row (b : Fin 16) (j : Fin 9) :
    Out (StableHlo.after hostOps6_4 V) (ix2 b j)
      = ((∑ k : Fin 256, Act2 V (ix2 b k) * W6 V (ix2 k j)) + B6 V (ix1 j)) + Net.eye9 j := by
  have hrow : ∀ v : FVec Ideal S1x9 .f32, broadcastInDim S16x9 ![0, 1] bcast_S1x9_S16x9_0_1 v (ix2 b j) = v (ix2 0 j) := fun v =>
    broadcastInDim_apply _ bcast_S1x9_S16x9_0_1 v (ix2 b j) (ix2 0 j) (fun a => match a with
      | ⟨0, _⟩ => by show 0 = if (1 : Nat) = 1 then 0 else b.val; rw [if_pos rfl]
      | ⟨1, _⟩ => by show j.val = if (9 : Nat) = 1 then 0 else j.val; rw [if_neg (by decide)])
  dsimp only [hostOps6_4, Out]; after_results
  exact (congrArg₂ (· + ·)
    (congrArg₂ (· + ·)
      (Cert.LibPlainDot.dotGeneral_apply dot_S16x256_S256x9_S16x9_1_0_0_1_n_n rfl rfl rfl rfl rfl rfl none .single (Act2 V) (W6 V) b j)
      ((hrow _).trans (broadcastInDim_apply _ bcast_S9_S1x9_1 (B6 V) (ix2 0 j) (ix1 j) fun a => match a with
        | ⟨0, _⟩ => by show j.val = if (9 : Nat) = 1 then 0 else j.val; rw [if_neg (by decide)])))
    ((hrow _).trans ((shapeCast_apply eyeArr shapeCasts_S3x3_S1x9 (ix2 0 j)
      (ix2 (⟨j.val / 3, by have := j.isLt; omega⟩ : Fin 3) (⟨j.val % 3, Nat.mod_lt _ (by decide)⟩ : Fin 3))
      (by rw [Shape.rowMajor_val_two, Shape.rowMajor_val_two]; show j.val / 3 * 3 + j.val % 3 = 0 * 9 + j.val; omega)).trans
      (eyeArr_apply _ _))))

abbrev afterTail : Valuation τ sig (Elt Ideal) :=
  StableHlo.after hostOps6_4 (StableHlo.after hostOps6_3 (StableHlo.after hostOps6_2 (StableHlo.after hostOps6_1 (StableHlo.after hostOps6 V))))

theorem kept4 (r : Ref sig .tc) (h3 : r ∉ hostOps6_3_W) (h2 : r ∉ hostOps6_2_W) (h1 : r ∉ hostOps6_1_W) (h0 : r ∉ hostOps6_W) :
    StableHlo.after hostOps6_3 (StableHlo.after hostOps6_2 (StableHlo.after hostOps6_1 (StableHlo.after hostOps6 V))) (Proc.devRef .tc r)
      = V (Proc.devRef .tc r) :=
  (StableHlo.after_of_writes_sub hostOps6_3 _ hostOps6_3_writes h3).trans
    ((StableHlo.after_of_writes_sub hostOps6_2 _ hostOps6_2_writes h2).trans
      ((StableHlo.after_of_writes_sub hostOps6_1 _ hostOps6_1_writes h1).trans
        (StableHlo.after_of_writes_sub hostOps6 V hostOps6_writes h0)))

theorem headRow (b : Fin 16) (j : Fin 9) :
    Out (afterTail V) (ix2 b j)
      = Net.head (fun k c => W4 V (ix2 k c)) (fun k c => W5 V (ix2 k c)) (fun k c => W6 V (ix2 k c)) (fun j => B6 V (ix1 j))
          (fun k => Pooled (StableHlo.after hostOps6 V) (ix2 b k)) j := by
  refine (fc3Row _ b j).trans ?_
  unfold Net.head
  rw [show W6 _ = W6 V from kept4 V main_arg7 (by decide) (by decide) (by decide) (by decide),
    show B6 _ = B6 V from kept4 V main_arg8 (by decide) (by decide) (by decide) (by decide)]
  refine congrArg (· + Net.eye9 j) (congrArg (· + B6 V (ix1 j)) (Finset.sum_congr rfl fun k _ => congrArg (· * W6 V (ix2 k j)) ?_))

  refine (relu2Row _ b k).trans ?_
  rw [fc2Row, selfNorm_eq, show W5 _ = W5 V from (StableHlo.after_of_writes_sub hostOps6_1 _ hostOps6_1_writes (by decide)).trans
    (StableHlo.after_of_writes_sub hostOps6 V hostOps6_writes (by decide))]
  refine congrArg (fun s => max (preNorm s) 0) (Finset.sum_congr rfl fun k' _ => congrArg (· * W5 V (ix2 k' k)) ?_)

  refine (relu1Row _ b k').trans ?_
  rw [fc1Row, selfNorm_eq]

end Cert.KernelIdeal.HostHead

end
-- ==== Proof.KI.Chain.Stage3.lean ====
import proofs.«429425_j21053929685331_2_alg».proof.Proof.KI.Chain.Entry
import proofs.«429425_j21053929685331_2_alg».proof.Proof.KI.Chain.Layer
import proofs.«429425_j21053929685331_2_alg».proof.Proof.KI.Val4
import proofs.«429425_j21053929685331_2_alg».proof.Proof.KI.Val5
import proofs.«429425_j21053929685331_2_alg».proof.Proof.KI.HostHead

noncomputable section

namespace Cert.KernelIdeal.Chain

open Cert.KernelIdeal Cert.KernelIdeal.Gen Cert.Net
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)
variable (seg : Fin 250000 → Fin 16)

abbrev lin3 : Fin 250000 → Fin 1024 → EReal := lin (hidden2 seg (x0 m c) (w1 m c) (w2 m c)) (w3 m c)

theorem head_at15
    (hH2 : ∀ (i : Fin 250000) (k : Fin 128),
      (Wat m ρ 7 c (Proc.devRef .tc main_v31) : S250000x128.Idx → EReal) (ix2 i k) = hidden2 seg (x0 m c) (w1 m c) (w2 m c) i k)
    (hseg : ∀ i, idw m c i = BitVec.ofNat 32 (seg i).val)
    (hcnt : ∀ b : Fin 16, (Wat m ρ 3 c (Proc.devRef .tc main_v2) : S16x1.Idx → EReal) (ix2 b (0 : Fin 1)) = cnt seg b)
    (hL3 : ∀ i c', IsReal (lin3 m c seg i c')) (b : Fin 16) (j : Fin 9) :
    (Wat m ρ 15 c (Proc.devRef .tc main_v82) : S16x9.Idx → EReal) (ix2 b j)
      = head (w4 m c) (w5 m c) (w6 m c) (b6 m c) (fun k => pooled3 seg (x0 m c) (w1 m c) (w2 m c) (w3 m c) b k) j := by
  have h4 : ∀ i b, Val4.oh (Fold.V7 m ρ) c i b = hot (idw m c) i b := fun i b =>
    hot_of_word m c _ i b (ids_at m ρ c 7 (by decide) (by decide) i)
  have h5 : ∀ i b, Val5.oh (Fold.V9 m ρ) c i b = hot (idw m c) i b := fun i b =>
    hot_of_word m c _ i b (ids_at m ρ c 9 (by decide) (by decide) i)
  have p4 : ∀ i j, Val4.L (Fold.V7 m ρ) c i j = lin3 m c seg i j := fun i j =>
    Finset.sum_congr rfl fun k _ => congrArg₂ (· * ·) (hH2 i k) (congrFun (at_launch m ρ c main_arg4 7 (by decide)) (ix2 k j))
  have p5 : ∀ i j, Val5.L (Fold.V9 m ρ) c i j = lin3 m c seg i j := fun i j =>
    Finset.sum_congr rfl fun k _ => congrArg₂ (· * ·)
      ((congrFun (kept m ρ c main_v31 7 9 (by decide) (by decide)) (ix2 i k)).trans (hH2 i k))
      (congrFun (at_launch m ρ c main_arg4 9 (by decide)) (ix2 k j))
  obtain ⟨hm, hv⟩ := layer_tables seg (idw m c) hseg half half_val (lin3 m c seg) _ _ _
    (fun p b j => Eq.trans (Eq.trans (congrFun (Fold.W8_arr m ρ c 3) (ix3 p b j)) (Val4.sum_apply (Fold.V7 m ρ) c p b j))
      (Finset.sum_congr rfl fun r _ => congrArg₂ (· * ·) (h4 _ b) (p4 _ j)))
    (fun p b j => Eq.trans (Eq.trans (congrFun (Fold.W8_arr m ρ c 4) (ix3 p b j)) (Val4.sumsq_apply (Fold.V7 m ρ) c p b j))
      (Finset.sum_congr rfl fun r _ => congrArg₂ (· * ·) (h4 _ b) (congrArg₂ (· * ·) (p4 _ j) (p4 _ j))))
    (fun b => (congrFun (kept m ρ c main_v2 3 8 (by decide) (by decide)) (ix2 b (0 : Fin 1))).trans (hcnt b)) _ _
    (fun b j => HostStats.mean3 (Fold.W8 m ρ c) b j) (fun b j => HostStats.inv3 (Fold.W8 m ρ c) b j)
  have hact : ∀ i j, Val5.Z (Fold.V9 m ρ) c i j = hidden3 seg (x0 m c) (w1 m c) (w2 m c) (w3 m c) i j := fun i j => by
    unfold Val5.Z
    simp only [h5 i]
    exact layer_norm seg (idw m c) hseg (lin3 m c seg) hL3 _ p5 _ _ hm hv i j
  refine (HostHead.headRow (Fold.W10 m ρ c) b j).trans ?_
  rw [show HostHead.W4 (Fold.W10 m ρ c) = A5 m c from at_launch m ρ c main_arg5 10 (by decide),
    show HostHead.W5 (Fold.W10 m ρ c) = A6 m c from at_launch m ρ c main_arg6 10 (by decide),
    show HostHead.W6 (Fold.W10 m ρ c) = A7 m c from at_launch m ρ c main_arg7 10 (by decide),
    show HostHead.B6 (Fold.W10 m ρ c) = A8 m c from at_launch m ρ c main_arg8 10 (by decide)]
  exact congrArg (fun g => head (w4 m c) (w5 m c) (w6 m c) (b6 m c) g j) (funext fun k =>
    (HostHead.pooledRow (Fold.W10 m ρ c) b k).trans
      (pool_stage seg (idw m c) hseg half half_val (hidden3 seg (x0 m c) (w1 m c) (w2 m c) (w3 m c)) b k _
        ((congrFun (kept m ρ c main_v2 3 10 (by decide) (by decide)) (ix2 b (0 : Fin 1))).trans (hcnt b)) _
        fun p => Eq.trans (Eq.trans (congrFun (Fold.W10_arr m ρ c 5) (ix3 p b k)) (Val5.pool_apply (Fold.V9 m ρ) c p b k))
          (Finset.sum_congr rfl fun r _ => congrArg₂ (· * ·) (h5 _ b) (hact _ k))))

end Cert.KernelIdeal.Chain

end
-- ==== Proof.KI.Val6.lean ====
import proofs.«429425_j21053929685331_2_alg».proof.Proof.KI.Reg6
import proofs.«429425_j21053929685331_2_alg».proof.Proof.LibPlainDot
import proofs.«429425_j21053929685331_2_alg».proof.Proof.KI.OneHot
import Idealize.ShloMosaic.Lib.Pipeline.Value
import Idealize.ShloMosaic.Lib.ValueIdx
import Idealize.ShloMosaic.PureOps.Ideal.Laws

noncomputable section

namespace Cert.KernelIdeal.Val6

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev Ids (c : Dev nD) : S250000x1.Idx → BitVec 32 := V c (Pipeline.arrRef spec6 0)

abbrev G (c : Dev nD) : S16x9.Idx → EReal := V c (Pipeline.arrRef spec6 1)

def oh (c : Dev nD) (i : Fin 250000) (b : Fin 16) : EReal :=
  if Ids V c (ix2 i 0) = BitVec.ofNat 32 b.val then 1 else 0

def spread (c : Dev nD) : S250000x9.Idx → EReal := fun y => ∑ b : Fin 16, oh V c (y 0) b * G V c (ix2 b (y 1))

theorem hz : (![0, 0] : Fin 2 → Nat) = fun _ => 0 := funext fun a => by fin_cases a <;> rfl

theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row `r` of point `t`'s block of ids is row `1000 t + r` of the column, the table's block is the table. -/
theorem flushed_eq (c : Dev nD) (t : Fin cfg6.N) :
    (Reg6.dat (F := Ideal) V c).flushed 2 t = ((cfg6.win 2).blk t).view.read (Elt Ideal) (spread V c) := by
  obtain ⟨e0, e1, e2, e3, e4, e5⟩ := block_indices t
  show (cfg6.win 2).cut (grid6.coords t) ((Reg6.dat (F := Ideal) V c).after 2 t) = _
  rw [Reg6.after_out, Reg6.broadcastBlock, View.canon_unit_zero hz, View.ld_unit_zero hz, View.ld_unit_zero hz]
  funext y
  obtain ⟨r, q, rfl⟩ : ∃ (r : Fin 1000) (q : Fin 9), y = ix2 r q := ⟨y 0, y 1, eq_ix2 y⟩
  show k6_pay1 (F := Ideal) _ _ (ix2 r q) = spread V c (((cfg6.win 2).blk t).view.emb (ix2 r q))
  unfold k6_pay1
  refine (Cert.LibPlainDot.matmul_zero_apply dot_S1000x16_S16x9_S1000x9_1_0_0_1_n_n rfl rfl rfl rfl rfl rfl none _ _ r q).trans
    (Finset.sum_congr rfl fun b _ => ?_)
  rw [OneHot.onehot_apply, shapeCast_self]
  exact congrArg₂ (fun (u : BitVec 32) (v : EReal) => (if u = BitVec.ofNat 32 b.val then (1 : EReal) else 0) * v)
    (congrArg (V c _) (Shape.idx_ext₂
      (by show win6_0.index t 0 * 1000 + 1 * r.val = win6_2.index t 0 * 1000 + 1 * r.val; omega)
      (by show win6_0.index t 1 * 1 + 1 * 0 = 0; omega)))
    (congrArg (V c _) (Shape.idx_ext₂ (by show win6_1.index t 0 * 16 + 1 * b.val = b.val; omega)
      (by show win6_1.index t 1 * 9 + 1 * q.val = win6_2.index t 1 * 9 + 1 * q.val; omega)))

/-- The 250 blocks of 1000 rows tile the 250000 rows. -/
theorem rows_covered (i : S250000x9.Idx) : ∃ t : Fin cfg6.N, (cfg6.win 2).flush t = true ∧ i ∈ ((cfg6.win 2).blk t).view.set := by
  have hi0 : (i 0).val < 250000 := (i 0).isLt
  have hi1 : (i 1).val < 9 := (i 1).isLt
  obtain ⟨t, ht⟩ : ∃ t : Fin cfg6.N, t.val = (i 0).val / 1000 :=
    ⟨⟨_, lt_of_lt_of_eq (by omega : (i 0).val / 1000 < 250) N_6.symm⟩, rfl⟩
  obtain ⟨-, -, -, -, e4, e5⟩ := block_indices t
  refine ⟨t, flush6_2 t, ?_⟩
  show i ∈ ((View.whole main_v83).slice (win6_2.rect t)).set
  rw [View.set_slice_whole, Rect.mem_set_unit]
  intro a
  match a with
  | ⟨0, _⟩ => show win6_2.index t 0 * 1000 ≤ (i 0).val ∧ (i 0).val < win6_2.index t 0 * 1000 + 1000; omega
  | ⟨1, _⟩ => show win6_2.index t 1 * 9 ≤ (i 1).val ∧ (i 1).val < win6_2.index t 1 * 9 + 9; omega

theorem out_apply (c : Dev nD) (i : Fin 250000) (j : Fin 9) :
    (Reg6.dat (F := Ideal) V c).arrAt 2 cfg6.N (ix2 i j) = ∑ b : Fin 16, oh V c i b * G V c (ix2 b j) :=
  congrFun ((Reg6.dat (F := Ideal) V c).arrAt_eq_of_cover 2 (spread V c) (fun t _ => flushed_eq V c t) rows_covered) (ix2 i j)

end Cert.KernelIdeal.Val6

end
-- ==== Proof.KI.Chain.lean ====
import proofs.«429425_j21053929685331_2_alg».proof.Proof.KI.Chain.Stage1
import proofs.«429425_j21053929685331_2_alg».proof.Proof.KI.Chain.Stage2
import proofs.«429425_j21053929685331_2_alg».proof.Proof.KI.Chain.Stage3
import proofs.«429425_j21053929685331_2_alg».proof.Proof.KI.Val6

noncomputable section

namespace Cert.KernelIdeal.Chain

open Cert.KernelIdeal Cert.KernelIdeal.Gen Cert.Net
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

theorem result
    (h0 : ∀ x, ∃ r : ℝ, A0 m c x = (r : EReal)) (h2 : ∀ x, ∃ r : ℝ, A2 m c x = (r : EReal))
    (h3 : ∀ x, ∃ r : ℝ, A3 m c x = (r : EReal)) (h4 : ∀ x, ∃ r : ℝ, A4 m c x = (r : EReal))
    (h5 : ∀ x, ∃ r : ℝ, A5 m c x = (r : EReal)) (h6 : ∀ x, ∃ r : ℝ, A6 m c x = (r : EReal))
    (h7 : ∀ x, ∃ r : ℝ, A7 m c x = (r : EReal)) (h8 : ∀ x, ∃ r : ℝ, A8 m c x = (r : EReal))
    (seg : Fin 250000 → Fin 16) (hseg : ∀ i : Fin 250000, A1 m c (ix1 i) = BitVec.ofNat 32 (seg i).val)
    (i : Fin 250000) (j : Fin 9) :
    (Fold.W16 m ρ c (Proc.devRef .tc main_v83) : S250000x9.Idx → EReal) (ix2 i j)
      = Net.output seg (fun i k => A0 m c (ix2 i k)) (fun k c' => A2 m c (ix2 k c')) (fun k c' => A3 m c (ix2 k c'))
          (fun k c' => A4 m c (ix2 k c')) (fun k c' => A5 m c (ix2 k c')) (fun k c' => A6 m c (ix2 k c'))
          (fun k c' => A7 m c (ix2 k c')) (fun j => A8 m c (ix1 j)) i j := by
  obtain ⟨r1, -, r3, -, r5, -⟩ := layers_real seg (x0 m c) (w1 m c) (w2 m c) (w3 m c)
    (fun i k => h0 (ix2 i k)) (fun k c' => h2 (ix2 k c')) (fun k c' => h3 (ix2 k c')) (fun k c' => h4 (ix2 k c'))
  have hcnt := cnt_at3 m ρ c seg hseg
  have hH2 := hidden2_at7 m ρ c seg (hidden1_at4 m ρ c seg hseg r1) hseg hcnt r3
  refine (congrFun (Fold.W16_arr m ρ c 2) (ix2 i j)).trans ((Val6.out_apply (Fold.V15 m ρ) c i j).trans ?_)
  have eo : ∀ b : Fin 16, Val6.oh (Fold.V15 m ρ) c i b = hot (idw m c) i b := fun b =>
    hot_of_word m c _ i b (ids_at m ρ c 15 (by decide) (by decide) i)
  simp only [eo]
  exact (pick_stage seg (idw m c) hseg
    (fun b j => (Wat m ρ 15 c (Proc.devRef .tc main_v82) : S16x9.Idx → EReal) (ix2 b j)) i j).trans
    (head_at15 m ρ c seg hH2 hseg hcnt r5 (seg i) j)

end Cert.KernelIdeal.Chain

end
-- ==== Proof.RefRun.SingleAssign.lean ====
import Idealize.ShloMosaic.Lib.StableHlo.Run

noncomputable section

namespace Cert.ReferenceIdeal.RefRun

open Idealize.ShloMosaic Idealize.ShloMosaic.StableHlo

variable {τ : Topo} {sig : RefSig} {Val : EltTy → Type}

abbrev WritesOf (ops : List (HloOp τ sig Val)) (wr : List (Ref sig .tc)) : Prop :=
  List.Forall₂ (fun op r => op.writes = {Proc.devRef (τ := τ) .tc r}) ops wr

variable {ops : List (HloOp τ sig Val)} {wr : List (Ref sig .tc)} (h : WritesOf ops wr)
include h

theorem not_mem_writes_of_not_mem {b : Ref sig .tc} (hb : b ∉ wr) : ∀ op ∈ ops, Proc.devRef (τ := τ) .tc b ∉ op.writes := by
  induction h with
  | nil => intro op hop; cases hop
  | cons hr _ ih =>
    intro op hop
    rcases List.mem_cons.mp hop with rfl | hop
    · rw [hr, Finset.mem_singleton]
      exact fun e => hb (by rw [Proc.devRef_injective _ e]; exact List.mem_cons_self)
    · exact ih (fun hm => hb (List.mem_cons_of_mem _ hm)) op hop

theorem after_of_not_mem (V : Valuation τ sig Val) {b : Ref sig .tc} (hb : b ∉ wr) :
    after ops V (Proc.devRef .tc b) = V (Proc.devRef .tc b) :=
  after_of_forall_not_mem ops V (not_mem_writes_of_not_mem h hb)

variable (n : Nat) (V : Valuation τ sig Val)

theorem after_at {op : HloOp τ sig Val} (hop : ops[n]? = some op) :
    ∃ F : Valuation τ sig Val,
      (∀ b : Ref sig .tc, b ∉ wr.drop n → F (Proc.devRef .tc b) = after ops V (Proc.devRef .tc b)) ∧
      (∀ b : Ref sig .tc, b ∉ wr.drop (n + 1) → after ops V (Proc.devRef .tc b) = op.result F (Proc.devRef .tc b)) := by
  induction n generalizing ops wr V with
  | zero =>
    cases h with
    | nil => simp at hop
    | @cons o r rest rs hr hrest =>
      obtain rfl : o = op := by simpa using hop
      exact ⟨V, fun b hb => (after_of_not_mem (.cons hr hrest) V hb).symm, fun b hb => after_of_not_mem hrest _ hb⟩
  | succ n ih =>
    cases h with
    | nil => simp at hop
    | @cons o r rest rs hr hrest =>
      exact ih hrest (o.result V) (by simpa using hop)

theorem at_nullary {y : Ref sig .tc} {v : y.ty.Contents Val} {hy}
    (hop : ops[n]? = some (nullary y v hy)) (hyn : y ∉ wr.drop (n + 1)) :
    after ops V (Proc.devRef .tc y) = v := by
  obtain ⟨F, -, h2⟩ := after_at h n V hop
  rw [h2 y hyn, nullary_result]

theorem at_unary {x y : Ref sig .tc} {f : x.ty.Contents Val → y.ty.Contents Val} {hx hy}
    (hop : ops[n]? = some (unary x y f hx hy)) (hxn : x ∉ wr.drop n) (hyn : y ∉ wr.drop (n + 1))
    {vx : x.ty.Contents Val} (ex : after ops V (Proc.devRef .tc x) = vx) :
    after ops V (Proc.devRef .tc y) = f vx := by
  obtain ⟨F, h1, h2⟩ := after_at h n V hop
  rw [h2 y hyn, unary_result, h1 x hxn, ex]

theorem at_binary {a b y : Ref sig .tc} {f : a.ty.Contents Val → b.ty.Contents Val → y.ty.Contents Val} {ha hb hy}
    (hop : ops[n]? = some (binary a b y f ha hb hy)) (han : a ∉ wr.drop n) (hbn : b ∉ wr.drop n)
    (hyn : y ∉ wr.drop (n + 1))
    {va : a.ty.Contents Val} (ea : after ops V (Proc.devRef .tc a) = va)
    {vb : b.ty.Contents Val} (eb : after ops V (Proc.devRef .tc b) = vb) :
    after ops V (Proc.devRef .tc y) = f va vb := by
  obtain ⟨F, h1, h2⟩ := after_at h n V hop
  rw [h2 y hyn, binary_result, h1 a han, h1 b hbn, ea, eb]

theorem at_ternary {c a b y : Ref sig .tc}
    {f : c.ty.Contents Val → a.ty.Contents Val → b.ty.Contents Val → y.ty.Contents Val} {hc ha hb hy}
    (hop : ops[n]? = some (ternary c a b y f hc ha hb hy)) (hcn : c ∉ wr.drop n) (han : a ∉ wr.drop n)
    (hbn : b ∉ wr.drop n) (hyn : y ∉ wr.drop (n + 1))
    {vc : c.ty.Contents Val} (ec : after ops V (Proc.devRef .tc c) = vc)
    {va : a.ty.Contents Val} (ea : after ops V (Proc.devRef .tc a) = va)
    {vb : b.ty.Contents Val} (eb : after ops V (Proc.devRef .tc b) = vb) :
    after ops V (Proc.devRef .tc y) = f vc va vb := by
  obtain ⟨F, h1, h2⟩ := after_at h n V hop
  rw [h2 y hyn, ternary_result, h1 c hcn, h1 a han, h1 b hbn, ec, ea, eb]

theorem at_reshape {x y : Ref sig .tc} {he : x.ty.elt = y.ty.elt} {hn : x.ty.shape.ShapeCasts y.ty.shape} {hx hy}
    (hop : ops[n]? = some (reshape x y he hn hx hy)) (hxn : x ∉ wr.drop n) (hyn : y ∉ wr.drop (n + 1))
    {vx : x.ty.Contents Val} (ex : after ops V (Proc.devRef .tc x) = vx) :
    after ops V (Proc.devRef .tc y) = fun i => he ▸ shapeCast y.ty.shape vx hn i := by
  obtain ⟨F, h1, h2⟩ := after_at h n V hop
  rw [h2 y hyn, reshape_result, h1 x hxn, ex]

end Cert.ReferenceIdeal.RefRun

end
-- ==== Proof.RefRun.Steps.lean ====
import proofs.«429425_j21053929685331_2_alg».proof.Proof.RefStages
import proofs.«429425_j21053929685331_2_alg».proof.Proof.RefRun.SingleAssign

noncomputable section

namespace Cert.ReferenceIdeal.RefRun

open Cert.ReferenceIdeal Cert.ReferenceIdeal.Gen Cert.ReferenceIdeal.Value Idealize.ShloMosaic Idealize.ShloMosaic.TcCoe Idealize.ShloMosaic.StableHlo

variable {F : FTy → Type} [FloatOps F] (V : Valuation τ sig (Elt F))

noncomputable def wr : List (Ref sig .tc) :=
  [ main_v0, main_cst, main_v1, main_cst_0, main_v2, main_v3, main_v4, main_cst_1,
    main_v5, main_v6, main_v7, main_v8, main_v9, main_v10, main_cst_2, main_v11,
    main_v12, main_v13, main_v14, main_v15, main_v16, main_v17, main_c, main_v18,
    main_v19, main_c_3, main_v20, main_v21, main_v22, main_v23, main_v24, main_v25,
    main_c_4, main_v26, main_v27, main_c_5, main_v28, main_v29, main_v30, main_v31,
    main_v32, main_cst_6, main_v33, main_v34, main_v35, main_v36, main_call0_cst, main_call0_v0,
    main_v37, main_v38, main_cst_7, main_v39, main_cst_8, main_v40, main_v41, main_v42,
    main_cst_9, main_v43, main_v44, main_v45, main_v46, main_v47, main_v48, main_cst_10,
    main_v49, main_v50, main_v51, main_v52, main_v53, main_v54, main_v55, main_c_11,
    main_v56, main_v57, main_c_12, main_v58, main_v59, main_v60, main_v61, main_v62,
    main_v63, main_c_13, main_v64, main_v65, main_c_14, main_v66, main_v67, main_v68,
    main_v69, main_v70, main_cst_15, main_v71, main_v72, main_v73, main_v74, main_call1_cst,
    main_call1_v0, main_v75, main_v76, main_cst_16, main_v77, main_cst_17, main_v78, main_v79,
    main_v80, main_cst_18, main_v81, main_v82, main_v83, main_v84, main_v85, main_v86,
    main_cst_19, main_v87, main_v88, main_v89, main_v90, main_v91, main_v92, main_v93,
    main_c_20, main_v94, main_v95, main_c_21, main_v96, main_v97, main_v98, main_v99,
    main_v100, main_v101, main_c_22, main_v102, main_v103, main_c_23, main_v104, main_v105,
    main_v106, main_v107, main_v108, main_cst_24, main_v109, main_v110, main_v111, main_v112,
    main_call2_cst, main_call2_v0, main_v113, main_cst_25, main_v114, main_cst_26, main_v115, main_v116,
    main_v117, main_cst_27, main_v118, main_v119, main_v120, main_v121, main_v122, main_v123,
    main_v124, main_v125, main_v126, main_v127, main_cst_28, main_v128, main_v129, main_v130,
    main_v131, main_call3_cst, main_call3_v0, main_v132, main_v133, main_v134, main_v135, main_v136,
    main_v137, main_cst_29, main_v138, main_v139, main_v140, main_v141, main_call4_cst, main_call4_v0,
    main_v142, main_v143, main_v144, main_v145, main_v146, main_v147, main_v148, main_c_30,
    main_v149, main_v150, main_v151, main_v152, main_v153, main_v154, main_v155, main_c_31,
    main_v156, main_v157, main_c_32, main_v158, main_v159, main_v160, main_v161, main_v162 ]

set_option maxRecDepth 8192 in

theorem hwr : WritesOf (ops (F := F)) wr := by
  unfold wr
  repeat (first | exact List.Forall₂.nil | refine List.Forall₂.cons rfl ?_)

theorem at_main_arg0 : after ops V (Proc.devRef .tc main_arg0) = V (Proc.devRef .tc main_arg0) :=
  after_of_not_mem hwr V (by decide)
theorem at_main_arg1 : after ops V (Proc.devRef .tc main_arg1) = V (Proc.devRef .tc main_arg1) :=
  after_of_not_mem hwr V (by decide)
theorem at_main_arg2 : after ops V (Proc.devRef .tc main_arg2) = V (Proc.devRef .tc main_arg2) :=
  after_of_not_mem hwr V (by decide)
theorem at_main_arg3 : after ops V (Proc.devRef .tc main_arg3) = V (Proc.devRef .tc main_arg3) :=
  after_of_not_mem hwr V (by decide)
theorem at_main_arg4 : after ops V (Proc.devRef .tc main_arg4) = V (Proc.devRef .tc main_arg4) :=
  after_of_not_mem hwr V (by decide)
theorem at_main_arg5 : after ops V (Proc.devRef .tc main_arg5) = V (Proc.devRef .tc main_arg5) :=
  after_of_not_mem hwr V (by decide)
theorem at_main_arg6 : after ops V (Proc.devRef .tc main_arg6) = V (Proc.devRef .tc main_arg6) :=
  after_of_not_mem hwr V (by decide)
theorem at_main_arg7 : after ops V (Proc.devRef .tc main_arg7) = V (Proc.devRef .tc main_arg7) :=
  after_of_not_mem hwr V (by decide)
theorem at_main_arg8 : after ops V (Proc.devRef .tc main_arg8) = V (Proc.devRef .tc main_arg8) :=
  after_of_not_mem hwr V (by decide)

theorem at_main_v0 :
    after ops V (Proc.devRef .tc main_v0) = Read.val_main_v0 (F := F) (V (Proc.devRef .tc main_arg0)) (V (Proc.devRef .tc main_arg2)) :=
  (at_binary hwr 0 V rfl (by decide) (by decide) (by decide) (at_main_arg0 V) (at_main_arg2 V) :)
theorem at_main_cst :
    after ops V (Proc.devRef .tc main_cst) = Read.val_main_cst (F := F) :=
  (at_nullary hwr 1 V rfl (by decide) :)
theorem at_main_v1 :
    after ops V (Proc.devRef .tc main_v1) = Read.val_main_v1 (F := F) :=
  (at_unary hwr 2 V rfl (by decide) (by decide) (at_main_cst V) :)
theorem at_main_cst_0 :
    after ops V (Proc.devRef .tc main_cst_0) = Read.val_main_cst_0 (F := F) :=
  (at_nullary hwr 3 V rfl (by decide) :)
theorem at_main_v2 :
    after ops V (Proc.devRef .tc main_v2) = Read.val_main_v2 (F := F) :=
  (at_unary hwr 4 V rfl (by decide) (by decide) (at_main_cst_0 V) :)
theorem at_main_v3 :
    after ops V (Proc.devRef .tc main_v3) = Read.val_main_v3 (F := F) (V (Proc.devRef .tc main_arg1)) :=
  (at_unary hwr 5 V rfl (by decide) (by decide) (at_main_arg1 V) :)
theorem at_main_v4 :
    after ops V (Proc.devRef .tc main_v4) = Read.val_main_v4 (F := F) (V (Proc.devRef .tc main_arg1)) :=
  (at_ternary hwr 6 V rfl (by decide) (by decide) (by decide) (by decide) (at_main_v2 V) (at_main_v3 V) (at_main_v1 V) :)
theorem at_main_cst_1 :
    after ops V (Proc.devRef .tc main_cst_1) = Read.val_main_cst_1 (F := F) :=
  (at_nullary hwr 7 V rfl (by decide) :)
theorem at_main_v5 :
    after ops V (Proc.devRef .tc main_v5) = Read.val_main_v5 (F := F) :=
  (at_unary hwr 8 V rfl (by decide) (by decide) (at_main_cst_1 V) :)
theorem at_main_v6 :
    after ops V (Proc.devRef .tc main_v6) = Read.val_main_v6 (F := F) (V (Proc.devRef .tc main_arg1)) :=
  (at_unary hwr 9 V rfl (by decide) (by decide) (at_main_arg1 V) :)
theorem at_main_v7 :
    after ops V (Proc.devRef .tc main_v7) = Read.val_main_v7 (F := F) (V (Proc.devRef .tc main_arg0)) (V (Proc.devRef .tc main_arg1)) (V (Proc.devRef .tc main_arg2)) :=
  (at_ternary hwr 10 V rfl (by decide) (by decide) (by decide) (by decide) (at_main_v5 V) (at_main_v6 V) (at_main_v0 V) :)
theorem at_main_v8 :
    after ops V (Proc.devRef .tc main_v8) = Read.val_main_v8 (F := F) (V (Proc.devRef .tc main_arg1)) :=
  (at_unary hwr 11 V rfl (by decide) (by decide) (at_main_v4 V) :)
theorem at_main_v9 :
    after ops V (Proc.devRef .tc main_v9) = Read.val_main_v9 (F := F) (V (Proc.devRef .tc main_arg0)) (V (Proc.devRef .tc main_arg1)) (V (Proc.devRef .tc main_arg2)) :=
  (at_binary hwr 12 V rfl (by decide) (by decide) (by decide) (at_main_v7 V) (at_main_v8 V) :)
theorem at_main_v10 :
    after ops V (Proc.devRef .tc main_v10) = Read.val_main_v10 (F := F) (V (Proc.devRef .tc main_arg0)) (V (Proc.devRef .tc main_arg2)) :=
  (at_binary hwr 13 V rfl (by decide) (by decide) (by decide) (at_main_v0 V) (at_main_v0 V) :)
theorem at_main_cst_2 :
    after ops V (Proc.devRef .tc main_cst_2) = Read.val_main_cst_2 (F := F) :=
  (at_nullary hwr 14 V rfl (by decide) :)
theorem at_main_v11 :
    after ops V (Proc.devRef .tc main_v11) = Read.val_main_v11 (F := F) :=
  (at_unary hwr 15 V rfl (by decide) (by decide) (at_main_cst_2 V) :)
theorem at_main_v12 :
    after ops V (Proc.devRef .tc main_v12) = Read.val_main_v12 (F := F) (V (Proc.devRef .tc main_arg1)) :=
  (at_unary hwr 16 V rfl (by decide) (by decide) (at_main_arg1 V) :)
theorem at_main_v13 :
    after ops V (Proc.devRef .tc main_v13) = Read.val_main_v13 (F := F) (V (Proc.devRef .tc main_arg0)) (V (Proc.devRef .tc main_arg1)) (V (Proc.devRef .tc main_arg2)) :=
  (at_ternary hwr 17 V rfl (by decide) (by decide) (by decide) (by decide) (at_main_v11 V) (at_main_v12 V) (at_main_v10 V) :)
theorem at_main_v14 :
    after ops V (Proc.devRef .tc main_v14) = Read.val_main_v14 (F := F) (V (Proc.devRef .tc main_arg1)) :=
  (at_unary hwr 18 V rfl (by decide) (by decide) (at_main_v4 V) :)
theorem at_main_v15 :
    after ops V (Proc.devRef .tc main_v15) = Read.val_main_v15 (F := F) (V (Proc.devRef .tc main_arg0)) (V (Proc.devRef .tc main_arg1)) (V (Proc.devRef .tc main_arg2)) :=
  (at_binary hwr 19 V rfl (by decide) (by decide) (by decide) (at_main_v13 V) (at_main_v14 V) :)
theorem at_main_v16 :
    after ops V (Proc.devRef .tc main_v16) = Read.val_main_v16 (F := F) (V (Proc.devRef .tc main_arg0)) (V (Proc.devRef .tc main_arg1)) (V (Proc.devRef .tc main_arg2)) :=
  (at_binary hwr 20 V rfl (by decide) (by decide) (by decide) (at_main_v9 V) (at_main_v9 V) :)
theorem at_main_v17 :
    after ops V (Proc.devRef .tc main_v17) = Read.val_main_v17 (F := F) (V (Proc.devRef .tc main_arg0)) (V (Proc.devRef .tc main_arg1)) (V (Proc.devRef .tc main_arg2)) :=
  (at_binary hwr 21 V rfl (by decide) (by decide) (by decide) (at_main_v15 V) (at_main_v16 V) :)
theorem at_main_c :
    after ops V (Proc.devRef .tc main_c) = Read.val_main_c (F := F) :=
  (at_nullary hwr 22 V rfl (by decide) :)
theorem at_main_v18 :
    after ops V (Proc.devRef .tc main_v18) = Read.val_main_v18 (F := F) :=
  (at_unary hwr 23 V rfl (by decide) (by decide) (at_main_c V) :)
theorem at_main_v19 :
    after ops V (Proc.devRef .tc main_v19) = Read.val_main_v19 (F := F) (V (Proc.devRef .tc main_arg1)) :=
  (at_binary hwr 24 V rfl (by decide) (by decide) (by decide) (at_main_arg1 V) (at_main_v18 V) :)
theorem at_main_c_3 :
    after ops V (Proc.devRef .tc main_c_3) = Read.val_main_c_3 (F := F) :=
  (at_nullary hwr 25 V rfl (by decide) :)
theorem at_main_v20 :
    after ops V (Proc.devRef .tc main_v20) = Read.val_main_v20 (F := F) :=
  (at_unary hwr 26 V rfl (by decide) (by decide) (at_main_c_3 V) :)
theorem at_main_v21 :
    after ops V (Proc.devRef .tc main_v21) = Read.val_main_v21 (F := F) (V (Proc.devRef .tc main_arg1)) :=
  (at_binary hwr 27 V rfl (by decide) (by decide) (by decide) (at_main_arg1 V) (at_main_v20 V) :)
theorem at_main_v22 :
    after ops V (Proc.devRef .tc main_v22) = Read.val_main_v22 (F := F) (V (Proc.devRef .tc main_arg1)) :=
  (at_ternary hwr 28 V rfl (by decide) (by decide) (by decide) (by decide) (at_main_v19 V) (at_main_v21 V) (at_main_arg1 V) :)
theorem at_main_v23 :
    after ops V (Proc.devRef .tc main_v23) = Read.val_main_v23 (F := F) (V (Proc.devRef .tc main_arg1)) :=
  (at_unary hwr 29 V rfl (by decide) (by decide) (at_main_v22 V) :)
theorem at_main_v24 :
    after ops V (Proc.devRef .tc main_v24) = Read.val_main_v24 (F := F) (V (Proc.devRef .tc main_arg0)) (V (Proc.devRef .tc main_arg1)) (V (Proc.devRef .tc main_arg2)) :=
  (at_binary hwr 30 V rfl (by decide) (by decide) (by decide) (at_main_v9 V) (at_main_v23 V) :)
theorem at_main_v25 :
    after ops V (Proc.devRef .tc main_v25) = Read.val_main_v25 (F := F) (V (Proc.devRef .tc main_arg0)) (V (Proc.devRef .tc main_arg1)) (V (Proc.devRef .tc main_arg2)) :=
  (at_binary hwr 31 V rfl (by decide) (by decide) (by decide) (at_main_v0 V) (at_main_v24 V) :)
theorem at_main_c_4 :
    after ops V (Proc.devRef .tc main_c_4) = Read.val_main_c_4 (F := F) :=
  (at_nullary hwr 32 V rfl (by decide) :)
theorem at_main_v26 :
    after ops V (Proc.devRef .tc main_v26) = Read.val_main_v26 (F := F) :=
  (at_unary hwr 33 V rfl (by decide) (by decide) (at_main_c_4 V) :)
theorem at_main_v27 :
    after ops V (Proc.devRef .tc main_v27) = Read.val_main_v27 (F := F) (V (Proc.devRef .tc main_arg1)) :=
  (at_binary hwr 34 V rfl (by decide) (by decide) (by decide) (at_main_arg1 V) (at_main_v26 V) :)
theorem at_main_c_5 :
    after ops V (Proc.devRef .tc main_c_5) = Read.val_main_c_5 (F := F) :=
  (at_nullary hwr 35 V rfl (by decide) :)
theorem at_main_v28 :
    after ops V (Proc.devRef .tc main_v28) = Read.val_main_v28 (F := F) :=
  (at_unary hwr 36 V rfl (by decide) (by decide) (at_main_c_5 V) :)
theorem at_main_v29 :
    after ops V (Proc.devRef .tc main_v29) = Read.val_main_v29 (F := F) (V (Proc.devRef .tc main_arg1)) :=
  (at_binary hwr 37 V rfl (by decide) (by decide) (by decide) (at_main_arg1 V) (at_main_v28 V) :)
theorem at_main_v30 :
    after ops V (Proc.devRef .tc main_v30) = Read.val_main_v30 (F := F) (V (Proc.devRef .tc main_arg1)) :=
  (at_ternary hwr 38 V rfl (by decide) (by decide) (by decide) (by decide) (at_main_v27 V) (at_main_v29 V) (at_main_arg1 V) :)
theorem at_main_v31 :
    after ops V (Proc.devRef .tc main_v31) = Read.val_main_v31 (F := F) (V (Proc.devRef .tc main_arg1)) :=
  (at_unary hwr 39 V rfl (by decide) (by decide) (at_main_v30 V) :)
theorem at_main_v32 :
    after ops V (Proc.devRef .tc main_v32) = Read.val_main_v32 (F := F) (V (Proc.devRef .tc main_arg0)) (V (Proc.devRef .tc main_arg1)) (V (Proc.devRef .tc main_arg2)) :=
  (at_binary hwr 40 V rfl (by decide) (by decide) (by decide) (at_main_v17 V) (at_main_v31 V) :)
theorem at_main_cst_6 :
    after ops V (Proc.devRef .tc main_cst_6) = Read.val_main_cst_6 (F := F) :=
  (at_nullary hwr 41 V rfl (by decide) :)
theorem at_main_v33 :
    after ops V (Proc.devRef .tc main_v33) = Read.val_main_v33 (F := F) :=
  (at_unary hwr 42 V rfl (by decide) (by decide) (at_main_cst_6 V) :)
theorem at_main_v34 :
    after ops V (Proc.devRef .tc main_v34) = Read.val_main_v34 (F := F) (V (Proc.devRef .tc main_arg0)) (V (Proc.devRef .tc main_arg1)) (V (Proc.devRef .tc main_arg2)) :=
  (at_binary hwr 43 V rfl (by decide) (by decide) (by decide) (at_main_v32 V) (at_main_v33 V) :)
theorem at_main_v35 :
    after ops V (Proc.devRef .tc main_v35) = Read.val_main_v35 (F := F) (V (Proc.devRef .tc main_arg0)) (V (Proc.devRef .tc main_arg1)) (V (Proc.devRef .tc main_arg2)) :=
  (at_unary hwr 44 V rfl (by decide) (by decide) (at_main_v34 V) :)
theorem at_main_v36 :
    after ops V (Proc.devRef .tc main_v36) = Read.val_main_v36 (F := F) (V (Proc.devRef .tc main_arg0)) (V (Proc.devRef .tc main_arg1)) (V (Proc.devRef .tc main_arg2)) :=
  (at_binary hwr 45 V rfl (by decide) (by decide) (by decide) (at_main_v25 V) (at_main_v35 V) :)
theorem at_main_call0_cst :
    after ops V (Proc.devRef .tc main_call0_cst) = Read.val_main_call0_cst (F := F) :=
  (at_nullary hwr 46 V rfl (by decide) :).trans (by simp only [TRef.ofBuf, TRef.toBuf, cast_eq]; rfl)
theorem at_main_call0_v0 :
    after ops V (Proc.devRef .tc main_call0_v0) = Read.val_main_call0_v0 (F := F) :=
  (at_unary hwr 47 V rfl (by decide) (by decide) (at_main_call0_cst V) :).trans (by simp only [TRef.ofBuf, TRef.toBuf, cast_eq]; rfl)
theorem at_main_v37 :
    after ops V (Proc.devRef .tc main_v37) = Read.val_main_v37 (F := F) (V (Proc.devRef .tc main_arg0)) (V (Proc.devRef .tc main_arg1)) (V (Proc.devRef .tc main_arg2)) :=
  (at_binary hwr 48 V rfl (by decide) (by decide) (by decide) (at_main_v36 V) (at_main_call0_v0 V) :).trans (by simp only [TRef.ofBuf, TRef.toBuf, cast_eq]; rfl)
theorem at_main_v38 :
    after ops V (Proc.devRef .tc main_v38) = Read.val_main_v38 (F := F) (V (Proc.devRef .tc main_arg0)) (V (Proc.devRef .tc main_arg1)) (V (Proc.devRef .tc main_arg2)) (V (Proc.devRef .tc main_arg3)) :=
  (at_binary hwr 49 V rfl (by decide) (by decide) (by decide) (at_main_v37 V) (at_main_arg3 V) :)
theorem at_main_cst_7 :
    after ops V (Proc.devRef .tc main_cst_7) = Read.val_main_cst_7 (F := F) :=
  (at_nullary hwr 50 V rfl (by decide) :)
theorem at_main_v39 :
    after ops V (Proc.devRef .tc main_v39) = Read.val_main_v39 (F := F) :=
  (at_unary hwr 51 V rfl (by decide) (by decide) (at_main_cst_7 V) :)
theorem at_main_cst_8 :
    after ops V (Proc.devRef .tc main_cst_8) = Read.val_main_cst_8 (F := F) :=
  (at_nullary hwr 52 V rfl (by decide) :)
theorem at_main_v40 :
    after ops V (Proc.devRef .tc main_v40) = Read.val_main_v40 (F := F) :=
  (at_unary hwr 53 V rfl (by decide) (by decide) (at_main_cst_8 V) :)
theorem at_main_v41 :
    after ops V (Proc.devRef .tc main_v41) = Read.val_main_v41 (F := F) (V (Proc.devRef .tc main_arg1)) :=
  (at_unary hwr 54 V rfl (by decide) (by decide) (at_main_arg1 V) :)
theorem at_main_v42 :
    after ops V (Proc.devRef .tc main_v42) = Read.val_main_v42 (F := F) (V (Proc.devRef .tc main_arg1)) :=
  (at_ternary hwr 55 V rfl (by decide) (by decide) (by decide) (by decide) (at_main_v40 V) (at_main_v41 V) (at_main_v39 V) :)
theorem at_main_cst_9 :
    after ops V (Proc.devRef .tc main_cst_9) = Read.val_main_cst_9 (F := F) :=
  (at_nullary hwr 56 V rfl (by decide) :)
theorem at_main_v43 :
    after ops V (Proc.devRef .tc main_v43) = Read.val_main_v43 (F := F) :=
  (at_unary hwr 57 V rfl (by decide) (by decide) (at_main_cst_9 V) :)
theorem at_main_v44 :
    after ops V (Proc.devRef .tc main_v44) = Read.val_main_v44 (F := F) (V (Proc.devRef .tc main_arg1)) :=
  (at_unary hwr 58 V rfl (by decide) (by decide) (at_main_arg1 V) :)
theorem at_main_v45 :
    after ops V (Proc.devRef .tc main_v45) = Read.val_main_v45 (F := F) (V (Proc.devRef .tc main_arg0)) (V (Proc.devRef .tc main_arg1)) (V (Proc.devRef .tc main_arg2)) (V (Proc.devRef .tc main_arg3)) :=
  (at_ternary hwr 59 V rfl (by decide) (by decide) (by decide) (by decide) (at_main_v43 V) (at_main_v44 V) (at_main_v38 V) :)
theorem at_main_v46 :
    after ops V (Proc.devRef .tc main_v46) = Read.val_main_v46 (F := F) (V (Proc.devRef .tc main_arg1)) :=
  (at_unary hwr 60 V rfl (by decide) (by decide) (at_main_v42 V) :)
theorem at_main_v47 :
    after ops V (Proc.devRef .tc main_v47) = Read.val_main_v47 (F := F) (V (Proc.devRef .tc main_arg0)) (V (Proc.devRef .tc main_arg1)) (V (Proc.devRef .tc main_arg2)) (V (Proc.devRef .tc main_arg3)) :=
  (at_binary hwr 61 V rfl (by decide) (by decide) (by decide) (at_main_v45 V) (at_main_v46 V) :)
theorem at_main_v48 :
    after ops V (Proc.devRef .tc main_v48) = Read.val_main_v48 (F := F) (V (Proc.devRef .tc main_arg0)) (V (Proc.devRef .tc main_arg1)) (V (Proc.devRef .tc main_arg2)) (V (Proc.devRef .tc main_arg3)) :=
  (at_binary hwr 62 V rfl (by decide) (by decide) (by decide) (at_main_v38 V) (at_main_v38 V) :)
theorem at_main_cst_10 :
    after ops V (Proc.devRef .tc main_cst_10) = Read.val_main_cst_10 (F := F) :=
  (at_nullary hwr 63 V rfl (by decide) :)
theorem at_main_v49 :
    after ops V (Proc.devRef .tc main_v49) = Read.val_main_v49 (F := F) :=
  (at_unary hwr 64 V rfl (by decide) (by decide) (at_main_cst_10 V) :)
theorem at_main_v50 :
    after ops V (Proc.devRef .tc main_v50) = Read.val_main_v50 (F := F) (V (Proc.devRef .tc main_arg1)) :=
  (at_unary hwr 65 V rfl (by decide) (by decide) (at_main_arg1 V) :)
theorem at_main_v51 :
    after ops V (Proc.devRef .tc main_v51) = Read.val_main_v51 (F := F) (V (Proc.devRef .tc main_arg0)) (V (Proc.devRef .tc main_arg1)) (V (Proc.devRef .tc main_arg2)) (V (Proc.devRef .tc main_arg3)) :=
  (at_ternary hwr 66 V rfl (by decide) (by decide) (by decide) (by decide) (at_main_v49 V) (at_main_v50 V) (at_main_v48 V) :)
theorem at_main_v52 :
    after ops V (Proc.devRef .tc main_v52) = Read.val_main_v52 (F := F) (V (Proc.devRef .tc main_arg1)) :=
  (at_unary hwr 67 V rfl (by decide) (by decide) (at_main_v42 V) :)
theorem at_main_v53 :
    after ops V (Proc.devRef .tc main_v53) = Read.val_main_v53 (F := F) (V (Proc.devRef .tc main_arg0)) (V (Proc.devRef .tc main_arg1)) (V (Proc.devRef .tc main_arg2)) (V (Proc.devRef .tc main_arg3)) :=
  (at_binary hwr 68 V rfl (by decide) (by decide) (by decide) (at_main_v51 V) (at_main_v52 V) :)
theorem at_main_v54 :
    after ops V (Proc.devRef .tc main_v54) = Read.val_main_v54 (F := F) (V (Proc.devRef .tc main_arg0)) (V (Proc.devRef .tc main_arg1)) (V (Proc.devRef .tc main_arg2)) (V (Proc.devRef .tc main_arg3)) :=
  (at_binary hwr 69 V rfl (by decide) (by decide) (by decide) (at_main_v47 V) (at_main_v47 V) :)
theorem at_main_v55 :
    after ops V (Proc.devRef .tc main_v55) = Read.val_main_v55 (F := F) (V (Proc.devRef .tc main_arg0)) (V (Proc.devRef .tc main_arg1)) (V (Proc.devRef .tc main_arg2)) (V (Proc.devRef .tc main_arg3)) :=
  (at_binary hwr 70 V rfl (by decide) (by decide) (by decide) (at_main_v53 V) (at_main_v54 V) :)
theorem at_main_c_11 :
    after ops V (Proc.devRef .tc main_c_11) = Read.val_main_c_11 (F := F) :=
  (at_nullary hwr 71 V rfl (by decide) :)
theorem at_main_v56 :
    after ops V (Proc.devRef .tc main_v56) = Read.val_main_v56 (F := F) :=
  (at_unary hwr 72 V rfl (by decide) (by decide) (at_main_c_11 V) :)
theorem at_main_v57 :
    after ops V (Proc.devRef .tc main_v57) = Read.val_main_v57 (F := F) (V (Proc.devRef .tc main_arg1)) :=
  (at_binary hwr 73 V rfl (by decide) (by decide) (by decide) (at_main_arg1 V) (at_main_v56 V) :)
theorem at_main_c_12 :
    after ops V (Proc.devRef .tc main_c_12) = Read.val_main_c_12 (F := F) :=
  (at_nullary hwr 74 V rfl (by decide) :)
theorem at_main_v58 :
    after ops V (Proc.devRef .tc main_v58) = Read.val_main_v58 (F := F) :=
  (at_unary hwr 75 V rfl (by decide) (by decide) (at_main_c_12 V) :)
theorem at_main_v59 :
    after ops V (Proc.devRef .tc main_v59) = Read.val_main_v59 (F := F) (V (Proc.devRef .tc main_arg1)) :=
  (at_binary hwr 76 V rfl (by decide) (by decide) (by decide) (at_main_arg1 V) (at_main_v58 V) :)
theorem at_main_v60 :
    after ops V (Proc.devRef .tc main_v60) = Read.val_main_v60 (F := F) (V (Proc.devRef .tc main_arg1)) :=
  (at_ternary hwr 77 V rfl (by decide) (by decide) (by decide) (by decide) (at_main_v57 V) (at_main_v59 V) (at_main_arg1 V) :)
theorem at_main_v61 :
    after ops V (Proc.devRef .tc main_v61) = Read.val_main_v61 (F := F) (V (Proc.devRef .tc main_arg1)) :=
  (at_unary hwr 78 V rfl (by decide) (by decide) (at_main_v60 V) :)
theorem at_main_v62 :
    after ops V (Proc.devRef .tc main_v62) = Read.val_main_v62 (F := F) (V (Proc.devRef .tc main_arg0)) (V (Proc.devRef .tc main_arg1)) (V (Proc.devRef .tc main_arg2)) (V (Proc.devRef .tc main_arg3)) :=
  (at_binary hwr 79 V rfl (by decide) (by decide) (by decide) (at_main_v47 V) (at_main_v61 V) :)
theorem at_main_v63 :
    after ops V (Proc.devRef .tc main_v63) = Read.val_main_v63 (F := F) (V (Proc.devRef .tc main_arg0)) (V (Proc.devRef .tc main_arg1)) (V (Proc.devRef .tc main_arg2)) (V (Proc.devRef .tc main_arg3)) :=
  (at_binary hwr 80 V rfl (by decide) (by decide) (by decide) (at_main_v38 V) (at_main_v62 V) :)
theorem at_main_c_13 :
    after ops V (Proc.devRef .tc main_c_13) = Read.val_main_c_13 (F := F) :=
  (at_nullary hwr 81 V rfl (by decide) :)
theorem at_main_v64 :
    after ops V (Proc.devRef .tc main_v64) = Read.val_main_v64 (F := F) :=
  (at_unary hwr 82 V rfl (by decide) (by decide) (at_main_c_13 V) :)
theorem at_main_v65 :
    after ops V (Proc.devRef .tc main_v65) = Read.val_main_v65 (F := F) (V (Proc.devRef .tc main_arg1)) :=
  (at_binary hwr 83 V rfl (by decide) (by decide) (by decide) (at_main_arg1 V) (at_main_v64 V) :)
theorem at_main_c_14 :
    after ops V (Proc.devRef .tc main_c_14) = Read.val_main_c_14 (F := F) :=
  (at_nullary hwr 84 V rfl (by decide) :)
theorem at_main_v66 :
    after ops V (Proc.devRef .tc main_v66) = Read.val_main_v66 (F := F) :=
  (at_unary hwr 85 V rfl (by decide) (by decide) (at_main_c_14 V) :)
theorem at_main_v67 :
    after ops V (Proc.devRef .tc main_v67) = Read.val_main_v67 (F := F) (V (Proc.devRef .tc main_arg1)) :=
  (at_binary hwr 86 V rfl (by decide) (by decide) (by decide) (at_main_arg1 V) (at_main_v66 V) :)
theorem at_main_v68 :
    after ops V (Proc.devRef .tc main_v68) = Read.val_main_v68 (F := F) (V (Proc.devRef .tc main_arg1)) :=
  (at_ternary hwr 87 V rfl (by decide) (by decide) (by decide) (by decide) (at_main_v65 V) (at_main_v67 V) (at_main_arg1 V) :)
theorem at_main_v69 :
    after ops V (Proc.devRef .tc main_v69) = Read.val_main_v69 (F := F) (V (Proc.devRef .tc main_arg1)) :=
  (at_unary hwr 88 V rfl (by decide) (by decide) (at_main_v68 V) :)
theorem at_main_v70 :
    after ops V (Proc.devRef .tc main_v70) = Read.val_main_v70 (F := F) (V (Proc.devRef .tc main_arg0)) (V (Proc.devRef .tc main_arg1)) (V (Proc.devRef .tc main_arg2)) (V (Proc.devRef .tc main_arg3)) :=
  (at_binary hwr 89 V rfl (by decide) (by decide) (by decide) (at_main_v55 V) (at_main_v69 V) :)
theorem at_main_cst_15 :
    after ops V (Proc.devRef .tc main_cst_15) = Read.val_main_cst_15 (F := F) :=
  (at_nullary hwr 90 V rfl (by decide) :)
theorem at_main_v71 :
    after ops V (Proc.devRef .tc main_v71) = Read.val_main_v71 (F := F) :=
  (at_unary hwr 91 V rfl (by decide) (by decide) (at_main_cst_15 V) :)
theorem at_main_v72 :
    after ops V (Proc.devRef .tc main_v72) = Read.val_main_v72 (F := F) (V (Proc.devRef .tc main_arg0)) (V (Proc.devRef .tc main_arg1)) (V (Proc.devRef .tc main_arg2)) (V (Proc.devRef .tc main_arg3)) :=
  (at_binary hwr 92 V rfl (by decide) (by decide) (by decide) (at_main_v70 V) (at_main_v71 V) :)
theorem at_main_v73 :
    after ops V (Proc.devRef .tc main_v73) = Read.val_main_v73 (F := F) (V (Proc.devRef .tc main_arg0)) (V (Proc.devRef .tc main_arg1)) (V (Proc.devRef .tc main_arg2)) (V (Proc.devRef .tc main_arg3)) :=
  (at_unary hwr 93 V rfl (by decide) (by decide) (at_main_v72 V) :)
theorem at_main_v74 :
    after ops V (Proc.devRef .tc main_v74) = Read.val_main_v74 (F := F) (V (Proc.devRef .tc main_arg0)) (V (Proc.devRef .tc main_arg1)) (V (Proc.devRef .tc main_arg2)) (V (Proc.devRef .tc main_arg3)) :=
  (at_binary hwr 94 V rfl (by decide) (by decide) (by decide) (at_main_v63 V) (at_main_v73 V) :)
theorem at_main_call1_cst :
    after ops V (Proc.devRef .tc main_call1_cst) = Read.val_main_call1_cst (F := F) :=
  (at_nullary hwr 95 V rfl (by decide) :).trans (by simp only [TRef.ofBuf, TRef.toBuf, cast_eq]; rfl)
theorem at_main_call1_v0 :
    after ops V (Proc.devRef .tc main_call1_v0) = Read.val_main_call1_v0 (F := F) :=
  (at_unary hwr 96 V rfl (by decide) (by decide) (at_main_call1_cst V) :).trans (by simp only [TRef.ofBuf, TRef.toBuf, cast_eq]; rfl)
theorem at_main_v75 :
    after ops V (Proc.devRef .tc main_v75) = Read.val_main_v75 (F := F) (V (Proc.devRef .tc main_arg0)) (V (Proc.devRef .tc main_arg1)) (V (Proc.devRef .tc main_arg2)) (V (Proc.devRef .tc main_arg3)) :=
  (at_binary hwr 97 V rfl (by decide) (by decide) (by decide) (at_main_v74 V) (at_main_call1_v0 V) :).trans (by simp only [TRef.ofBuf, TRef.toBuf, cast_eq]; rfl)
theorem at_main_v76 :
    after ops V (Proc.devRef .tc main_v76) = Read.val_main_v76 (F := F) (V (Proc.devRef .tc main_arg0)) (V (Proc.devRef .tc main_arg1)) (V (Proc.devRef .tc main_arg2)) (V (Proc.devRef .tc main_arg3)) (V (Proc.devRef .tc main_arg4)) :=
  (at_binary hwr 98 V rfl (by decide) (by decide) (by decide) (at_main_v75 V) (at_main_arg4 V) :)
theorem at_main_cst_16 :
    after ops V (Proc.devRef .tc main_cst_16) = Read.val_main_cst_16 (F := F) :=
  (at_nullary hwr 99 V rfl (by decide) :)
theorem at_main_v77 :
    after ops V (Proc.devRef .tc main_v77) = Read.val_main_v77 (F := F) :=
  (at_unary hwr 100 V rfl (by decide) (by decide) (at_main_cst_16 V) :)
theorem at_main_cst_17 :
    after ops V (Proc.devRef .tc main_cst_17) = Read.val_main_cst_17 (F := F) :=
  (at_nullary hwr 101 V rfl (by decide) :)
theorem at_main_v78 :
    after ops V (Proc.devRef .tc main_v78) = Read.val_main_v78 (F := F) :=
  (at_unary hwr 102 V rfl (by decide) (by decide) (at_main_cst_17 V) :)
theorem at_main_v79 :
    after ops V (Proc.devRef .tc main_v79) = Read.val_main_v79 (F := F) (V (Proc.devRef .tc main_arg1)) :=
  (at_unary hwr 103 V rfl (by decide) (by decide) (at_main_arg1 V) :)
theorem at_main_v80 :
    after ops V (Proc.devRef .tc main_v80) = Read.val_main_v80 (F := F) (V (Proc.devRef .tc main_arg1)) :=
  (at_ternary hwr 104 V rfl (by decide) (by decide) (by decide) (by decide) (at_main_v78 V) (at_main_v79 V) (at_main_v77 V) :)
theorem at_main_cst_18 :
    after ops V (Proc.devRef .tc main_cst_18) = Read.val_main_cst_18 (F := F) :=
  (at_nullary hwr 105 V rfl (by decide) :)
theorem at_main_v81 :
    after ops V (Proc.devRef .tc main_v81) = Read.val_main_v81 (F := F) :=
  (at_unary hwr 106 V rfl (by decide) (by decide) (at_main_cst_18 V) :)
theorem at_main_v82 :
    after ops V (Proc.devRef .tc main_v82) = Read.val_main_v82 (F := F) (V (Proc.devRef .tc main_arg1)) :=
  (at_unary hwr 107 V rfl (by decide) (by decide) (at_main_arg1 V) :)
theorem at_main_v83 :
    after ops V (Proc.devRef .tc main_v83) = Read.val_main_v83 (F := F) (V (Proc.devRef .tc main_arg0)) (V (Proc.devRef .tc main_arg1)) (V (Proc.devRef .tc main_arg2)) (V (Proc.devRef .tc main_arg3)) (V (Proc.devRef .tc main_arg4)) :=
  (at_ternary hwr 108 V rfl (by decide) (by decide) (by decide) (by decide) (at_main_v81 V) (at_main_v82 V) (at_main_v76 V) :)
theorem at_main_v84 :
    after ops V (Proc.devRef .tc main_v84) = Read.val_main_v84 (F := F) (V (Proc.devRef .tc main_arg1)) :=
  (at_unary hwr 109 V rfl (by decide) (by decide) (at_main_v80 V) :)
theorem at_main_v85 :
    after ops V (Proc.devRef .tc main_v85) = Read.val_main_v85 (F := F) (V (Proc.devRef .tc main_arg0)) (V (Proc.devRef .tc main_arg1)) (V (Proc.devRef .tc main_arg2)) (V (Proc.devRef .tc main_arg3)) (V (Proc.devRef .tc main_arg4)) :=
  (at_binary hwr 110 V rfl (by decide) (by decide) (by decide) (at_main_v83 V) (at_main_v84 V) :)
theorem at_main_v86 :
    after ops V (Proc.devRef .tc main_v86) = Read.val_main_v86 (F := F) (V (Proc.devRef .tc main_arg0)) (V (Proc.devRef .tc main_arg1)) (V (Proc.devRef .tc main_arg2)) (V (Proc.devRef .tc main_arg3)) (V (Proc.devRef .tc main_arg4)) :=
  (at_binary hwr 111 V rfl (by decide) (by decide) (by decide) (at_main_v76 V) (at_main_v76 V) :)
theorem at_main_cst_19 :
    after ops V (Proc.devRef .tc main_cst_19) = Read.val_main_cst_19 (F := F) :=
  (at_nullary hwr 112 V rfl (by decide) :)
theorem at_main_v87 :
    after ops V (Proc.devRef .tc main_v87) = Read.val_main_v87 (F := F) :=
  (at_unary hwr 113 V rfl (by decide) (by decide) (at_main_cst_19 V) :)
theorem at_main_v88 :
    after ops V (Proc.devRef .tc main_v88) = Read.val_main_v88 (F := F) (V (Proc.devRef .tc main_arg1)) :=
  (at_unary hwr 114 V rfl (by decide) (by decide) (at_main_arg1 V) :)
theorem at_main_v89 :
    after ops V (Proc.devRef .tc main_v89) = Read.val_main_v89 (F := F) (V (Proc.devRef .tc main_arg0)) (V (Proc.devRef .tc main_arg1)) (V (Proc.devRef .tc main_arg2)) (V (Proc.devRef .tc main_arg3)) (V (Proc.devRef .tc main_arg4)) :=
  (at_ternary hwr 115 V rfl (by decide) (by decide) (by decide) (by decide) (at_main_v87 V) (at_main_v88 V) (at_main_v86 V) :)
theorem at_main_v90 :
    after ops V (Proc.devRef .tc main_v90) = Read.val_main_v90 (F := F) (V (Proc.devRef .tc main_arg1)) :=
  (at_unary hwr 116 V rfl (by decide) (by decide) (at_main_v80 V) :)
theorem at_main_v91 :
    after ops V (Proc.devRef .tc main_v91) = Read.val_main_v91 (F := F) (V (Proc.devRef .tc main_arg0)) (V (Proc.devRef .tc main_arg1)) (V (Proc.devRef .tc main_arg2)) (V (Proc.devRef .tc main_arg3)) (V (Proc.devRef .tc main_arg4)) :=
  (at_binary hwr 117 V rfl (by decide) (by decide) (by decide) (at_main_v89 V) (at_main_v90 V) :)
theorem at_main_v92 :
    after ops V (Proc.devRef .tc main_v92) = Read.val_main_v92 (F := F) (V (Proc.devRef .tc main_arg0)) (V (Proc.devRef .tc main_arg1)) (V (Proc.devRef .tc main_arg2)) (V (Proc.devRef .tc main_arg3)) (V (Proc.devRef .tc main_arg4)) :=
  (at_binary hwr 118 V rfl (by decide) (by decide) (by decide) (at_main_v85 V) (at_main_v85 V) :)
theorem at_main_v93 :
    after ops V (Proc.devRef .tc main_v93) = Read.val_main_v93 (F := F) (V (Proc.devRef .tc main_arg0)) (V (Proc.devRef .tc main_arg1)) (V (Proc.devRef .tc main_arg2)) (V (Proc.devRef .tc main_arg3)) (V (Proc.devRef .tc main_arg4)) :=
  (at_binary hwr 119 V rfl (by decide) (by decide) (by decide) (at_main_v91 V) (at_main_v92 V) :)
theorem at_main_c_20 :
    after ops V (Proc.devRef .tc main_c_20) = Read.val_main_c_20 (F := F) :=
  (at_nullary hwr 120 V rfl (by decide) :)
theorem at_main_v94 :
    after ops V (Proc.devRef .tc main_v94) = Read.val_main_v94 (F := F) :=
  (at_unary hwr 121 V rfl (by decide) (by decide) (at_main_c_20 V) :)
theorem at_main_v95 :
    after ops V (Proc.devRef .tc main_v95) = Read.val_main_v95 (F := F) (V (Proc.devRef .tc main_arg1)) :=
  (at_binary hwr 122 V rfl (by decide) (by decide) (by decide) (at_main_arg1 V) (at_main_v94 V) :)
theorem at_main_c_21 :
    after ops V (Proc.devRef .tc main_c_21) = Read.val_main_c_21 (F := F) :=
  (at_nullary hwr 123 V rfl (by decide) :)
theorem at_main_v96 :
    after ops V (Proc.devRef .tc main_v96) = Read.val_main_v96 (F := F) :=
  (at_unary hwr 124 V rfl (by decide) (by decide) (at_main_c_21 V) :)
theorem at_main_v97 :
    after ops V (Proc.devRef .tc main_v97) = Read.val_main_v97 (F := F) (V (Proc.devRef .tc main_arg1)) :=
  (at_binary hwr 125 V rfl (by decide) (by decide) (by decide) (at_main_arg1 V) (at_main_v96 V) :)
theorem at_main_v98 :
    after ops V (Proc.devRef .tc main_v98) = Read.val_main_v98 (F := F) (V (Proc.devRef .tc main_arg1)) :=
  (at_ternary hwr 126 V rfl (by decide) (by decide) (by decide) (by decide) (at_main_v95 V) (at_main_v97 V) (at_main_arg1 V) :)
theorem at_main_v99 :
    after ops V (Proc.devRef .tc main_v99) = Read.val_main_v99 (F := F) (V (Proc.devRef .tc main_arg1)) :=
  (at_unary hwr 127 V rfl (by decide) (by decide) (at_main_v98 V) :)
theorem at_main_v100 :
    after ops V (Proc.devRef .tc main_v100) = Read.val_main_v100 (F := F) (V (Proc.devRef .tc main_arg0)) (V (Proc.devRef .tc main_arg1)) (V (Proc.devRef .tc main_arg2)) (V (Proc.devRef .tc main_arg3)) (V (Proc.devRef .tc main_arg4)) :=
  (at_binary hwr 128 V rfl (by decide) (by decide) (by decide) (at_main_v85 V) (at_main_v99 V) :)
theorem at_main_v101 :
    after ops V (Proc.devRef .tc main_v101) = Read.val_main_v101 (F := F) (V (Proc.devRef .tc main_arg0)) (V (Proc.devRef .tc main_arg1)) (V (Proc.devRef .tc main_arg2)) (V (Proc.devRef .tc main_arg3)) (V (Proc.devRef .tc main_arg4)) :=
  (at_binary hwr 129 V rfl (by decide) (by decide) (by decide) (at_main_v76 V) (at_main_v100 V) :)
theorem at_main_c_22 :
    after ops V (Proc.devRef .tc main_c_22) = Read.val_main_c_22 (F := F) :=
  (at_nullary hwr 130 V rfl (by decide) :)
theorem at_main_v102 :
    after ops V (Proc.devRef .tc main_v102) = Read.val_main_v102 (F := F) :=
  (at_unary hwr 131 V rfl (by decide) (by decide) (at_main_c_22 V) :)
theorem at_main_v103 :
    after ops V (Proc.devRef .tc main_v103) = Read.val_main_v103 (F := F) (V (Proc.devRef .tc main_arg1)) :=
  (at_binary hwr 132 V rfl (by decide) (by decide) (by decide) (at_main_arg1 V) (at_main_v102 V) :)
theorem at_main_c_23 :
    after ops V (Proc.devRef .tc main_c_23) = Read.val_main_c_23 (F := F) :=
  (at_nullary hwr 133 V rfl (by decide) :)
theorem at_main_v104 :
    after ops V (Proc.devRef .tc main_v104) = Read.val_main_v104 (F := F) :=
  (at_unary hwr 134 V rfl (by decide) (by decide) (at_main_c_23 V) :)
theorem at_main_v105 :
    after ops V (Proc.devRef .tc main_v105) = Read.val_main_v105 (F := F) (V (Proc.devRef .tc main_arg1)) :=
  (at_binary hwr 135 V rfl (by decide) (by decide) (by decide) (at_main_arg1 V) (at_main_v104 V) :)
theorem at_main_v106 :
    after ops V (Proc.devRef .tc main_v106) = Read.val_main_v106 (F := F) (V (Proc.devRef .tc main_arg1)) :=
  (at_ternary hwr 136 V rfl (by decide) (by decide) (by decide) (by decide) (at_main_v103 V) (at_main_v105 V) (at_main_arg1 V) :)
theorem at_main_v107 :
    after ops V (Proc.devRef .tc main_v107) = Read.val_main_v107 (F := F) (V (Proc.devRef .tc main_arg1)) :=
  (at_unary hwr 137 V rfl (by decide) (by decide) (at_main_v106 V) :)
theorem at_main_v108 :
    after ops V (Proc.devRef .tc main_v108) = Read.val_main_v108 (F := F) (V (Proc.devRef .tc main_arg0)) (V (Proc.devRef .tc main_arg1)) (V (Proc.devRef .tc main_arg2)) (V (Proc.devRef .tc main_arg3)) (V (Proc.devRef .tc main_arg4)) :=
  (at_binary hwr 138 V rfl (by decide) (by decide) (by decide) (at_main_v93 V) (at_main_v107 V) :)
theorem at_main_cst_24 :
    after ops V (Proc.devRef .tc main_cst_24) = Read.val_main_cst_24 (F := F) :=
  (at_nullary hwr 139 V rfl (by decide) :)
theorem at_main_v109 :
    after ops V (Proc.devRef .tc main_v109) = Read.val_main_v109 (F := F) :=
  (at_unary hwr 140 V rfl (by decide) (by decide) (at_main_cst_24 V) :)
theorem at_main_v110 :
    after ops V (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) :=
  (at_binary hwr 141 V rfl (by decide) (by decide) (by decide) (at_main_v108 V) (at_main_v109 V) :)
theorem at_main_v111 :
    after ops V (Proc.devRef .tc main_v111) = Read.val_main_v111 (F := F) (V (Proc.devRef .tc main_arg0)) (V (Proc.devRef .tc main_arg1)) (V (Proc.devRef .tc main_arg2)) (V (Proc.devRef .tc main_arg3)) (V (Proc.devRef .tc main_arg4)) :=
  (at_unary hwr 142 V rfl (by decide) (by decide) (at_main_v110 V) :)
theorem at_main_v112 :
    after ops V (Proc.devRef .tc main_v112) = Read.val_main_v112 (F := F) (V (Proc.devRef .tc main_arg0)) (V (Proc.devRef .tc main_arg1)) (V (Proc.devRef .tc main_arg2)) (V (Proc.devRef .tc main_arg3)) (V (Proc.devRef .tc main_arg4)) :=
  (at_binary hwr 143 V rfl (by decide) (by decide) (by decide) (at_main_v101 V) (at_main_v111 V) :)
theorem at_main_call2_cst :
    after ops V (Proc.devRef .tc main_call2_cst) = Read.val_main_call2_cst (F := F) :=
  (at_nullary hwr 144 V rfl (by decide) :).trans (by simp only [TRef.ofBuf, TRef.toBuf, cast_eq]; rfl)
theorem at_main_call2_v0 :
    after ops V (Proc.devRef .tc main_call2_v0) = Read.val_main_call2_v0 (F := F) :=
  (at_unary hwr 145 V rfl (by decide) (by decide) (at_main_call2_cst V) :).trans (by simp only [TRef.ofBuf, TRef.toBuf, cast_eq]; rfl)
theorem at_main_v113 :
    after ops V (Proc.devRef .tc main_v113) = Read.val_main_v113 (F := F) (V (Proc.devRef .tc main_arg0)) (V (Proc.devRef .tc main_arg1)) (V (Proc.devRef .tc main_arg2)) (V (Proc.devRef .tc main_arg3)) (V (Proc.devRef .tc main_arg4)) :=
  (at_binary hwr 146 V rfl (by decide) (by decide) (by decide) (at_main_v112 V) (at_main_call2_v0 V) :).trans (by simp only [TRef.ofBuf, TRef.toBuf, cast_eq]; rfl)
theorem at_main_cst_25 :
    after ops V (Proc.devRef .tc main_cst_25) = Read.val_main_cst_25 (F := F) :=
  (at_nullary hwr 147 V rfl (by decide) :)
theorem at_main_v114 :
    after ops V (Proc.devRef .tc main_v114) = Read.val_main_v114 (F := F) :=
  (at_unary hwr 148 V rfl (by decide) (by decide) (at_main_cst_25 V) :)
theorem at_main_cst_26 :
    after ops V (Proc.devRef .tc main_cst_26) = Read.val_main_cst_26 (F := F) :=
  (at_nullary hwr 149 V rfl (by decide) :)
theorem at_main_v115 :
    after ops V (Proc.devRef .tc main_v115) = Read.val_main_v115 (F := F) :=
  (at_unary hwr 150 V rfl (by decide) (by decide) (at_main_cst_26 V) :)
theorem at_main_v116 :
    after ops V (Proc.devRef .tc main_v116) = Read.val_main_v116 (F := F) (V (Proc.devRef .tc main_arg1)) :=
  (at_unary hwr 151 V rfl (by decide) (by decide) (at_main_arg1 V) :)
theorem at_main_v117 :
    after ops V (Proc.devRef .tc main_v117) = Read.val_main_v117 (F := F) (V (Proc.devRef .tc main_arg1)) :=
  (at_ternary hwr 152 V rfl (by decide) (by decide) (by decide) (by decide) (at_main_v115 V) (at_main_v116 V) (at_main_v114 V) :)
theorem at_main_cst_27 :
    after ops V (Proc.devRef .tc main_cst_27) = Read.val_main_cst_27 (F := F) :=
  (at_nullary hwr 153 V rfl (by decide) :)
theorem at_main_v118 :
    after ops V (Proc.devRef .tc main_v118) = Read.val_main_v118 (F := F) :=
  (at_unary hwr 154 V rfl (by decide) (by decide) (at_main_cst_27 V) :)
theorem at_main_v119 :
    after ops V (Proc.devRef .tc main_v119) = Read.val_main_v119 (F := F) (V (Proc.devRef .tc main_arg1)) :=
  (at_unary hwr 155 V rfl (by decide) (by decide) (at_main_arg1 V) :)
theorem at_main_v120 :
    after ops V (Proc.devRef .tc main_v120) = Read.val_main_v120 (F := F) (V (Proc.devRef .tc main_arg0)) (V (Proc.devRef .tc main_arg1)) (V (Proc.devRef .tc main_arg2)) (V (Proc.devRef .tc main_arg3)) (V (Proc.devRef .tc main_arg4)) :=
  (at_ternary hwr 156 V rfl (by decide) (by decide) (by decide) (by decide) (at_main_v118 V) (at_main_v119 V) (at_main_v113 V) :)
theorem at_main_v121 :
    after ops V (Proc.devRef .tc main_v121) = Read.val_main_v121 (F := F) (V (Proc.devRef .tc main_arg1)) :=
  (at_unary hwr 157 V rfl (by decide) (by decide) (at_main_v117 V) :)
theorem at_main_v122 :
    after ops V (Proc.devRef .tc main_v122) = Read.val_main_v122 (F := F) (V (Proc.devRef .tc main_arg0)) (V (Proc.devRef .tc main_arg1)) (V (Proc.devRef .tc main_arg2)) (V (Proc.devRef .tc main_arg3)) (V (Proc.devRef .tc main_arg4)) :=
  (at_binary hwr 158 V rfl (by decide) (by decide) (by decide) (at_main_v120 V) (at_main_v121 V) :)
theorem at_main_v123 :
    after ops V (Proc.devRef .tc main_v123) = Read.val_main_v123 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 159 V rfl (by decide) (by decide) (by decide) (at_main_v122 V) (at_main_arg5 V) :)
theorem at_main_v124 :
    after ops V (Proc.devRef .tc main_v124) = Read.val_main_v124 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 160 V rfl (by decide) (by decide) (by decide) (at_main_v123 V) (at_main_v123 V) :)
theorem at_main_v125 :
    after ops V (Proc.devRef .tc main_v125) = Read.val_main_v125 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 161 V rfl (by decide) (by decide) (by decide) (at_main_v123 V) (at_main_v123 V) :)
theorem at_main_v126 :
    after ops V (Proc.devRef .tc main_v126) = Read.val_main_v126 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 162 V rfl (by decide) (by decide) (by decide) (at_main_v124 V) (at_main_v125 V) :)
theorem at_main_v127 :
    after ops V (Proc.devRef .tc main_v127) = Read.val_main_v127 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 163 V rfl (by decide) (by decide) (by decide) (at_main_v123 V) (at_main_v123 V) :)
theorem at_main_cst_28 :
    after ops V (Proc.devRef .tc main_cst_28) = Read.val_main_cst_28 (F := F) :=
  (at_nullary hwr 164 V rfl (by decide) :)
theorem at_main_v128 :
    after ops V (Proc.devRef .tc main_v128) = Read.val_main_v128 (F := F) :=
  (at_unary hwr 165 V rfl (by decide) (by decide) (at_main_cst_28 V) :)
theorem at_main_v129 :
    after ops V (Proc.devRef .tc main_v129) = Read.val_main_v129 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 166 V rfl (by decide) (by decide) (by decide) (at_main_v126 V) (at_main_v128 V) :)
theorem at_main_v130 :
    after ops V (Proc.devRef .tc main_v130) = Read.val_main_v130 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_unary hwr 167 V rfl (by decide) (by decide) (at_main_v129 V) :)
theorem at_main_v131 :
    after ops V (Proc.devRef .tc main_v131) = Read.val_main_v131 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 168 V rfl (by decide) (by decide) (by decide) (at_main_v127 V) (at_main_v130 V) :)
theorem at_main_call3_cst :
    after ops V (Proc.devRef .tc main_call3_cst) = Read.val_main_call3_cst (F := F) :=
  (at_nullary hwr 169 V rfl (by decide) :).trans (by simp only [TRef.ofBuf, TRef.toBuf, cast_eq]; rfl)
theorem at_main_call3_v0 :
    after ops V (Proc.devRef .tc main_call3_v0) = Read.val_main_call3_v0 (F := F) :=
  (at_unary hwr 170 V rfl (by decide) (by decide) (at_main_call3_cst V) :).trans (by simp only [TRef.ofBuf, TRef.toBuf, cast_eq]; rfl)
theorem at_main_v132 :
    after ops V (Proc.devRef .tc main_v132) = Read.val_main_v132 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (at_binary hwr 171 V rfl (by decide) (by decide) (by decide) (at_main_v131 V) (at_main_call3_v0 V) :).trans (by simp only [TRef.ofBuf, TRef.toBuf, cast_eq]; rfl)
theorem at_main_v133 :
    after ops V (Proc.devRef .tc main_v133) = Read.val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 172 V rfl (by decide) (by decide) (by decide) (at_main_v132 V) (at_main_arg6 V) :)
theorem at_main_v134 :
    after ops V (Proc.devRef .tc main_v134) = Read.val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 173 V rfl (by decide) (by decide) (by decide) (at_main_v133 V) (at_main_v133 V) :)
theorem at_main_v135 :
    after ops V (Proc.devRef .tc main_v135) = Read.val_main_v135 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 174 V rfl (by decide) (by decide) (by decide) (at_main_v133 V) (at_main_v133 V) :)
theorem at_main_v136 :
    after ops V (Proc.devRef .tc main_v136) = Read.val_main_v136 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 175 V rfl (by decide) (by decide) (by decide) (at_main_v134 V) (at_main_v135 V) :)
theorem at_main_v137 :
    after ops V (Proc.devRef .tc main_v137) = Read.val_main_v137 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 176 V rfl (by decide) (by decide) (by decide) (at_main_v133 V) (at_main_v133 V) :)
theorem at_main_cst_29 :
    after ops V (Proc.devRef .tc main_cst_29) = Read.val_main_cst_29 (F := F) :=
  (at_nullary hwr 177 V rfl (by decide) :)
theorem at_main_v138 :
    after ops V (Proc.devRef .tc main_v138) = Read.val_main_v138 (F := F) :=
  (at_unary hwr 178 V rfl (by decide) (by decide) (at_main_cst_29 V) :)
theorem at_main_v139 :
    after ops V (Proc.devRef .tc main_v139) = Read.val_main_v139 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 179 V rfl (by decide) (by decide) (by decide) (at_main_v136 V) (at_main_v138 V) :)
theorem at_main_v140 :
    after ops V (Proc.devRef .tc main_v140) = Read.val_main_v140 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_unary hwr 180 V rfl (by decide) (by decide) (at_main_v139 V) :)
theorem at_main_v141 :
    after ops V (Proc.devRef .tc main_v141) = Read.val_main_v141 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 181 V rfl (by decide) (by decide) (by decide) (at_main_v137 V) (at_main_v140 V) :)
theorem at_main_call4_cst :
    after ops V (Proc.devRef .tc main_call4_cst) = Read.val_main_call4_cst (F := F) :=
  (at_nullary hwr 182 V rfl (by decide) :).trans (by simp only [TRef.ofBuf, TRef.toBuf, cast_eq]; rfl)
theorem at_main_call4_v0 :
    after ops V (Proc.devRef .tc main_call4_v0) = Read.val_main_call4_v0 (F := F) :=
  (at_unary hwr 183 V rfl (by decide) (by decide) (at_main_call4_cst V) :).trans (by simp only [TRef.ofBuf, TRef.toBuf, cast_eq]; rfl)
theorem at_main_v142 :
    after ops V (Proc.devRef .tc main_v142) = Read.val_main_v142 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (at_binary hwr 184 V rfl (by decide) (by decide) (by decide) (at_main_v141 V) (at_main_call4_v0 V) :).trans (by simp only [TRef.ofBuf, TRef.toBuf, cast_eq]; rfl)
theorem at_main_v143 :
    after ops V (Proc.devRef .tc main_v143) = Read.val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (at_binary hwr 185 V rfl (by decide) (by decide) (by decide) (at_main_v142 V) (at_main_arg7 V) :)
theorem at_main_v144 :
    after ops V (Proc.devRef .tc main_v144) = Read.val_main_v144 (F := F) (V (Proc.devRef .tc main_arg8)) :=
  (at_unary hwr 186 V rfl (by decide) (by decide) (at_main_arg8 V) :)
theorem at_main_v145 :
    after ops V (Proc.devRef .tc main_v145) = Read.val_main_v145 (F := F) (V (Proc.devRef .tc main_arg8)) :=
  (at_unary hwr 187 V rfl (by decide) (by decide) (at_main_v144 V) :)
theorem at_main_v146 :
    after ops V (Proc.devRef .tc main_v146) = Read.val_main_v146 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (at_binary hwr 188 V rfl (by decide) (by decide) (by decide) (at_main_v143 V) (at_main_v145 V) :)
theorem at_main_v147 :
    after ops V (Proc.devRef .tc main_v147) = Read.val_main_v147 (F := F) :=
  (at_nullary hwr 189 V rfl (by decide) :)
theorem at_main_v148 :
    after ops V (Proc.devRef .tc main_v148) = Read.val_main_v148 (F := F) :=
  (at_nullary hwr 190 V rfl (by decide) :)
theorem at_main_c_30 :
    after ops V (Proc.devRef .tc main_c_30) = Read.val_main_c_30 (F := F) :=
  (at_nullary hwr 191 V rfl (by decide) :)
theorem at_main_v149 :
    after ops V (Proc.devRef .tc main_v149) = Read.val_main_v149 (F := F) :=
  (at_unary hwr 192 V rfl (by decide) (by decide) (at_main_c_30 V) :)
theorem at_main_v150 :
    after ops V (Proc.devRef .tc main_v150) = Read.val_main_v150 (F := F) :=
  (at_binary hwr 193 V rfl (by decide) (by decide) (by decide) (at_main_v147 V) (at_main_v149 V) :)
theorem at_main_v151 :
    after ops V (Proc.devRef .tc main_v151) = Read.val_main_v151 (F := F) :=
  (at_binary hwr 194 V rfl (by decide) (by decide) (by decide) (at_main_v150 V) (at_main_v148 V) :)
theorem at_main_v152 :
    after ops V (Proc.devRef .tc main_v152) = Read.val_main_v152 (F := F) :=
  (at_unary hwr 195 V rfl (by decide) (by decide) (at_main_v151 V) :)
theorem at_main_v153 :
    after ops V (Proc.devRef .tc main_v153) = Read.val_main_v153 (F := F) :=
  (at_reshape hwr 196 V rfl (by decide) (by decide) (at_main_v152 V) :)
theorem at_main_v154 :
    after ops V (Proc.devRef .tc main_v154) = Read.val_main_v154 (F := F) :=
  (at_unary hwr 197 V rfl (by decide) (by decide) (at_main_v153 V) :)
theorem at_main_v155 :
    after ops V (Proc.devRef .tc main_v155) = Read.val_main_v155 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (at_binary hwr 198 V rfl (by decide) (by decide) (by decide) (at_main_v146 V) (at_main_v154 V) :)
theorem at_main_c_31 :
    after ops V (Proc.devRef .tc main_c_31) = Read.val_main_c_31 (F := F) :=
  (at_nullary hwr 199 V rfl (by decide) :)
theorem at_main_v156 :
    after ops V (Proc.devRef .tc main_v156) = Read.val_main_v156 (F := F) :=
  (at_unary hwr 200 V rfl (by decide) (by decide) (at_main_c_31 V) :)
theorem at_main_v157 :
    after ops V (Proc.devRef .tc main_v157) = Read.val_main_v157 (F := F) (V (Proc.devRef .tc main_arg1)) :=
  (at_binary hwr 201 V rfl (by decide) (by decide) (by decide) (at_main_arg1 V) (at_main_v156 V) :)
theorem at_main_c_32 :
    after ops V (Proc.devRef .tc main_c_32) = Read.val_main_c_32 (F := F) :=
  (at_nullary hwr 202 V rfl (by decide) :)
theorem at_main_v158 :
    after ops V (Proc.devRef .tc main_v158) = Read.val_main_v158 (F := F) :=
  (at_unary hwr 203 V rfl (by decide) (by decide) (at_main_c_32 V) :)
theorem at_main_v159 :
    after ops V (Proc.devRef .tc main_v159) = Read.val_main_v159 (F := F) (V (Proc.devRef .tc main_arg1)) :=
  (at_binary hwr 204 V rfl (by decide) (by decide) (by decide) (at_main_arg1 V) (at_main_v158 V) :)
theorem at_main_v160 :
    after ops V (Proc.devRef .tc main_v160) = Read.val_main_v160 (F := F) (V (Proc.devRef .tc main_arg1)) :=
  (at_ternary hwr 205 V rfl (by decide) (by decide) (by decide) (by decide) (at_main_v157 V) (at_main_v159 V) (at_main_arg1 V) :)
theorem at_main_v161 :
    after ops V (Proc.devRef .tc main_v161) = Read.val_main_v161 (F := F) (V (Proc.devRef .tc main_arg1)) :=
  (at_unary hwr 206 V rfl (by decide) (by decide) (at_main_v160 V) :)
theorem at_main_v162 :
    after ops V (Proc.devRef .tc main_v162) = Read.val_main_v162 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (at_binary hwr 207 V rfl (by decide) (by decide) (by decide) (at_main_v155 V) (at_main_v161 V) :)

end Cert.ReferenceIdeal.RefRun

end
-- ==== Proof.RefRun.lean ====
import proofs.«429425_j21053929685331_2_alg».proof.Proof.RefRun.Steps

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

theorem ops_fresh : ∀ op ∈ (ops (F := F)), op.fresh = ∅ := by
  repeat refine List.forall_mem_cons.2 ⟨rfl, ?_⟩
  exact fun _ h => (List.not_mem_nil h).elim

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162) = Read.val_main_v162 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      let V := launchContents m c
      ⟨(h c main_v162).trans (at_main_v162 V),
       (h c main_arg0).trans (at_main_arg0 V),
       (h c main_arg1).trans (at_main_arg1 V),
       (h c main_arg2).trans (at_main_arg2 V),
       (h c main_arg3).trans (at_main_arg3 V),
       (h c main_arg4).trans (at_main_arg4 V),
       (h c main_arg5).trans (at_main_arg5 V),
       (h c main_arg6).trans (at_main_arg6 V),
       (h c main_arg7).trans (at_main_arg7 V),
       (h c main_arg8).trans (at_main_arg8 V)⟩)
    (run_seq scopedRefs_eq scopedSems_eq defs main (fun _ => ops) main_eq (fun _ => ops_sub) m ρ
      (fun _ => ops_fresh))

end Cert.ReferenceIdeal.RefRun

end
-- ==== Proof.LibScatterGather2.lean ====
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

theorem toNat_ofNat_fin {N w : Nat} (hN : 2 * N ≤ 2 ^ w) (s : Fin N) : (BitVec.ofNat w s.val).toNat = s.val := by
  rw [BitVec.toNat_ofNat]
  exact Nat.mod_eq_of_lt (by have := s.isLt; omega)

theorem not_neg : ∀ s : Fin 16, IntOp.cmpi .slt (BitVec.ofNat 32 s.val) 0#32 = 0#1 := by
  decide

section Scatter

variable {N C M w : Nat} {φ : FTy} (d : ScatterDims ⟨2, ![N, C]⟩ ⟨2, ![M, 1]⟩ ⟨2, ![M, C]⟩)
  (huw : d.updateWindowDims = [1]) (hiw : d.insertedWindowDims = [0]) (hsd : d.scatterDimsToOperandDims = [0])
  (hivd : d.indexVectorDim = 1)
include huw hiw hsd hivd

theorem resultIdx?_iff (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ : d.start jj idx 0 = (idx (ix2 (n0 := M) (n1 := 1) (jj 0) 0)).toInt ∧ d.start jj idx 1 = 0
      ∧ d.window jj 0 = 0 ∧ d.window jj 1 = (jj 1).val := by
    cases d with
    | mk uw iw sd iv wf =>
      obtain rfl : uw = [1] := huw
      obtain rfl : iw = [0] := hiw
      obtain rfl : sd = [0] := hsd
      obtain rfl : iv = 1 := hivd
      refine ⟨?_, ?_, ?_, ?_⟩
      · unfold ScatterDims.start
        rw [dif_pos (List.mem_singleton.mpr rfl)]
        refine congrArg (fun k => (idx k).toInt) ?_
        funext b
        match b with
        | ⟨0, _⟩ => exact Fin.ext rfl
        | ⟨1, _⟩ => exact Fin.ext rfl
      · unfold ScatterDims.start
        rw [dif_neg (by decide : (1 : Fin 2) ∉ [0])]
      · unfold ScatterDims.window
        exact dif_neg (by decide : (0 : Fin 2) ∉ (List.finRange 2).filter (· ∉ [0]))
      · unfold ScatterDims.window
        exact (dif_pos (by decide : (1 : Fin 2) ∈ (List.finRange 2).filter (· ∉ [0]))).trans rfl
  have hi0 : (i 0).val < N := (i 0).isLt
  have hi1 : (i 1).val < C := (i 1).isLt
  have hj1 : (jj 1).val < C := (jj 1).isLt
  unfold ScatterDims.resultIdx?
  have e : ![N, C] 0 = N ∧ ![N, C] 1 = C := ⟨rfl, rfl⟩
  rw [Option.dite_none_right_eq_some]
  simp only [Option.some.injEq, funext_iff, Fin.forall_fin_two, Fin.ext_iff, hs0, hs1, hw0, hw1, exists_prop]
  omega

theorem scatterAdd_apply (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    exact congrArg (ix2 (jj 0)) (Fin.ext h'.symm)

/-- Scattering into zeros along words that name each row's class: entry (u, j) is column j summed over class u. -/
theorem scatter_seg (z : FVec Ideal ⟨2, ![N, C]⟩ φ) (hz : ∀ i, z i = 0) (idx : IVec ⟨2, ![M, 1]⟩ w) (seg : Fin M → Fin N)
    (hidx : ∀ e, idx (ix2 e (0 : Fin 1)) = BitVec.ofNat w (seg e).val) (hN : 2 * N ≤ 2 ^ w)
    (upd : FVec Ideal ⟨2, ![M, C]⟩ φ) (u : Fin N) (j : Fin C) :
    Host.scatterAdd (F := Ideal) d z idx upd (ix2 u j) = ∑ e ∈ Finset.univ.filter (fun e => seg e = u), upd (ix2 e j) := by
  rw [scatterAdd_apply d huw hiw hsd hivd z idx upd u j, hz, zero_add]
  refine Finset.sum_congr (Finset.filter_congr fun e _ => ?_) fun _ _ => rfl
  have h := toNat_ofNat_fin hN (seg e)
  have := (seg e).isLt
  rw [hidx e, BitVec.toInt_eq_toNat_of_lt (by omega), h, Nat.cast_inj, Fin.val_inj]

end Scatter

section Gather

variable {α : Type} {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1)
include hoff hcoll hob hsim hivd

theorem gather_apply (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = (idx (ix2 e (0 : Fin 1))).toNat
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine (congrArg (fun k => min (idx k).toInt.toNat (N - 1)) (funext fun b => ?_ : _ = ix2 e (0 : Fin 1))).trans ?_
      · match b with
        | ⟨0, _⟩ => exact Fin.ext rfl
        | ⟨1, _⟩ => exact Fin.ext rfl
      · rw [BitVec.toInt_eq_toNat_of_lt (by omega), Int.toNat_natCast]
        omega
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      exact (dif_pos (by decide : (1 : Fin 2) ∈ (List.finRange 2).filter (· ∉ [0] ++ []))).trans rfl

/-- Gathering along words that name each row's class reads the class's row. -/
theorem gather_seg (T : (⟨2, ![N, C]⟩ : Shape).Idx → α) (idx : IVec ⟨2, ![M, 1]⟩ w) (seg : Fin M → Fin N)
    (hidx : ∀ e, idx (ix2 e (0 : Fin 1)) = BitVec.ofNat w (seg e).val) (hN : 2 * N ≤ 2 ^ w) (e : Fin M) (j : Fin C) :
    Host.gather d T idx (ix2 e j) = T (ix2 (seg e) j) := by
  have h : (idx (ix2 e (0 : Fin 1))).toNat = (seg e).val := by rw [hidx e]; exact toNat_ofNat_fin hN (seg e)
  rw [gather_apply d hoff hcoll hob hsim hivd T idx e j hN (by rw [h]; exact (seg e).isLt)]
  exact congrArg (fun r => T (ix2 r j)) (Fin.ext h)

end Gather

end Cert.LibScatterGather2

end
-- ==== Proof.Ref.Layer1.lean ====
import proofs.«429425_j21053929685331_2_alg».proof.Proof.RefStages
import proofs.«429425_j21053929685331_2_alg».proof.Proof.Net
import proofs.«429425_j21053929685331_2_alg».proof.Proof.LibScatterGather2
import Idealize.ShloMosaic.Lib.IdealHost
import Idealize.ShloMosaic.Lib.ValueIdx
import Idealize.ShloMosaic.PureOps.Ideal.Laws

namespace Cert.ReferenceIdeal.Layer1

open Cert.ReferenceIdeal Cert.ReferenceIdeal.Read Cert.LibScatterGather2 Idealize.ShloMosaic Idealize.ShloMosaic.ValueIdx

variable (x0 : (⟨S250000x3, .f32⟩ : BufTy).Contents (Elt Ideal)) (x1 : (⟨S250000, .i32⟩ : BufTy).Contents (Elt Ideal))
  (x2 : (⟨S3x64, .f32⟩ : BufTy).Contents (Elt Ideal)) (seg : Fin 250000 → Fin 16)
  (hseg : ∀ i : Fin 250000, x1 (ix1 i) = BitVec.ofNat 32 (seg i).val)

theorem product_apply (i : Fin 250000) (c : Fin 64) :
    val_main_v0 x0 x2 (ix2 i c)
      = Net.lin (fun i k => x0 (ix2 i k)) (fun k c => x2 (ix2 k c)) i c :=
  (val_main_v0_apply x0 x2 _).trans
    (Finset.sum_congr rfl fun _ _ => congrArg₂ (· * ·) (congrArg x0 (eq_ix2 _)) (congrArg x2 (eq_ix2 _)))

include hseg

theorem column (e : Fin 250000) : val_main_v3 x1 (ix2 e (0 : Fin 1)) = BitVec.ofNat 32 (seg e).val :=
  (val_main_v3_apply x1 _).trans ((congrArg x1 (eq_ix1 _)).trans (hseg e))

theorem wrapped (e : Fin 250000) : val_main_v23 x1 (ix2 e (0 : Fin 1)) = BitVec.ofNat 32 (seg e).val := by
  rw [val_main_v23_apply, show idx_main_v23 (ix2 e (0 : Fin 1)) = ix1 e from eq_ix1 _, val_main_v22_apply, val_main_v19_apply,
    val_main_v18_apply, val_main_c_apply, hseg e, not_neg, select_zero]

theorem count_apply (b : Fin 16) : val_main_v4 x1 (ix2 b (0 : Fin 1)) = Net.cnt seg b :=
  (scatter_seg scatter_S16x1_S250000x1_S250000x1_1_0_0_1 rfl rfl rfl rfl _ (fun _ => Ideal.ofBits_zero_f32) _ seg
    (column x1 seg hseg) (by norm_num) _ b 0).trans (Finset.sum_congr rfl fun _ _ => Ideal.ofBits_one_f32)

theorem mean_apply (b : Fin 16) (c : Fin 64) :
    val_main_v9 x0 x1 x2 (ix2 b c) = Net.mean seg (fun i c => val_main_v0 x0 x2 (ix2 i c)) b c := by
  rw [val_main_v9_apply, val_main_v8_apply, show idx_main_v8 (ix2 b c) = ix2 b (0 : Fin 1) from eq_ix2 _,
    count_apply x1 seg hseg,
    show val_main_v7 x0 x1 x2 (ix2 b c) = Net.segSum seg (fun i c => val_main_v0 x0 x2 (ix2 i c)) b c from
    scatter_seg scatter_S16x64_S250000x1_S250000x64_1_0_0_1 rfl rfl rfl rfl _ (fun _ => Ideal.ofBits_zero_f32) _ seg
      (column x1 seg hseg) (by norm_num) _ b c]
  rfl

theorem var_apply (b : Fin 16) (c : Fin 64) :
    val_main_v17 x0 x1 x2 (ix2 b c) = Net.var seg (fun i c => val_main_v0 x0 x2 (ix2 i c)) b c := by
  rw [val_main_v17_apply, val_main_v15_apply, val_main_v16_apply, val_main_v14_apply,
    show idx_main_v14 (ix2 b c) = ix2 b (0 : Fin 1) from eq_ix2 _, count_apply x1 seg hseg, mean_apply x0 x1 x2 seg hseg,
    show val_main_v13 x0 x1 x2 (ix2 b c)
      = Net.segSum seg (fun i c => val_main_v0 x0 x2 (ix2 i c) * val_main_v0 x0 x2 (ix2 i c)) b c from
    scatter_seg scatter_S16x64_S250000x1_S250000x64_1_0_0_1 rfl rfl rfl rfl _ (fun _ => Ideal.ofBits_zero_f32) _ seg
      (column x1 seg hseg) (by norm_num) _ b c]
  rfl

theorem layer1 (i : Fin 250000) (c : Fin 64) :
    val_main_v37 x0 x1 x2 (ix2 i c)
      = Net.norm seg (Net.lin (fun i k => x0 (ix2 i k)) (fun k c => x2 (ix2 k c))) i c := by
  rw [← show (fun i c => val_main_v0 x0 x2 (ix2 i c)) = _ from funext₂ (product_apply x0 x2), val_main_v37_apply,
    val_main_v36_apply, val_main_v25_apply, val_main_v35_apply, val_main_v34_apply, val_main_call0_v0_apply,
    val_main_call0_cst_apply, val_main_v33_apply, val_main_cst_6_apply,
    show val_main_v24 x0 x1 x2 (ix2 i c) = _ from
      (gather_seg gather_S16x64_S250000x1_S250000x64_1_0_n_n_0_1_164 rfl rfl rfl rfl rfl _ _ seg (wrapped x1 seg hseg)
        (by norm_num) i c).trans (mean_apply x0 x1 x2 seg hseg (seg i) c),
    show val_main_v32 x0 x1 x2 (ix2 i c) = _ from
      (gather_seg gather_S16x64_S250000x1_S250000x64_1_0_n_n_0_1_164 rfl rfl rfl rfl rfl _ _ seg (wrapped x1 seg hseg)
        (by norm_num) i c).trans (var_apply x0 x1 x2 seg hseg (seg i) c)]
  simp only [Ideal.maximumf_def, Ideal.mulf_def, Ideal.subf_def, Ideal.addf_def, Ideal.hostUnary_rsqrt_def,
    Ideal.ofBits_def, Ideal.ofBits_zero_f32]
  rfl

end Cert.ReferenceIdeal.Layer1
-- ==== Proof.LibIdealReal.lean ====
import Idealize.ShloMosaic.Lib.IdealHost

namespace Cert.LibIdealReal

open Idealize.ShloMosaic

theorem ofBits_one : Ideal.ofBits .f32 0x3F800000#32 = 1 := Ideal.ofBits_one_f32

end Cert.LibIdealReal
-- ==== Proof.Ref.Layer2.lean ====
import proofs.«429425_j21053929685331_2_alg».proof.Proof.RefStages
import proofs.«429425_j21053929685331_2_alg».proof.Proof.Net
import proofs.«429425_j21053929685331_2_alg».proof.Proof.LibScatterGather2
import proofs.«429425_j21053929685331_2_alg».proof.Proof.LibIdealReal
import Idealize.ShloMosaic.PureOps.Ideal.Laws
import Idealize.ShloMosaic.Lib.ValueIdx

namespace Cert.ReferenceIdeal.Layer2

open Cert.ReferenceIdeal Cert.ReferenceIdeal.Read Cert.LibScatterGather2 Idealize.ShloMosaic Idealize.ShloMosaic.ValueIdx

variable (x0 : (⟨S250000x3, .f32⟩ : BufTy).Contents (Elt Ideal)) (x1 : (⟨S250000, .i32⟩ : BufTy).Contents (Elt Ideal))
  (x2 : (⟨S3x64, .f32⟩ : BufTy).Contents (Elt Ideal)) (x3 : (⟨S64x128, .f32⟩ : BufTy).Contents (Elt Ideal))
  (seg : Fin 250000 → Fin 16) (hseg : ∀ i : Fin 250000, x1 (ix1 i) = BitVec.ofNat 32 (seg i).val)

theorem product_apply (i : Fin 250000) (c : Fin 128) :
    val_main_v38 x0 x1 x2 x3 (ix2 i c)
      = Net.lin (fun i k => val_main_v37 x0 x1 x2 (ix2 i k)) (fun k c => x3 (ix2 k c)) i c :=
  (val_main_v38_apply x0 x1 x2 x3 _).trans (Finset.sum_congr rfl fun _ _ =>
    congrArg₂ (· * ·) (congrArg (val_main_v37 x0 x1 x2) (eq_ix2 _)) (congrArg x3 (eq_ix2 _)))

include hseg

theorem column (e : Fin 250000) : val_main_v41 x1 (ix2 e (0 : Fin 1)) = BitVec.ofNat 32 (seg e).val :=
  (val_main_v41_apply x1 _).trans ((congrArg x1 (eq_ix1 _)).trans (hseg e))

theorem wrapped (e : Fin 250000) : val_main_v61 x1 (ix2 e (0 : Fin 1)) = BitVec.ofNat 32 (seg e).val := by
  rw [val_main_v61_apply, show idx_main_v61 (ix2 e (0 : Fin 1)) = ix1 e from eq_ix1 _, val_main_v60_apply, val_main_v57_apply,
    val_main_v56_apply, val_main_c_11_apply, hseg e, not_neg, select_zero]

theorem count_apply (b : Fin 16) : val_main_v42 x1 (ix2 b (0 : Fin 1)) = Net.cnt seg b :=
  (scatter_seg scatter_S16x1_S250000x1_S250000x1_1_0_0_1 rfl rfl rfl rfl _ (fun _ => Ideal.ofBits_zero_f32) _ seg
    (column x1 seg hseg) (by norm_num) _ b 0).trans (Finset.sum_congr rfl fun _ _ => LibIdealReal.ofBits_one)

theorem mean_apply (b : Fin 16) (c : Fin 128) :
    val_main_v47 x0 x1 x2 x3 (ix2 b c)
      = Net.mean seg (fun i c => val_main_v38 x0 x1 x2 x3 (ix2 i c)) b c := by
  rw [val_main_v47_apply, val_main_v46_apply, show idx_main_v46 (ix2 b c) = ix2 b (0 : Fin 1) from eq_ix2 _,
    count_apply x1 seg hseg,
    show val_main_v45 x0 x1 x2 x3 (ix2 b c)
      = Net.segSum seg (fun i c => val_main_v38 x0 x1 x2 x3 (ix2 i c)) b c from
    scatter_seg scatter_S16x128_S250000x1_S250000x128_1_0_0_1 rfl rfl rfl rfl _ (fun _ => Ideal.ofBits_zero_f32) _ seg
      (column x1 seg hseg) (by norm_num) _ b c]
  rfl

theorem var_apply (b : Fin 16) (c : Fin 128) :
    val_main_v55 x0 x1 x2 x3 (ix2 b c)
      = Net.var seg (fun i c => val_main_v38 x0 x1 x2 x3 (ix2 i c)) b c := by
  rw [val_main_v55_apply, val_main_v53_apply, val_main_v54_apply, val_main_v52_apply,
    show idx_main_v52 (ix2 b c) = ix2 b (0 : Fin 1) from eq_ix2 _, count_apply x1 seg hseg, mean_apply x0 x1 x2 x3 seg hseg,
    show val_main_v51 x0 x1 x2 x3 (ix2 b c) = Net.segSum seg (fun i c => val_main_v38 x0 x1 x2 x3 (ix2 i c)
      * val_main_v38 x0 x1 x2 x3 (ix2 i c)) b c from
    scatter_seg scatter_S16x128_S250000x1_S250000x128_1_0_0_1 rfl rfl rfl rfl _ (fun _ => Ideal.ofBits_zero_f32) _ seg
      (column x1 seg hseg) (by norm_num) _ b c]
  rfl

theorem layer2 (i : Fin 250000) (c : Fin 128) :
    val_main_v75 x0 x1 x2 x3 (ix2 i c)
      = Net.norm seg (Net.lin (fun i k => val_main_v37 x0 x1 x2 (ix2 i k)) (fun k c => x3 (ix2 k c))) i c := by
  rw [← show (fun i c => val_main_v38 x0 x1 x2 x3 (ix2 i c)) = _ from
    funext₂ (product_apply x0 x1 x2 x3), val_main_v75_apply, val_main_v74_apply, val_main_v63_apply, val_main_v73_apply,
    val_main_v72_apply, val_main_v71_apply, val_main_cst_15_apply, val_main_call1_v0_apply, val_main_call1_cst_apply,
    show val_main_v62 x0 x1 x2 x3 (ix2 i c) = _ from
      (gather_seg gather_S16x128_S250000x1_S250000x128_1_0_n_n_0_1_1128 rfl rfl rfl rfl rfl _ _ seg (wrapped x1 seg hseg)
        (by norm_num) i c).trans (mean_apply x0 x1 x2 x3 seg hseg (seg i) c),
    show val_main_v70 x0 x1 x2 x3 (ix2 i c) = _ from
      (gather_seg gather_S16x128_S250000x1_S250000x128_1_0_n_n_0_1_1128 rfl rfl rfl rfl rfl _ _ seg (wrapped x1 seg hseg)
        (by norm_num) i c).trans (var_apply x0 x1 x2 x3 seg hseg (seg i) c)]
  simp only [Ideal.maximumf_def, Ideal.mulf_def, Ideal.subf_def, Ideal.addf_def, Ideal.hostUnary_rsqrt_def,
    Ideal.ofBits_def, Ideal.ofBits_zero_f32]
  rfl

end Cert.ReferenceIdeal.Layer2
-- ==== Proof.Ref.Layer3.lean ====
import proofs.«429425_j21053929685331_2_alg».proof.Proof.RefStages
import proofs.«429425_j21053929685331_2_alg».proof.Proof.Net
import proofs.«429425_j21053929685331_2_alg».proof.Proof.LibScatterGather2
import Idealize.ShloMosaic.Lib.IdealHost

namespace Cert.ReferenceIdeal.Layer3

open Cert.ReferenceIdeal Cert.ReferenceIdeal.Read Cert.LibScatterGather2 Idealize.ShloMosaic Idealize.ShloMosaic.ValueIdx

variable (x0 : (⟨S250000x3, .f32⟩ : BufTy).Contents (Elt Ideal)) (x1 : (⟨S250000, .i32⟩ : BufTy).Contents (Elt Ideal))
  (x2 : (⟨S3x64, .f32⟩ : BufTy).Contents (Elt Ideal)) (x3 : (⟨S64x128, .f32⟩ : BufTy).Contents (Elt Ideal))
  (x4 : (⟨S128x1024, .f32⟩ : BufTy).Contents (Elt Ideal)) (seg : Fin 250000 → Fin 16)
  (hseg : ∀ i : Fin 250000, x1 (ix1 i) = BitVec.ofNat 32 (seg i).val)

theorem product_apply (i : Fin 250000) (c : Fin 1024) :
    val_main_v76 x0 x1 x2 x3 x4 (ix2 i c)
      = Net.lin (fun i k => val_main_v75 x0 x1 x2 x3 (ix2 i k)) (fun k c => x4 (ix2 k c)) i c :=
  (val_main_v76_apply x0 x1 x2 x3 x4 _).trans (Finset.sum_congr rfl fun _ _ =>
    congrArg₂ (· * ·) (congrArg (val_main_v75 x0 x1 x2 x3) (eq_ix2 _)) (congrArg x4 (eq_ix2 _)))

include hseg

theorem column (e : Fin 250000) : val_main_v79 x1 (ix2 e (0 : Fin 1)) = BitVec.ofNat 32 (seg e).val :=
  (val_main_v79_apply x1 _).trans ((congrArg x1 (eq_ix1 _)).trans (hseg e))

theorem wrapped (e : Fin 250000) : val_main_v99 x1 (ix2 e (0 : Fin 1)) = BitVec.ofNat 32 (seg e).val := by
  rw [val_main_v99_apply, show idx_main_v99 (ix2 e (0 : Fin 1)) = ix1 e from eq_ix1 _, val_main_v98_apply, val_main_v95_apply,
    val_main_v94_apply, val_main_c_20_apply, hseg e, not_neg, select_zero]

theorem count_apply (b : Fin 16) : val_main_v80 x1 (ix2 b (0 : Fin 1)) = Net.cnt seg b :=
  (scatter_seg scatter_S16x1_S250000x1_S250000x1_1_0_0_1 rfl rfl rfl rfl _ (fun _ => Ideal.ofBits_zero_f32) _ seg
    (column x1 seg hseg) (by norm_num) _ b 0).trans (Finset.sum_congr rfl fun _ _ => Ideal.ofBits_one_f32)

theorem mean_apply (b : Fin 16) (c : Fin 1024) :
    val_main_v85 x0 x1 x2 x3 x4 (ix2 b c) = Net.mean seg (fun i c => val_main_v76 x0 x1 x2 x3 x4 (ix2 i c)) b c := by
  rw [val_main_v85_apply, val_main_v84_apply, show idx_main_v84 (ix2 b c) = ix2 b (0 : Fin 1) from eq_ix2 _,
    count_apply x1 seg hseg,
    show val_main_v83 x0 x1 x2 x3 x4 (ix2 b c) = Net.segSum seg (fun i c => val_main_v76 x0 x1 x2 x3 x4 (ix2 i c)) b c from
    scatter_seg scatter_S16x1024_S250000x1_S250000x1024_1_0_0_1 rfl rfl rfl rfl _ (fun _ => Ideal.ofBits_zero_f32) _ seg
      (column x1 seg hseg) (by norm_num) _ b c]
  rfl

theorem var_apply (b : Fin 16) (c : Fin 1024) :
    val_main_v93 x0 x1 x2 x3 x4 (ix2 b c) = Net.var seg (fun i c => val_main_v76 x0 x1 x2 x3 x4 (ix2 i c)) b c := by
  rw [val_main_v93_apply, val_main_v91_apply, val_main_v92_apply, val_main_v90_apply,
    show idx_main_v90 (ix2 b c) = ix2 b (0 : Fin 1) from eq_ix2 _, count_apply x1 seg hseg, mean_apply x0 x1 x2 x3 x4 seg hseg,
    show val_main_v89 x0 x1 x2 x3 x4 (ix2 b c)
      = Net.segSum seg (fun i c => val_main_v76 x0 x1 x2 x3 x4 (ix2 i c) * val_main_v76 x0 x1 x2 x3 x4 (ix2 i c)) b c from
    scatter_seg scatter_S16x1024_S250000x1_S250000x1024_1_0_0_1 rfl rfl rfl rfl _ (fun _ => Ideal.ofBits_zero_f32) _ seg
      (column x1 seg hseg) (by norm_num) _ b c]
  rfl

theorem layer3 (i : Fin 250000) (c : Fin 1024) :
    val_main_v113 x0 x1 x2 x3 x4 (ix2 i c)
      = Net.norm seg (Net.lin (fun i k => val_main_v75 x0 x1 x2 x3 (ix2 i k)) (fun k c => x4 (ix2 k c))) i c := by
  rw [← show (fun i c => val_main_v76 x0 x1 x2 x3 x4 (ix2 i c)) = _ from funext₂ (product_apply x0 x1 x2 x3 x4),
    val_main_v113_apply, val_main_v112_apply, val_main_v101_apply, val_main_v111_apply, val_main_v110_apply,
    val_main_v109_apply, val_main_cst_24_apply, val_main_call2_v0_apply, val_main_call2_cst_apply,
    show val_main_v100 x0 x1 x2 x3 x4 (ix2 i c) = _ from
      (gather_seg gather_S16x1024_S250000x1_S250000x1024_1_0_n_n_0_1_11024 rfl rfl rfl rfl rfl _ _ seg
        (wrapped x1 seg hseg) (by norm_num) i c).trans (mean_apply x0 x1 x2 x3 x4 seg hseg (seg i) c),
    show val_main_v108 x0 x1 x2 x3 x4 (ix2 i c) = _ from
      (gather_seg gather_S16x1024_S250000x1_S250000x1024_1_0_n_n_0_1_11024 rfl rfl rfl rfl rfl _ _ seg
        (wrapped x1 seg hseg) (by norm_num) i c).trans (var_apply x0 x1 x2 x3 x4 seg hseg (seg i) c)]
  simp only [Ideal.maximumf_def, Ideal.mulf_def, Ideal.subf_def, Ideal.addf_def, Ideal.hostUnary_rsqrt_def,
    Ideal.ofBits_def, Ideal.ofBits_zero_f32]
  rfl

theorem pooled (b : Fin 16) (c : Fin 1024) :
    val_main_v122 x0 x1 x2 x3 x4 (ix2 b c) = Net.pool seg (fun i c => val_main_v113 x0 x1 x2 x3 x4 (ix2 i c)) b c := by
  rw [val_main_v122_apply, val_main_v121_apply, show idx_main_v121 (ix2 b c) = ix2 b (0 : Fin 1) from eq_ix2 _,
    show val_main_v117 x1 (ix2 b (0 : Fin 1)) = _ from count_apply x1 seg hseg b,
    show val_main_v120 x0 x1 x2 x3 x4 (ix2 b c) = Net.segSum seg (fun i c => val_main_v113 x0 x1 x2 x3 x4 (ix2 i c)) b c from
      scatter_seg scatter_S16x1024_S250000x1_S250000x1024_1_0_0_1 rfl rfl rfl rfl _ (fun _ => Ideal.ofBits_zero_f32) _ seg
    (column x1 seg hseg) (by norm_num) _ b c]
  rfl

end Cert.ReferenceIdeal.Layer3
-- ==== Proof.Ref.Head.lean ====
import proofs.«429425_j21053929685331_2_alg».proof.Proof.RefStages
import proofs.«429425_j21053929685331_2_alg».proof.Proof.Net
import proofs.«429425_j21053929685331_2_alg».proof.Proof.LibScatterGather2
import Idealize.ShloMosaic.Lib.ValueIdx
import Idealize.ShloMosaic.PureOps.Ideal.Laws

noncomputable section

namespace Cert.ReferenceIdeal.Head

open Cert.ReferenceIdeal Cert.ReferenceIdeal.Read Cert.LibScatterGather2 Idealize.ShloMosaic Idealize.ShloMosaic.ValueIdx
open scoped BigOperators

variable (x0 : (⟨S250000x3, .f32⟩ : BufTy).Contents (Elt Ideal)) (x1 : (⟨S250000, .i32⟩ : BufTy).Contents (Elt Ideal))
  (x2 : (⟨S3x64, .f32⟩ : BufTy).Contents (Elt Ideal)) (x3 : (⟨S64x128, .f32⟩ : BufTy).Contents (Elt Ideal))
  (x4 : (⟨S128x1024, .f32⟩ : BufTy).Contents (Elt Ideal)) (x5 : (⟨S1024x512, .f32⟩ : BufTy).Contents (Elt Ideal))
  (x6 : (⟨S512x256, .f32⟩ : BufTy).Contents (Elt Ideal)) (x7 : (⟨S256x9, .f32⟩ : BufTy).Contents (Elt Ideal))
  (x8 : (⟨S9, .f32⟩ : BufTy).Contents (Elt Ideal))

theorem firstLayer (b : Fin 16) (c : Fin 512) :
    val_main_v132 (F := Ideal) x0 x1 x2 x3 x4 x5 (ix2 b c)
      = Net.selfNorm (∑ k : Fin 1024, val_main_v122 (F := Ideal) x0 x1 x2 x3 x4 (ix2 b k) * x5 (ix2 k c)) := by
  rw [val_main_v132_apply, val_main_v131_apply, val_main_v127_apply, val_main_v130_apply, val_main_v129_apply,
    val_main_v126_apply, val_main_v124_apply, val_main_v125_apply, val_main_v128_apply, val_main_cst_28_apply,
    val_main_call3_v0_apply, val_main_call3_cst_apply, val_main_v123_apply]
  simp only [show ∀ k, lidx_main_v123 (ix2 b c) k = ix2 b k from fun _ => eq_ix2 _,
    show ∀ k, ridx_main_v123 (ix2 b c) k = ix2 k c from fun _ => eq_ix2 _, Ideal.maximumf_def, Ideal.mulf_def, Ideal.subf_def, Ideal.addf_def,
    Ideal.hostUnary_rsqrt_def, Ideal.ofBits_def, Ideal.ofBits_zero_f32, Net.selfNorm, Net.eps]

theorem secondLayer (b : Fin 16) (c : Fin 256) :
    val_main_v142 (F := Ideal) x0 x1 x2 x3 x4 x5 x6 (ix2 b c)
      = Net.selfNorm (∑ k : Fin 512, val_main_v132 (F := Ideal) x0 x1 x2 x3 x4 x5 (ix2 b k) * x6 (ix2 k c)) := by
  rw [val_main_v142_apply, val_main_v141_apply, val_main_v137_apply, val_main_v140_apply, val_main_v139_apply,
    val_main_v136_apply, val_main_v134_apply, val_main_v135_apply, val_main_v138_apply, val_main_cst_29_apply,
    val_main_call4_v0_apply, val_main_call4_cst_apply, val_main_v133_apply]
  simp only [show ∀ k, lidx_main_v133 (ix2 b c) k = ix2 b k from fun _ => eq_ix2 _,
    show ∀ k, ridx_main_v133 (ix2 b c) k = ix2 k c from fun _ => eq_ix2 _, Ideal.maximumf_def, Ideal.mulf_def, Ideal.subf_def, Ideal.addf_def,
    Ideal.hostUnary_rsqrt_def, Ideal.ofBits_def, Ideal.ofBits_zero_f32, Net.selfNorm, Net.eps]

theorem biasRow (b : Fin 16) (j : Fin 9) : val_main_v145 (F := Ideal) x8 (ix2 b j) = x8 (ix1 j) :=
  (val_main_v145_apply x8 _).trans ((val_main_v144_apply x8 _).trans (congrArg x8 (eq_ix1 _)))

theorem diagonalBit : ∀ j : Fin 9,
    IntOp.cmpi .eq (IntOp.addi (BitVec.ofNat 32 ((0 * 9 + j.val) / 3)) 0#32) (BitVec.ofNat 32 ((0 * 9 + j.val) % 3))
      = if j.val / 3 = j.val % 3 then 1#1 else 0#1 := by decide

theorem identityRow (b : Fin 16) (j : Fin 9) : val_main_v154 (F := Ideal) (ix2 b j) = Net.eye9 j := by
  rw [val_main_v154_apply, val_main_v153_apply, val_main_v152_apply, val_main_v151_apply, val_main_v150_apply,
    val_main_v147_apply, val_main_v148_apply, val_main_v149_apply, val_main_c_30_apply]
  show FloatOps.uitofp (F := Ideal) .f32 (IntOp.cmpi .eq (IntOp.addi (BitVec.ofNat 32 ((0 * 9 + j.val) / 3)) 0#32)
    (BitVec.ofNat 32 ((0 * 9 + j.val) % 3))) = Net.eye9 j
  rw [diagonalBit j]
  unfold Net.eye9
  by_cases h : j.val / 3 = j.val % 3
  · rw [if_pos h, if_pos h]
    show (((1#1 : BitVec 1).toNat : ℝ) : EReal) = 1
    simp
  · rw [if_neg h, if_neg h]
    show (((0#1 : BitVec 1).toNat : ℝ) : EReal) = 0
    simp

theorem headRow (b : Fin 16) (j : Fin 9) :
    val_main_v155 (F := Ideal) x0 x1 x2 x3 x4 x5 x6 x7 x8 (ix2 b j)
      = Net.head (fun k c => x5 (ix2 k c)) (fun k c => x6 (ix2 k c)) (fun k c => x7 (ix2 k c)) (fun j => x8 (ix1 j))
          (fun k => val_main_v122 (F := Ideal) x0 x1 x2 x3 x4 (ix2 b k)) j := by
  rw [val_main_v155_apply, val_main_v146_apply, val_main_v143_apply, biasRow, identityRow]
  simp only [show ∀ k, lidx_main_v143 (ix2 b j) k = ix2 b k from fun _ => eq_ix2 _,
    show ∀ k, ridx_main_v143 (ix2 b j) k = ix2 k j from fun _ => eq_ix2 _, secondLayer, firstLayer, Ideal.addf_def, Net.head]

variable (seg : Fin 250000 → Fin 16) (hseg : ∀ i : Fin 250000, x1 (ix1 i) = BitVec.ofNat 32 (seg i).val)
include hseg

theorem result (i : Fin 250000) (j : Fin 9) :
    val_main_v162 (F := Ideal) x0 x1 x2 x3 x4 x5 x6 x7 x8 (ix2 i j)
      = Net.head (fun k c => x5 (ix2 k c)) (fun k c => x6 (ix2 k c)) (fun k c => x7 (ix2 k c)) (fun j => x8 (ix1 j))
          (fun k => val_main_v122 (F := Ideal) x0 x1 x2 x3 x4 (ix2 (seg i) k)) j :=
  (gather_seg gather_S16x9_S250000x1_S250000x9_1_0_n_n_0_1_19 rfl rfl rfl rfl rfl _ _ seg (fun e => by
    rw [val_main_v161_apply, show idx_main_v161 (ix2 e (0 : Fin 1)) = ix1 e from eq_ix1 _, val_main_v160_apply,
      val_main_v157_apply, val_main_v156_apply, val_main_c_31_apply, hseg e, not_neg, select_zero])
    (by norm_num) i j).trans (headRow x0 x1 x2 x3 x4 x5 x6 x7 x8 (seg i) j)

end Cert.ReferenceIdeal.Head

end
-- ==== Proof.Ref.Chain.lean ====
import proofs.«429425_j21053929685331_2_alg».proof.Proof.Ref.Layer1
import proofs.«429425_j21053929685331_2_alg».proof.Proof.Ref.Layer2
import proofs.«429425_j21053929685331_2_alg».proof.Proof.Ref.Layer3
import proofs.«429425_j21053929685331_2_alg».proof.Proof.Ref.Head
import proofs.«429425_j21053929685331_2_alg».proof.Proof.Net
import proofs.«429425_j21053929685331_2_alg».proof.Proof.NetLayers
import proofs.«429425_j21053929685331_2_alg».proof.Proof.NetLaws

noncomputable section

namespace Cert.ReferenceIdeal.Chain

open Cert.ReferenceIdeal Cert.ReferenceIdeal.Read Idealize.ShloMosaic Idealize.ShloMosaic.ValueIdx

/-- Each stage is the network's function of the stage before it: substitute innermost last. -/
theorem result (x0 : (⟨S250000x3, .f32⟩ : BufTy).Contents (Elt Ideal)) (x1 : (⟨S250000, .i32⟩ : BufTy).Contents (Elt Ideal))
    (x2 : (⟨S3x64, .f32⟩ : BufTy).Contents (Elt Ideal)) (x3 : (⟨S64x128, .f32⟩ : BufTy).Contents (Elt Ideal))
    (x4 : (⟨S128x1024, .f32⟩ : BufTy).Contents (Elt Ideal)) (x5 : (⟨S1024x512, .f32⟩ : BufTy).Contents (Elt Ideal))
    (x6 : (⟨S512x256, .f32⟩ : BufTy).Contents (Elt Ideal)) (x7 : (⟨S256x9, .f32⟩ : BufTy).Contents (Elt Ideal))
    (x8 : (⟨S9, .f32⟩ : BufTy).Contents (Elt Ideal)) (seg : Fin 250000 → Fin 16)
    (hseg : ∀ i : Fin 250000, x1 (ix1 i) = BitVec.ofNat 32 (seg i).val) (i : Fin 250000) (j : Fin 9) :
    val_main_v162 (F := Ideal) x0 x1 x2 x3 x4 x5 x6 x7 x8 (ix2 i j)
      = Net.output seg (fun i k => x0 (ix2 i k)) (fun k c => x2 (ix2 k c)) (fun k c => x3 (ix2 k c)) (fun k c => x4 (ix2 k c))
          (fun k c => x5 (ix2 k c)) (fun k c => x6 (ix2 k c)) (fun k c => x7 (ix2 k c)) (fun j => x8 (ix1 j)) i j := by
  rw [Head.result x0 x1 x2 x3 x4 x5 x6 x7 x8 seg hseg, funext (Layer3.pooled x0 x1 x2 x3 x4 seg hseg (seg i)),
    funext₂ (Layer3.layer3 x0 x1 x2 x3 x4 seg hseg), funext₂ (Layer2.layer2 x0 x1 x2 x3 seg hseg),
    funext₂ (Layer1.layer1 x0 x1 x2 seg hseg)]
  rfl

end Cert.ReferenceIdeal.Chain

end
-- ==== Proof.PreFacts.lean ====
import proofs.«429425_j21053929685331_2_alg».proof.Proof.Gen.Pre_finite_inputs
import Idealize.ShloMosaic.Lib.ReduceAll
import Idealize.ShloMosaic.Lib.StableHlo.Predicate
import Idealize.ShloMosaic.Lib.ValueIdx
import Mathlib.Data.EReal.Basic

noncomputable section

namespace Cert.PreFacts

open Idealize.ShloMosaic Idealize.ShloMosaic.ValueIdx Cert.Pre_finite_inputs

instance scalarIdxSubsingleton : Subsingleton S_.Idx := ⟨fun a b => funext fun d => d.elim0⟩

theorem inf_pattern : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change BitVec.ofBool (decide (max x (-x) < Ideal.ofBits .f32 0x7F800000#32)) = 1#1 at h
  rw [inf_pattern, StableHlo.Predicate.ofBool_eq_one_iff, decide_eq_true_eq] at h
  induction x using EReal.rec with
  | bot => simp at h
  | coe r => exact ⟨r, rfl⟩
  | top => simp at h

theorem all_real {s : Shape} {axes : List (Fin s.rank)}
    (hb : S_.BroadcastsInDim s (![] : Fin 0 → Fin s.rank)) (hr : s.ReducesTo axes S_) (h0 : 0 < S_.numel)
    (a : FVec Ideal s .f32)
    (e : Host.reduce IntOp.andi
          (cmpf .olt (Host.absf a) (broadcastInDim s ![] hb (constant (F := Ideal) S_ .f32 0x7F800000#32)))
          (constantI S_ 1 1#1) hr h0 ix0 = 1#1) :
    ∀ i, ∃ r : ℝ, a i = (r : EReal) := fun i =>
  real_of_abs_lt_inf (a i) (Host.reduce_andi_all _ _ hr h0 ix0 e i)

theorem toNat_lt_16 (w : BitVec 32) (h0 : IntOp.cmpi .sge w 0#32 = 1#1) (h16 : IntOp.cmpi .slt w 16#32 = 1#1) :
    w.toNat < 16 := by
  unfold IntOp.cmpi at h0 h16
  rw [StableHlo.Predicate.ofBool_eq_one_iff] at h0 h16
  simp only [BitVec.slt, BitVec.sle, decide_eq_true_eq] at h0 h16
  have hlt := w.isLt
  have z : (0#32 : BitVec 32).toInt = 0 := by decide
  have s : (16#32 : BitVec 32).toInt = 16 := by decide
  rw [z] at h0
  rw [s] at h16
  rw [BitVec.toInt_eq_toNat_cond] at h0 h16
  split at h0 <;> omega

theorem all_below_16 {n : Nat} {axes : List (Fin (⟨1, ![n]⟩ : Shape).rank)}
    (hb : S_.BroadcastsInDim (⟨1, ![n]⟩ : Shape) (![] : Fin 0 → Fin (⟨1, ![n]⟩ : Shape).rank))
    (hr : (⟨1, ![n]⟩ : Shape).ReducesTo axes S_) (h0 : 0 < S_.numel)
    (a : IVec (⟨1, ![n]⟩ : Shape) 32)
    (e : Host.reduce IntOp.andi
          (andi (cmpi .sge a (broadcastInDim (⟨1, ![n]⟩ : Shape) ![] hb (constantI S_ 32 0#32)))
                (cmpi .slt a (broadcastInDim (⟨1, ![n]⟩ : Shape) ![] hb (constantI S_ 32 16#32))))
          (constantI S_ 1 1#1) hr h0 ix0 = 1#1) :
    ∀ i : Fin n, (a (ix1 i)).toNat < 16 := fun i => by
  have b := Host.reduce_andi_all _ _ hr h0 ix0 e (ix1 i)
  obtain ⟨b0, b16⟩ := IntOp.andi_eq_one.1 b
  exact toNat_lt_16 _ b0 b16

variable [Cert.Pre_finite_inputs.Facts]

theorem decode
    {a0 : FVec Ideal S250000x3 .f32} {a1 : IVec S250000 32} {a2 : FVec Ideal S3x64 .f32}
    {a3 : FVec Ideal S64x128 .f32} {a4 : FVec Ideal S128x1024 .f32} {a5 : FVec Ideal S1024x512 .f32}
    {a6 : FVec Ideal S512x256 .f32} {a7 : FVec Ideal S256x9 .f32} {a8 : FVec Ideal S9 .f32}
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧
    ∃ seg : Fin 250000 → Fin 16, ∀ i : Fin 250000, a1 (ix1 i) = BitVec.ofNat 32 (seg i).val := by
  have e := congrFun h ix0
  dsimp only [Cert.Pre_finite_inputs.fn, Cert.Pre_finite_inputs.fn_part1, Cert.Pre_finite_inputs.fn_part2] at e

  obtain ⟨e, e1⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  have hseg := all_below_16 _ _ _ a1 e1
  refine ⟨all_real _ _ _ a0 e0, all_real _ _ _ a2 e2, all_real _ _ _ a3 e3, all_real _ _ _ a4 e4,
    all_real _ _ _ a5 e5, all_real _ _ _ a6 e6, all_real _ _ _ a7 e7, all_real _ _ _ a8 e8,
    fun i => ⟨(a1 (ix1 i)).toNat, hseg i⟩, fun i => ?_⟩
  show a1 (ix1 i) = BitVec.ofNat 32 (a1 (ix1 i)).toNat
  apply BitVec.eq_of_toNat_eq
  rw [BitVec.toNat_ofNat]
  exact (Nat.mod_eq_of_lt (a1 (ix1 i)).isLt).symm

end Cert.PreFacts

end
-- ==== Proof.lean ====
import proofs.«429425_j21053929685331_2_alg».proof.Defs
import proofs.«429425_j21053929685331_2_alg».proof.Proof.Gen.Kernel
import proofs.«429425_j21053929685331_2_alg».proof.Proof.Gen.KernelIdeal
import proofs.«429425_j21053929685331_2_alg».proof.Proof.Gen.ReferenceIdeal
import proofs.«429425_j21053929685331_2_alg».proof.Proof.Gen.Pre_finite_inputs
import proofs.«429425_j21053929685331_2_alg».proof.Proof.K.Run
import proofs.«429425_j21053929685331_2_alg».proof.Proof.KI.Run
import proofs.«429425_j21053929685331_2_alg».proof.Proof.KI.Chain
import proofs.«429425_j21053929685331_2_alg».proof.Proof.RefRun
import proofs.«429425_j21053929685331_2_alg».proof.Proof.Ref.Chain
import proofs.«429425_j21053929685331_2_alg».proof.Proof.PreFacts
import Idealize.ShloMosaic.Lib.ValueIdx
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m g m' g' hpre hagree
  refine ⟨fun c => Cert.KernelIdeal.Fold.W16 m g c (Proc.devRef .tc Cert.KernelIdeal.main_v83),
    Cert.KernelIdeal.Run.run_result (F := Ideal) m g, ?_⟩
  refine (θ_run Cert.ReferenceIdeal.defs _ _).mono (fun r h c => ⟨(h c).1.trans ?_, (h c).2⟩)
    (Cert.ReferenceIdeal.RefRun.run (F := Ideal) m' g')
  obtain ⟨h0, h2, h3, h4, h5, h6, h7, h8, seg, hseg⟩ := Cert.PreFacts.decode (hpre c)
  obtain ⟨e0, e1, e2, e3, e4, e5, e6, e7, e8⟩ := hagree c
  rw [e0, e1, e2, e3, e4, e5, e6, e7, e8]
  funext x
  obtain ⟨i, j, rfl⟩ : ∃ (i : Fin 250000) (j : Fin 9), x = ix2 i j := ⟨x 0, x 1, eq_ix2 x⟩
  exact (Cert.ReferenceIdeal.Chain.result _ _ _ _ _ _ _ _ _ seg hseg i j).trans
    (Cert.KernelIdeal.Chain.result m g c h0 h2 h3 h4 h5 h6 h7 h8 seg hseg i j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
